-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v68)) (v1 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_v71) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_v130) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048 : Shape := ⟨2, ![32, 2048]⟩
abbrev S1024x1024 : Shape := ⟨2, ![1024, 1024]⟩
abbrev S2x32x65536 : Shape := ⟨3, ![2, 32, 65536]⟩
abbrev S198x128 : Shape := ⟨2, ![198, 128]⟩
abbrev S128 : Shape := ⟨1, ![128]⟩
abbrev S198x64 : Shape := ⟨2, ![198, 64]⟩
abbrev S64 : Shape := ⟨1, ![64]⟩
abbrev S384x128 : Shape := ⟨2, ![384, 128]⟩
abbrev S384x64 : Shape := ⟨2, ![384, 64]⟩
abbrev S_ : Shape := ⟨0, ![]⟩

class Facts : Prop where
  bcast_S_S32x2048 : S_.BroadcastsInDim S32x2048 (![] : Fin 0 → Fin S32x2048.rank)
  reducesTo_S32x2048_S_d0_1 : S32x2048.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S2x32x65536 : S_.BroadcastsInDim S2x32x65536 (![] : Fin 0 → Fin S2x32x65536.rank)
  reducesTo_S2x32x65536_S_d0_1_2 : S2x32x65536.ReducesTo [0, 1, 2] S_
  bcast_S_S198x128 : S_.BroadcastsInDim S198x128 (![] : Fin 0 → Fin S198x128.rank)
  reducesTo_S198x128_S_d0_1 : S198x128.ReducesTo [0, 1] S_
  bcast_S_S128 : S_.BroadcastsInDim S128 (![] : Fin 0 → Fin S128.rank)
  reducesTo_S128_S_d0 : S128.ReducesTo [0] S_
  bcast_S_S198x64 : S_.BroadcastsInDim S198x64 (![] : Fin 0 → Fin S198x64.rank)
  reducesTo_S198x64_S_d0_1 : S198x64.ReducesTo [0, 1] S_
  bcast_S_S64 : S_.BroadcastsInDim S64 (![] : Fin 0 → Fin S64.rank)
  reducesTo_S64_S_d0 : S64.ReducesTo [0] S_
  bcast_S_S384x128 : S_.BroadcastsInDim S384x128 (![] : Fin 0 → Fin S384x128.rank)
  reducesTo_S384x128_S_d0_1 : S384x128.ReducesTo [0, 1] S_
  bcast_S_S384x64 : S_.BroadcastsInDim S384x64 (![] : Fin 0 → Fin S384x64.rank)
  reducesTo_S384x64_S_d0_1 : S384x64.ReducesTo [0, 1] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg7 : FVec F S384x128 .f32) (main_arg8 : FVec F S128 .f32) (main_arg9 : FVec F S384x64 .f32) (main_arg10 : FVec F S64 .f32) (main_v33 : IVec S_ 1) : IVec S_ 1 :=
  let main_v34 : FVec F S384x128 .f32 := Host.absf main_arg7
  let main_cst_12 : FVec F S_ .f32 := constant S_ .f32 0x7F800000#32
  let main_v35 : FVec F S384x128 .f32 := broadcastInDim S384x128 ![] bcast_S_S384x128 main_cst_12
  let main_v36 : IVec S384x128 1 := cmpf .olt main_v34 main_v35
  let main_c_13 : IVec S_ 1 := constantI S_ 1 1#1
  let main_v37 : IVec S_ 1 := (fun x v => Host.reduce IntOp.andi x v reducesTo_S384x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S384x64 .f32 := Host.absf main_arg9
  let main_cst_16 : FVec F S_ .f32 := constant S_ .f32 0x7F800000#32
  let main_v45 : FVec F S384x64 .f32 := broadcastInDim S384x64 ![] bcast_S_S384x64 main_cst_16
  let main_v46 : IVec S384x64 1 := cmpf .olt main_v44 main_v45
  let main_c_17 : IVec S_ 1 := constantI S_ 1 1#1
  let main_v47 : IVec S_ 1 := (fun x v => Host.reduce IntOp.andi x v reducesTo_S384x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg4 : FVec F S128 .f32) (main_arg5 : FVec F S198x64 .f32) (main_arg6 : FVec F S64 .f32) (main_arg7 : FVec F S384x128 .f32) (main_arg8 : FVec F S128 .f32) (main_arg9 : FVec F S384x64 .f32) (main_arg10 : FVec F S64 .f32) (main_v13 : IVec S_ 1) (main_v16 : IVec S198x128 1) : IVec S_ 1 :=
  let main_c_5 : IVec S_ 1 := constantI S_ 1 1#1
  let main_v17 : IVec S_ 1 := (fun x v => Host.reduce IntOp.andi x v reducesTo_S198x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S198x64 .f32 := Host.absf main_arg5
  let main_cst_8 : FVec F S_ .f32 := constant S_ .f32 0x7F800000#32
  let main_v25 : FVec F S198x64 .f32 := broadcastInDim S198x64 ![] bcast_S_S198x64 main_cst_8
  let main_v26 : IVec S198x64 1 := cmpf .olt main_v24 main_v25
  let main_c_9 : IVec S_ 1 := constantI S_ 1 1#1
  let main_v27 : IVec S_ 1 := (fun x v => Host.reduce IntOp.andi x v reducesTo_S198x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S32x2048 .f32) (main_arg1 : FVec F S1024x1024 .f32) (main_arg2 : FVec F S2x32x65536 .f32) (main_arg3 : FVec F S198x128 .f32) (main_arg4 : FVec F S128 .f32) (main_arg5 : FVec F S198x64 .f32) (main_arg6 : FVec F S64 .f32) (main_arg7 : FVec F S384x128 .f32) (main_arg8 : FVec F S128 .f32) (main_arg9 : FVec F S384x64 .f32) (main_arg10 : FVec F S64 .f32) : IVec S_ 1 :=
  let main_v0 : FVec F S32x2048 .f32 := Host.absf main_arg0
  let main_cst : FVec F S_ .f32 := constant S_ .f32 0x7F800000#32
  let main_v1 : FVec F S32x2048 .f32 := broadcastInDim S32x2048 ![] bcast_S_S32x2048 main_cst
  let main_v2 : IVec S32x2048 1 := cmpf .olt main_v0 main_v1
  let main_c : IVec S_ 1 := constantI S_ 1 1#1
  let main_v3 : IVec S_ 1 := (fun x v => Host.reduce IntOp.andi x v reducesTo_S32x2048_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S2x32x65536 .f32 := Host.absf main_arg2
  let main_cst_2 : FVec F S_ .f32 := constant S_ .f32 0x7F800000#32
  let main_v10 : FVec F S2x32x65536 .f32 := broadcastInDim S2x32x65536 ![] bcast_S_S2x32x65536 main_cst_2
  let main_v11 : IVec S2x32x65536 1 := cmpf .olt main_v9 main_v10
  let main_c_3 : IVec S_ 1 := constantI S_ 1 1#1
  let main_v12 : IVec S_ 1 := (fun x v => Host.reduce IntOp.andi x v reducesTo_S2x32x65536_S_d0_1_2 h_S_) main_v11 main_c_3
  let main_v13 : IVec S_ 1 := andi main_v8 main_v12
  let main_v14 : FVec F S198x128 .f32 := Host.absf main_arg3
  let main_cst_4 : FVec F S_ .f32 := constant S_ .f32 0x7F800000#32
  let main_v15 : FVec F S198x128 .f32 := broadcastInDim S198x128 ![] bcast_S_S198x128 main_cst_4
  let main_v16 : IVec S198x128 1 := cmpf .olt main_v14 main_v15
  fn_part1 (F := F) main_arg4 main_arg5 main_arg6 main_arg7 main_arg8 main_arg9 main_arg10 main_v13 main_v16
-- ==== Kernel.lean ====
abbrev S32x2048 : Shape := ⟨2, ![32, 2048]⟩
abbrev S1024x1024 : Shape := ⟨2, ![1024, 1024]⟩
abbrev S2x32x65536 : Shape := ⟨3, ![2, 32, 65536]⟩
abbrev S198x128 : Shape := ⟨2, ![198, 128]⟩
abbrev S128 : Shape := ⟨1, ![128]⟩
abbrev S198x64 : Shape := ⟨2, ![198, 64]⟩
abbrev S64 : Shape := ⟨1, ![64]⟩
abbrev S384x128 : Shape := ⟨2, ![384, 128]⟩
abbrev S384x64 : Shape := ⟨2, ![384, 64]⟩
abbrev S32x1024x2 : Shape := ⟨3, ![32, 1024, 2]⟩
abbrev S1x32x65536 : Shape := ⟨3, ![1, 32, 65536]⟩
abbrev S32x65536 : Shape := ⟨2, ![32, 65536]⟩
abbrev S32x1024x64 : Shape := ⟨3, ![32, 1024, 64]⟩
abbrev S32768x2 : Shape := ⟨2, ![32768, 2]⟩
abbrev S32768x64 : Shape := ⟨2, ![32768, 64]⟩
abbrev S32x128x2 : Shape := ⟨3, ![32, 128, 2]⟩
abbrev S32x128x64 : Shape := ⟨3, ![32, 128, 64]⟩
abbrev S4096x2 : Shape := ⟨2, ![4096, 2]⟩
abbrev S4096x64 : Shape := ⟨2, ![4096, 64]⟩
abbrev S128x32x2 : Shape := ⟨3, ![128, 32, 2]⟩
abbrev S128x32x64 : Shape := ⟨3, ![128, 32, 64]⟩
abbrev S66x3x128 : Shape := ⟨3, ![66, 3, 128]⟩
abbrev S3x66x128 : Shape := ⟨3, ![3, 66, 128]⟩
abbrev S3x2x128 : Shape := ⟨3, ![3, 2, 128]⟩
abbrev S3x64x128 : Shape := ⟨3, ![3, 64, 128]⟩
abbrev S66x3x64 : Shape := ⟨3, ![66, 3, 64]⟩
abbrev S3x66x64 : Shape := ⟨3, ![3, 66, 64]⟩
abbrev S3x2x64 : Shape := ⟨3, ![3, 2, 64]⟩
abbrev S3x64x64 : Shape := ⟨3, ![3, 64, 64]⟩
abbrev S128x3x128 : Shape := ⟨3, ![128, 3, 128]⟩
abbrev S3x128x128 : Shape := ⟨3, ![3, 128, 128]⟩
abbrev S128x3x64 : Shape := ⟨3, ![128, 3, 64]⟩
abbrev S3x128x64 : Shape := ⟨3, ![3, 128, 64]⟩
abbrev S1x128 : Shape := ⟨2, ![1, 128]⟩
abbrev S1x64 : Shape := ⟨2, ![1, 64]⟩
abbrev S1024x64 : Shape := ⟨2, ![1024, 64]⟩
abbrev S1024x2048 : Shape := ⟨2, ![1024, 2048]⟩
abbrev S256x1024 : Shape := ⟨2, ![256, 1024]⟩
abbrev S256x64 : Shape := ⟨2, ![256, 64]⟩
abbrev S256x2048 : Shape := ⟨2, ![256, 2048]⟩
abbrev S1x2x128 : Shape := ⟨3, ![1, 2, 128]⟩
abbrev S2x128 : Shape := ⟨2, ![2, 128]⟩
abbrev S4096x128 : Shape := ⟨2, ![4096, 128]⟩
abbrev S1x64x128 : Shape := ⟨3, ![1, 64, 128]⟩
abbrev S64x128 : Shape := ⟨2, ![64, 128]⟩
abbrev S1x2x64 : Shape := ⟨3, ![1, 2, 64]⟩
abbrev S2x64 : Shape := ⟨2, ![2, 64]⟩
abbrev S1x64x64 : Shape := ⟨3, ![1, 64, 64]⟩
abbrev S64x64 : Shape := ⟨2, ![64, 64]⟩

abbrev nBuf : Space → Nat
  | .hbm => 95
  | .vmem => 168
  | .smem => 0
  | _ => 0

abbrev vmemTy0_0 (i : Nat) : BufTy := match i % 128 with
  | 0 => ⟨S32x128x2, .f32⟩
  | 1 => ⟨S32x128x2, .f32⟩
  | 2 => ⟨S32x128x64, .f32⟩
  | 3 => ⟨S32x128x64, .f32⟩
  | 4 => ⟨S32x128x64, .f32⟩
  | 5 => ⟨S32x128x64, .f32⟩
  | 6 => ⟨S4096x2, .bf16⟩
  | 7 => ⟨S4096x2, .bf16⟩
  | 8 => ⟨S4096x64, .bf16⟩
  | 9 => ⟨S4096x64, .bf16⟩
  | 10 => ⟨S4096x64, .f32⟩
  | 11 => ⟨S4096x64, .f32⟩
  | 12 => ⟨S4096x64, .bf16⟩
  | 13 => ⟨S4096x64, .bf16⟩
  | 14 => ⟨S4096x64, .f32⟩
  | 15 => ⟨S4096x64, .f32⟩
  | 16 => ⟨S256x1024, .bf16⟩
  | 17 => ⟨S256x1024, .bf16⟩
  | 18 => ⟨S1024x64, .bf16⟩
  | 19 => ⟨S1024x2048, .bf16⟩
  | 20 => ⟨S256x64, .bf16⟩
  | 21 => ⟨S256x64, .bf16⟩
  | 22 => ⟨S256x2048, .bf16⟩
  | 23 => ⟨S256x2048, .bf16⟩
  | 24 => ⟨S256x1024, .bf16⟩
  | 25 => ⟨S256x1024, .bf16⟩
  | 26 => ⟨S256x64, .bf16⟩
  | 27 => ⟨S256x64, .bf16⟩
  | 28 => ⟨S1024x64, .bf16⟩
  | 29 => ⟨S256x2048, .bf16⟩
  | 30 => ⟨S256x2048, .bf16⟩
  | 31 => ⟨S1024x2048, .bf16⟩
  | 32 => ⟨S256x64, .bf16⟩
  | 33 => ⟨S256x64, .bf16⟩
  | 34 => ⟨S256x2048, .bf16⟩
  | 35 => ⟨S256x2048, .bf16⟩
  | 36 => ⟨S4096x2, .bf16⟩
  | 37 => ⟨S4096x2, .bf16⟩
  | 38 => ⟨S4096x2, .bf16⟩
  | 39 => ⟨S4096x2, .bf16⟩
  | 40 => ⟨S4096x2, .bf16⟩
  | 41 => ⟨S4096x2, .bf16⟩
  | 42 => ⟨S4096x64, .bf16⟩
  | 43 => ⟨S4096x64, .bf16⟩
  | 44 => ⟨S4096x64, .bf16⟩
  | 45 => ⟨S4096x64, .bf16⟩
  | 46 => ⟨S4096x64, .bf16⟩
  | 47 => ⟨S4096x64, .bf16⟩
  | 48 => ⟨S4096x64, .f32⟩
  | 49 => ⟨S4096x64, .f32⟩
  | 50 => ⟨S3x2x128, .bf16⟩
  | 51 => ⟨S3x64x128, .bf16⟩
  | 52 => ⟨S1x128, .f32⟩
  | 53 => ⟨S4096x64, .bf16⟩
  | 54 => ⟨S4096x64, .bf16⟩
  | 55 => ⟨S4096x64, .f32⟩
  | 56 => ⟨S4096x64, .f32⟩
  | 57 => ⟨S256x1024, .bf16⟩
  | 58 => ⟨S256x1024, .bf16⟩
  | 59 => ⟨S1024x2048, .bf16⟩
  | 60 => ⟨S256x2048, .bf16⟩
  | 61 => ⟨S256x2048, .bf16⟩
  | 62 => ⟨S256x1024, .bf16⟩
  | 63 => ⟨S256x1024, .bf16⟩
  | 64 => ⟨S256x2048, .bf16⟩
  | 65 => ⟨S256x2048, .bf16⟩
  | 66 => ⟨S1024x2048, .bf16⟩
  | 67 => ⟨S256x2048, .bf16⟩
  | 68 => ⟨S256x2048, .bf16⟩
  | 69 => ⟨S4096x2, .bf16⟩
  | 70 => ⟨S4096x2, .bf16⟩
  | 71 => ⟨S4096x2, .bf16⟩
  | 72 => ⟨S4096x2, .bf16⟩
  | 73 => ⟨S4096x2, .bf16⟩
  | 74 => ⟨S4096x2, .bf16⟩
  | 75 => ⟨S4096x64, .bf16⟩
  | 76 => ⟨S4096x64, .bf16⟩
  | 77 => ⟨S4096x64, .bf16⟩
  | 78 => ⟨S4096x64, .bf16⟩
  | 79 => ⟨S4096x64, .bf16⟩
  | 80 => ⟨S4096x64, .bf16⟩
  | 81 => ⟨S4096x64, .f32⟩
  | 82 => ⟨S4096x64, .f32⟩
  | 83 => ⟨S4096x64, .f32⟩
  | 84 => ⟨S4096x64, .f32⟩
  | 85 => ⟨S3x2x64, .bf16⟩
  | 86 => ⟨S3x64x64, .bf16⟩
  | 87 => ⟨S1x64, .f32⟩
  | 88 => ⟨S32x128x64, .f32⟩
  | 89 => ⟨S32x128x64, .f32⟩
  | 90 => ⟨S4096x64, .bf16⟩
  | 91 => ⟨S4096x64, .bf16⟩
  | 92 => ⟨S256x1024, .bf16⟩
  | 93 => ⟨S256x1024, .bf16⟩
  | 94 => ⟨S1024x2048, .bf16⟩
  | 95 => ⟨S1024x2048, .bf16⟩
  | 96 => ⟨S256x2048, .bf16⟩
  | 97 => ⟨S256x2048, .bf16⟩
  | 98 => ⟨S256x2048, .bf16⟩
  | 99 => ⟨S256x2048, .bf16⟩
  | 100 => ⟨S256x1024, .bf16⟩
  | 101 => ⟨S256x1024, .bf16⟩
  | 102 => ⟨S256x2048, .bf16⟩
  | 103 => ⟨S256x2048, .bf16⟩
  | 104 => ⟨S1024x2048, .bf16⟩
  | 105 => ⟨S256x2048, .bf16⟩
  | 106 => ⟨S256x2048, .bf16⟩
  | 107 => ⟨S1024x2048, .bf16⟩
  | 108 => ⟨S256x2048, .bf16⟩
  | 109 => ⟨S256x2048, .bf16⟩
  | 110 => ⟨S256x2048, .bf16⟩
  | 111 => ⟨S256x2048, .bf16⟩
  | 112 => ⟨S4096x64, .bf16⟩
  | 113 => ⟨S4096x64, .bf16⟩
  | 114 => ⟨S4096x64, .bf16⟩
  | 115 => ⟨S4096x64, .bf16⟩
  | 116 => ⟨S4096x64, .bf16⟩
  | 117 => ⟨S4096x64, .bf16⟩
  | 118 => ⟨S4096x64, .bf16⟩
  | 119 => ⟨S4096x64, .bf16⟩
  | 120 => ⟨S4096x64, .bf16⟩
  | 121 => ⟨S4096x64, .bf16⟩
  | 122 => ⟨S4096x64, .bf16⟩
  | 123 => ⟨S4096x64, .bf16⟩
  | 124 => ⟨S4096x64, .f32⟩
  | 125 => ⟨S4096x64, .f32⟩
  | 126 => ⟨S3x64x128, .bf16⟩
  | 127 => ⟨S3x64x128, .bf16⟩
  | _ => ⟨S32x2048, .f32⟩

abbrev vmemTy0_1 (i : Nat) : BufTy := match i % 128 with
  | 0 => ⟨S1x128, .f32⟩
  | 1 => ⟨S4096x64, .bf16⟩
  | 2 => ⟨S4096x64, .bf16⟩
  | 3 => ⟨S4096x64, .f32⟩
  | 4 => ⟨S4096x64, .f32⟩
  | 5 => ⟨S256x1024, .bf16⟩
  | 6 => ⟨S256x1024, .bf16⟩
  | 7 => ⟨S1024x2048, .bf16⟩
  | 8 => ⟨S256x2048, .bf16⟩
  | 9 => ⟨S256x2048, .bf16⟩
  | 10 => ⟨S256x1024, .bf16⟩
  | 11 => ⟨S256x1024, .bf16⟩
  | 12 => ⟨S256x2048, .bf16⟩
  | 13 => ⟨S256x2048, .bf16⟩
  | 14 => ⟨S1024x2048, .bf16⟩
  | 15 => ⟨S256x2048, .bf16⟩
  | 16 => ⟨S256x2048, .bf16⟩
  | 17 => ⟨S4096x64, .bf16⟩
  | 18 => ⟨S4096x64, .bf16⟩
  | 19 => ⟨S4096x64, .bf16⟩
  | 20 => ⟨S4096x64, .bf16⟩
  | 21 => ⟨S4096x64, .bf16⟩
  | 22 => ⟨S4096x64, .bf16⟩
  | 23 => ⟨S4096x64, .bf16⟩
  | 24 => ⟨S4096x64, .bf16⟩
  | 25 => ⟨S4096x64, .bf16⟩
  | 26 => ⟨S4096x64, .bf16⟩
  | 27 => ⟨S4096x64, .bf16⟩
  | 28 => ⟨S4096x64, .bf16⟩
  | 29 => ⟨S4096x64, .f32⟩
  | 30 => ⟨S4096x64, .f32⟩
  | 31 => ⟨S4096x64, .f32⟩
  | 32 => ⟨S4096x64, .f32⟩
  | 33 => ⟨S3x64x64, .bf16⟩
  | 34 => ⟨S3x64x64, .bf16⟩
  | 35 => ⟨S1x64, .f32⟩
  | 36 => ⟨S32x128x64, .f32⟩
  | 37 => ⟨S32x128x64, .f32⟩
  | 38 => ⟨S4096x64, .bf16⟩
  | 39 => ⟨S4096x64, .bf16⟩
  | _ => ⟨S32x2048, .f32⟩

abbrev vmemTy (i : Nat) : BufTy := match i / 128 with
  | 0 => vmemTy0_0 i
  | 1 => vmemTy0_1 i
  | _ => ⟨S32x2048, .f32⟩

abbrev bufTy : (tb : Table) → Fin (tcTables nBuf tb) → BufTy
  | .hbm, ⟨0, _⟩ => ⟨S32x2048, .f32⟩
  | .hbm, ⟨1, _⟩ => ⟨S1024x1024, .f32⟩
  | .hbm, ⟨2, _⟩ => ⟨S2x32x65536, .f32⟩
  | .hbm, ⟨3, _⟩ => ⟨S198x128, .f32⟩
  | .hbm, ⟨4, _⟩ => ⟨S128, .f32⟩
  | .hbm, ⟨5, _⟩ => ⟨S198x64, .f32⟩
  | .hbm, ⟨6, _⟩ => ⟨S64, .f32⟩
  | .hbm, ⟨7, _⟩ => ⟨S384x128, .f32⟩
  | .hbm, ⟨8, _⟩ => ⟨S128, .f32⟩
  | .hbm, ⟨9, _⟩ => ⟨S384x64, .f32⟩
  | .hbm, ⟨10, _⟩ => ⟨S64, .f32⟩
  | .hbm, ⟨11, _⟩ => ⟨S1024x1024, .bf16⟩
  | .hbm, ⟨12, _⟩ => ⟨S32x1024x2, .f32⟩
  | .hbm, ⟨13, _⟩ => ⟨S1x32x65536, .f32⟩
  | .hbm, ⟨14, _⟩ => ⟨S32x65536, .f32⟩
  | .hbm, ⟨15, _⟩ => ⟨S32x1024x64, .f32⟩
  | .hbm, ⟨16, _⟩ => ⟨S1x32x65536, .f32⟩
  | .hbm, ⟨17, _⟩ => ⟨S32x65536, .f32⟩
  | .hbm, ⟨18, _⟩ => ⟨S32x1024x64, .f32⟩
  | .hbm, ⟨19, _⟩ => ⟨S32768x2, .bf16⟩
  | .hbm, ⟨20, _⟩ => ⟨S32768x64, .bf16⟩
  | .hbm, ⟨21, _⟩ => ⟨S32768x64, .f32⟩
  | .hbm, ⟨22, _⟩ => ⟨S32768x64, .bf16⟩
  | .hbm, ⟨23, _⟩ => ⟨S32768x64, .f32⟩
  | .hbm, ⟨24, _⟩ => ⟨S66x3x128, .f32⟩
  | .hbm, ⟨25, _⟩ => ⟨S3x66x128, .f32⟩
  | .hbm, ⟨26, _⟩ => ⟨S3x66x128, .bf16⟩
  | .hbm, ⟨27, _⟩ => ⟨S3x2x128, .bf16⟩
  | .hbm, ⟨28, _⟩ => ⟨S3x64x128, .bf16⟩
  | .hbm, ⟨29, _⟩ => ⟨S66x3x64, .f32⟩
  | .hbm, ⟨30, _⟩ => ⟨S3x66x64, .f32⟩
  | .hbm, ⟨31, _⟩ => ⟨S3x66x64, .bf16⟩
  | .hbm, ⟨32, _⟩ => ⟨S3x2x64, .bf16⟩
  | .hbm, ⟨33, _⟩ => ⟨S3x64x64, .bf16⟩
  | .hbm, ⟨34, _⟩ => ⟨S128x3x128, .f32⟩
  | .hbm, ⟨35, _⟩ => ⟨S3x128x128, .f32⟩
  | .hbm, ⟨36, _⟩ => ⟨S3x128x128, .bf16⟩
  | .hbm, ⟨37, _⟩ => ⟨S3x64x128, .bf16⟩
  | .hbm, ⟨38, _⟩ => ⟨S3x64x128, .bf16⟩
  | .hbm, ⟨39, _⟩ => ⟨S128x3x64, .f32⟩
  | .hbm, ⟨40, _⟩ => ⟨S3x128x64, .f32⟩
  | .hbm, ⟨41, _⟩ => ⟨S3x128x64, .bf16⟩
  | .hbm, ⟨42, _⟩ => ⟨S3x64x64, .bf16⟩
  | .hbm, ⟨43, _⟩ => ⟨S3x64x64, .bf16⟩
  | .hbm, ⟨44, _⟩ => ⟨S1x128, .f32⟩
  | .hbm, ⟨45, _⟩ => ⟨S1x64, .f32⟩
  | .hbm, ⟨46, _⟩ => ⟨S1x128, .f32⟩
  | .hbm, ⟨47, _⟩ => ⟨S1x64, .f32⟩
  | .hbm, ⟨48, _⟩ => ⟨S1024x64, .bf16⟩
  | .hbm, ⟨49, _⟩ => ⟨S1024x2048, .bf16⟩
  | .hbm, ⟨50, _⟩ => ⟨S1024x64, .bf16⟩
  | .hbm, ⟨51, _⟩ => ⟨S1024x2048, .bf16⟩
  | .hbm, ⟨52, _⟩ => ⟨S1024x64, .bf16⟩
  | .hbm, ⟨53, _⟩ => ⟨S1024x2048, .bf16⟩
  | .hbm, ⟨54, _⟩ => ⟨S32768x2, .bf16⟩
  | .hbm, ⟨55, _⟩ => ⟨S32768x2, .bf16⟩
  | .hbm, ⟨56, _⟩ => ⟨S32768x64, .bf16⟩
  | .hbm, ⟨57, _⟩ => ⟨S32768x64, .bf16⟩
  | .hbm, ⟨58, _⟩ => ⟨S32768x64, .bf16⟩
  | .hbm, ⟨59, _⟩ => ⟨S32768x64, .f32⟩
  | .hbm, ⟨60, _⟩ => ⟨S1024x2048, .bf16⟩
  | .hbm, ⟨61, _⟩ => ⟨S1024x2048, .bf16⟩
  | .hbm, ⟨62, _⟩ => ⟨S1024x2048, .bf16⟩
  | .hbm, ⟨63, _⟩ => ⟨S32768x2, .bf16⟩
  | .hbm, ⟨64, _⟩ => ⟨S32768x2, .bf16⟩
  | .hbm, ⟨65, _⟩ => ⟨S32768x64, .bf16⟩
  | .hbm, ⟨66, _⟩ => ⟨S32768x64, .bf16⟩
  | .hbm, ⟨67, _⟩ => ⟨S32x1024x64, .f32⟩
  | .hbm, ⟨68, _⟩ => ⟨S32768x64, .bf16⟩
  | .hbm, ⟨69, _⟩ => ⟨S1024x2048, .bf16⟩
  | .hbm, ⟨70, _⟩ => ⟨S1024x2048, .bf16⟩
  | .hbm, ⟨71, _⟩ => ⟨S1024x2048, .bf16⟩
  | .hbm, ⟨72, _⟩ => ⟨S1024x2048, .bf16⟩
  | .hbm, ⟨73, _⟩ => ⟨S1024x2048, .bf16⟩
  | .hbm, ⟨74, _⟩ => ⟨S1024x2048, .bf16⟩
  | .hbm, ⟨75, _⟩ => ⟨S32768x64, .bf16⟩
  | .hbm, ⟨76, _⟩ => ⟨S32768x64, .bf16⟩
  | .hbm, ⟨77, _⟩ => ⟨S32768x64, .bf16⟩
  | .hbm, ⟨78, _⟩ => ⟨S32768x64, .bf16⟩
  | .hbm, ⟨79, _⟩ => ⟨S32768x64, .bf16⟩
  | .hbm, ⟨80, _⟩ => ⟨S32768x64, .f32⟩
  | .hbm, ⟨81, _⟩ => ⟨S1024x2048, .bf16⟩
  | .hbm, ⟨82, _⟩ => ⟨S1024x2048, .bf16⟩
  | .hbm, ⟨83, _⟩ => ⟨S1024x2048, .bf16⟩
  | .hbm, ⟨84, _⟩ => ⟨S32768x64, .bf16⟩
  | .hbm, ⟨85, _⟩ => ⟨S32768x64, .bf16⟩
  | .hbm, ⟨86, _⟩ => ⟨S32768x64, .bf16⟩
  | .hbm, ⟨87, _⟩ => ⟨S32768x64, .bf16⟩
  | .hbm, ⟨88, _⟩ => ⟨S32x1024x64, .f32⟩
  | .hbm, ⟨89, _⟩ => ⟨S32768x64, .bf16⟩
  | .hbm, ⟨90, _⟩ => ⟨S32x65536, .f32⟩
  | .hbm, ⟨91, _⟩ => ⟨S32x65536, .f32⟩
  | .hbm, ⟨92, _⟩ => ⟨S1x32x65536, .f32⟩
  | .hbm, ⟨93, _⟩ => ⟨S1x32x65536, .f32⟩
  | .hbm, ⟨94, _⟩ => ⟨S2x32x65536, .f32⟩
  | .local _ .vmem, ⟨i, _⟩ => vmemTy i
  | _, _ => ⟨S32x2048, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 168 → Bool
  | ⟨i, _⟩ => dmaSemScopedAt i

abbrev sig : RefSig :=
  ofTc nBuf bufTy 0 168 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev main_v8_2 : Ref sig .tc := ⟨.hbm, 21, rfl⟩
abbrev main_v8_3 : Ref sig .tc := ⟨.hbm, 22, rfl⟩
abbrev main_v8_4 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35_0 : Ref sig .tc := ⟨.hbm, 50, rfl⟩
abbrev main_v35_1 : Ref sig .tc := ⟨.hbm, 51, rfl⟩
abbrev main_v36_0 : Ref sig .tc := ⟨.hbm, 52, rfl⟩
abbrev main_v36_1 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41_0 : Ref sig .tc := ⟨.hbm, 58, rfl⟩
abbrev main_v41_1 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49_0 : Ref sig .tc := ⟨.hbm, 67, rfl⟩
abbrev main_v49_1 : Ref sig .tc := ⟨.hbm, 68, rfl⟩
abbrev main_v50 : Ref sig .tc := ⟨.hbm, 69, rfl⟩
abbrev main_v51 : Ref sig .tc := ⟨.hbm, 70, rfl⟩
abbrev main_v52_0 : Ref sig .tc := ⟨.hbm, 71, rfl⟩
abbrev main_v52_1 : Ref sig .tc := ⟨.hbm, 72, rfl⟩
abbrev main_v53_0 : Ref sig .tc := ⟨.hbm, 73, rfl⟩
abbrev main_v53_1 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58_0 : Ref sig .tc := ⟨.hbm, 79, rfl⟩
abbrev main_v58_1 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66_0 : Ref sig .tc := ⟨.hbm, 88, rfl⟩
abbrev main_v66_1 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg3_1 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg5_1 : Ref sig .tc := ⟨.vmem, 33, rfl⟩
abbrev cc2_stg6_0 : Ref sig .tc := ⟨.vmem, 34, rfl⟩
abbrev cc2_stg6_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg2_1 : Ref sig .tc := ⟨.vmem, 41, rfl⟩
abbrev cc3_stg3_0 : Ref sig .tc := ⟨.vmem, 42, rfl⟩
abbrev cc3_stg3_1 : Ref sig .tc := ⟨.vmem, 43, rfl⟩
abbrev cc3_stg4_0 : Ref sig .tc := ⟨.vmem, 44, rfl⟩
abbrev cc3_stg4_1 : Ref sig .tc := ⟨.vmem, 45, rfl⟩
abbrev cc3_stg5_0 : Ref sig .tc := ⟨.vmem, 46, rfl⟩
abbrev cc3_stg5_1 : Ref sig .tc := ⟨.vmem, 47, rfl⟩
abbrev cc3_stg6_0 : Ref sig .tc := ⟨.vmem, 48, rfl⟩
abbrev cc3_stg6_1 : Ref sig .tc := ⟨.vmem, 49, rfl⟩
abbrev cc3_stg7_0 : Ref sig .tc := ⟨.vmem, 50, rfl⟩
abbrev cc3_stg8_0 : Ref sig .tc := ⟨.vmem, 51, rfl⟩
abbrev cc3_stg9_0 : Ref sig .tc := ⟨.vmem, 52, rfl⟩
abbrev cc3_stg10_0 : Ref sig .tc := ⟨.vmem, 53, rfl⟩
abbrev cc3_stg10_1 : Ref sig .tc := ⟨.vmem, 54, rfl⟩
abbrev cc3_stg11_0 : Ref sig .tc := ⟨.vmem, 55, rfl⟩
abbrev cc3_stg11_1 : Ref sig .tc := ⟨.vmem, 56, rfl⟩
abbrev cc4_stg0_0 : Ref sig .tc := ⟨.vmem, 57, rfl⟩
abbrev cc4_stg0_1 : Ref sig .tc := ⟨.vmem, 58, rfl⟩
abbrev cc4_stg1_0 : Ref sig .tc := ⟨.vmem, 59, rfl⟩
abbrev cc4_stg2_0 : Ref sig .tc := ⟨.vmem, 60, rfl⟩
abbrev cc4_stg2_1 : Ref sig .tc := ⟨.vmem, 61, rfl⟩
abbrev cc5_stg0_0 : Ref sig .tc := ⟨.vmem, 62, rfl⟩
abbrev cc5_stg0_1 : Ref sig .tc := ⟨.vmem, 63, rfl⟩
abbrev cc5_stg1_0 : Ref sig .tc := ⟨.vmem, 64, rfl⟩
abbrev cc5_stg1_1 : Ref sig .tc := ⟨.vmem, 65, rfl⟩
abbrev cc5_stg2_0 : Ref sig .tc := ⟨.vmem, 66, rfl⟩
abbrev cc5_stg3_0 : Ref sig .tc := ⟨.vmem, 67, rfl⟩
abbrev cc5_stg3_1 : Ref sig .tc := ⟨.vmem, 68, rfl⟩
abbrev cc6_stg0_0 : Ref sig .tc := ⟨.vmem, 69, rfl⟩
abbrev cc6_stg0_1 : Ref sig .tc := ⟨.vmem, 70, rfl⟩
abbrev cc6_stg1_0 : Ref sig .tc := ⟨.vmem, 71, rfl⟩
abbrev cc6_stg1_1 : Ref sig .tc := ⟨.vmem, 72, rfl⟩
abbrev cc6_stg2_0 : Ref sig .tc := ⟨.vmem, 73, rfl⟩
abbrev cc6_stg2_1 : Ref sig .tc := ⟨.vmem, 74, rfl⟩
abbrev cc6_stg3_0 : Ref sig .tc := ⟨.vmem, 75, rfl⟩
abbrev cc6_stg3_1 : Ref sig .tc := ⟨.vmem, 76, rfl⟩
abbrev cc6_stg4_0 : Ref sig .tc := ⟨.vmem, 77, rfl⟩
abbrev cc6_stg4_1 : Ref sig .tc := ⟨.vmem, 78, rfl⟩
abbrev cc6_stg5_0 : Ref sig .tc := ⟨.vmem, 79, rfl⟩
abbrev cc6_stg5_1 : Ref sig .tc := ⟨.vmem, 80, rfl⟩
abbrev cc6_stg6_0 : Ref sig .tc := ⟨.vmem, 81, rfl⟩
abbrev cc6_stg6_1 : Ref sig .tc := ⟨.vmem, 82, rfl⟩
abbrev cc6_stg7_0 : Ref sig .tc := ⟨.vmem, 83, rfl⟩
abbrev cc6_stg7_1 : Ref sig .tc := ⟨.vmem, 84, rfl⟩
abbrev cc6_stg8_0 : Ref sig .tc := ⟨.vmem, 85, rfl⟩
abbrev cc6_stg9_0 : Ref sig .tc := ⟨.vmem, 86, rfl⟩
abbrev cc6_stg10_0 : Ref sig .tc := ⟨.vmem, 87, rfl⟩
abbrev cc6_stg11_0 : Ref sig .tc := ⟨.vmem, 88, rfl⟩
abbrev cc6_stg11_1 : Ref sig .tc := ⟨.vmem, 89, rfl⟩
abbrev cc6_stg12_0 : Ref sig .tc := ⟨.vmem, 90, rfl⟩
abbrev cc6_stg12_1 : Ref sig .tc := ⟨.vmem, 91, rfl⟩
abbrev cc7_stg0_0 : Ref sig .tc := ⟨.vmem, 92, rfl⟩
abbrev cc7_stg0_1 : Ref sig .tc := ⟨.vmem, 93, rfl⟩
abbrev cc7_stg1_0 : Ref sig .tc := ⟨.vmem, 94, rfl⟩
abbrev cc7_stg2_0 : Ref sig .tc := ⟨.vmem, 95, rfl⟩
abbrev cc7_stg3_0 : Ref sig .tc := ⟨.vmem, 96, rfl⟩
abbrev cc7_stg3_1 : Ref sig .tc := ⟨.vmem, 97, rfl⟩
abbrev cc7_stg4_0 : Ref sig .tc := ⟨.vmem, 98, rfl⟩
abbrev cc7_stg4_1 : Ref sig .tc := ⟨.vmem, 99, rfl⟩
abbrev cc8_stg0_0 : Ref sig .tc := ⟨.vmem, 100, rfl⟩
abbrev cc8_stg0_1 : Ref sig .tc := ⟨.vmem, 101, rfl⟩
abbrev cc8_stg1_0 : Ref sig .tc := ⟨.vmem, 102, rfl⟩
abbrev cc8_stg1_1 : Ref sig .tc := ⟨.vmem, 103, rfl⟩
abbrev cc8_stg2_0 : Ref sig .tc := ⟨.vmem, 104, rfl⟩
abbrev cc8_stg3_0 : Ref sig .tc := ⟨.vmem, 105, rfl⟩
abbrev cc8_stg3_1 : Ref sig .tc := ⟨.vmem, 106, rfl⟩
abbrev cc8_stg4_0 : Ref sig .tc := ⟨.vmem, 107, rfl⟩
abbrev cc8_stg5_0 : Ref sig .tc := ⟨.vmem, 108, rfl⟩
abbrev cc8_stg5_1 : Ref sig .tc := ⟨.vmem, 109, rfl⟩
abbrev cc8_stg6_0 : Ref sig .tc := ⟨.vmem, 110, rfl⟩
abbrev cc8_stg6_1 : Ref sig .tc := ⟨.vmem, 111, rfl⟩
abbrev cc9_stg0_0 : Ref sig .tc := ⟨.vmem, 112, rfl⟩
abbrev cc9_stg0_1 : Ref sig .tc := ⟨.vmem, 113, rfl⟩
abbrev cc9_stg1_0 : Ref sig .tc := ⟨.vmem, 114, rfl⟩
abbrev cc9_stg1_1 : Ref sig .tc := ⟨.vmem, 115, rfl⟩
abbrev cc9_stg2_0 : Ref sig .tc := ⟨.vmem, 116, rfl⟩
abbrev cc9_stg2_1 : Ref sig .tc := ⟨.vmem, 117, rfl⟩
abbrev cc9_stg3_0 : Ref sig .tc := ⟨.vmem, 118, rfl⟩
abbrev cc9_stg3_1 : Ref sig .tc := ⟨.vmem, 119, rfl⟩
abbrev cc9_stg4_0 : Ref sig .tc := ⟨.vmem, 120, rfl⟩
abbrev cc9_stg4_1 : Ref sig .tc := ⟨.vmem, 121, rfl⟩
abbrev cc9_stg5_0 : Ref sig .tc := ⟨.vmem, 122, rfl⟩
abbrev cc9_stg5_1 : Ref sig .tc := ⟨.vmem, 123, rfl⟩
abbrev cc9_stg6_0 : Ref sig .tc := ⟨.vmem, 124, rfl⟩
abbrev cc9_stg6_1 : Ref sig .tc := ⟨.vmem, 125, rfl⟩
abbrev cc9_stg7_0 : Ref sig .tc := ⟨.vmem, 126, rfl⟩
abbrev cc9_stg8_0 : Ref sig .tc := ⟨.vmem, 127, rfl⟩
abbrev cc9_stg9_0 : Ref sig .tc := ⟨.vmem, 128, rfl⟩
abbrev cc9_stg10_0 : Ref sig .tc := ⟨.vmem, 129, rfl⟩
abbrev cc9_stg10_1 : Ref sig .tc := ⟨.vmem, 130, rfl⟩
abbrev cc9_stg11_0 : Ref sig .tc := ⟨.vmem, 131, rfl⟩
abbrev cc9_stg11_1 : Ref sig .tc := ⟨.vmem, 132, rfl⟩
abbrev cc10_stg0_0 : Ref sig .tc := ⟨.vmem, 133, rfl⟩
abbrev cc10_stg0_1 : Ref sig .tc := ⟨.vmem, 134, rfl⟩
abbrev cc10_stg1_0 : Ref sig .tc := ⟨.vmem, 135, rfl⟩
abbrev cc10_stg2_0 : Ref sig .tc := ⟨.vmem, 136, rfl⟩
abbrev cc10_stg2_1 : Ref sig .tc := ⟨.vmem, 137, rfl⟩
abbrev cc11_stg0_0 : Ref sig .tc := ⟨.vmem, 138, rfl⟩
abbrev cc11_stg0_1 : Ref sig .tc := ⟨.vmem, 139, rfl⟩
abbrev cc11_stg1_0 : Ref sig .tc := ⟨.vmem, 140, rfl⟩
abbrev cc11_stg1_1 : Ref sig .tc := ⟨.vmem, 141, rfl⟩
abbrev cc11_stg2_0 : Ref sig .tc := ⟨.vmem, 142, rfl⟩
abbrev cc11_stg3_0 : Ref sig .tc := ⟨.vmem, 143, rfl⟩
abbrev cc11_stg3_1 : Ref sig .tc := ⟨.vmem, 144, rfl⟩
abbrev cc12_stg0_0 : Ref sig .tc := ⟨.vmem, 145, rfl⟩
abbrev cc12_stg0_1 : Ref sig .tc := ⟨.vmem, 146, rfl⟩
abbrev cc12_stg1_0 : Ref sig .tc := ⟨.vmem, 147, rfl⟩
abbrev cc12_stg1_1 : Ref sig .tc := ⟨.vmem, 148, rfl⟩
abbrev cc12_stg2_0 : Ref sig .tc := ⟨.vmem, 149, rfl⟩
abbrev cc12_stg2_1 : Ref sig .tc := ⟨.vmem, 150, rfl⟩
abbrev cc12_stg3_0 : Ref sig .tc := ⟨.vmem, 151, rfl⟩
abbrev cc12_stg3_1 : Ref sig .tc := ⟨.vmem, 152, rfl⟩
abbrev cc12_stg4_0 : Ref sig .tc := ⟨.vmem, 153, rfl⟩
abbrev cc12_stg4_1 : Ref sig .tc := ⟨.vmem, 154, rfl⟩
abbrev cc12_stg5_0 : Ref sig .tc := ⟨.vmem, 155, rfl⟩
abbrev cc12_stg5_1 : Ref sig .tc := ⟨.vmem, 156, rfl⟩
abbrev cc12_stg6_0 : Ref sig .tc := ⟨.vmem, 157, rfl⟩
abbrev cc12_stg6_1 : Ref sig .tc := ⟨.vmem, 158, rfl⟩
abbrev cc12_stg7_0 : Ref sig .tc := ⟨.vmem, 159, rfl⟩
abbrev cc12_stg7_1 : Ref sig .tc := ⟨.vmem, 160, rfl⟩
abbrev cc12_stg8_0 : Ref sig .tc := ⟨.vmem, 161, rfl⟩
abbrev cc12_stg9_0 : Ref sig .tc := ⟨.vmem, 162, rfl⟩
abbrev cc12_stg10_0 : Ref sig .tc := ⟨.vmem, 163, rfl⟩
abbrev cc12_stg11_0 : Ref sig .tc := ⟨.vmem, 164, rfl⟩
abbrev cc12_stg11_1 : Ref sig .tc := ⟨.vmem, 165, rfl⟩
abbrev cc12_stg12_0 : Ref sig .tc := ⟨.vmem, 166, rfl⟩
abbrev cc12_stg12_1 : Ref sig .tc := ⟨.vmem, 167, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem2_0 : DmaSem sig := 19
abbrev cc1_sem3_0 : DmaSem sig := 20
abbrev cc1_sem3_1 : DmaSem sig := 21
abbrev cc1_sem4_0 : DmaSem sig := 22
abbrev cc1_sem4_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem3_1 : DmaSem sig := 30
abbrev cc2_sem4_0 : DmaSem sig := 31
abbrev cc2_sem5_0 : DmaSem sig := 32
abbrev cc2_sem5_1 : DmaSem sig := 33
abbrev cc2_sem6_0 : DmaSem sig := 34
abbrev cc2_sem6_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem2_1 : DmaSem sig := 41
abbrev cc3_sem3_0 : DmaSem sig := 42
abbrev cc3_sem3_1 : DmaSem sig := 43
abbrev cc3_sem4_0 : DmaSem sig := 44
abbrev cc3_sem4_1 : DmaSem sig := 45
abbrev cc3_sem5_0 : DmaSem sig := 46
abbrev cc3_sem5_1 : DmaSem sig := 47
abbrev cc3_sem6_0 : DmaSem sig := 48
abbrev cc3_sem6_1 : DmaSem sig := 49
abbrev cc3_sem7_0 : DmaSem sig := 50
abbrev cc3_sem8_0 : DmaSem sig := 51
abbrev cc3_sem9_0 : DmaSem sig := 52
abbrev cc3_sem10_0 : DmaSem sig := 53
abbrev cc3_sem10_1 : DmaSem sig := 54
abbrev cc3_sem11_0 : DmaSem sig := 55
abbrev cc3_sem11_1 : DmaSem sig := 56
abbrev cc4_sem0_0 : DmaSem sig := 57
abbrev cc4_sem0_1 : DmaSem sig := 58
abbrev cc4_sem1_0 : DmaSem sig := 59
abbrev cc4_sem2_0 : DmaSem sig := 60
abbrev cc4_sem2_1 : DmaSem sig := 61
abbrev cc5_sem0_0 : DmaSem sig := 62
abbrev cc5_sem0_1 : DmaSem sig := 63
abbrev cc5_sem1_0 : DmaSem sig := 64
abbrev cc5_sem1_1 : DmaSem sig := 65
abbrev cc5_sem2_0 : DmaSem sig := 66
abbrev cc5_sem3_0 : DmaSem sig := 67
abbrev cc5_sem3_1 : DmaSem sig := 68
abbrev cc6_sem0_0 : DmaSem sig := 69
abbrev cc6_sem0_1 : DmaSem sig := 70
abbrev cc6_sem1_0 : DmaSem sig := 71
abbrev cc6_sem1_1 : DmaSem sig := 72
abbrev cc6_sem2_0 : DmaSem sig := 73
abbrev cc6_sem2_1 : DmaSem sig := 74
abbrev cc6_sem3_0 : DmaSem sig := 75
abbrev cc6_sem3_1 : DmaSem sig := 76
abbrev cc6_sem4_0 : DmaSem sig := 77
abbrev cc6_sem4_1 : DmaSem sig := 78
abbrev cc6_sem5_0 : DmaSem sig := 79
abbrev cc6_sem5_1 : DmaSem sig := 80
abbrev cc6_sem6_0 : DmaSem sig := 81
abbrev cc6_sem6_1 : DmaSem sig := 82
abbrev cc6_sem7_0 : DmaSem sig := 83
abbrev cc6_sem7_1 : DmaSem sig := 84
abbrev cc6_sem8_0 : DmaSem sig := 85
abbrev cc6_sem9_0 : DmaSem sig := 86
abbrev cc6_sem10_0 : DmaSem sig := 87
abbrev cc6_sem11_0 : DmaSem sig := 88
abbrev cc6_sem11_1 : DmaSem sig := 89
abbrev cc6_sem12_0 : DmaSem sig := 90
abbrev cc6_sem12_1 : DmaSem sig := 91
abbrev cc7_sem0_0 : DmaSem sig := 92
abbrev cc7_sem0_1 : DmaSem sig := 93
abbrev cc7_sem1_0 : DmaSem sig := 94
abbrev cc7_sem2_0 : DmaSem sig := 95
abbrev cc7_sem3_0 : DmaSem sig := 96
abbrev cc7_sem3_1 : DmaSem sig := 97
abbrev cc7_sem4_0 : DmaSem sig := 98
abbrev cc7_sem4_1 : DmaSem sig := 99
abbrev cc8_sem0_0 : DmaSem sig := 100
abbrev cc8_sem0_1 : DmaSem sig := 101
abbrev cc8_sem1_0 : DmaSem sig := 102
abbrev cc8_sem1_1 : DmaSem sig := 103
abbrev cc8_sem2_0 : DmaSem sig := 104
abbrev cc8_sem3_0 : DmaSem sig := 105
abbrev cc8_sem3_1 : DmaSem sig := 106
abbrev cc8_sem4_0 : DmaSem sig := 107
abbrev cc8_sem5_0 : DmaSem sig := 108
abbrev cc8_sem5_1 : DmaSem sig := 109
abbrev cc8_sem6_0 : DmaSem sig := 110
abbrev cc8_sem6_1 : DmaSem sig := 111
abbrev cc9_sem0_0 : DmaSem sig := 112
abbrev cc9_sem0_1 : DmaSem sig := 113
abbrev cc9_sem1_0 : DmaSem sig := 114
abbrev cc9_sem1_1 : DmaSem sig := 115
abbrev cc9_sem2_0 : DmaSem sig := 116
abbrev cc9_sem2_1 : DmaSem sig := 117
abbrev cc9_sem3_0 : DmaSem sig := 118
abbrev cc9_sem3_1 : DmaSem sig := 119
abbrev cc9_sem4_0 : DmaSem sig := 120
abbrev cc9_sem4_1 : DmaSem sig := 121
abbrev cc9_sem5_0 : DmaSem sig := 122
abbrev cc9_sem5_1 : DmaSem sig := 123
abbrev cc9_sem6_0 : DmaSem sig := 124
abbrev cc9_sem6_1 : DmaSem sig := 125
abbrev cc9_sem7_0 : DmaSem sig := 126
abbrev cc9_sem8_0 : DmaSem sig := 127
abbrev cc9_sem9_0 : DmaSem sig := 128
abbrev cc9_sem10_0 : DmaSem sig := 129
abbrev cc9_sem10_1 : DmaSem sig := 130
abbrev cc9_sem11_0 : DmaSem sig := 131
abbrev cc9_sem11_1 : DmaSem sig := 132
abbrev cc10_sem0_0 : DmaSem sig := 133
abbrev cc10_sem0_1 : DmaSem sig := 134
abbrev cc10_sem1_0 : DmaSem sig := 135
abbrev cc10_sem2_0 : DmaSem sig := 136
abbrev cc10_sem2_1 : DmaSem sig := 137
abbrev cc11_sem0_0 : DmaSem sig := 138
abbrev cc11_sem0_1 : DmaSem sig := 139
abbrev cc11_sem1_0 : DmaSem sig := 140
abbrev cc11_sem1_1 : DmaSem sig := 141
abbrev cc11_sem2_0 : DmaSem sig := 142
abbrev cc11_sem3_0 : DmaSem sig := 143
abbrev cc11_sem3_1 : DmaSem sig := 144
abbrev cc12_sem0_0 : DmaSem sig := 145
abbrev cc12_sem0_1 : DmaSem sig := 146
abbrev cc12_sem1_0 : DmaSem sig := 147
abbrev cc12_sem1_1 : DmaSem sig := 148
abbrev cc12_sem2_0 : DmaSem sig := 149
abbrev cc12_sem2_1 : DmaSem sig := 150
abbrev cc12_sem3_0 : DmaSem sig := 151
abbrev cc12_sem3_1 : DmaSem sig := 152
abbrev cc12_sem4_0 : DmaSem sig := 153
abbrev cc12_sem4_1 : DmaSem sig := 154
abbrev cc12_sem5_0 : DmaSem sig := 155
abbrev cc12_sem5_1 : DmaSem sig := 156
abbrev cc12_sem6_0 : DmaSem sig := 157
abbrev cc12_sem6_1 : DmaSem sig := 158
abbrev cc12_sem7_0 : DmaSem sig := 159
abbrev cc12_sem7_1 : DmaSem sig := 160
abbrev cc12_sem8_0 : DmaSem sig := 161
abbrev cc12_sem9_0 : DmaSem sig := 162
abbrev cc12_sem10_0 : DmaSem sig := 163
abbrev cc12_sem11_0 : DmaSem sig := 164
abbrev cc12_sem11_1 : DmaSem sig := 165
abbrev cc12_sem12_0 : DmaSem sig := 166
abbrev cc12_sem12_1 : DmaSem sig := 167

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x128x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x2 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x2048 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1024x64 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S256x2048 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1024x2048 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S256x64 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S256x2048 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_8 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_11 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x2 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4096x2 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4096x2 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S4096x64 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S4096x64 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S4096x64 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S4096x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 1 → Memref sig .tc .vmem S3x2x128 .bf16 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S3x64x128 .bf16 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S4096x64 .bf16 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev stage3_11 : Fin 2 → Memref sig .tc .vmem S4096x64 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x2048 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S256x2048 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S256x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S256x2048 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1024x2048 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S256x2048 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_8 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_9 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_10 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_11 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc6_transform_12 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4096x2 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4096x2 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S4096x2 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S4096x64 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S4096x64 .bf16 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S4096x64 .bf16 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S4096x64 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S4096x64 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev stage6_8 : Fin 1 → Memref sig .tc .vmem S3x2x64 .bf16 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 1 → Memref sig .tc .vmem S3x64x64 .bf16 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]

abbrev stage6_10 : Fin 1 → Memref sig .tc .vmem S1x64 .f32 := fun | 0 => Memref.whole cc6_stg10_0 | ⟨_ + 1, h⟩ => absurd h (Nat.not_lt.2 (Nat.le_add_left _ _))
abbrev sem6_10 : Fin 1 → DmaSem sig := fun | 0 => cc6_sem10_0 | ⟨_ + 1, h⟩ => absurd h (Nat.not_lt.2 (Nat.le_add_left _ _))
abbrev reads6_10 : Fin grid6.rank → Bool := ![false]

abbrev stage6_11 : Fin 2 → Memref sig .tc .vmem S32x128x64 .f32 := fun | 0 => Memref.whole cc6_stg11_0 | 1 => Memref.whole cc6_stg11_1 | ⟨_ + 2, h⟩ => absurd h (Nat.not_lt.2 (Nat.le_add_left _ _))
abbrev sem6_11 : Fin 2 → DmaSem sig := fun | 0 => cc6_sem11_0 | 1 => cc6_sem11_1 | ⟨_ + 2, h⟩ => absurd h (Nat.not_lt.2 (Nat.le_add_left _ _))
abbrev reads6_11 : Fin grid6.rank → Bool := ![true]

abbrev stage6_12 : Fin 2 → Memref sig .tc .vmem S4096x64 .bf16 := fun | 0 => Memref.whole cc6_stg12_0 | 1 => Memref.whole cc6_stg12_1 | ⟨_ + 2, h⟩ => absurd h (Nat.not_lt.2 (Nat.le_add_left _ _))
abbrev sem6_12 : Fin 2 → DmaSem sig := fun | 0 => cc6_sem12_0 | 1 => cc6_sem12_1 | ⟨_ + 2, h⟩ => absurd h (Nat.not_lt.2 (Nat.le_add_left _ _))
abbrev reads6_12 : Fin grid6.rank → Bool := ![true]

abbrev grid7 : Pipeline.Grid := ⟨1, ![4], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S256x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1024x2048 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1024x2048 .bf16 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S256x2048 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S256x2048 .bf16 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![4], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S256x1024 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S256x2048 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S1024x2048 .bf16 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S256x2048 .bf16 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 1 → Memref sig .tc .vmem S1024x2048 .bf16 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S256x2048 .bf16 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 2 → Memref sig .tc .vmem S256x2048 .bf16 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev grid9 : Pipeline.Grid := ⟨1, ![8], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_6 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_7 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc9_transform_8 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc9_transform_9 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_10 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_11 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S4096x64 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S4096x64 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S4096x64 .bf16 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 2 → Memref sig .tc .vmem S4096x64 .bf16 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev stage9_4 : Fin 2 → Memref sig .tc .vmem S4096x64 .bf16 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev stage9_5 : Fin 2 → Memref sig .tc .vmem S4096x64 .bf16 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev stage9_6 : Fin 2 → Memref sig .tc .vmem S4096x64 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

abbrev stage9_7 : Fin 1 → Memref sig .tc .vmem S3x64x128 .bf16 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
abbrev reads9_7 : Fin grid9.rank → Bool := ![false]

abbrev stage9_8 : Fin 1 → Memref sig .tc .vmem S3x64x128 .bf16 := fun | 0 => Memref.whole cc9_stg8_0 | ⟨_ + 1, h⟩ => absurd h (Nat.not_lt.2 (Nat.le_add_left _ _))
abbrev sem9_8 : Fin 1 → DmaSem sig := fun | 0 => cc9_sem8_0 | ⟨_ + 1, h⟩ => absurd h (Nat.not_lt.2 (Nat.le_add_left _ _))
abbrev reads9_8 : Fin grid9.rank → Bool := ![false]

abbrev stage9_9 : Fin 1 → Memref sig .tc .vmem S1x128 .f32 := fun | 0 => Memref.whole cc9_stg9_0 | ⟨_ + 1, h⟩ => absurd h (Nat.not_lt.2 (Nat.le_add_left _ _))
abbrev sem9_9 : Fin 1 → DmaSem sig := fun | 0 => cc9_sem9_0 | ⟨_ + 1, h⟩ => absurd h (Nat.not_lt.2 (Nat.le_add_left _ _))
abbrev reads9_9 : Fin grid9.rank → Bool := ![false]

abbrev stage9_10 : Fin 2 → Memref sig .tc .vmem S4096x64 .bf16 := fun | 0 => Memref.whole cc9_stg10_0 | 1 => Memref.whole cc9_stg10_1 | ⟨_ + 2, h⟩ => absurd h (Nat.not_lt.2 (Nat.le_add_left _ _))
abbrev sem9_10 : Fin 2 → DmaSem sig := fun | 0 => cc9_sem10_0 | 1 => cc9_sem10_1 | ⟨_ + 2, h⟩ => absurd h (Nat.not_lt.2 (Nat.le_add_left _ _))
abbrev reads9_10 : Fin grid9.rank → Bool := ![true]

abbrev stage9_11 : Fin 2 → Memref sig .tc .vmem S4096x64 .f32 := fun | 0 => Memref.whole cc9_stg11_0 | 1 => Memref.whole cc9_stg11_1 | ⟨_ + 2, h⟩ => absurd h (Nat.not_lt.2 (Nat.le_add_left _ _))
abbrev sem9_11 : Fin 2 → DmaSem sig := fun | 0 => cc9_sem11_0 | 1 => cc9_sem11_1 | ⟨_ + 2, h⟩ => absurd h (Nat.not_lt.2 (Nat.le_add_left _ _))
abbrev reads9_11 : Fin grid9.rank → Bool := ![true]

abbrev grid10 : Pipeline.Grid := ⟨1, ![4], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S256x1024 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1024x2048 .bf16 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S256x2048 .bf16 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![4], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S256x1024 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S256x2048 .bf16 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S1024x2048 .bf16 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S256x2048 .bf16 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev grid12 : Pipeline.Grid := ⟨1, ![8], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_4 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_5 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_6 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_7 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_8 (i : grid12.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc12_transform_9 (i : grid12.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc12_transform_10 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_11 (i : grid12.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc12_transform_12 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S4096x64 .bf16 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S4096x64 .bf16 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 2 → Memref sig .tc .vmem S4096x64 .bf16 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev stage12_3 : Fin 2 → Memref sig .tc .vmem S4096x64 .bf16 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev stage12_4 : Fin 2 → Memref sig .tc .vmem S4096x64 .bf16 := fun | 0 => Memref.whole cc12_stg4_0 | 1 => Memref.whole cc12_stg4_1 | ⟨_ + 2, h⟩ => absurd h (Nat.not_lt.2 (Nat.le_add_left _ _))
abbrev sem12_4 : Fin 2 → DmaSem sig := fun | 0 => cc12_sem4_0 | 1 => cc12_sem4_1 | ⟨_ + 2, h⟩ => absurd h (Nat.not_lt.2 (Nat.le_add_left _ _))
abbrev reads12_4 : Fin grid12.rank → Bool := ![true]

abbrev stage12_5 : Fin 2 → Memref sig .tc .vmem S4096x64 .bf16 := fun | 0 => Memref.whole cc12_stg5_0 | 1 => Memref.whole cc12_stg5_1 | ⟨_ + 2, h⟩ => absurd h (Nat.not_lt.2 (Nat.le_add_left _ _))
abbrev sem12_5 : Fin 2 → DmaSem sig := fun | 0 => cc12_sem5_0 | 1 => cc12_sem5_1 | ⟨_ + 2, h⟩ => absurd h (Nat.not_lt.2 (Nat.le_add_left _ _))
abbrev reads12_5 : Fin grid12.rank → Bool := ![true]

abbrev stage12_6 : Fin 2 → Memref sig .tc .vmem S4096x64 .f32 := fun | 0 => Memref.whole cc12_stg6_0 | 1 => Memref.whole cc12_stg6_1 | ⟨_ + 2, h⟩ => absurd h (Nat.not_lt.2 (Nat.le_add_left _ _))
abbrev sem12_6 : Fin 2 → DmaSem sig := fun | 0 => cc12_sem6_0 | 1 => cc12_sem6_1 | ⟨_ + 2, h⟩ => absurd h (Nat.not_lt.2 (Nat.le_add_left _ _))
abbrev reads12_6 : Fin grid12.rank → Bool := ![true]

abbrev stage12_7 : Fin 2 → Memref sig .tc .vmem S4096x64 .f32 := fun | 0 => Memref.whole cc12_stg7_0 | 1 => Memref.whole cc12_stg7_1 | ⟨_ + 2, h⟩ => absurd h (Nat.not_lt.2 (Nat.le_add_left _ _))
abbrev sem12_7 : Fin 2 → DmaSem sig := fun | 0 => cc12_sem7_0 | 1 => cc12_sem7_1 | ⟨_ + 2, h⟩ => absurd h (Nat.not_lt.2 (Nat.le_add_left _ _))
abbrev reads12_7 : Fin grid12.rank → Bool := ![true]

abbrev stage12_8 : Fin 1 → Memref sig .tc .vmem S3x64x64 .bf16 := fun | 0 => Memref.whole cc12_stg8_0 | ⟨_ + 1, h⟩ => absurd h (Nat.not_lt.2 (Nat.le_add_left _ _))
abbrev sem12_8 : Fin 1 → DmaSem sig := fun | 0 => cc12_sem8_0 | ⟨_ + 1, h⟩ => absurd h (Nat.not_lt.2 (Nat.le_add_left _ _))
abbrev reads12_8 : Fin grid12.rank → Bool := ![false]

abbrev stage12_9 : Fin 1 → Memref sig .tc .vmem S3x64x64 .bf16 := fun | 0 => Memref.whole cc12_stg9_0 | ⟨_ + 1, h⟩ => absurd h (Nat.not_lt.2 (Nat.le_add_left _ _))
abbrev sem12_9 : Fin 1 → DmaSem sig := fun | 0 => cc12_sem9_0 | ⟨_ + 1, h⟩ => absurd h (Nat.not_lt.2 (Nat.le_add_left _ _))
abbrev reads12_9 : Fin grid12.rank → Bool := ![false]

abbrev stage12_10 : Fin 1 → Memref sig .tc .vmem S1x64 .f32 := fun | 0 => Memref.whole cc12_stg10_0 | ⟨_ + 1, h⟩ => absurd h (Nat.not_lt.2 (Nat.le_add_left _ _))
abbrev sem12_10 : Fin 1 → DmaSem sig := fun | 0 => cc12_sem10_0 | ⟨_ + 1, h⟩ => absurd h (Nat.not_lt.2 (Nat.le_add_left _ _))
abbrev reads12_10 : Fin grid12.rank → Bool := ![false]

abbrev stage12_11 : Fin 2 → Memref sig .tc .vmem S32x128x64 .f32 := fun | 0 => Memref.whole cc12_stg11_0 | 1 => Memref.whole cc12_stg11_1 | ⟨_ + 2, h⟩ => absurd h (Nat.not_lt.2 (Nat.le_add_left _ _))
abbrev sem12_11 : Fin 2 → DmaSem sig := fun | 0 => cc12_sem11_0 | 1 => cc12_sem11_1 | ⟨_ + 2, h⟩ => absurd h (Nat.not_lt.2 (Nat.le_add_left _ _))
abbrev reads12_11 : Fin grid12.rank → Bool := ![true]

abbrev stage12_12 : Fin 2 → Memref sig .tc .vmem S4096x64 .bf16 := fun | 0 => Memref.whole cc12_stg12_0 | 1 => Memref.whole cc12_stg12_1 | ⟨_ + 2, h⟩ => absurd h (Nat.not_lt.2 (Nat.le_add_left _ _))
abbrev sem12_12 : Fin 2 → DmaSem sig := fun | 0 => cc12_sem12_0 | 1 => cc12_sem12_1 | ⟨_ + 2, h⟩ => absurd h (Nat.not_lt.2 (Nat.le_add_left _ _))
abbrev reads12_12 : Fin grid12.rank → Bool := ![true]

class Facts₀ : Prop where
  bitsLt_bf16_f32 : FTy.bits .bf16 < FTy.bits .f32
  shapeCasts_S32x2048_S32x1024x2 : S32x2048.ShapeCasts S32x1024x2
  slices_S2x32x65536_S1x32x65536_0_0_0 : S2x32x65536.Slices ![0, 0, 0] S1x32x65536
  shapeCasts_S1x32x65536_S32x65536 : S1x32x65536.ShapeCasts S32x65536
  shapeCasts_S32x65536_S32x1024x64 : S32x65536.ShapeCasts S32x1024x64
  slices_S2x32x65536_S1x32x65536_1_0_0 : S2x32x65536.Slices ![1, 0, 0] S1x32x65536
  inb_S32x128x2_S32x128x2_0_0_0 : ∀ a, (![0, 0, 0] : Fin 3 → Nat) a + S32x128x2.size a ≤ S32x128x2.size a
  h_S32x128x2 : 0 < S32x128x2.numel
  shapeCasts_S32x128x2_S32x128x2 : S32x128x2.ShapeCasts S32x128x2
  transposes_S32x128x2_p1_0_2_S128x32x2 : S32x128x2.Transposes [1, 0, 2] S128x32x2
  shapeCasts_S128x32x2_S4096x2 : S128x32x2.ShapeCasts S4096x2
  inb_S4096x2_S4096x2_0_0 : ∀ a, (![0, 0] : Fin 2 → Nat) a + S4096x2.size a ≤ S4096x2.size a
  h_S4096x2 : 0 < S4096x2.numel
  packedbf16_S4096x2_S4096x2_0_0 : (Rect.unit (s := S4096x2) ![0, 0] S4096x2.size inb_S4096x2_S4096x2_0_0).PackedRows (EltTy.packing .bf16)
  inb_S32x128x64_S32x128x64_0_0_0 : ∀ a, (![0, 0, 0] : Fin 3 → Nat) a + S32x128x64.size a ≤ S32x128x64.size a
  h_S32x128x64 : 0 < S32x128x64.numel
  shapeCasts_S32x128x64_S32x128x64 : S32x128x64.ShapeCasts S32x128x64
  transposes_S32x128x64_p1_0_2_S128x32x64 : S32x128x64.Transposes [1, 0, 2] S128x32x64
  shapeCasts_S128x32x64_S4096x64 : S128x32x64.ShapeCasts S4096x64
  inb_S4096x64_S4096x64_0_0 : ∀ a, (![0, 0] : Fin 2 → Nat) a + S4096x64.size a ≤ S4096x64.size a
  h_S4096x64 : 0 < S4096x64.numel
  packedbf16_S4096x64_S4096x64_0_0 : (Rect.unit (s := S4096x64) ![0, 0] S4096x64.size inb_S4096x64_S4096x64_0_0).PackedRows (EltTy.packing .bf16)
  shapeCasts_S198x128_S66x3x128 : S198x128.ShapeCasts S66x3x128
  transposes_S66x3x128_S3x66x128_1_0_2 : S66x3x128.Transposes [1, 0, 2] S3x66x128
  slices_S3x66x128_S3x2x128_0_0_0 : S3x66x128.Slices ![0, 0, 0] S3x2x128
  slices_S3x66x128_S3x64x128_0_2_0 : S3x66x128.Slices ![0, 2, 0] S3x64x128
  shapeCasts_S198x64_S66x3x64 : S198x64.ShapeCasts S66x3x64
  transposes_S66x3x64_S3x66x64_1_0_2 : S66x3x64.Transposes [1, 0, 2] S3x66x64
  slices_S3x66x64_S3x2x64_0_0_0 : S3x66x64.Slices ![0, 0, 0] S3x2x64
  slices_S3x66x64_S3x64x64_0_2_0 : S3x66x64.Slices ![0, 2, 0] S3x64x64
  shapeCasts_S384x128_S128x3x128 : S384x128.ShapeCasts S128x3x128
  transposes_S128x3x128_S3x128x128_1_0_2 : S128x3x128.Transposes [1, 0, 2] S3x128x128
  slices_S3x128x128_S3x64x128_0_0_0 : S3x128x128.Slices ![0, 0, 0] S3x64x128
  slices_S3x128x128_S3x64x128_0_64_0 : S3x128x128.Slices ![0, 64, 0] S3x64x128
  shapeCasts_S384x64_S128x3x64 : S384x64.ShapeCasts S128x3x64
  transposes_S128x3x64_S3x128x64_1_0_2 : S128x3x64.Transposes [1, 0, 2] S3x128x64
  slices_S3x128x64_S3x64x64_0_0_0 : S3x128x64.Slices ![0, 0, 0] S3x64x64
  slices_S3x128x64_S3x64x64_0_64_0 : S3x128x64.Slices ![0, 64, 0] S3x64x64
  shapeCasts_S128_S1x128 : S128.ShapeCasts S1x128
  shapeCasts_S64_S1x64 : S64.ShapeCasts S1x64
  shapeCasts_S32768x2_S1024x64 : S32768x2.ShapeCasts S1024x64
  shapeCasts_S32768x64_S1024x2048 : S32768x64.ShapeCasts S1024x2048
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S256x64_S256x64_0_0 : ∀ a, (![0, 0] : Fin 2 → Nat) a + S256x64.size a ≤ S256x64.size a
  h_S256x64 : 0 < S256x64.numel
  packedbf16_S256x64_S256x64_0_0 : (Rect.unit (s := S256x64) ![0, 0] S256x64.size inb_S256x64_S256x64_0_0).PackedRows (EltTy.packing .bf16)
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S256x2048_S256x2048_0_0 : ∀ a, (![0, 0] : Fin 2 → Nat) a + S256x2048.size a ≤ S256x2048.size a
  h_S256x2048 : 0 < S256x2048.numel
  packedbf16_S256x2048_S256x2048_0_0 : (Rect.unit (s := S256x2048) ![0, 0] S256x2048.size inb_S256x2048_S256x2048_0_0).PackedRows (EltTy.packing .bf16)
  shapeCasts_S256x64_S256x64 : S256x64.ShapeCasts S256x64
  shapeCasts_S256x2048_S256x2048 : S256x2048.ShapeCasts S256x2048
  shapeCasts_S1024x64_S32768x2 : S1024x64.ShapeCasts S32768x2
  shapeCasts_S1024x2048_S32768x64 : S1024x2048.ShapeCasts S32768x64
  shapeCasts_S4096x2_S4096x2 : S4096x2.ShapeCasts S4096x2
  inb_S3x2x128_S1x2x128_0_0_0 : ∀ a, (![0, 0, 0] : Fin 3 → Nat) a + S1x2x128.size a ≤ S3x2x128.size a
  h_S1x2x128 : 0 < S1x2x128.numel
  shapeCasts_S1x2x128_S2x128 : S1x2x128.ShapeCasts S2x128
  inb_S3x2x128_S1x2x128_1_0_0 : ∀ a, (![1, 0, 0] : Fin 3 → Nat) a + S1x2x128.size a ≤ S3x2x128.size a
  inb_S3x2x128_S1x2x128_2_0_0 : ∀ a, (![2, 0, 0] : Fin 3 → Nat) a + S1x2x128.size a ≤ S3x2x128.size a
  shapeCasts_S4096x64_S4096x64 : S4096x64.ShapeCasts S4096x64
  inb_S3x64x128_S1x64x128_0_0_0 : ∀ a, (![0, 0, 0] : Fin 3 → Nat) a + S1x64x128.size a ≤ S3x64x128.size a
  h_S1x64x128 : 0 < S1x64x128.numel
  shapeCasts_S1x64x128_S64x128 : S1x64x128.ShapeCasts S64x128
  inb_S3x64x128_S1x64x128_1_0_0 : ∀ a, (![1, 0, 0] : Fin 3 → Nat) a + S1x64x128.size a ≤ S3x64x128.size a
  inb_S3x64x128_S1x64x128_2_0_0 : ∀ a, (![2, 0, 0] : Fin 3 → Nat) a + S1x64x128.size a ≤ S3x64x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  slices_S4096x128_o0_0_S4096x64 : S4096x128.Slices ![0, 0] S4096x64
  slices_S4096x128_o0_64_S4096x64 : S4096x128.Slices ![0, 64] S4096x64
  inb_S3x2x64_S1x2x64_0_0_0 : ∀ a, (![0, 0, 0] : Fin 3 → Nat) a + S1x2x64.size a ≤ S3x2x64.size a
  h_S1x2x64 : 0 < S1x2x64.numel
  shapeCasts_S1x2x64_S2x64 : S1x2x64.ShapeCasts S2x64
  inb_S3x2x64_S1x2x64_1_0_0 : ∀ a, (![1, 0, 0] : Fin 3 → Nat) a + S1x2x64.size a ≤ S3x2x64.size a
  inb_S3x2x64_S1x2x64_2_0_0 : ∀ a, (![2, 0, 0] : Fin 3 → Nat) a + S1x2x64.size a ≤ S3x2x64.size a
  inb_S3x64x64_S1x64x64_0_0_0 : ∀ a, (![0, 0, 0] : Fin 3 → Nat) a + S1x64x64.size a ≤ S3x64x64.size a
  h_S1x64x64 : 0 < S1x64x64.numel
  shapeCasts_S1x64x64_S64x64 : S1x64x64.ShapeCasts S64x64
  inb_S3x64x64_S1x64x64_1_0_0 : ∀ a, (![1, 0, 0] : Fin 3 → Nat) a + S1x64x64.size a ≤ S3x64x64.size a
  inb_S3x64x64_S1x64x64_2_0_0 : ∀ a, (![2, 0, 0] : Fin 3 → Nat) a + S1x64x64.size a ≤ S3x64x64.size a
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  shapeCasts_S4096x64_S128x32x64 : S4096x64.ShapeCasts S128x32x64
  transposes_S128x32x64_p1_0_2_S32x128x64 : S128x32x64.Transposes [1, 0, 2] S32x128x64
  shapeCasts_S32x1024x64_S32x65536 : S32x1024x64.ShapeCasts S32x65536
  bcast_S32x65536_S1x32x65536_1_2 : S32x65536.BroadcastsInDim S1x32x65536 (![1, 2] : Fin 2 → Fin S1x32x65536.rank)
  concatenates_S1x32x65536_S1x32x65536_S2x32x65536_d0 : Shape.Concatenates [S1x32x65536, S1x32x65536] S2x32x65536 0
  dot_S256x1024_S1024x64_S256x64_1_0_0_1_n_n_wf : DotDims.WF S256x1024 S1024x64 S256x64 [1] [0] [0] [1] [] []
  dot_S256x1024_S1024x2048_S256x2048_1_0_0_1_n_n_wf : DotDims.WF S256x1024 S1024x2048 S256x2048 [1] [0] [0] [1] [] []
  dot_S4096x2_S2x128_S4096x128_1_0_0_1_n_n_wf : DotDims.WF S4096x2 S2x128 S4096x128 [1] [0] [0] [1] [] []
  dot_S4096x64_S64x128_S4096x128_1_0_0_1_n_n_wf : DotDims.WF S4096x64 S64x128 S4096x128 [1] [0] [0] [1] [] []
  dot_S4096x2_S2x64_S4096x64_1_0_0_1_n_n_wf : DotDims.WF S4096x2 S2x64 S4096x64 [1] [0] [0] [1] [] []
  dot_S4096x64_S64x64_S4096x64_1_0_0_1_n_n_wf : DotDims.WF S4096x64 S64x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128x2.size a ≤ S32x1024x2.size a
  hwx0_0 : ∀ i : grid0.Coords, EltTy.bits .f32 = 32 ∨ (Rect.block (s := S32x1024x2) S32x128x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x128x64.size a ≤ S32x1024x64.size a
  hwx0_1 : ∀ i : grid0.Coords, EltTy.bits .f32 = 32 ∨ (Rect.block (s := S32x1024x64) S32x128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x128x64.size a ≤ S32x1024x64.size a
  hwx0_2 : ∀ i : grid0.Coords, EltTy.bits .f32 = 32 ∨ (Rect.block (s := S32x1024x64) S32x128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x2.size a ≤ S32768x2.size a
  hwx0_3 : ∀ i : grid0.Coords, EltTy.bits .bf16 = 32 ∨ (Rect.block (s := S32768x2) S4096x2.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x64.size a ≤ S32768x64.size a
  hwx0_4 : ∀ i : grid0.Coords, EltTy.bits .bf16 = 32 ∨ (Rect.block (s := S32768x64) S4096x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x64.size a ≤ S32768x64.size a
  hwx0_5 : ∀ i : grid0.Coords, EltTy.bits .f32 = 32 ∨ (Rect.block (s := S32768x64) S4096x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x64.size a ≤ S32768x64.size a
  hwx0_6 : ∀ i : grid0.Coords, EltTy.bits .bf16 = 32 ∨ (Rect.block (s := S32768x64) S4096x64.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x64.size a ≤ S32768x64.size a
  hwx0_7 : ∀ i : grid0.Coords, EltTy.bits .f32 = 32 ∨ (Rect.block (s := S32768x64) S4096x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S1024x1024.size a
  hwx1_0 : ∀ i : grid1.Coords, EltTy.bits .bf16 = 32 ∨ (Rect.block (s := S1024x1024) S256x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x64.size a ≤ S1024x64.size a
  hwx1_1 : ∀ i : grid1.Coords, EltTy.bits .bf16 = 32 ∨ (Rect.block (s := S1024x64) S1024x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x2048.size a ≤ S1024x2048.size a
  hwx1_2 : ∀ i : grid1.Coords, EltTy.bits .bf16 = 32 ∨ (Rect.block (s := S1024x2048) S1024x2048.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x64.size a ≤ S1024x64.size a
  hwx1_3 : ∀ i : grid1.Coords, EltTy.bits .bf16 = 32 ∨ (Rect.block (s := S1024x64) S256x64.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x2048.size a ≤ S1024x2048.size a
  hwx1_4 : ∀ i : grid1.Coords, EltTy.bits .bf16 = 32 ∨ (Rect.block (s := S1024x2048) S256x2048.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x1024.size a ≤ S1024x1024.size a
  hwx2_0 : ∀ i : grid2.Coords, EltTy.bits .bf16 = 32 ∨ (Rect.block (s := S1024x1024) S256x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x64.size a ≤ S1024x64.size a
  hwx2_1 : ∀ i : grid2.Coords, EltTy.bits .bf16 = 32 ∨ (Rect.block (s := S1024x64) S256x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024x64.size a ≤ S1024x64.size a
  hwx2_2 : ∀ i : grid2.Coords, EltTy.bits .bf16 = 32 ∨ (Rect.block (s := S1024x64) S1024x64.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x2048.size a ≤ S1024x2048.size a
  hwx2_3 : ∀ i : grid2.Coords, EltTy.bits .bf16 = 32 ∨ (Rect.block (s := S1024x2048) S256x2048.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1024x2048.size a ≤ S1024x2048.size a
  hwx2_4 : ∀ i : grid2.Coords, EltTy.bits .bf16 = 32 ∨ (Rect.block (s := S1024x2048) S1024x2048.size (cc2_transform_4 i) (hinb2_4 i)).WholeWords (EltTy.packing .bf16)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S256x64.size a ≤ S1024x64.size a
  hwx2_5 : ∀ i : grid2.Coords, EltTy.bits .bf16 = 32 ∨ (Rect.block (s := S1024x64) S256x64.size (cc2_transform_5 i) (hinb2_5 i)).WholeWords (EltTy.packing .bf16)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S256x2048.size a ≤ S1024x2048.size a
  hwx2_6 : ∀ i : grid2.Coords, EltTy.bits .bf16 = 32 ∨ (Rect.block (s := S1024x2048) S256x2048.size (cc2_transform_6 i) (hinb2_6 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x2.size a ≤ S32768x2.size a
  hwx3_0 : ∀ i : grid3.Coords, EltTy.bits .bf16 = 32 ∨ (Rect.block (s := S32768x2) S4096x2.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4096x2.size a ≤ S32768x2.size a
  hwx3_1 : ∀ i : grid3.Coords, EltTy.bits .bf16 = 32 ∨ (Rect.block (s := S32768x2) S4096x2.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4096x2.size a ≤ S32768x2.size a
  hwx3_2 : ∀ i : grid3.Coords, EltTy.bits .bf16 = 32 ∨ (Rect.block (s := S32768x2) S4096x2.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4096x64.size a ≤ S32768x64.size a
  hwx3_3 : ∀ i : grid3.Coords, EltTy.bits .bf16 = 32 ∨ (Rect.block (s := S32768x64) S4096x64.size (cc3_transform_3 i) (hinb3_3 i)).WholeWords (EltTy.packing .bf16)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4096x64.size a ≤ S32768x64.size a
  hwx3_4 : ∀ i : grid3.Coords, EltTy.bits .bf16 = 32 ∨ (Rect.block (s := S32768x64) S4096x64.size (cc3_transform_4 i) (hinb3_4 i)).WholeWords (EltTy.packing .bf16)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4096x64.size a ≤ S32768x64.size a
  hwx3_5 : ∀ i : grid3.Coords, EltTy.bits .bf16 = 32 ∨ (Rect.block (s := S32768x64) S4096x64.size (cc3_transform_5 i) (hinb3_5 i)).WholeWords (EltTy.packing .bf16)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S4096x64.size a ≤ S32768x64.size a
  hwx3_6 : ∀ i : grid3.Coords, EltTy.bits .f32 = 32 ∨ (Rect.block (s := S32768x64) S4096x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S3x2x128.size a ≤ S3x2x128.size a
  hwx3_7 : ∀ i : grid3.Coords, EltTy.bits .bf16 = 32 ∨ (Rect.block (s := S3x2x128) S3x2x128.size (cc3_transform_7 i) (hinb3_7 i)).WholeWords (EltTy.packing .bf16)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S3x64x128.size a ≤ S3x64x128.size a
  hwx3_8 : ∀ i : grid3.Coords, EltTy.bits .bf16 = 32 ∨ (Rect.block (s := S3x64x128) S3x64x128.size (cc3_transform_8 i) (hinb3_8 i)).WholeWords (EltTy.packing .bf16)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x128.size a ≤ S1x128.size a
  hwx3_9 : ∀ i : grid3.Coords, EltTy.bits .f32 = 32 ∨ (Rect.block (s := S1x128) S1x128.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S4096x64.size a ≤ S32768x64.size a
  hwx3_10 : ∀ i : grid3.Coords, EltTy.bits .bf16 = 32 ∨ (Rect.block (s := S32768x64) S4096x64.size (cc3_transform_10 i) (hinb3_10 i)).WholeWords (EltTy.packing .bf16)
  hstage3_11 : ∀ j, (stage3_11 j).IsWhole
  nbuf3_11 : grid3.bufCount reads3_11 false = 2
  hreads3_11 : ∀ i i' : grid3.Coords, (∀ a, reads3_11 a = true → i a = i' a) → cc3_transform_11 i = cc3_transform_11 i'
  hinb3_11 : ∀ (i : grid3.Coords) a, (cc3_transform_11 i a + 1) * S4096x64.size a ≤ S32768x64.size a
  hwx3_11 : ∀ i : grid3.Coords, EltTy.bits .f32 = 32 ∨ (Rect.block (s := S32768x64) S4096x64.size (cc3_transform_11 i) (hinb3_11 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S256x1024.size a ≤ S1024x1024.size a
  hwx4_0 : ∀ i : grid4.Coords, EltTy.bits .bf16 = 32 ∨ (Rect.block (s := S1024x1024) S256x1024.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x2048.size a ≤ S1024x2048.size a
  hwx4_1 : ∀ i : grid4.Coords, EltTy.bits .bf16 = 32 ∨ (Rect.block (s := S1024x2048) S1024x2048.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S256x2048.size a ≤ S1024x2048.size a
  hwx4_2 : ∀ i : grid4.Coords, EltTy.bits .bf16 = 32 ∨ (Rect.block (s := S1024x2048) S256x2048.size (cc4_transform_2 i) (hinb4_2 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S256x1024.size a ≤ S1024x1024.size a
  hwx5_0 : ∀ i : grid5.Coords, EltTy.bits .bf16 = 32 ∨ (Rect.block (s := S1024x1024) S256x1024.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S256x2048.size a ≤ S1024x2048.size a
  hwx5_1 : ∀ i : grid5.Coords, EltTy.bits .bf16 = 32 ∨ (Rect.block (s := S1024x2048) S256x2048.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1024x2048.size a ≤ S1024x2048.size a
  hwx5_2 : ∀ i : grid5.Coords, EltTy.bits .bf16 = 32 ∨ (Rect.block (s := S1024x2048) S1024x2048.size (cc5_transform_2 i) (hinb5_2 i)).WholeWords (EltTy.packing .bf16)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S256x2048.size a ≤ S1024x2048.size a
  hwx5_3 : ∀ i : grid5.Coords, EltTy.bits .bf16 = 32 ∨ (Rect.block (s := S1024x2048) S256x2048.size (cc5_transform_3 i) (hinb5_3 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4096x2.size a ≤ S32768x2.size a
  hwx6_0 : ∀ i : grid6.Coords, EltTy.bits .bf16 = 32 ∨ (Rect.block (s := S32768x2) S4096x2.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4096x2.size a ≤ S32768x2.size a
  hwx6_1 : ∀ i : grid6.Coords, EltTy.bits .bf16 = 32 ∨ (Rect.block (s := S32768x2) S4096x2.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S4096x2.size a ≤ S32768x2.size a
  hwx6_2 : ∀ i : grid6.Coords, EltTy.bits .bf16 = 32 ∨ (Rect.block (s := S32768x2) S4096x2.size (cc6_transform_2 i) (hinb6_2 i)).WholeWords (EltTy.packing .bf16)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S4096x64.size a ≤ S32768x64.size a
  hwx6_3 : ∀ i : grid6.Coords, EltTy.bits .bf16 = 32 ∨ (Rect.block (s := S32768x64) S4096x64.size (cc6_transform_3 i) (hinb6_3 i)).WholeWords (EltTy.packing .bf16)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S4096x64.size a ≤ S32768x64.size a
  hwx6_4 : ∀ i : grid6.Coords, EltTy.bits .bf16 = 32 ∨ (Rect.block (s := S32768x64) S4096x64.size (cc6_transform_4 i) (hinb6_4 i)).WholeWords (EltTy.packing .bf16)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S4096x64.size a ≤ S32768x64.size a
  hwx6_5 : ∀ i : grid6.Coords, EltTy.bits .bf16 = 32 ∨ (Rect.block (s := S32768x64) S4096x64.size (cc6_transform_5 i) (hinb6_5 i)).WholeWords (EltTy.packing .bf16)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S4096x64.size a ≤ S32768x64.size a
  hwx6_6 : ∀ i : grid6.Coords, EltTy.bits .f32 = 32 ∨ (Rect.block (s := S32768x64) S4096x64.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S4096x64.size a ≤ S32768x64.size a
  hwx6_7 : ∀ i : grid6.Coords, EltTy.bits .f32 = 32 ∨ (Rect.block (s := S32768x64) S4096x64.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S3x2x64.size a ≤ S3x2x64.size a
  hwx6_8 : ∀ i : grid6.Coords, EltTy.bits .bf16 = 32 ∨ (Rect.block (s := S3x2x64) S3x2x64.size (cc6_transform_8 i) (hinb6_8 i)).WholeWords (EltTy.packing .bf16)
  hstage6_9 : ∀ j, (stage6_9 j).IsWhole
  nbuf6_9 : grid6.bufCount reads6_9 true = 1
  hreads6_9 : ∀ i i' : grid6.Coords, (∀ a, reads6_9 a = true → i a = i' a) → cc6_transform_9 i = cc6_transform_9 i'
  hinb6_9 : ∀ (i : grid6.Coords) a, (cc6_transform_9 i a + 1) * S3x64x64.size a ≤ S3x64x64.size a
  hwx6_9 : ∀ i : grid6.Coords, EltTy.bits .bf16 = 32 ∨ (Rect.block (s := S3x64x64) S3x64x64.size (cc6_transform_9 i) (hinb6_9 i)).WholeWords (EltTy.packing .bf16)
  hstage6_10 : ∀ j, (stage6_10 j).IsWhole
  nbuf6_10 : grid6.bufCount reads6_10 true = 1
  hreads6_10 : ∀ i i' : grid6.Coords, (∀ a, reads6_10 a = true → i a = i' a) → cc6_transform_10 i = cc6_transform_10 i'
  hinb6_10 : ∀ (i : grid6.Coords) a, (cc6_transform_10 i a + 1) * S1x64.size a ≤ S1x64.size a
  hwx6_10 : ∀ i : grid6.Coords, EltTy.bits .f32 = 32 ∨ (Rect.block (s := S1x64) S1x64.size (cc6_transform_10 i) (hinb6_10 i)).WholeWords (EltTy.packing .f32)
  hstage6_11 : ∀ j, (stage6_11 j).IsWhole
  nbuf6_11 : grid6.bufCount reads6_11 false = 2
  hreads6_11 : ∀ i i' : grid6.Coords, (∀ a, reads6_11 a = true → i a = i' a) → cc6_transform_11 i = cc6_transform_11 i'
  hinb6_11 : ∀ (i : grid6.Coords) a, (cc6_transform_11 i a + 1) * S32x128x64.size a ≤ S32x1024x64.size a
  hwx6_11 : ∀ i : grid6.Coords, EltTy.bits .f32 = 32 ∨ (Rect.block (s := S32x1024x64) S32x128x64.size (cc6_transform_11 i) (hinb6_11 i)).WholeWords (EltTy.packing .f32)
  hstage6_12 : ∀ j, (stage6_12 j).IsWhole
  nbuf6_12 : grid6.bufCount reads6_12 false = 2
  hreads6_12 : ∀ i i' : grid6.Coords, (∀ a, reads6_12 a = true → i a = i' a) → cc6_transform_12 i = cc6_transform_12 i'
  hinb6_12 : ∀ (i : grid6.Coords) a, (cc6_transform_12 i a + 1) * S4096x64.size a ≤ S32768x64.size a
  hwx6_12 : ∀ i : grid6.Coords, EltTy.bits .bf16 = 32 ∨ (Rect.block (s := S32768x64) S4096x64.size (cc6_transform_12 i) (hinb6_12 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S256x1024.size a ≤ S1024x1024.size a
  hwx7_0 : ∀ i : grid7.Coords, EltTy.bits .bf16 = 32 ∨ (Rect.block (s := S1024x1024) S256x1024.size (cc7_transform_0 i) (hinb7_0 i)).WholeWords (EltTy.packing .bf16)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1024x2048.size a ≤ S1024x2048.size a
  hwx7_1 : ∀ i : grid7.Coords, EltTy.bits .bf16 = 32 ∨ (Rect.block (s := S1024x2048) S1024x2048.size (cc7_transform_1 i) (hinb7_1 i)).WholeWords (EltTy.packing .bf16)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1024x2048.size a ≤ S1024x2048.size a
  hwx7_2 : ∀ i : grid7.Coords, EltTy.bits .bf16 = 32 ∨ (Rect.block (s := S1024x2048) S1024x2048.size (cc7_transform_2 i) (hinb7_2 i)).WholeWords (EltTy.packing .bf16)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S256x2048.size a ≤ S1024x2048.size a
  hwx7_3 : ∀ i : grid7.Coords, EltTy.bits .bf16 = 32 ∨ (Rect.block (s := S1024x2048) S256x2048.size (cc7_transform_3 i) (hinb7_3 i)).WholeWords (EltTy.packing .bf16)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S256x2048.size a ≤ S1024x2048.size a
  hwx7_4 : ∀ i : grid7.Coords, EltTy.bits .bf16 = 32 ∨ (Rect.block (s := S1024x2048) S256x2048.size (cc7_transform_4 i) (hinb7_4 i)).WholeWords (EltTy.packing .bf16)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S256x1024.size a ≤ S1024x1024.size a
  hwx8_0 : ∀ i : grid8.Coords, EltTy.bits .bf16 = 32 ∨ (Rect.block (s := S1024x1024) S256x1024.size (cc8_transform_0 i) (hinb8_0 i)).WholeWords (EltTy.packing .bf16)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S256x2048.size a ≤ S1024x2048.size a
  hwx8_1 : ∀ i : grid8.Coords, EltTy.bits .bf16 = 32 ∨ (Rect.block (s := S1024x2048) S256x2048.size (cc8_transform_1 i) (hinb8_1 i)).WholeWords (EltTy.packing .bf16)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1024x2048.size a ≤ S1024x2048.size a
  hwx8_2 : ∀ i : grid8.Coords, EltTy.bits .bf16 = 32 ∨ (Rect.block (s := S1024x2048) S1024x2048.size (cc8_transform_2 i) (hinb8_2 i)).WholeWords (EltTy.packing .bf16)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S256x2048.size a ≤ S1024x2048.size a
  hwx8_3 : ∀ i : grid8.Coords, EltTy.bits .bf16 = 32 ∨ (Rect.block (s := S1024x2048) S256x2048.size (cc8_transform_3 i) (hinb8_3 i)).WholeWords (EltTy.packing .bf16)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1024x2048.size a ≤ S1024x2048.size a
  hwx8_4 : ∀ i : grid8.Coords, EltTy.bits .bf16 = 32 ∨ (Rect.block (s := S1024x2048) S1024x2048.size (cc8_transform_4 i) (hinb8_4 i)).WholeWords (EltTy.packing .bf16)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S256x2048.size a ≤ S1024x2048.size a
  hwx8_5 : ∀ i : grid8.Coords, EltTy.bits .bf16 = 32 ∨ (Rect.block (s := S1024x2048) S256x2048.size (cc8_transform_5 i) (hinb8_5 i)).WholeWords (EltTy.packing .bf16)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S256x2048.size a ≤ S1024x2048.size a
  hwx8_6 : ∀ i : grid8.Coords, EltTy.bits .bf16 = 32 ∨ (Rect.block (s := S1024x2048) S256x2048.size (cc8_transform_6 i) (hinb8_6 i)).WholeWords (EltTy.packing .bf16)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S4096x64.size a ≤ S32768x64.size a
  hwx9_0 : ∀ i : grid9.Coords, EltTy.bits .bf16 = 32 ∨ (Rect.block (s := S32768x64) S4096x64.size (cc9_transform_0 i) (hinb9_0 i)).WholeWords (EltTy.packing .bf16)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S4096x64.size a ≤ S32768x64.size a
  hwx9_1 : ∀ i : grid9.Coords, EltTy.bits .bf16 = 32 ∨ (Rect.block (s := S32768x64) S4096x64.size (cc9_transform_1 i) (hinb9_1 i)).WholeWords (EltTy.packing .bf16)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S4096x64.size a ≤ S32768x64.size a
  hwx9_2 : ∀ i : grid9.Coords, EltTy.bits .bf16 = 32 ∨ (Rect.block (s := S32768x64) S4096x64.size (cc9_transform_2 i) (hinb9_2 i)).WholeWords (EltTy.packing .bf16)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S4096x64.size a ≤ S32768x64.size a
  hwx9_3 : ∀ i : grid9.Coords, EltTy.bits .bf16 = 32 ∨ (Rect.block (s := S32768x64) S4096x64.size (cc9_transform_3 i) (hinb9_3 i)).WholeWords (EltTy.packing .bf16)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S4096x64.size a ≤ S32768x64.size a
  hwx9_4 : ∀ i : grid9.Coords, EltTy.bits .bf16 = 32 ∨ (Rect.block (s := S32768x64) S4096x64.size (cc9_transform_4 i) (hinb9_4 i)).WholeWords (EltTy.packing .bf16)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S4096x64.size a ≤ S32768x64.size a
  hwx9_5 : ∀ i : grid9.Coords, EltTy.bits .bf16 = 32 ∨ (Rect.block (s := S32768x64) S4096x64.size (cc9_transform_5 i) (hinb9_5 i)).WholeWords (EltTy.packing .bf16)
  hstage9_6 : ∀ j, (stage9_6 j).IsWhole
  nbuf9_6 : grid9.bufCount reads9_6 false = 2
  hreads9_6 : ∀ i i' : grid9.Coords, (∀ a, reads9_6 a = true → i a = i' a) → cc9_transform_6 i = cc9_transform_6 i'
  hinb9_6 : ∀ (i : grid9.Coords) a, (cc9_transform_6 i a + 1) * S4096x64.size a ≤ S32768x64.size a
  hwx9_6 : ∀ i : grid9.Coords, EltTy.bits .f32 = 32 ∨ (Rect.block (s := S32768x64) S4096x64.size (cc9_transform_6 i) (hinb9_6 i)).WholeWords (EltTy.packing .f32)
  hstage9_7 : ∀ j, (stage9_7 j).IsWhole
  nbuf9_7 : grid9.bufCount reads9_7 true = 1
  hreads9_7 : ∀ i i' : grid9.Coords, (∀ a, reads9_7 a = true → i a = i' a) → cc9_transform_7 i = cc9_transform_7 i'
  hinb9_7 : ∀ (i : grid9.Coords) a, (cc9_transform_7 i a + 1) * S3x64x128.size a ≤ S3x64x128.size a
  hwx9_7 : ∀ i : grid9.Coords, EltTy.bits .bf16 = 32 ∨ (Rect.block (s := S3x64x128) S3x64x128.size (cc9_transform_7 i) (hinb9_7 i)).WholeWords (EltTy.packing .bf16)
  hstage9_8 : ∀ j, (stage9_8 j).IsWhole
  nbuf9_8 : grid9.bufCount reads9_8 true = 1
  hreads9_8 : ∀ i i' : grid9.Coords, (∀ a, reads9_8 a = true → i a = i' a) → cc9_transform_8 i = cc9_transform_8 i'
  hinb9_8 : ∀ (i : grid9.Coords) a, (cc9_transform_8 i a + 1) * S3x64x128.size a ≤ S3x64x128.size a
  hwx9_8 : ∀ i : grid9.Coords, EltTy.bits .bf16 = 32 ∨ (Rect.block (s := S3x64x128) S3x64x128.size (cc9_transform_8 i) (hinb9_8 i)).WholeWords (EltTy.packing .bf16)
  hstage9_9 : ∀ j, (stage9_9 j).IsWhole
  nbuf9_9 : grid9.bufCount reads9_9 true = 1
  hreads9_9 : ∀ i i' : grid9.Coords, (∀ a, reads9_9 a = true → i a = i' a) → cc9_transform_9 i = cc9_transform_9 i'
  hinb9_9 : ∀ (i : grid9.Coords) a, (cc9_transform_9 i a + 1) * S1x128.size a ≤ S1x128.size a
  hwx9_9 : ∀ i : grid9.Coords, EltTy.bits .f32 = 32 ∨ (Rect.block (s := S1x128) S1x128.size (cc9_transform_9 i) (hinb9_9 i)).WholeWords (EltTy.packing .f32)
  hstage9_10 : ∀ j, (stage9_10 j).IsWhole
  nbuf9_10 : grid9.bufCount reads9_10 false = 2
  hreads9_10 : ∀ i i' : grid9.Coords, (∀ a, reads9_10 a = true → i a = i' a) → cc9_transform_10 i = cc9_transform_10 i'
  hinb9_10 : ∀ (i : grid9.Coords) a, (cc9_transform_10 i a + 1) * S4096x64.size a ≤ S32768x64.size a
  hwx9_10 : ∀ i : grid9.Coords, EltTy.bits .bf16 = 32 ∨ (Rect.block (s := S32768x64) S4096x64.size (cc9_transform_10 i) (hinb9_10 i)).WholeWords (EltTy.packing .bf16)
  hstage9_11 : ∀ j, (stage9_11 j).IsWhole
  nbuf9_11 : grid9.bufCount reads9_11 false = 2
  hreads9_11 : ∀ i i' : grid9.Coords, (∀ a, reads9_11 a = true → i a = i' a) → cc9_transform_11 i = cc9_transform_11 i'
  hinb9_11 : ∀ (i : grid9.Coords) a, (cc9_transform_11 i a + 1) * S4096x64.size a ≤ S32768x64.size a
  hwx9_11 : ∀ i : grid9.Coords, EltTy.bits .f32 = 32 ∨ (Rect.block (s := S32768x64) S4096x64.size (cc9_transform_11 i) (hinb9_11 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S256x1024.size a ≤ S1024x1024.size a
  hwx10_0 : ∀ i : grid10.Coords, EltTy.bits .bf16 = 32 ∨ (Rect.block (s := S1024x1024) S256x1024.size (cc10_transform_0 i) (hinb10_0 i)).WholeWords (EltTy.packing .bf16)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1024x2048.size a ≤ S1024x2048.size a
  hwx10_1 : ∀ i : grid10.Coords, EltTy.bits .bf16 = 32 ∨ (Rect.block (s := S1024x2048) S1024x2048.size (cc10_transform_1 i) (hinb10_1 i)).WholeWords (EltTy.packing .bf16)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S256x2048.size a ≤ S1024x2048.size a
  hwx10_2 : ∀ i : grid10.Coords, EltTy.bits .bf16 = 32 ∨ (Rect.block (s := S1024x2048) S256x2048.size (cc10_transform_2 i) (hinb10_2 i)).WholeWords (EltTy.packing .bf16)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S256x1024.size a ≤ S1024x1024.size a
  hwx11_0 : ∀ i : grid11.Coords, EltTy.bits .bf16 = 32 ∨ (Rect.block (s := S1024x1024) S256x1024.size (cc11_transform_0 i) (hinb11_0 i)).WholeWords (EltTy.packing .bf16)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S256x2048.size a ≤ S1024x2048.size a
  hwx11_1 : ∀ i : grid11.Coords, EltTy.bits .bf16 = 32 ∨ (Rect.block (s := S1024x2048) S256x2048.size (cc11_transform_1 i) (hinb11_1 i)).WholeWords (EltTy.packing .bf16)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1024x2048.size a ≤ S1024x2048.size a
  hwx11_2 : ∀ i : grid11.Coords, EltTy.bits .bf16 = 32 ∨ (Rect.block (s := S1024x2048) S1024x2048.size (cc11_transform_2 i) (hinb11_2 i)).WholeWords (EltTy.packing .bf16)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S256x2048.size a ≤ S1024x2048.size a
  hwx11_3 : ∀ i : grid11.Coords, EltTy.bits .bf16 = 32 ∨ (Rect.block (s := S1024x2048) S256x2048.size (cc11_transform_3 i) (hinb11_3 i)).WholeWords (EltTy.packing .bf16)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S4096x64.size a ≤ S32768x64.size a
  hwx12_0 : ∀ i : grid12.Coords, EltTy.bits .bf16 = 32 ∨ (Rect.block (s := S32768x64) S4096x64.size (cc12_transform_0 i) (hinb12_0 i)).WholeWords (EltTy.packing .bf16)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S4096x64.size a ≤ S32768x64.size a
  hwx12_1 : ∀ i : grid12.Coords, EltTy.bits .bf16 = 32 ∨ (Rect.block (s := S32768x64) S4096x64.size (cc12_transform_1 i) (hinb12_1 i)).WholeWords (EltTy.packing .bf16)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S4096x64.size a ≤ S32768x64.size a
  hwx12_2 : ∀ i : grid12.Coords, EltTy.bits .bf16 = 32 ∨ (Rect.block (s := S32768x64) S4096x64.size (cc12_transform_2 i) (hinb12_2 i)).WholeWords (EltTy.packing .bf16)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S4096x64.size a ≤ S32768x64.size a
  hwx12_3 : ∀ i : grid12.Coords, EltTy.bits .bf16 = 32 ∨ (Rect.block (s := S32768x64) S4096x64.size (cc12_transform_3 i) (hinb12_3 i)).WholeWords (EltTy.packing .bf16)
  hstage12_4 : ∀ j, (stage12_4 j).IsWhole
  nbuf12_4 : grid12.bufCount reads12_4 false = 2
  hreads12_4 : ∀ i i' : grid12.Coords, (∀ a, reads12_4 a = true → i a = i' a) → cc12_transform_4 i = cc12_transform_4 i'
  hinb12_4 : ∀ (i : grid12.Coords) a, (cc12_transform_4 i a + 1) * S4096x64.size a ≤ S32768x64.size a
  hwx12_4 : ∀ i : grid12.Coords, EltTy.bits .bf16 = 32 ∨ (Rect.block (s := S32768x64) S4096x64.size (cc12_transform_4 i) (hinb12_4 i)).WholeWords (EltTy.packing .bf16)
  hstage12_5 : ∀ j, (stage12_5 j).IsWhole
  nbuf12_5 : grid12.bufCount reads12_5 false = 2
  hreads12_5 : ∀ i i' : grid12.Coords, (∀ a, reads12_5 a = true → i a = i' a) → cc12_transform_5 i = cc12_transform_5 i'
  hinb12_5 : ∀ (i : grid12.Coords) a, (cc12_transform_5 i a + 1) * S4096x64.size a ≤ S32768x64.size a
  hwx12_5 : ∀ i : grid12.Coords, EltTy.bits .bf16 = 32 ∨ (Rect.block (s := S32768x64) S4096x64.size (cc12_transform_5 i) (hinb12_5 i)).WholeWords (EltTy.packing .bf16)
  hstage12_6 : ∀ j, (stage12_6 j).IsWhole
  nbuf12_6 : grid12.bufCount reads12_6 false = 2
  hreads12_6 : ∀ i i' : grid12.Coords, (∀ a, reads12_6 a = true → i a = i' a) → cc12_transform_6 i = cc12_transform_6 i'
  hinb12_6 : ∀ (i : grid12.Coords) a, (cc12_transform_6 i a + 1) * S4096x64.size a ≤ S32768x64.size a
  hwx12_6 : ∀ i : grid12.Coords, EltTy.bits .f32 = 32 ∨ (Rect.block (s := S32768x64) S4096x64.size (cc12_transform_6 i) (hinb12_6 i)).WholeWords (EltTy.packing .f32)
  hstage12_7 : ∀ j, (stage12_7 j).IsWhole
  nbuf12_7 : grid12.bufCount reads12_7 false = 2
  hreads12_7 : ∀ i i' : grid12.Coords, (∀ a, reads12_7 a = true → i a = i' a) → cc12_transform_7 i = cc12_transform_7 i'
  hinb12_7 : ∀ (i : grid12.Coords) a, (cc12_transform_7 i a + 1) * S4096x64.size a ≤ S32768x64.size a
  hwx12_7 : ∀ i : grid12.Coords, EltTy.bits .f32 = 32 ∨ (Rect.block (s := S32768x64) S4096x64.size (cc12_transform_7 i) (hinb12_7 i)).WholeWords (EltTy.packing .f32)
  hstage12_8 : ∀ j, (stage12_8 j).IsWhole
  nbuf12_8 : grid12.bufCount reads12_8 true = 1
  hreads12_8 : ∀ i i' : grid12.Coords, (∀ a, reads12_8 a = true → i a = i' a) → cc12_transform_8 i = cc12_transform_8 i'
  hinb12_8 : ∀ (i : grid12.Coords) a, (cc12_transform_8 i a + 1) * S3x64x64.size a ≤ S3x64x64.size a
  hwx12_8 : ∀ i : grid12.Coords, EltTy.bits .bf16 = 32 ∨ (Rect.block (s := S3x64x64) S3x64x64.size (cc12_transform_8 i) (hinb12_8 i)).WholeWords (EltTy.packing .bf16)
  hstage12_9 : ∀ j, (stage12_9 j).IsWhole
  nbuf12_9 : grid12.bufCount reads12_9 true = 1
  hreads12_9 : ∀ i i' : grid12.Coords, (∀ a, reads12_9 a = true → i a = i' a) → cc12_transform_9 i = cc12_transform_9 i'
  hinb12_9 : ∀ (i : grid12.Coords) a, (cc12_transform_9 i a + 1) * S3x64x64.size a ≤ S3x64x64.size a
  hwx12_9 : ∀ i : grid12.Coords, EltTy.bits .bf16 = 32 ∨ (Rect.block (s := S3x64x64) S3x64x64.size (cc12_transform_9 i) (hinb12_9 i)).WholeWords (EltTy.packing .bf16)
  hstage12_10 : ∀ j, (stage12_10 j).IsWhole
  nbuf12_10 : grid12.bufCount reads12_10 true = 1
  hreads12_10 : ∀ i i' : grid12.Coords, (∀ a, reads12_10 a = true → i a = i' a) → cc12_transform_10 i = cc12_transform_10 i'
  hinb12_10 : ∀ (i : grid12.Coords) a, (cc12_transform_10 i a + 1) * S1x64.size a ≤ S1x64.size a
  hwx12_10 : ∀ i : grid12.Coords, EltTy.bits .f32 = 32 ∨ (Rect.block (s := S1x64) S1x64.size (cc12_transform_10 i) (hinb12_10 i)).WholeWords (EltTy.packing .f32)
  hstage12_11 : ∀ j, (stage12_11 j).IsWhole
  nbuf12_11 : grid12.bufCount reads12_11 false = 2
  hreads12_11 : ∀ i i' : grid12.Coords, (∀ a, reads12_11 a = true → i a = i' a) → cc12_transform_11 i = cc12_transform_11 i'
  hinb12_11 : ∀ (i : grid12.Coords) a, (cc12_transform_11 i a + 1) * S32x128x64.size a ≤ S32x1024x64.size a
  hwx12_11 : ∀ i : grid12.Coords, EltTy.bits .f32 = 32 ∨ (Rect.block (s := S32x1024x64) S32x128x64.size (cc12_transform_11 i) (hinb12_11 i)).WholeWords (EltTy.packing .f32)
  hstage12_12 : ∀ j, (stage12_12 j).IsWhole
  nbuf12_12 : grid12.bufCount reads12_12 false = 2
  hreads12_12 : ∀ i i' : grid12.Coords, (∀ a, reads12_12 a = true → i a = i' a) → cc12_transform_12 i = cc12_transform_12 i'
  hinb12_12 : ∀ (i : grid12.Coords) a, (cc12_transform_12 i a + 1) * S4096x64.size a ≤ S32768x64.size a
  hwx12_12 : ∀ i : grid12.Coords, EltTy.bits .bf16 = 32 ∨ (Rect.block (s := S32768x64) S4096x64.size (cc12_transform_12 i) (hinb12_12 i)).WholeWords (EltTy.packing .bf16)

variable [Facts₀]

def dot_S256x1024_S1024x64_S256x64_1_0_0_1_n_n : DotDims S256x1024 S1024x64 S256x64 where
  lhsContracting := [1]
  rhsContracting := [0]
  lhsNonContracting := [0]
  rhsNonContracting := [1]
  lhsBatch := []
  rhsBatch := []
  wf := dot_S256x1024_S1024x64_S256x64_1_0_0_1_n_n_wf
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S4096x2_S2x128_S4096x128_1_0_0_1_n_n : DotDims S4096x2 S2x128 S4096x128 where
  lhsContracting := [1]
  rhsContracting := [0]
  lhsNonContracting := [0]
  rhsNonContracting := [1]
  lhsBatch := []
  rhsBatch := []
  wf := dot_S4096x2_S2x128_S4096x128_1_0_0_1_n_n_wf
def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf
def dot_S4096x2_S2x64_S4096x64_1_0_0_1_n_n : DotDims S4096x2 S2x64 S4096x64 where
  lhsContracting := [1]
  rhsContracting := [0]
  lhsNonContracting := [0]
  rhsNonContracting := [1]
  lhsBatch := []
  rhsBatch := []
  wf := dot_S4096x2_S2x64_S4096x64_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf

abbrev win0_0 : Pipeline.Window sig grid0 :=
  Pipeline.Window.ofSpec (Memref.whole main_v1) S32x128x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S32x128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S32x128x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8_0) S4096x2.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8_1) S4096x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8_2) S4096x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8_3) S4096x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v8_4) S4096x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v0) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S1024x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S1024x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35_0) S256x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v35_1) S256x2048.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v0) S256x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S256x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v35_0) S1024x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v34) S256x2048.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v35_1) S1024x2048.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v36_0) S256x64.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v36_1) S256x2048.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v8_0) S4096x2.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v37) S4096x2.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v38) S4096x2.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v8_1) S4096x64.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v39) S4096x64.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v40) S4096x64.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v8_2) S4096x64.size cc3_transform_6 reads3_6 false false 2 stage3_6 sem3_6
    hrank3 hreads3_6 hinb3_6 nbuf3_6 (Memref.isWhole_whole _) hwx3_6 hstage3_6

abbrev win3_7 : Pipeline.Window sig grid3 :=
  Pipeline.Window.ofSpec (Memref.whole main_v12) S3x2x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v13) S3x64x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v29) S1x128.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v41_0) S4096x64.size cc3_transform_10 reads3_10 true false 2 stage3_10 sem3_10
    hrank3 hreads3_10 hinb3_10 nbuf3_10 (Memref.isWhole_whole _) hwx3_10 hstage3_10

abbrev win3_11 : Pipeline.Window sig grid3 :=
  Pipeline.Window.ofSpec (Memref.whole main_v41_1) S4096x64.size cc3_transform_11 reads3_11 true false 2 stage3_11 sem3_11
    hrank3 hreads3_11 hinb3_11 nbuf3_11 (Memref.isWhole_whole _) hwx3_11 hstage3_11

abbrev win3 : Fin 12 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | ⟨_ + 12, h⟩ => absurd h (Nat.not_lt.2 (Nat.le_add_left _ _))
abbrev spec3 : Fin 12 → Pipeline.WinSpec sig grid3.rank := fun w => (win3 w).toWinSpec

abbrev win4_0 : Pipeline.Window sig grid4 :=
  Pipeline.Window.ofSpec (Memref.whole main_v0) S256x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v42) S1024x2048.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v43) S256x2048.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v0) S256x1024.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v42) S256x2048.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v43) S1024x2048.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v44) S256x2048.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v8_0) S4096x2.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v45) S4096x2.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v46) S4096x2.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v41_0) S4096x64.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v47) S4096x64.size cc6_transform_4 reads6_4 false false 2 stage6_4 sem6_4
    hrank6 hreads6_4 hinb6_4 nbuf6_4 (Memref.isWhole_whole _) hwx6_4 hstage6_4

abbrev win6_5 : Pipeline.Window sig grid6 :=
  Pipeline.Window.ofSpec (Memref.whole main_v48) S4096x64.size cc6_transform_5 reads6_5 false false 2 stage6_5 sem6_5
    hrank6 hreads6_5 hinb6_5 nbuf6_5 (Memref.isWhole_whole _) hwx6_5 hstage6_5

abbrev win6_6 : Pipeline.Window sig grid6 :=
  Pipeline.Window.ofSpec (Memref.whole main_v41_1) S4096x64.size cc6_transform_6 reads6_6 false false 2 stage6_6 sem6_6
    hrank6 hreads6_6 hinb6_6 nbuf6_6 (Memref.isWhole_whole _) hwx6_6 hstage6_6

abbrev win6_7 : Pipeline.Window sig grid6 :=
  Pipeline.Window.ofSpec (Memref.whole main_v8_2) S4096x64.size cc6_transform_7 reads6_7 false false 2 stage6_7 sem6_7
    hrank6 hreads6_7 hinb6_7 nbuf6_7 (Memref.isWhole_whole _) hwx6_7 hstage6_7

abbrev win6_8 : Pipeline.Window sig grid6 :=
  Pipeline.Window.ofSpec (Memref.whole main_v17) S3x2x64.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v18) S3x64x64.size cc6_transform_9 reads6_9 false true 1 stage6_9 sem6_9
    hrank6 hreads6_9 hinb6_9 nbuf6_9 (Memref.isWhole_whole _) hwx6_9 hstage6_9

abbrev win6_10 : Pipeline.Window sig grid6 :=
  Pipeline.Window.ofSpec (Memref.whole main_v30) S1x64.size cc6_transform_10 reads6_10 false true 1 stage6_10 sem6_10
    hrank6 hreads6_10 hinb6_10 nbuf6_10 (Memref.isWhole_whole _) hwx6_10 hstage6_10

abbrev win6_11 : Pipeline.Window sig grid6 :=
  Pipeline.Window.ofSpec (Memref.whole main_v49_0) S32x128x64.size cc6_transform_11 reads6_11 true false 2 stage6_11 sem6_11
    hrank6 hreads6_11 hinb6_11 nbuf6_11 (Memref.isWhole_whole _) hwx6_11 hstage6_11

abbrev win6_12 : Pipeline.Window sig grid6 :=
  Pipeline.Window.ofSpec (Memref.whole main_v49_1) S4096x64.size cc6_transform_12 reads6_12 true false 2 stage6_12 sem6_12
    hrank6 hreads6_12 hinb6_12 nbuf6_12 (Memref.isWhole_whole _) hwx6_12 hstage6_12

abbrev win6 : Fin 13 → Pipeline.Window sig grid6 := fun | 0 => win6_0 | 1 => win6_1 | 2 => win6_2 | 3 => win6_3 | 4 => win6_4 | 5 => win6_5 | 6 => win6_6 | 7 => win6_7 | 8 => win6_8 | 9 => win6_9 | 10 => win6_10 | 11 => win6_11 | 12 => win6_12 | ⟨_ + 13, h⟩ => absurd h (Nat.not_lt.2 (Nat.le_add_left _ _))
abbrev spec6 : Fin 13 → Pipeline.WinSpec sig grid6.rank := fun w => (win6 w).toWinSpec

abbrev win7_0 : Pipeline.Window sig grid7 :=
  Pipeline.Window.ofSpec (Memref.whole main_v0) S256x1024.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v50) S1024x2048.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v51) S1024x2048.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v52_0) S256x2048.size cc7_transform_3 reads7_3 true false 2 stage7_3 sem7_3
    hrank7 hreads7_3 hinb7_3 nbuf7_3 (Memref.isWhole_whole _) hwx7_3 hstage7_3

abbrev win7_4 : Pipeline.Window sig grid7 :=
  Pipeline.Window.ofSpec (Memref.whole main_v52_1) S256x2048.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v0) S256x1024.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v50) S256x2048.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v52_0) S1024x2048.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v51) S256x2048.size cc8_transform_3 reads8_3 false false 2 stage8_3 sem8_3
    hrank8 hreads8_3 hinb8_3 nbuf8_3 (Memref.isWhole_whole _) hwx8_3 hstage8_3

abbrev win8_4 : Pipeline.Window sig grid8 :=
  Pipeline.Window.ofSpec (Memref.whole main_v52_1) S1024x2048.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v53_0) S256x2048.size cc8_transform_5 reads8_5 true false 2 stage8_5 sem8_5
    hrank8 hreads8_5 hinb8_5 nbuf8_5 (Memref.isWhole_whole _) hwx8_5 hstage8_5

abbrev win8_6 : Pipeline.Window sig grid8 :=
  Pipeline.Window.ofSpec (Memref.whole main_v53_1) S256x2048.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev win9_0 : Pipeline.Window sig grid9 :=
  Pipeline.Window.ofSpec (Memref.whole main_v49_1) S4096x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v54) S4096x64.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v55) S4096x64.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v8_3) S4096x64.size cc9_transform_3 reads9_3 false false 2 stage9_3 sem9_3
    hrank9 hreads9_3 hinb9_3 nbuf9_3 (Memref.isWhole_whole _) hwx9_3 hstage9_3

abbrev win9_4 : Pipeline.Window sig grid9 :=
  Pipeline.Window.ofSpec (Memref.whole main_v56) S4096x64.size cc9_transform_4 reads9_4 false false 2 stage9_4 sem9_4
    hrank9 hreads9_4 hinb9_4 nbuf9_4 (Memref.isWhole_whole _) hwx9_4 hstage9_4

abbrev win9_5 : Pipeline.Window sig grid9 :=
  Pipeline.Window.ofSpec (Memref.whole main_v57) S4096x64.size cc9_transform_5 reads9_5 false false 2 stage9_5 sem9_5
    hrank9 hreads9_5 hinb9_5 nbuf9_5 (Memref.isWhole_whole _) hwx9_5 hstage9_5

abbrev win9_6 : Pipeline.Window sig grid9 :=
  Pipeline.Window.ofSpec (Memref.whole main_v8_4) S4096x64.size cc9_transform_6 reads9_6 false false 2 stage9_6 sem9_6
    hrank9 hreads9_6 hinb9_6 nbuf9_6 (Memref.isWhole_whole _) hwx9_6 hstage9_6

abbrev win9_7 : Pipeline.Window sig grid9 :=
  Pipeline.Window.ofSpec (Memref.whole main_v22) S3x64x128.size cc9_transform_7 reads9_7 false true 1 stage9_7 sem9_7
    hrank9 hreads9_7 hinb9_7 nbuf9_7 (Memref.isWhole_whole _) hwx9_7 hstage9_7

abbrev win9_8 : Pipeline.Window sig grid9 :=
  Pipeline.Window.ofSpec (Memref.whole main_v23) S3x64x128.size cc9_transform_8 reads9_8 false true 1 stage9_8 sem9_8
    hrank9 hreads9_8 hinb9_8 nbuf9_8 (Memref.isWhole_whole _) hwx9_8 hstage9_8

abbrev win9_9 : Pipeline.Window sig grid9 :=
  Pipeline.Window.ofSpec (Memref.whole main_v31) S1x128.size cc9_transform_9 reads9_9 false true 1 stage9_9 sem9_9
    hrank9 hreads9_9 hinb9_9 nbuf9_9 (Memref.isWhole_whole _) hwx9_9 hstage9_9

abbrev win9_10 : Pipeline.Window sig grid9 :=
  Pipeline.Window.ofSpec (Memref.whole main_v58_0) S4096x64.size cc9_transform_10 reads9_10 true false 2 stage9_10 sem9_10
    hrank9 hreads9_10 hinb9_10 nbuf9_10 (Memref.isWhole_whole _) hwx9_10 hstage9_10

abbrev win9_11 : Pipeline.Window sig grid9 :=
  Pipeline.Window.ofSpec (Memref.whole main_v58_1) S4096x64.size cc9_transform_11 reads9_11 true false 2 stage9_11 sem9_11
    hrank9 hreads9_11 hinb9_11 nbuf9_11 (Memref.isWhole_whole _) hwx9_11 hstage9_11

abbrev win9 : Fin 12 → Pipeline.Window sig grid9 := fun | 0 => win9_0 | 1 => win9_1 | 2 => win9_2 | 3 => win9_3 | 4 => win9_4 | 5 => win9_5 | 6 => win9_6 | 7 => win9_7 | 8 => win9_8 | 9 => win9_9 | 10 => win9_10 | 11 => win9_11 | ⟨_ + 12, h⟩ => absurd h (Nat.not_lt.2 (Nat.le_add_left _ _))
abbrev spec9 : Fin 12 → Pipeline.WinSpec sig grid9.rank := fun w => (win9 w).toWinSpec

abbrev win10_0 : Pipeline.Window sig grid10 :=
  Pipeline.Window.ofSpec (Memref.whole main_v0) S256x1024.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v59) S1024x2048.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v60) S256x2048.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v0) S256x1024.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v59) S256x2048.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v60) S1024x2048.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v61) S256x2048.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev win12_0 : Pipeline.Window sig grid12 :=
  Pipeline.Window.ofSpec (Memref.whole main_v49_1) S4096x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v62) S4096x64.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v63) S4096x64.size cc12_transform_2 reads12_2 false false 2 stage12_2 sem12_2
    hrank12 hreads12_2 hinb12_2 nbuf12_2 (Memref.isWhole_whole _) hwx12_2 hstage12_2

abbrev win12_3 : Pipeline.Window sig grid12 :=
  Pipeline.Window.ofSpec (Memref.whole main_v58_0) S4096x64.size cc12_transform_3 reads12_3 false false 2 stage12_3 sem12_3
    hrank12 hreads12_3 hinb12_3 nbuf12_3 (Memref.isWhole_whole _) hwx12_3 hstage12_3

abbrev win12_4 : Pipeline.Window sig grid12 :=
  Pipeline.Window.ofSpec (Memref.whole main_v64) S4096x64.size cc12_transform_4 reads12_4 false false 2 stage12_4 sem12_4
    hrank12 hreads12_4 hinb12_4 nbuf12_4 (Memref.isWhole_whole _) hwx12_4 hstage12_4

abbrev win12_5 : Pipeline.Window sig grid12 :=
  Pipeline.Window.ofSpec (Memref.whole main_v65) S4096x64.size cc12_transform_5 reads12_5 false false 2 stage12_5 sem12_5
    hrank12 hreads12_5 hinb12_5 nbuf12_5 (Memref.isWhole_whole _) hwx12_5 hstage12_5

abbrev win12_6 : Pipeline.Window sig grid12 :=
  Pipeline.Window.ofSpec (Memref.whole main_v58_1) S4096x64.size cc12_transform_6 reads12_6 false false 2 stage12_6 sem12_6
    hrank12 hreads12_6 hinb12_6 nbuf12_6 (Memref.isWhole_whole _) hwx12_6 hstage12_6

abbrev win12_7 : Pipeline.Window sig grid12 :=
  Pipeline.Window.ofSpec (Memref.whole main_v8_4) S4096x64.size cc12_transform_7 reads12_7 false false 2 stage12_7 sem12_7
    hrank12 hreads12_7 hinb12_7 nbuf12_7 (Memref.isWhole_whole _) hwx12_7 hstage12_7

abbrev win12_8 : Pipeline.Window sig grid12 :=
  Pipeline.Window.ofSpec (Memref.whole main_v27) S3x64x64.size cc12_transform_8 reads12_8 false true 1 stage12_8 sem12_8
    hrank12 hreads12_8 hinb12_8 nbuf12_8 (Memref.isWhole_whole _) hwx12_8 hstage12_8

abbrev win12_9 : Pipeline.Window sig grid12 :=
  Pipeline.Window.ofSpec (Memref.whole main_v28) S3x64x64.size cc12_transform_9 reads12_9 false true 1 stage12_9 sem12_9
    hrank12 hreads12_9 hinb12_9 nbuf12_9 (Memref.isWhole_whole _) hwx12_9 hstage12_9

abbrev win12_10 : Pipeline.Window sig grid12 :=
  Pipeline.Window.ofSpec (Memref.whole main_v32) S1x64.size cc12_transform_10 reads12_10 false true 1 stage12_10 sem12_10
    hrank12 hreads12_10 hinb12_10 nbuf12_10 (Memref.isWhole_whole _) hwx12_10 hstage12_10

abbrev win12_11 : Pipeline.Window sig grid12 :=
  Pipeline.Window.ofSpec (Memref.whole main_v66_0) S32x128x64.size cc12_transform_11 reads12_11 true false 2 stage12_11 sem12_11
    hrank12 hreads12_11 hinb12_11 nbuf12_11 (Memref.isWhole_whole _) hwx12_11 hstage12_11

abbrev win12_12 : Pipeline.Window sig grid12 :=
  Pipeline.Window.ofSpec (Memref.whole main_v66_1) S4096x64.size cc12_transform_12 reads12_12 true false 2 stage12_12 sem12_12
    hrank12 hreads12_12 hinb12_12 nbuf12_12 (Memref.isWhole_whole _) hwx12_12 hstage12_12

abbrev win12 : Fin 13 → Pipeline.Window sig grid12 := fun | 0 => win12_0 | 1 => win12_1 | 2 => win12_2 | 3 => win12_3 | 4 => win12_4 | 5 => win12_5 | 6 => win12_6 | 7 => win12_7 | 8 => win12_8 | 9 => win12_9 | 10 => win12_10 | 11 => win12_11 | 12 => win12_12 | ⟨_ + 13, h⟩ => absurd h (Nat.not_lt.2 (Nat.le_add_left _ _))
abbrev spec12 : Fin 13 → Pipeline.WinSpec sig grid12.rank := fun w => (win12 w).toWinSpec

class Facts : Prop extends Facts₀ where

variable [Facts]
-- ==== ReferenceIdeal.lean ====
abbrev S32x2048 : Shape := ⟨2, ![32, 2048]⟩
abbrev S1024x1024 : Shape := ⟨2, ![1024, 1024]⟩
abbrev S2x32x65536 : Shape := ⟨3, ![2, 32, 65536]⟩
abbrev S198x128 : Shape := ⟨2, ![198, 128]⟩
abbrev S128 : Shape := ⟨1, ![128]⟩
abbrev S198x64 : Shape := ⟨2, ![198, 64]⟩
abbrev S64 : Shape := ⟨1, ![64]⟩
abbrev S384x128 : Shape := ⟨2, ![384, 128]⟩
abbrev S384x64 : Shape := ⟨2, ![384, 64]⟩
abbrev S1x32x65536 : Shape := ⟨3, ![1, 32, 65536]⟩
abbrev S32x65536 : Shape := ⟨2, ![32, 65536]⟩
abbrev S32x1024x2 : Shape := ⟨3, ![32, 1024, 2]⟩
abbrev S32x1024x64 : Shape := ⟨3, ![32, 1024, 64]⟩
abbrev S32x1024x66 : Shape := ⟨3, ![32, 1024, 66]⟩
abbrev S1024x66x32 : Shape := ⟨3, ![1024, 66, 32]⟩
abbrev S1024x2112 : Shape := ⟨2, ![1024, 2112]⟩
abbrev S_ : Shape := ⟨0, ![]⟩
abbrev S1x1024x2112 : Shape := ⟨3, ![1, 1024, 2112]⟩
abbrev S3x1024x2112 : Shape := ⟨3, ![3, 1024, 2112]⟩
abbrev S3x1024x66x32 : Shape := ⟨4, ![3, 1024, 66, 32]⟩
abbrev S32x1024x66x3 : Shape := ⟨4, ![32, 1024, 66, 3]⟩
abbrev S32768x198 : Shape := ⟨2, ![32768, 198]⟩
abbrev S32768x128 : Shape := ⟨2, ![32768, 128]⟩
abbrev S1x128 : Shape := ⟨2, ![1, 128]⟩
abbrev S32x1024x128 : Shape := ⟨3, ![32, 1024, 128]⟩
abbrev S32768x64 : Shape := ⟨2, ![32768, 64]⟩
abbrev S1x64 : Shape := ⟨2, ![1, 64]⟩
abbrev S1024x128x32 : Shape := ⟨3, ![1024, 128, 32]⟩
abbrev S1024x4096 : Shape := ⟨2, ![1024, 4096]⟩
abbrev S1x1024x4096 : Shape := ⟨3, ![1, 1024, 4096]⟩
abbrev S3x1024x4096 : Shape := ⟨3, ![3, 1024, 4096]⟩
abbrev S3x1024x128x32 : Shape := ⟨4, ![3, 1024, 128, 32]⟩
abbrev S32x1024x128x3 : Shape := ⟨4, ![32, 1024, 128, 3]⟩
abbrev S32768x384 : Shape := ⟨2, ![32768, 384]⟩

abbrev nBuf : Space → Nat
  | .hbm => 152
  | .vmem => 0
  | .smem => 0
  | _ => 0

abbrev hbmTy0_0 (i : Nat) : BufTy := match i % 128 with
  | 0 => ⟨S32x2048, .f32⟩
  | 1 => ⟨S1024x1024, .f32⟩
  | 2 => ⟨S2x32x65536, .f32⟩
  | 3 => ⟨S198x128, .f32⟩
  | 4 => ⟨S128, .f32⟩
  | 5 => ⟨S198x64, .f32⟩
  | 6 => ⟨S64, .f32⟩
  | 7 => ⟨S384x128, .f32⟩
  | 8 => ⟨S128, .f32⟩
  | 9 => ⟨S384x64, .f32⟩
  | 10 => ⟨S64, .f32⟩
  | 11 => ⟨S1x32x65536, .f32⟩
  | 12 => ⟨S32x65536, .f32⟩
  | 13 => ⟨S32x1024x2, .f32⟩
  | 14 => ⟨S32x1024x64, .f32⟩
  | 15 => ⟨S32x1024x66, .f32⟩
  | 16 => ⟨S1024x66x32, .f32⟩
  | 17 => ⟨S1024x2112, .f32⟩
  | 18 => ⟨S1024x2112, .f32⟩
  | 19 => ⟨S1024x2112, .f32⟩
  | 20 => ⟨S_, .f32⟩
  | 21 => ⟨S1024x2112, .f32⟩
  | 22 => ⟨S1024x2112, .f32⟩
  | 23 => ⟨S1024x2112, .f32⟩
  | 24 => ⟨S1x1024x2112, .f32⟩
  | 25 => ⟨S1x1024x2112, .f32⟩
  | 26 => ⟨S1x1024x2112, .f32⟩
  | 27 => ⟨S3x1024x2112, .f32⟩
  | 28 => ⟨S3x1024x66x32, .f32⟩
  | 29 => ⟨S32x1024x66x3, .f32⟩
  | 30 => ⟨S32768x198, .f32⟩
  | 31 => ⟨S32768x128, .f32⟩
  | 32 => ⟨S1x128, .f32⟩
  | 33 => ⟨S32768x128, .f32⟩
  | 34 => ⟨S32768x128, .f32⟩
  | 35 => ⟨S32x1024x128, .f32⟩
  | 36 => ⟨S32x1024x128, .f32⟩
  | 37 => ⟨S32x1024x128, .f32⟩
  | 38 => ⟨S_, .f32⟩
  | 39 => ⟨S32x1024x128, .f32⟩
  | 40 => ⟨S32x1024x128, .f32⟩
  | 41 => ⟨S_, .f32⟩
  | 42 => ⟨S32x1024x128, .f32⟩
  | 43 => ⟨S32x1024x128, .f32⟩
  | 44 => ⟨S32x1024x64, .f32⟩
  | 45 => ⟨S32x65536, .f32⟩
  | 46 => ⟨S32x1024x64, .f32⟩
  | 47 => ⟨S32x65536, .f32⟩
  | 48 => ⟨S32x65536, .f32⟩
  | 49 => ⟨S32x1024x2, .f32⟩
  | 50 => ⟨S32x1024x64, .f32⟩
  | 51 => ⟨S32x1024x66, .f32⟩
  | 52 => ⟨S1024x66x32, .f32⟩
  | 53 => ⟨S1024x2112, .f32⟩
  | 54 => ⟨S1024x2112, .f32⟩
  | 55 => ⟨S1024x2112, .f32⟩
  | 56 => ⟨S_, .f32⟩
  | 57 => ⟨S1024x2112, .f32⟩
  | 58 => ⟨S1024x2112, .f32⟩
  | 59 => ⟨S1024x2112, .f32⟩
  | 60 => ⟨S1x1024x2112, .f32⟩
  | 61 => ⟨S1x1024x2112, .f32⟩
  | 62 => ⟨S1x1024x2112, .f32⟩
  | 63 => ⟨S3x1024x2112, .f32⟩
  | 64 => ⟨S3x1024x66x32, .f32⟩
  | 65 => ⟨S32x1024x66x3, .f32⟩
  | 66 => ⟨S32768x198, .f32⟩
  | 67 => ⟨S32768x64, .f32⟩
  | 68 => ⟨S1x64, .f32⟩
  | 69 => ⟨S32768x64, .f32⟩
  | 70 => ⟨S32768x64, .f32⟩
  | 71 => ⟨S32x1024x64, .f32⟩
  | 72 => ⟨S32x65536, .f32⟩
  | 73 => ⟨S32x65536, .f32⟩
  | 74 => ⟨S32x65536, .f32⟩
  | 75 => ⟨S_, .f32⟩
  | 76 => ⟨S32x65536, .f32⟩
  | 77 => ⟨S32x65536, .f32⟩
  | 78 => ⟨S32x65536, .f32⟩
  | 79 => ⟨S32x65536, .f32⟩
  | 80 => ⟨S1x32x65536, .f32⟩
  | 81 => ⟨S32x65536, .f32⟩
  | 82 => ⟨S32x1024x64, .f32⟩
  | 83 => ⟨S32x1024x64, .f32⟩
  | 84 => ⟨S32x1024x128, .f32⟩
  | 85 => ⟨S1024x128x32, .f32⟩
  | 86 => ⟨S1024x4096, .f32⟩
  | 87 => ⟨S1024x4096, .f32⟩
  | 88 => ⟨S1024x4096, .f32⟩
  | 89 => ⟨S_, .f32⟩
  | 90 => ⟨S1024x4096, .f32⟩
  | 91 => ⟨S1024x4096, .f32⟩
  | 92 => ⟨S1024x4096, .f32⟩
  | 93 => ⟨S1x1024x4096, .f32⟩
  | 94 => ⟨S1x1024x4096, .f32⟩
  | 95 => ⟨S1x1024x4096, .f32⟩
  | 96 => ⟨S3x1024x4096, .f32⟩
  | 97 => ⟨S3x1024x128x32, .f32⟩
  | 98 => ⟨S32x1024x128x3, .f32⟩
  | 99 => ⟨S32768x384, .f32⟩
  | 100 => ⟨S32768x128, .f32⟩
  | 101 => ⟨S1x128, .f32⟩
  | 102 => ⟨S32768x128, .f32⟩
  | 103 => ⟨S32768x128, .f32⟩
  | 104 => ⟨S32x1024x128, .f32⟩
  | 105 => ⟨S32x1024x128, .f32⟩
  | 106 => ⟨S32x1024x128, .f32⟩
  | 107 => ⟨S_, .f32⟩
  | 108 => ⟨S32x1024x128, .f32⟩
  | 109 => ⟨S32x1024x128, .f32⟩
  | 110 => ⟨S_, .f32⟩
  | 111 => ⟨S32x1024x128, .f32⟩
  | 112 => ⟨S32x1024x128, .f32⟩
  | 113 => ⟨S32x1024x64, .f32⟩
  | 114 => ⟨S32x65536, .f32⟩
  | 115 => ⟨S32x1024x64, .f32⟩
  | 116 => ⟨S32x65536, .f32⟩
  | 117 => ⟨S32x65536, .f32⟩
  | 118 => ⟨S32x1024x64, .f32⟩
  | 119 => ⟨S32x1024x64, .f32⟩
  | 120 => ⟨S32x1024x128, .f32⟩
  | 121 => ⟨S1024x128x32, .f32⟩
  | 122 => ⟨S1024x4096, .f32⟩
  | 123 => ⟨S1024x4096, .f32⟩
  | 124 => ⟨S1024x4096, .f32⟩
  | 125 => ⟨S_, .f32⟩
  | 126 => ⟨S1024x4096, .f32⟩
  | 127 => ⟨S1024x4096, .f32⟩
  | _ => ⟨S32x2048, .f32⟩

abbrev hbmTy0_1 (i : Nat) : BufTy := match i % 128 with
  | 0 => ⟨S1024x4096, .f32⟩
  | 1 => ⟨S1x1024x4096, .f32⟩
  | 2 => ⟨S1x1024x4096, .f32⟩
  | 3 => ⟨S1x1024x4096, .f32⟩
  | 4 => ⟨S3x1024x4096, .f32⟩
  | 5 => ⟨S3x1024x128x32, .f32⟩
  | 6 => ⟨S32x1024x128x3, .f32⟩
  | 7 => ⟨S32768x384, .f32⟩
  | 8 => ⟨S32768x64, .f32⟩
  | 9 => ⟨S1x64, .f32⟩
  | 10 => ⟨S32768x64, .f32⟩
  | 11 => ⟨S32768x64, .f32⟩
  | 12 => ⟨S32x1024x64, .f32⟩
  | 13 => ⟨S32x65536, .f32⟩
  | 14 => ⟨S32x65536, .f32⟩
  | 15 => ⟨S32x65536, .f32⟩
  | 16 => ⟨S_, .f32⟩
  | 17 => ⟨S32x65536, .f32⟩
  | 18 => ⟨S32x65536, .f32⟩
  | 19 => ⟨S32x65536, .f32⟩
  | 20 => ⟨S32x65536, .f32⟩
  | 21 => ⟨S1x32x65536, .f32⟩
  | 22 => ⟨S1x32x65536, .f32⟩
  | 23 => ⟨S2x32x65536, .f32⟩
  | _ => ⟨S32x2048, .f32⟩

abbrev hbmTy (i : Nat) : BufTy := match i / 128 with
  | 0 => hbmTy0_0 i
  | 1 => hbmTy0_1 i
  | _ => ⟨S32x2048, .f32⟩

abbrev bufTy : (tb : Table) → Fin (tcTables nBuf tb) → BufTy
  | .hbm, ⟨i, _⟩ => hbmTy i
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_0 : Ref sig .tc := ⟨.hbm, 38, rfl⟩
abbrev main_v26 : Ref sig .tc := ⟨.hbm, 39, rfl⟩
abbrev main_v27 : Ref sig .tc := ⟨.hbm, 40, rfl⟩
abbrev main_cst_1 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_2 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_3 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_cst_4 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_cst_5 : Ref sig .tc := ⟨.hbm, 107, rfl⟩
abbrev main_v90 : Ref sig .tc := ⟨.hbm, 108, rfl⟩
abbrev main_v91 : Ref sig .tc := ⟨.hbm, 109, rfl⟩
abbrev main_cst_6 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_cst_7 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_cst_8 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩

abbrev nD : Nat := 1
abbrev τ : Topo := Topo.v7x

variable {F : FTy → Type} [FloatOps F]

class Facts₀ : Prop where
  slices_S2x32x65536_S1x32x65536_0_0_0 : S2x32x65536.Slices ![0, 0, 0] S1x32x65536
  shapeCasts_S1x32x65536_S32x65536 : S1x32x65536.ShapeCasts S32x65536
  shapeCasts_S32x2048_S32x1024x2 : S32x2048.ShapeCasts S32x1024x2
  shapeCasts_S32x65536_S32x1024x64 : S32x65536.ShapeCasts S32x1024x64
  concatenates_S32x1024x2_S32x1024x64_S32x1024x66_d2 : Shape.Concatenates [S32x1024x2, S32x1024x64] S32x1024x66 2
  transposes_S32x1024x66_S1024x66x32_1_2_0 : S32x1024x66.Transposes [1, 2, 0] S1024x66x32
  shapeCasts_S1024x66x32_S1024x2112 : S1024x66x32.ShapeCasts S1024x2112
  bcast_S_S1024x2112 : S_.BroadcastsInDim S1024x2112 (![] : Fin 0 → Fin S1024x2112.rank)
  bcast_S1024x2112_S1x1024x2112_1_2 : S1024x2112.BroadcastsInDim S1x1024x2112 (![1, 2] : Fin 2 → Fin S1x1024x2112.rank)
  concatenates_S1x1024x2112_S1x1024x2112_S1x1024x2112_S3x1024x2112_d0 : Shape.Concatenates [S1x1024x2112, S1x1024x2112, S1x1024x2112] S3x1024x2112 0
  shapeCasts_S3x1024x2112_S3x1024x66x32 : S3x1024x2112.ShapeCasts S3x1024x66x32
  transposes_S3x1024x66x32_S32x1024x66x3_3_1_2_0 : S3x1024x66x32.Transposes [3, 1, 2, 0] S32x1024x66x3
  shapeCasts_S32x1024x66x3_S32768x198 : S32x1024x66x3.ShapeCasts S32768x198
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  shapeCasts_S32768x128_S32x1024x128 : S32768x128.ShapeCasts S32x1024x128
  bcast_S_S32x1024x128 : S_.BroadcastsInDim S32x1024x128 (![] : Fin 0 → Fin S32x1024x128.rank)
  slices_S32x1024x128_S32x1024x64_0_0_0 : S32x1024x128.Slices ![0, 0, 0] S32x1024x64
  shapeCasts_S32x1024x64_S32x65536 : S32x1024x64.ShapeCasts S32x65536
  slices_S32x1024x128_S32x1024x64_0_0_64 : S32x1024x128.Slices ![0, 0, 64] S32x1024x64
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  shapeCasts_S32768x64_S32x1024x64 : S32768x64.ShapeCasts S32x1024x64
  bcast_S_S32x65536 : S_.BroadcastsInDim S32x65536 (![] : Fin 0 → Fin S32x65536.rank)
  slices_S2x32x65536_S1x32x65536_1_0_0 : S2x32x65536.Slices ![1, 0, 0] S1x32x65536
  concatenates_S32x1024x64_S32x1024x64_S32x1024x128_d2 : Shape.Concatenates [S32x1024x64, S32x1024x64] S32x1024x128 2
  transposes_S32x1024x128_S1024x128x32_1_2_0 : S32x1024x128.Transposes [1, 2, 0] S1024x128x32
  shapeCasts_S1024x128x32_S1024x4096 : S1024x128x32.ShapeCasts S1024x4096
  bcast_S_S1024x4096 : S_.BroadcastsInDim S1024x4096 (![] : Fin 0 → Fin S1024x4096.rank)
  bcast_S1024x4096_S1x1024x4096_1_2 : S1024x4096.BroadcastsInDim S1x1024x4096 (![1, 2] : Fin 2 → Fin S1x1024x4096.rank)
  concatenates_S1x1024x4096_S1x1024x4096_S1x1024x4096_S3x1024x4096_d0 : Shape.Concatenates [S1x1024x4096, S1x1024x4096, S1x1024x4096] S3x1024x4096 0
  shapeCasts_S3x1024x4096_S3x1024x128x32 : S3x1024x4096.ShapeCasts S3x1024x128x32
  transposes_S3x1024x128x32_S32x1024x128x3_3_1_2_0 : S3x1024x128x32.Transposes [3, 1, 2, 0] S32x1024x128x3
  shapeCasts_S32x1024x128x3_S32768x384 : S32x1024x128x3.ShapeCasts S32768x384
  bcast_S32x65536_S1x32x65536_1_2 : S32x65536.BroadcastsInDim S1x32x65536 (![1, 2] : Fin 2 → Fin S1x32x65536.rank)
  concatenates_S1x32x65536_S1x32x65536_S2x32x65536_d0 : Shape.Concatenates [S1x32x65536, S1x32x65536] S2x32x65536 0
  dot_S1024x1024_S1024x2112_S1024x2112_1_0_0_1_n_n_wf : DotDims.WF S1024x1024 S1024x2112 S1024x2112 [1] [0] [0] [1] [] []
  dot_S32768x198_S198x128_S32768x128_1_0_0_1_n_n_wf : DotDims.WF S32768x198 S198x128 S32768x128 [1] [0] [0] [1] [] []
  dot_S32768x198_S198x64_S32768x64_1_0_0_1_n_n_wf : DotDims.WF S32768x198 S198x64 S32768x64 [1] [0] [0] [1] [] []
  dot_S1024x1024_S1024x4096_S1024x4096_1_0_0_1_n_n_wf : DotDims.WF S1024x1024 S1024x4096 S1024x4096 [1] [0] [0] [1] [] []
  dot_S32768x384_S384x128_S32768x128_1_0_0_1_n_n_wf : DotDims.WF S32768x384 S384x128 S32768x128 [1] [0] [0] [1] [] []
  dot_S32768x384_S384x64_S32768x64_1_0_0_1_n_n_wf : DotDims.WF S32768x384 S384x64 S32768x64 [1] [0] [0] [1] [] []

variable [Facts₀]

def dot_S1024x1024_S1024x2112_S1024x2112_1_0_0_1_n_n : DotDims S1024x1024 S1024x2112 S1024x2112 where
  lhsContracting := [1]
  rhsContracting := [0]
  lhsNonContracting := [0]
  rhsNonContracting := [1]
  lhsBatch := []
  rhsBatch := []
  wf := dot_S1024x1024_S1024x2112_S1024x2112_1_0_0_1_n_n_wf
def dot_S32768x198_S198x128_S32768x128_1_0_0_1_n_n : DotDims S32768x198 S198x128 S32768x128 where
  lhsContracting := [1]
  rhsContracting := [0]
  lhsNonContracting := [0]
  rhsNonContracting := [1]
  lhsBatch := []
  rhsBatch := []
  wf := dot_S32768x198_S198x128_S32768x128_1_0_0_1_n_n_wf
def dot_S32768x198_S198x64_S32768x64_1_0_0_1_n_n : DotDims S32768x198 S198x64 S32768x64 where
  lhsContracting := [1]
  rhsContracting := [0]
  lhsNonContracting := [0]
  rhsNonContracting := [1]
  lhsBatch := []
  rhsBatch := []
  wf := dot_S32768x198_S198x64_S32768x64_1_0_0_1_n_n_wf
def dot_S1024x1024_S1024x4096_S1024x4096_1_0_0_1_n_n : DotDims S1024x1024 S1024x4096 S1024x4096 where
  lhsContracting := [1]
  rhsContracting := [0]
  lhsNonContracting := [0]
  rhsNonContracting := [1]
  lhsBatch := []
  rhsBatch := []
  wf := dot_S1024x1024_S1024x4096_S1024x4096_1_0_0_1_n_n_wf
def dot_S32768x384_S384x128_S32768x128_1_0_0_1_n_n : DotDims S32768x384 S384x128 S32768x128 where
  lhsContracting := [1]
  rhsContracting := [0]
  lhsNonContracting := [0]
  rhsNonContracting := [1]
  lhsBatch := []
  rhsBatch := []
  wf := dot_S32768x384_S384x128_S32768x128_1_0_0_1_n_n_wf
def dot_S32768x384_S384x64_S32768x64_1_0_0_1_n_n : DotDims S32768x384 S384x64 S32768x64 where
  lhsContracting := [1]
  rhsContracting := [0]
  lhsNonContracting := [0]
  rhsNonContracting := [1]
  lhsBatch := []
  rhsBatch := []
  wf := dot_S32768x384_S384x64_S32768x64_1_0_0_1_n_n_wf

class Facts : Prop extends Facts₀ where

variable [Facts]
-- ==== Proof.RefRunHand.lean ====
import proofs.«162824_g19885698580639_cont_8to1_2033_9_alg».proof.Proof.Gen.ReferenceIdeal
import proofs.«162824_g19885698580639_cont_8to1_2033_9_alg».proof.Proof.RefRunDefs
import Idealize.ShloMosaic.Lib.StableHlo.Run
import Idealize.ShloMosaic.PureOps.Ideal

set_option maxRecDepth 16384

noncomputable section

namespace Cert.ReferenceIdeal.RunHand

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

def out127 (V0 : Valuation τ sig (Elt F)) : (Proc.devRef .tc main_v127 : DevRef τ sig).ty.Contents (Elt F) :=
  addf (mulf (res_main_v97 V0) (res_main_v65 V0)) (mulf (subf (broadcastInDim S32x65536 ![] bcast_S_S32x65536 (constant S_ .f32 0x3F800000#32)) (res_main_v97 V0)) (Host.tanh (shapeCast _ (shapeCast _ (addf (Host.dotGeneral dot_S32768x384_S384x64_S32768x64_1_0_0_1_n_n none (shapeCast _ (transpose S32x1024x128x3 [3, 1, 2, 0] (shapeCast _ (concatenate S3x1024x4096 0 [⟨S1x1024x4096, (broadcastInDim S1x1024x4096 ![1, 2] bcast_S1024x4096_S1x1024x4096_1_2 (res_main_v103 V0))⟩, ⟨S1x1024x4096, (broadcastInDim S1x1024x4096 ![1, 2] bcast_S1024x4096_S1x1024x4096_1_2 (res_main_v104 V0))⟩, ⟨S1x1024x4096, (broadcastInDim S1x1024x4096 ![1, 2] bcast_S1024x4096_S1x1024x4096_1_2 (subf (mulf (broadcastInDim S1024x4096 ![] bcast_S_S1024x4096 (constant S_ .f32 0x40000000#32)) (Host.dotGeneral dot_S1024x1024_S1024x4096_S1024x4096_1_0_0_1_n_n none (V0 (Proc.devRef .tc main_arg1)) (res_main_v104 V0))) (res_main_v103 V0)))⟩] concatenates_S1x1024x4096_S1x1024x4096_S1x1024x4096_S3x1024x4096_d0) shapeCasts_S3x1024x4096_S3x1024x128x32) transposes_S3x1024x128x32_S32x1024x128x3_3_1_2_0) shapeCasts_S32x1024x128x3_S32768x384) (V0 (Proc.devRef .tc main_arg9))) (broadcastInDim S32768x64 ![0, 1] bcast_S1x64_S32768x64_0_1 (broadcastInDim S1x64 ![1] bcast_S64_S1x64_1 (V0 (Proc.devRef .tc main_arg10))))) shapeCasts_S32768x64_S32x1024x64) shapeCasts_S32x1024x64_S32x65536)))

def out130 (V0 : Valuation τ sig (Elt F)) : (Proc.devRef .tc main_v130 : DevRef τ sig).ty.Contents (Elt F) :=
  concatenate S2x32x65536 0 [⟨S1x32x65536, (broadcastInDim S1x32x65536 ![1, 2] bcast_S32x65536_S1x32x65536_1_2 (res_main_v63 V0))⟩, ⟨S1x32x65536, (broadcastInDim S1x32x65536 ![1, 2] bcast_S32x65536_S1x32x65536_1_2 (addf (mulf (res_main_v97 V0) (res_main_v65 V0)) (mulf (subf (broadcastInDim S32x65536 ![] bcast_S_S32x65536 (constant S_ .f32 0x3F800000#32)) (res_main_v97 V0)) (Host.tanh (shapeCast _ (shapeCast _ (addf (Host.dotGeneral dot_S32768x384_S384x64_S32768x64_1_0_0_1_n_n none (shapeCast _ (transpose S32x1024x128x3 [3, 1, 2, 0] (shapeCast _ (concatenate S3x1024x4096 0 [⟨S1x1024x4096, (broadcastInDim S1x1024x4096 ![1, 2] bcast_S1024x4096_S1x1024x4096_1_2 (res_main_v103 V0))⟩, ⟨S1x1024x4096, (broadcastInDim S1x1024x4096 ![1, 2] bcast_S1024x4096_S1x1024x4096_1_2 (res_main_v104 V0))⟩, ⟨S1x1024x4096, (broadcastInDim S1x1024x4096 ![1, 2] bcast_S1024x4096_S1x1024x4096_1_2 (subf (mulf (broadcastInDim S1024x4096 ![] bcast_S_S1024x4096 (constant S_ .f32 0x40000000#32)) (Host.dotGeneral dot_S1024x1024_S1024x4096_S1024x4096_1_0_0_1_n_n none (V0 (Proc.devRef .tc main_arg1)) (res_main_v104 V0))) (res_main_v103 V0)))⟩] concatenates_S1x1024x4096_S1x1024x4096_S1x1024x4096_S3x1024x4096_d0) shapeCasts_S3x1024x4096_S3x1024x128x32) transposes_S3x1024x128x32_S32x1024x128x3_3_1_2_0) shapeCasts_S32x1024x128x3_S32768x384) (V0 (Proc.devRef .tc main_arg9))) (broadcastInDim S32768x64 ![0, 1] bcast_S1x64_S32768x64_0_1 (broadcastInDim S1x64 ![1] bcast_S64_S1x64_1 (V0 (Proc.devRef .tc main_arg10))))) shapeCasts_S32768x64_S32x1024x64) shapeCasts_S32x1024x64_S32x65536)))))⟩] concatenates_S1x32x65536_S1x32x65536_S2x32x65536_d0

section Prefixes
variable {F : FTy → Type} [FloatOps F]

theorem after_append (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

def upTo (l : List (HloOp τ sig (Elt F))) (V : Valuation τ sig (Elt F)) (k : Nat) : Valuation τ sig (Elt F) :=
  after (l.take k) V

theorem upTo_add (l : List (HloOp τ sig (Elt F))) (V : Valuation τ sig (Elt F)) (j k : Nat) :
    upTo l V (j + k) = after ((l.drop j).take k) (upTo l V j) := by
  unfold upTo; rw [List.take_add, after_append]

theorem after_eq_upTo (l : List (HloOp τ sig (Elt F))) (V : Valuation τ sig (Elt F)) (k : Nat) (h : l.length ≤ k) :
    after l V = upTo l V k := by
  unfold upTo; rw [List.take_of_length_le h]

theorem upTo_keep (l : List (HloOp τ sig (Elt F))) (V : Valuation τ sig (Elt F)) {b : DevRef τ sig} (w : Nat)
    (h : ∀ op ∈ l.drop w, b ∉ op.writes) (k : Nat) (hk : w ≤ k) : upTo l V k b = upTo l V w b := by
  obtain ⟨d, rfl⟩ := Nat.exists_eq_add_of_le hk
  rw [upTo_add]
  exact after_of_forall_not_mem _ _ fun op hop => h op (List.mem_of_mem_take hop)

theorem upTo_unwritten (l : List (HloOp τ sig (Elt F))) (V : Valuation τ sig (Elt F)) {b : DevRef τ sig}
    (h : ∀ op ∈ l, b ∉ op.writes) (k : Nat) : upTo l V k b = V b := by
  unfold upTo
  exact after_of_forall_not_mem _ _ fun op hop => h op (List.mem_of_mem_take hop)

theorem nary3_result' {x a b y : Ref sig .tc}
    (f : ((k : Fin 3) → ((![x, a, b] : Fin 3 → Ref sig .tc) k).ty.Contents (Elt F)) → y.ty.Contents (Elt F)) (hxs hy)
    (G : Valuation τ sig (Elt F)) :
    (nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) := by
  rw [nary_result]; congr 1; funext k; fin_cases k <;> rfl

theorem nary3_result {x a b y : Ref sig .tc}
    (f : ((k : Fin 3) → ((![x, a, b] : Fin 3 → Ref sig .tc) k).ty.Contents (Elt F)) → y.ty.Contents (Elt F)) (hxs hy)
    (G : Valuation τ sig (Elt F)) :
    (nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) :=
  nary3_result' f hxs hy G

theorem at_of (V0 : Valuation τ sig (Elt F)) {b : Ref sig .tc} {R : (Proc.devRef .tc b : DevRef τ sig).ty.Contents (Elt F)}
    (j d w : Nat) (hw : j + d = w) (hkept : ∀ op ∈ (ops (F := F)).drop w, (Proc.devRef .tc b : DevRef τ sig) ∉ op.writes)
    (hborn : after (((ops (F := F)).drop j).take d) (upTo ops V0 j) (Proc.devRef .tc b) = R) (k : Nat) (hk : w ≤ k) :
    upTo ops V0 k (Proc.devRef .tc b) = R := by
  subst hw
  exact (upTo_keep ops V0 (j + d) hkept k hk).trans ((congrFun (upTo_add ops V0 j d) _).trans hborn)

end Prefixes

macro "read_line" : tactic =>
  `(tactic| (simp (disch := decide) only [after_cons, after_nil,
      nullary_result', unary_result', binary_result', reshape_result', nary3_result',
      nullary_result_ne', unary_result_ne', binary_result_ne', reshape_result_ne', nary_result_ne']))

macro "read_operands" : tactic =>
  `(tactic| (repeat (first
      | rw [nullary_result] | rw [unary_result] | rw [binary_result] | rw [reshape_result] | rw [nary3_result]
      | (rw [nullary_result_ne]; rotate_left; decide)
      | (rw [unary_result_ne]; rotate_left; decide)
      | (rw [binary_result_ne]; rotate_left; decide)
      | (rw [reshape_result_ne]; rotate_left; decide)
      | (rw [nary_result_ne]; rotate_left; decide))))

macro "no_writer" : tactic =>
  `(tactic| (refine List.forall_iff_forall_mem.mp ?_
             simp only [ops, List.drop_succ_cons, List.drop_zero, List.Forall, nullary_writes, unary_writes, binary_writes,
               reshape_writes, nary_writes, Finset.mem_singleton]
             repeat' apply And.intro
             all_goals exact devRef_ne_of_ne (by decide)))

section Stages
variable {F : FTy → Type} [FloatOps F] (V0 : Valuation τ sig (Elt F))
set_option maxHeartbeats 4000000

def args : List (Ref sig .tc) := [main_arg0, main_arg1, main_arg2, main_arg3, main_arg4, main_arg5, main_arg6, main_arg7, main_arg8, main_arg9, main_arg10]

theorem arg_unwritten {b : Ref sig .tc} (hb : b ∈ args) :
    ∀ op ∈ (ops (F := F)), (Proc.devRef .tc b : DevRef τ sig) ∉ op.writes := by
  simp only [args, List.mem_cons, List.not_mem_nil, or_false] at hb
  rcases hb with rfl | rfl | rfl | rfl | rfl | rfl | rfl | rfl | rfl | rfl | rfl <;> no_writer

theorem at_arg (b : Ref sig .tc) (k : Nat) (hb : b ∈ args := by decide) :
    upTo ops V0 k (Proc.devRef .tc b) = V0 (Proc.devRef .tc b) := upTo_unwritten ops V0 (arg_unwritten hb) k

theorem at_v1 (k : Nat) (hk : 2 ≤ k := by decide) : upTo ops V0 k (Proc.devRef .tc main_v1) = res_main_v1 V0 :=
  at_of V0 0 2 2 rfl (by no_writer) (by
    show after [_, _] (upTo ops V0 0) (Proc.devRef .tc main_v1) = _
    read_line
    read_operands
    rw [at_arg V0 main_arg2 0]
    rfl) k hk

theorem at_v6 (k : Nat) (hk : 7 ≤ k := by decide) : upTo ops V0 k (Proc.devRef .tc main_v6) = res_main_v6 V0 :=
  at_of V0 2 5 7 rfl (by no_writer) (by
    show after [_, _, _, _, _] (upTo ops V0 2) (Proc.devRef .tc main_v6) = _
    read_line
    read_operands
    rw [at_arg V0 main_arg0 2, at_v1 V0 2]
    rfl) k hk

theorem at_v7 (k : Nat) (hk : 8 ≤ k := by decide) : upTo ops V0 k (Proc.devRef .tc main_v7) = res_main_v7 V0 :=
  at_of V0 7 1 8 rfl (by no_writer) (by
    show after [_] (upTo ops V0 7) (Proc.devRef .tc main_v7) = _
    read_line
    read_operands
    rw [at_arg V0 main_arg1 7, at_v6 V0 7]
    rfl) k hk

theorem at_v29 (k : Nat) (hk : 33 ≤ k := by decide) : upTo ops V0 k (Proc.devRef .tc main_v29) = res_main_v29 V0 :=
  at_of V0 8 25 33 rfl (by no_writer) (by
    show after [_, _, _, _, _, _, _, _, _, _, _, _, _, _, _, _, _, _, _, _, _, _, _, _, _] (upTo ops V0 8) (Proc.devRef .tc main_v29) = _
    read_line
    read_operands
    rw [at_arg V0 main_arg1 8, at_v7 V0 8, at_v6 V0 8, at_arg V0 main_arg3 8, at_arg V0 main_arg4 8]
    rfl) k hk

theorem at_v33 (k : Nat) (hk : 37 ≤ k := by decide) : upTo ops V0 k (Proc.devRef .tc main_v33) = res_main_v33 V0 :=
  at_of V0 33 4 37 rfl (by no_writer) (by
    show after [_, _, _, _] (upTo ops V0 33) (Proc.devRef .tc main_v33) = _
    read_line
    read_operands
    rw [at_v29 V0 33]
    rfl) k hk

theorem at_v39 (k : Nat) (hk : 43 ≤ k := by decide) : upTo ops V0 k (Proc.devRef .tc main_v39) = res_main_v39 V0 :=
  at_of V0 33 10 43 rfl (by no_writer) (by
    show after [_, _, _, _, _, _, _, _, _, _] (upTo ops V0 33) (Proc.devRef .tc main_v39) = _
    read_line
    read_operands
    rw [at_v29 V0 33, at_v1 V0 33, at_arg V0 main_arg0 33]
    rfl) k hk

theorem at_v40 (k : Nat) (hk : 44 ≤ k := by decide) : upTo ops V0 k (Proc.devRef .tc main_v40) = res_main_v40 V0 :=
  at_of V0 43 1 44 rfl (by no_writer) (by
    show after [_] (upTo ops V0 43) (Proc.devRef .tc main_v40) = _
    read_line
    read_operands
    rw [at_arg V0 main_arg1 43, at_v39 V0 43]
    rfl) k hk

theorem at_v63 (k : Nat) (hk : 69 ≤ k := by decide) : upTo ops V0 k (Proc.devRef .tc main_v63) = res_main_v63 V0 :=
  at_of V0 44 25 69 rfl (by no_writer) (by
    show after [_, _, _, _, _, _, _, _, _, _, _, _, _, _, _, _, _, _, _, _, _, _, _, _, _] (upTo ops V0 44) (Proc.devRef .tc main_v63) = _
    read_line
    read_operands
    rw [at_arg V0 main_arg1 44, at_v40 V0 44, at_v39 V0 44, at_arg V0 main_arg5 44, at_arg V0 main_arg6 44,
    at_v33 V0 44, at_v1 V0 44]
    rfl) k hk

theorem at_v65 (k : Nat) (hk : 71 ≤ k := by decide) : upTo ops V0 k (Proc.devRef .tc main_v65) = res_main_v65 V0 :=
  at_of V0 69 2 71 rfl (by no_writer) (by
    show after [_, _] (upTo ops V0 69) (Proc.devRef .tc main_v65) = _
    read_line
    read_operands
    rw [at_arg V0 main_arg2 69]
    rfl) k hk

theorem at_v70 (k : Nat) (hk : 76 ≤ k := by decide) : upTo ops V0 k (Proc.devRef .tc main_v70) = res_main_v70 V0 :=
  at_of V0 71 5 76 rfl (by no_writer) (by
    show after [_, _, _, _, _] (upTo ops V0 71) (Proc.devRef .tc main_v70) = _
    read_line
    read_operands
    rw [at_v63 V0 71, at_v65 V0 71]
    rfl) k hk

theorem at_v71 (k : Nat) (hk : 77 ≤ k := by decide) : upTo ops V0 k (Proc.devRef .tc main_v71) = res_main_v71 V0 :=
  at_of V0 76 1 77 rfl (by no_writer) (by
    show after [_] (upTo ops V0 76) (Proc.devRef .tc main_v71) = _
    read_line
    read_operands
    rw [at_arg V0 main_arg1 76, at_v70 V0 76]
    rfl) k hk

theorem at_v93 (k : Nat) (hk : 102 ≤ k := by decide) : upTo ops V0 k (Proc.devRef .tc main_v93) = res_main_v93 V0 :=
  at_of V0 77 25 102 rfl (by no_writer) (by
    show after [_, _, _, _, _, _, _, _, _, _, _, _, _, _, _, _, _, _, _, _, _, _, _, _, _] (upTo ops V0 77) (Proc.devRef .tc main_v93) = _
    read_line
    read_operands
    rw [at_arg V0 main_arg1 77, at_v71 V0 77, at_v70 V0 77, at_arg V0 main_arg7 77, at_arg V0 main_arg8 77]
    rfl) k hk

theorem at_v97 (k : Nat) (hk : 106 ≤ k := by decide) : upTo ops V0 k (Proc.devRef .tc main_v97) = res_main_v97 V0 :=
  at_of V0 102 4 106 rfl (by no_writer) (by
    show after [_, _, _, _] (upTo ops V0 102) (Proc.devRef .tc main_v97) = _
    read_line
    read_operands
    rw [at_v93 V0 102]
    rfl) k hk

theorem at_v103 (k : Nat) (hk : 112 ≤ k := by decide) : upTo ops V0 k (Proc.devRef .tc main_v103) = res_main_v103 V0 :=
  at_of V0 102 10 112 rfl (by no_writer) (by
    show after [_, _, _, _, _, _, _, _, _, _] (upTo ops V0 102) (Proc.devRef .tc main_v103) = _
    read_line
    read_operands
    rw [at_v93 V0 102, at_v65 V0 102, at_v63 V0 102]
    rfl) k hk

theorem at_v104 (k : Nat) (hk : 113 ≤ k := by decide) : upTo ops V0 k (Proc.devRef .tc main_v104) = res_main_v104 V0 :=
  at_of V0 112 1 113 rfl (by no_writer) (by
    show after [_] (upTo ops V0 112) (Proc.devRef .tc main_v104) = _
    read_line
    read_operands
    rw [at_arg V0 main_arg1 112, at_v103 V0 112]
    rfl) k hk

end Stages

section Results
variable (V0 : Valuation τ sig (Elt Ideal))
set_option maxHeartbeats 4000000

theorem at_v127 (k : Nat) (hk : 138 ≤ k := by decide) : upTo ops V0 k (Proc.devRef .tc main_v127) = out127 V0 :=
  at_of V0 113 25 138 rfl (by no_writer) (by
    show after [_, _, _, _, _, _, _, _, _, _, _, _, _, _, _, _, _, _, _, _, _, _, _, _, _] (upTo ops V0 113) (Proc.devRef .tc main_v127) = _
    read_line
    read_operands
    rw [at_arg V0 main_arg1 113, at_v104 V0 113, at_v103 V0 113, at_arg V0 main_arg9 113, at_arg V0 main_arg10 113,
    at_v97 V0 113, at_v65 V0 113]
    rfl) k hk

theorem born_v130 : upTo ops V0 141 (Proc.devRef .tc main_v130) = out130 V0 := by
  refine (congrFun (upTo_add ops V0 138 3) _).trans ?_
  show after [_, _, _] (upTo ops V0 138) (Proc.devRef .tc main_v130) = _
  read_line
  read_operands
  rw [at_v63 V0 138, at_v127 V0 138]
  rfl

end Results

theorem run_results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v127) = out127 (F := Ideal) (launchContents m c)
      ∧ r.2.mem ((c.tc : Thread nD τ).loc main_v130) = out130 (F := Ideal) (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine (θ_run defs _ _).mono (fun r h c => ?_)
    (run_seq scopedRefs_eq scopedSems_eq defs main (fun _ => ops) main_eq (fun _ => ops_sub) m ρ)
  have e : ∀ b : Ref sig .tc, r.2.mem ((c.tc : Thread nD τ).loc b) = upTo ops (launchContents m c) 141 (Proc.devRef .tc b) :=
    fun b => (h c b).trans (congrFun (after_eq_upTo ops (launchContents m c) 141 (Nat.le_refl _)) _)
  exact ⟨(e main_v127).trans (at_v127 _ 141), (e main_v130).trans (born_v130 _),
    (e main_arg0).trans (at_arg _ _ 141), (e main_arg1).trans (at_arg _ _ 141), (e main_arg2).trans (at_arg _ _ 141),
    (e main_arg3).trans (at_arg _ _ 141), (e main_arg4).trans (at_arg _ _ 141), (e main_arg5).trans (at_arg _ _ 141),
    (e main_arg6).trans (at_arg _ _ 141), (e main_arg7).trans (at_arg _ _ 141), (e main_arg8).trans (at_arg _ _ 141),
    (e main_arg9).trans (at_arg _ _ 141), (e main_arg10).trans (at_arg _ _ 141)⟩

end Cert.ReferenceIdeal.RunHand

end
-- ==== Proof.RefFrame.lean ====
import proofs.«162824_g19885698580639_cont_8to1_2033_9_alg».proof.Defs
import proofs.«162824_g19885698580639_cont_8to1_2033_9_alg».proof.Proof.Gen.ReferenceIdeal
import proofs.«162824_g19885698580639_cont_8to1_2033_9_alg».proof.Proof.Gen.Pre_finite_inputs
import proofs.«162824_g19885698580639_cont_8to1_2033_9_alg».proof.Proof.Gen.ReferenceIdeal
import proofs.«162824_g19885698580639_cont_8to1_2033_9_alg».proof.Proof.RefRunDefs
import proofs.«162824_g19885698580639_cont_8to1_2033_9_alg».proof.Proof.RefRunHand

noncomputable section

namespace Cert.Proof.RefFrame

open Idealize.ShloMosaic Idealize.ShloMosaic.TcCoe Idealize.SL.Sem

theorem frame_ref : Cert.frame_ReferenceIdeal := fun m ρ _ =>
  (θ_run Cert.ReferenceIdeal.defs _ _).mono (fun _ h c => (h c).2.2) (Cert.ReferenceIdeal.RunHand.run_results m ρ)

end Cert.Proof.RefFrame

end
-- ==== Proof.Spec.lean ====
import Idealize.ShloMosaic.PureOps.Ideal

noncomputable section

namespace Cert.Spec

open Idealize.ShloMosaic

abbrev two : EReal := Ideal.ofBits .f32 0x40000000#32
abbrev one : EReal := Ideal.ofBits .f32 0x3F800000#32

abbrev T (C : Nat) : Type := Fin 1024 → Fin 32 → Fin C → EReal

def nb (n : Fin 1024) (b : Fin 32) : Fin 32768 := ⟨n.val * 32 + b.val, by omega⟩

def bn (b : Fin 32) (n : Fin 1024) : Fin 32768 := ⟨b.val * 1024 + n.val, by omega⟩

def bc {C : Nat} (b : Fin 32) (c : Fin C) : Fin (32 * C) :=
  ⟨b.val * C + c.val, by have := b.isLt; have := c.isLt; nlinarith⟩

def cb {C : Nat} (c : Fin C) (b : Fin 32) : Fin (C * 32) :=
  ⟨c.val * 32 + b.val, by have := b.isLt; have := c.isLt; nlinarith⟩

def nc {C : Nat} (n : Fin 1024) (c : Fin C) : Fin (1024 * C) :=
  ⟨n.val * C + c.val, by have := n.isLt; have := c.isLt; nlinarith⟩

def wrow {K : Nat} (c' : Fin K) (k : Fin 3) : Fin (K * 3) :=
  ⟨c'.val * 3 + k.val, by have := c'.isLt; have := k.isLt; omega⟩

theorem nc_surj {C : Nat} (hC : 0 < C) (q : Fin (1024 * C)) : ∃ (n : Fin 1024) (c : Fin C), q = nc n c :=
  have hq := q.isLt
  ⟨⟨q.val / C, Nat.div_lt_of_lt_mul (by omega)⟩, ⟨q.val % C, Nat.mod_lt _ hC⟩,
    Fin.ext (show q.val = q.val / C * C + q.val % C from (Nat.div_add_mod' q.val C).symm)⟩

theorem nb_surj (r : Fin 32768) : ∃ (n : Fin 1024) (b : Fin 32), r = nb n b :=
  have hr := r.isLt
  ⟨⟨r.val / 32, by omega⟩, ⟨r.val % 32, Nat.mod_lt _ (by decide)⟩,
    Fin.ext (show r.val = r.val / 32 * 32 + r.val % 32 from (Nat.div_add_mod' r.val 32).symm)⟩

theorem bn_surj (r : Fin 32768) : ∃ (b : Fin 32) (n : Fin 1024), r = bn b n :=
  have hr := r.isLt
  ⟨⟨r.val / 1024, by omega⟩, ⟨r.val % 1024, Nat.mod_lt _ (by decide)⟩,
    Fin.ext (show r.val = r.val / 1024 * 1024 + r.val % 1024 from (Nat.div_add_mod' r.val 1024).symm)⟩

theorem bc_surj {C : Nat} (hC : 0 < C) (q : Fin (32 * C)) : ∃ (b : Fin 32) (c : Fin C), q = bc b c :=
  have hq := q.isLt
  ⟨⟨q.val / C, Nat.div_lt_of_lt_mul (by omega)⟩, ⟨q.val % C, Nat.mod_lt _ hC⟩,
    Fin.ext (show q.val = q.val / C * C + q.val % C from (Nat.div_add_mod' q.val C).symm)⟩

section
variable (A : Fin 1024 → Fin 1024 → EReal)

def D1 {C : Nat} (x : T C) : T C := fun n b c => ∑ k : Fin 1024, A n k * x k b c

def cheb2 {C : Nat} (x0 x1 : T C) : T C := fun n b c => two * (∑ k : Fin 1024, A n k * x1 k b c) - x0 n b c

def D2 {C : Nat} (x : T C) : T C := cheb2 A x (D1 A x)

def cheb {C : Nat} (x : T C) (k : Fin 3) : T C := match k with | 0 => x | 1 => D1 A x | 2 => D2 A x

def catT {cin : Nat} (x : T cin) (h : T 64) : T (cin + 64) :=
  fun n b c' => Fin.addCases (fun c => x n b c) (fun j => h n b j) c'

def xcat {cin : Nat} (x : T cin) (h : T 64) : Fin 1024 → Fin 32 → Fin ((cin + 64) * 3) → EReal :=
  fun n b q => cheb A (catT x h) ⟨q.val % 3, Nat.mod_lt _ (by decide)⟩ n b
    ⟨q.val / 3, by have := q.isLt; exact Nat.div_lt_of_lt_mul (by omega)⟩

def pre6 {cin O : Nat} (x0 x1 x2 : T cin) (h0 h1 h2 : T 64) (W : Fin ((cin + 64) * 3) → Fin O → EReal)
    (bias : Fin O → EReal) : T O := fun n b o =>
  ((((((∑ c : Fin cin, x0 n b c * W (wrow (Fin.castAdd 64 c) 0) o)
      + (∑ c : Fin cin, x1 n b c * W (wrow (Fin.castAdd 64 c) 1) o))
      + (∑ c : Fin cin, x2 n b c * W (wrow (Fin.castAdd 64 c) 2) o))
      + (∑ j : Fin 64, h0 n b j * W (wrow (Fin.natAdd cin j) 0) o))
      + (∑ j : Fin 64, h1 n b j * W (wrow (Fin.natAdd cin j) 1) o))
      + (∑ j : Fin 64, h2 n b j * W (wrow (Fin.natAdd cin j) 2) o))
      + bias o

def pre {cin O : Nat} (x : T cin) (h : T 64) (W : Fin ((cin + 64) * 3) → Fin O → EReal) (bias : Fin O → EReal) : T O :=
  pre6 x (D1 A x) (D2 A x) h (D1 A h) (D2 A h) W bias

def rGate {cin : Nat} (x : T cin) (h : T 64) (Wg : Fin ((cin + 64) * 3) → Fin 128 → EReal) (bg : Fin 128 → EReal) : T 64 :=
  fun n b j => Ideal.logistic (pre A x h Wg bg n b (Fin.castAdd 64 j))

def uGate {cin : Nat} (x : T cin) (h : T 64) (Wg : Fin ((cin + 64) * 3) → Fin 128 → EReal) (bg : Fin 128 → EReal) : T 64 :=
  fun n b j => Ideal.logistic (pre A x h Wg bg n b (Fin.natAdd 64 j))

def sState {cin : Nat} (x : T cin) (h : T 64) (Wg : Fin ((cin + 64) * 3) → Fin 128 → EReal) (bg : Fin 128 → EReal) : T 64 :=
  fun n b j => rGate A x h Wg bg n b j * h n b j

def cand {cin : Nat} (x : T cin) (h : T 64) (Wg : Fin ((cin + 64) * 3) → Fin 128 → EReal) (bg : Fin 128 → EReal)
    (Wc : Fin ((cin + 64) * 3) → Fin 64 → EReal) (bcand : Fin 64 → EReal) : T 64 :=
  fun n b j => Ideal.tanh (pre A x (sState A x h Wg bg) Wc bcand n b j)

def hNew {cin : Nat} (x : T cin) (h : T 64) (Wg : Fin ((cin + 64) * 3) → Fin 128 → EReal) (bg : Fin 128 → EReal)
    (Wc : Fin ((cin + 64) * 3) → Fin 64 → EReal) (bcand : Fin 64 → EReal) : T 64 :=
  fun n b j => uGate A x h Wg bg n b j * h n b j + (one - uGate A x h Wg bg n b j) * cand A x h Wg bg Wc bcand n b j

end

def xIn (inp : Fin 32 → Fin 2048 → EReal) : T 2 := fun n b c => inp b (nc n c)

def hIn (hid : Fin 2 → Fin 32 → Fin 65536 → EReal) (l : Fin 2) : T 64 := fun n b j => hid l b (nc n j)

structure Args where
  inp : Fin 32 → Fin 2048 → EReal
  adj : Fin 1024 → Fin 1024 → EReal
  hid : Fin 2 → Fin 32 → Fin 65536 → EReal
  wg0 : Fin ((2 + 64) * 3) → Fin 128 → EReal
  bg0 : Fin 128 → EReal
  wc0 : Fin ((2 + 64) * 3) → Fin 64 → EReal
  bc0 : Fin 64 → EReal
  wg1 : Fin ((64 + 64) * 3) → Fin 128 → EReal
  bg1 : Fin 128 → EReal
  wc1 : Fin ((64 + 64) * 3) → Fin 64 → EReal
  bc1 : Fin 64 → EReal

def hL0 (a : Args) : T 64 := hNew a.adj (xIn a.inp) (hIn a.hid 0) a.wg0 a.bg0 a.wc0 a.bc0

def hL1 (a : Args) : T 64 := hNew a.adj (hL0 a) (hIn a.hid 1) a.wg1 a.bg1 a.wc1 a.bc1

end Cert.Spec

end
-- ==== Proof.KArgs.lean ====
import proofs.«162824_g19885698580639_cont_8to1_2033_9_alg».proof.KernelIdeal
import proofs.«162824_g19885698580639_cont_8to1_2033_9_alg».proof.Proof.Spec
import Idealize.ShloMosaic.Lib.ValueIdx

noncomputable section

namespace Cert.KernelIdeal.KA

open Cert.KernelIdeal Cert.Spec
open Idealize.ShloMosaic Idealize.ShloMosaic.TcCoe Idealize.ShloMosaic.ValueIdx Idealize.SL.Sem

variable (m : (ℓ : Loc nD τ sig) → Buf (Elt Ideal) ℓ)

def kargs (c : Dev nD) : Spec.Args where
  inp := fun b q => (m ((c : Thread nD τ).loc main_arg0) : Vec Ideal S32x2048 .f32) (ix2 b q)
  adj := fun n k => (m ((c : Thread nD τ).loc main_arg1) : Vec Ideal S1024x1024 .f32) (ix2 n k)
  hid := fun l b q => (m ((c : Thread nD τ).loc main_arg2) : Vec Ideal S2x32x65536 .f32) (ix3 l b q)
  wg0 := fun q o => (m ((c : Thread nD τ).loc main_arg3) : Vec Ideal S198x128 .f32) (ix2 q o)
  bg0 := fun o => (m ((c : Thread nD τ).loc main_arg4) : Vec Ideal S128 .f32) (ix1 o)
  wc0 := fun q o => (m ((c : Thread nD τ).loc main_arg5) : Vec Ideal S198x64 .f32) (ix2 q o)
  bc0 := fun o => (m ((c : Thread nD τ).loc main_arg6) : Vec Ideal S64 .f32) (ix1 o)
  wg1 := fun q o => (m ((c : Thread nD τ).loc main_arg7) : Vec Ideal S384x128 .f32) (ix2 q o)
  bg1 := fun o => (m ((c : Thread nD τ).loc main_arg8) : Vec Ideal S128 .f32) (ix1 o)
  wc1 := fun q o => (m ((c : Thread nD τ).loc main_arg9) : Vec Ideal S384x64 .f32) (ix2 q o)
  bc1 := fun o => (m ((c : Thread nD τ).loc main_arg10) : Vec Ideal S64 .f32) (ix1 o)

abbrev kA (c : Dev nD) : Fin 1024 → Fin 1024 → EReal := (kargs m c).adj
abbrev kx (c : Dev nD) : T 2 := xIn (kargs m c).inp
abbrev kh0 (c : Dev nD) : T 64 := hIn (kargs m c).hid 0
abbrev kh1 (c : Dev nD) : T 64 := hIn (kargs m c).hid 1
abbrev ks0 (c : Dev nD) : T 64 := sState (kA m c) (kx m c) (kh0 m c) (kargs m c).wg0 (kargs m c).bg0
abbrev ku0 (c : Dev nD) : T 64 := uGate (kA m c) (kx m c) (kh0 m c) (kargs m c).wg0 (kargs m c).bg0
abbrev ky (c : Dev nD) : T 64 := hL0 (kargs m c)
abbrev ks1 (c : Dev nD) : T 64 := sState (kA m c) (ky m c) (kh1 m c) (kargs m c).wg1 (kargs m c).bg1
abbrev ku1 (c : Dev nD) : T 64 := uGate (kA m c) (ky m c) (kh1 m c) (kargs m c).wg1 (kargs m c).bg1
abbrev kz (c : Dev nD) : T 64 := hL1 (kargs m c)

end Cert.KernelIdeal.KA

end
-- ==== Proof.KCarry.lean ====
import proofs.«162824_g19885698580639_cont_8to1_2033_9_alg».proof.Proof.Gen.KernelIdeal.Frame
import Idealize.ShloMosaic.Lib.StableHlo.Run
import Idealize.ShloMosaic.PureOps.Ideal

set_option maxRecDepth 16384

noncomputable section

namespace Cert.KernelIdeal.Carry

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The buffers the segment between boundaries k and k + 1 writes. -/
def wr : ℕ → List (Ref sig .tc)
  | 1 => [main_v8_0, main_v8_1, main_v8_2, main_v8_3, main_v8_4]
  | 2 => [main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34]
  | 3 => [main_v35_0, main_v35_1]
  | 4 => [main_v36_0, main_v36_1]
  | 5 => [main_v37, main_v38, main_v39, main_v40]
  | 6 => [main_v41_0, main_v41_1]
  | 7 => [main_v42]
  | 8 => [main_v43]
  | 9 => [main_v44]
  | 10 => [main_v45, main_v46, main_v47, main_v48]
  | 11 => [main_v49_0, main_v49_1]
  | 12 => [main_v50, main_v51]
  | 13 => [main_v52_0, main_v52_1]
  | 14 => [main_v53_0, main_v53_1]
  | 15 => [main_v54, main_v55, main_v56, main_v57]
  | 16 => [main_v58_0, main_v58_1]
  | 17 => [main_v59]
  | 18 => [main_v60]
  | 19 => [main_v61]
  | 20 => [main_v62, main_v63, main_v64, main_v65]
  | 21 => [main_v66_0, main_v66_1]
  | _ => []

/-- The buffer contents at boundary k (constant outside 1 … 22). -/
def Wn : ℕ → Dev nD → Valuation τ sig (Elt Ideal)
  | 0 => W1 m ρ
  | 1 => W1 m ρ
  | 2 => W2 m ρ
  | 3 => W3 m ρ
  | 4 => W4 m ρ
  | 5 => W5 m ρ
  | 6 => W6 m ρ
  | 7 => W7 m ρ
  | 8 => W8 m ρ
  | 9 => W9 m ρ
  | 10 => W10 m ρ
  | 11 => W11 m ρ
  | 12 => W12 m ρ
  | 13 => W13 m ρ
  | 14 => W14 m ρ
  | 15 => W15 m ρ
  | 16 => W16 m ρ
  | 17 => W17 m ρ
  | 18 => W18 m ρ
  | 19 => W19 m ρ
  | 20 => W20 m ρ
  | 21 => W21 m ρ
  | _ => W22 m ρ

/-- Arrays a region only reads are as it found them, and so is every buffer that is not one of its arrays. -/
theorem keep_of {n : ℕ} {ar : Fin n → Ref sig .tc} {out : Fin n → Bool} {L : List (Ref sig .tc)}
    {X Y : Valuation τ sig (Elt Ideal)} (hout : ∀ w, out w = true → ar w ∈ L)
    (hin : ∀ w, out w = false → X (Proc.devRef .tc (ar w)) = Y (Proc.devRef .tc (ar w)))
    (hne : ∀ b, (∀ w, ar w ≠ b) → X (Proc.devRef .tc b) = Y (Proc.devRef .tc b))
    {b : Ref sig .tc} (hb : b ∉ L) : X (Proc.devRef .tc b) = Y (Proc.devRef .tc b) := by
  by_cases h : ∃ w, ar w = b
  · obtain ⟨w, rfl⟩ := h
    cases e : out w
    · exact hin w e
    · exact absurd (hout w e) hb
  · exact hne b fun w e => h ⟨w, e⟩

def Covers (k : ℕ) (ops : List (HloOp τ sig (Elt Ideal))) : Prop :=
  ops.Forall fun op => op.writes ⊆ ((wr k).map (Proc.devRef (τ := τ) .tc)).toFinset

/-- Each host stretch's operations write only the buffers listed for it. -/
theorem covers : Covers 2 hostOps1 ∧ Covers 5 hostOps3 ∧ Covers 7 hostOps4 ∧ Covers 10 hostOps6 ∧ Covers 12 hostOps7 ∧ Covers 15 hostOps9 ∧ Covers 17 hostOps10 ∧ Covers 20 hostOps12 := by
  simp only [Covers, hostOps1, hostOps3, hostOps4, hostOps6, hostOps7, hostOps9, hostOps10, hostOps12, List.Forall, StableHlo.unary_writes, StableHlo.reshape_writes,
    Finset.singleton_subset_iff, List.mem_toFinset]
  repeat' apply And.intro
  all_goals exact List.mem_map_of_mem (by decide)

theorem keep1 (c : Dev nD) {b : Ref sig .tc} (hb : b ∉ wr 1) : W2 m ρ c (Proc.devRef .tc b) = W1 m ρ c (Proc.devRef .tc b) :=
  keep_of (X := W2 m ρ c) (Y := W1 m ρ c) (ar := Pipeline.arrRef spec0) (L := wr 1) (out := fun w => (cfg0.win w).isOut) (by decide)
    (fun w hw => (W2_arr m ρ c w).trans (((dat0 (V1 m ρ) c).arrAt_in w hw cfg0.N).trans (A_eq0 (V1 m ρ) c w)))
    (W2_of_ne m ρ c) hb
theorem keep2 (c : Dev nD) {b : Ref sig .tc} (hb : b ∉ wr 2) : W3 m ρ c (Proc.devRef .tc b) = W2 m ρ c (Proc.devRef .tc b) :=
  StableHlo.after_of_writes_sub hostOps1 (W2 m ρ c) covers.1 hb
theorem keep3 (c : Dev nD) {b : Ref sig .tc} (hb : b ∉ wr 3) : W4 m ρ c (Proc.devRef .tc b) = W3 m ρ c (Proc.devRef .tc b) :=
  keep_of (X := W4 m ρ c) (Y := W3 m ρ c) (ar := Pipeline.arrRef spec1) (L := wr 3) (out := fun w => (cfg1.win w).isOut) (by decide)
    (fun w hw => (W4_arr m ρ c w).trans (((dat1 (V3 m ρ) c).arrAt_in w hw cfg1.N).trans (A_eq1 (V3 m ρ) c w)))
    (W4_of_ne m ρ c) hb
theorem keep4 (c : Dev nD) {b : Ref sig .tc} (hb : b ∉ wr 4) : W5 m ρ c (Proc.devRef .tc b) = W4 m ρ c (Proc.devRef .tc b) :=
  keep_of (X := W5 m ρ c) (Y := W4 m ρ c) (ar := Pipeline.arrRef spec2) (L := wr 4) (out := fun w => (cfg2.win w).isOut) (by decide)
    (fun w hw => (W5_arr m ρ c w).trans (((dat2 (V4 m ρ) c).arrAt_in w hw cfg2.N).trans (A_eq2 (V4 m ρ) c w)))
    (W5_of_ne m ρ c) hb
theorem keep5 (c : Dev nD) {b : Ref sig .tc} (hb : b ∉ wr 5) : W6 m ρ c (Proc.devRef .tc b) = W5 m ρ c (Proc.devRef .tc b) :=
  StableHlo.after_of_writes_sub hostOps3 (W5 m ρ c) covers.2.1 hb
theorem keep6 (c : Dev nD) {b : Ref sig .tc} (hb : b ∉ wr 6) : W7 m ρ c (Proc.devRef .tc b) = W6 m ρ c (Proc.devRef .tc b) :=
  keep_of (X := W7 m ρ c) (Y := W6 m ρ c) (ar := Pipeline.arrRef spec3) (L := wr 6) (out := fun w => (cfg3.win w).isOut) (by decide)
    (fun w hw => (W7_arr m ρ c w).trans (((dat3 (V6 m ρ) c).arrAt_in w hw cfg3.N).trans (A_eq3 (V6 m ρ) c w)))
    (W7_of_ne m ρ c) hb
theorem keep7 (c : Dev nD) {b : Ref sig .tc} (hb : b ∉ wr 7) : W8 m ρ c (Proc.devRef .tc b) = W7 m ρ c (Proc.devRef .tc b) :=
  StableHlo.after_of_writes_sub hostOps4 (W7 m ρ c) covers.2.2.1 hb
theorem keep8 (c : Dev nD) {b : Ref sig .tc} (hb : b ∉ wr 8) : W9 m ρ c (Proc.devRef .tc b) = W8 m ρ c (Proc.devRef .tc b) :=
  keep_of (X := W9 m ρ c) (Y := W8 m ρ c) (ar := Pipeline.arrRef spec4) (L := wr 8) (out := fun w => (cfg4.win w).isOut) (by decide)
    (fun w hw => (W9_arr m ρ c w).trans (((dat4 (V8 m ρ) c).arrAt_in w hw cfg4.N).trans (A_eq4 (V8 m ρ) c w)))
    (W9_of_ne m ρ c) hb
theorem keep9 (c : Dev nD) {b : Ref sig .tc} (hb : b ∉ wr 9) : W10 m ρ c (Proc.devRef .tc b) = W9 m ρ c (Proc.devRef .tc b) :=
  keep_of (X := W10 m ρ c) (Y := W9 m ρ c) (ar := Pipeline.arrRef spec5) (L := wr 9) (out := fun w => (cfg5.win w).isOut) (by decide)
    (fun w hw => (W10_arr m ρ c w).trans (((dat5 (V9 m ρ) c).arrAt_in w hw cfg5.N).trans (A_eq5 (V9 m ρ) c w)))
    (W10_of_ne m ρ c) hb
theorem keep10 (c : Dev nD) {b : Ref sig .tc} (hb : b ∉ wr 10) : W11 m ρ c (Proc.devRef .tc b) = W10 m ρ c (Proc.devRef .tc b) :=
  StableHlo.after_of_writes_sub hostOps6 (W10 m ρ c) covers.2.2.2.1 hb
theorem keep11 (c : Dev nD) {b : Ref sig .tc} (hb : b ∉ wr 11) : W12 m ρ c (Proc.devRef .tc b) = W11 m ρ c (Proc.devRef .tc b) :=
  keep_of (X := W12 m ρ c) (Y := W11 m ρ c) (ar := Pipeline.arrRef spec6) (L := wr 11) (out := fun w => (cfg6.win w).isOut) (by decide)
    (fun w hw => (W12_arr m ρ c w).trans (((dat6 (V11 m ρ) c).arrAt_in w hw cfg6.N).trans (A_eq6 (V11 m ρ) c w)))
    (W12_of_ne m ρ c) hb
theorem keep12 (c : Dev nD) {b : Ref sig .tc} (hb : b ∉ wr 12) : W13 m ρ c (Proc.devRef .tc b) = W12 m ρ c (Proc.devRef .tc b) :=
  StableHlo.after_of_writes_sub hostOps7 (W12 m ρ c) covers.2.2.2.2.1 hb
theorem keep13 (c : Dev nD) {b : Ref sig .tc} (hb : b ∉ wr 13) : W14 m ρ c (Proc.devRef .tc b) = W13 m ρ c (Proc.devRef .tc b) :=
  keep_of (X := W14 m ρ c) (Y := W13 m ρ c) (ar := Pipeline.arrRef spec7) (L := wr 13) (out := fun w => (cfg7.win w).isOut) (by decide)
    (fun w hw => (W14_arr m ρ c w).trans (((dat7 (V13 m ρ) c).arrAt_in w hw cfg7.N).trans (A_eq7 (V13 m ρ) c w)))
    (W14_of_ne m ρ c) hb
theorem keep14 (c : Dev nD) {b : Ref sig .tc} (hb : b ∉ wr 14) : W15 m ρ c (Proc.devRef .tc b) = W14 m ρ c (Proc.devRef .tc b) :=
  keep_of (X := W15 m ρ c) (Y := W14 m ρ c) (ar := Pipeline.arrRef spec8) (L := wr 14) (out := fun w => (cfg8.win w).isOut) (by decide)
    (fun w hw => (W15_arr m ρ c w).trans (((dat8 (V14 m ρ) c).arrAt_in w hw cfg8.N).trans (A_eq8 (V14 m ρ) c w)))
    (W15_of_ne m ρ c) hb
theorem keep15 (c : Dev nD) {b : Ref sig .tc} (hb : b ∉ wr 15) : W16 m ρ c (Proc.devRef .tc b) = W15 m ρ c (Proc.devRef .tc b) :=
  StableHlo.after_of_writes_sub hostOps9 (W15 m ρ c) covers.2.2.2.2.2.1 hb
theorem keep16 (c : Dev nD) {b : Ref sig .tc} (hb : b ∉ wr 16) : W17 m ρ c (Proc.devRef .tc b) = W16 m ρ c (Proc.devRef .tc b) :=
  keep_of (X := W17 m ρ c) (Y := W16 m ρ c) (ar := Pipeline.arrRef spec9) (L := wr 16) (out := fun w => (cfg9.win w).isOut) (by decide)
    (fun w hw => (W17_arr m ρ c w).trans (((dat9 (V16 m ρ) c).arrAt_in w hw cfg9.N).trans (A_eq9 (V16 m ρ) c w)))
    (W17_of_ne m ρ c) hb
theorem keep17 (c : Dev nD) {b : Ref sig .tc} (hb : b ∉ wr 17) : W18 m ρ c (Proc.devRef .tc b) = W17 m ρ c (Proc.devRef .tc b) :=
  StableHlo.after_of_writes_sub hostOps10 (W17 m ρ c) covers.2.2.2.2.2.2.1 hb
theorem keep18 (c : Dev nD) {b : Ref sig .tc} (hb : b ∉ wr 18) : W19 m ρ c (Proc.devRef .tc b) = W18 m ρ c (Proc.devRef .tc b) :=
  keep_of (X := W19 m ρ c) (Y := W18 m ρ c) (ar := Pipeline.arrRef spec10) (L := wr 18) (out := fun w => (cfg10.win w).isOut) (by decide)
    (fun w hw => (W19_arr m ρ c w).trans (((dat10 (V18 m ρ) c).arrAt_in w hw cfg10.N).trans (A_eq10 (V18 m ρ) c w)))
    (W19_of_ne m ρ c) hb
theorem keep19 (c : Dev nD) {b : Ref sig .tc} (hb : b ∉ wr 19) : W20 m ρ c (Proc.devRef .tc b) = W19 m ρ c (Proc.devRef .tc b) :=
  keep_of (X := W20 m ρ c) (Y := W19 m ρ c) (ar := Pipeline.arrRef spec11) (L := wr 19) (out := fun w => (cfg11.win w).isOut) (by decide)
    (fun w hw => (W20_arr m ρ c w).trans (((dat11 (V19 m ρ) c).arrAt_in w hw cfg11.N).trans (A_eq11 (V19 m ρ) c w)))
    (W20_of_ne m ρ c) hb
theorem keep20 (c : Dev nD) {b : Ref sig .tc} (hb : b ∉ wr 20) : W21 m ρ c (Proc.devRef .tc b) = W20 m ρ c (Proc.devRef .tc b) :=
  StableHlo.after_of_writes_sub hostOps12 (W20 m ρ c) covers.2.2.2.2.2.2.2 hb
theorem keep21 (c : Dev nD) {b : Ref sig .tc} (hb : b ∉ wr 21) : W22 m ρ c (Proc.devRef .tc b) = W21 m ρ c (Proc.devRef .tc b) :=
  keep_of (X := W22 m ρ c) (Y := W21 m ρ c) (ar := Pipeline.arrRef spec12) (L := wr 21) (out := fun w => (cfg12.win w).isOut) (by decide)
    (fun w hw => (W22_arr m ρ c w).trans (((dat12 (V21 m ρ) c).arrAt_in w hw cfg12.N).trans (A_eq12 (V21 m ρ) c w)))
    (W22_of_ne m ρ c) hb

/-- One segment: a buffer it does not write is kept. -/
theorem step (c : Dev nD) {b : Ref sig .tc} : ∀ k, b ∉ wr k → Wn m ρ (k + 1) c (Proc.devRef .tc b) = Wn m ρ k c (Proc.devRef .tc b)
  | 0, _ => rfl
  | 1, hb => keep1 m ρ c hb
  | 2, hb => keep2 m ρ c hb
  | 3, hb => keep3 m ρ c hb
  | 4, hb => keep4 m ρ c hb
  | 5, hb => keep5 m ρ c hb
  | 6, hb => keep6 m ρ c hb
  | 7, hb => keep7 m ρ c hb
  | 8, hb => keep8 m ρ c hb
  | 9, hb => keep9 m ρ c hb
  | 10, hb => keep10 m ρ c hb
  | 11, hb => keep11 m ρ c hb
  | 12, hb => keep12 m ρ c hb
  | 13, hb => keep13 m ρ c hb
  | 14, hb => keep14 m ρ c hb
  | 15, hb => keep15 m ρ c hb
  | 16, hb => keep16 m ρ c hb
  | 17, hb => keep17 m ρ c hb
  | 18, hb => keep18 m ρ c hb
  | 19, hb => keep19 m ρ c hb
  | 20, hb => keep20 m ρ c hb
  | 21, hb => keep21 m ρ c hb
  | _ + 22, _ => rfl

/-- A buffer none of the segments between boundaries i and i + d writes is kept across them. -/
theorem carry (c : Dev nD) (b : Ref sig .tc) (i : ℕ) :
    ∀ d, (∀ k, i ≤ k → k < i + d → b ∉ wr k) → Wn m ρ (i + d) c (Proc.devRef .tc b) = Wn m ρ i c (Proc.devRef .tc b)
  | 0, _ => rfl
  | d + 1, h => (step m ρ c (i + d) (h _ (Nat.le_add_right i d) (Nat.lt_succ_self _))).trans
      (carry c b i d fun k h1 h2 => h k h1 (Nat.lt_succ_of_lt h2))

theorem at_v0_3 (c : Dev nD) : W3 m ρ c (Proc.devRef .tc main_v0) = W1 m ρ c (Proc.devRef .tc main_v0) := carry m ρ c main_v0 1 2 (by decide)
theorem at_v0_4 (c : Dev nD) : W4 m ρ c (Proc.devRef .tc main_v0) = W1 m ρ c (Proc.devRef .tc main_v0) := carry m ρ c main_v0 1 3 (by decide)
theorem at_v0_8 (c : Dev nD) : W8 m ρ c (Proc.devRef .tc main_v0) = W1 m ρ c (Proc.devRef .tc main_v0) := carry m ρ c main_v0 1 7 (by decide)
theorem at_v0_9 (c : Dev nD) : W9 m ρ c (Proc.devRef .tc main_v0) = W1 m ρ c (Proc.devRef .tc main_v0) := carry m ρ c main_v0 1 8 (by decide)
theorem at_v0_13 (c : Dev nD) : W13 m ρ c (Proc.devRef .tc main_v0) = W1 m ρ c (Proc.devRef .tc main_v0) := carry m ρ c main_v0 1 12 (by decide)
theorem at_v0_14 (c : Dev nD) : W14 m ρ c (Proc.devRef .tc main_v0) = W1 m ρ c (Proc.devRef .tc main_v0) := carry m ρ c main_v0 1 13 (by decide)
theorem at_v0_18 (c : Dev nD) : W18 m ρ c (Proc.devRef .tc main_v0) = W1 m ρ c (Proc.devRef .tc main_v0) := carry m ρ c main_v0 1 17 (by decide)
theorem at_v0_19 (c : Dev nD) : W19 m ρ c (Proc.devRef .tc main_v0) = W1 m ρ c (Proc.devRef .tc main_v0) := carry m ρ c main_v0 1 18 (by decide)
theorem at_v8_0_6 (c : Dev nD) : W6 m ρ c (Proc.devRef .tc main_v8_0) = W2 m ρ c (Proc.devRef .tc main_v8_0) := carry m ρ c main_v8_0 2 4 (by decide)
theorem at_v8_0_11 (c : Dev nD) : W11 m ρ c (Proc.devRef .tc main_v8_0) = W2 m ρ c (Proc.devRef .tc main_v8_0) := carry m ρ c main_v8_0 2 9 (by decide)
theorem at_v8_1_6 (c : Dev nD) : W6 m ρ c (Proc.devRef .tc main_v8_1) = W2 m ρ c (Proc.devRef .tc main_v8_1) := carry m ρ c main_v8_1 2 4 (by decide)
theorem at_v8_2_6 (c : Dev nD) : W6 m ρ c (Proc.devRef .tc main_v8_2) = W2 m ρ c (Proc.devRef .tc main_v8_2) := carry m ρ c main_v8_2 2 4 (by decide)
theorem at_v8_2_11 (c : Dev nD) : W11 m ρ c (Proc.devRef .tc main_v8_2) = W2 m ρ c (Proc.devRef .tc main_v8_2) := carry m ρ c main_v8_2 2 9 (by decide)
theorem at_v8_3_12 (c : Dev nD) : W12 m ρ c (Proc.devRef .tc main_v8_3) = W2 m ρ c (Proc.devRef .tc main_v8_3) := carry m ρ c main_v8_3 2 10 (by decide)
theorem at_v8_3_16 (c : Dev nD) : W16 m ρ c (Proc.devRef .tc main_v8_3) = W2 m ρ c (Proc.devRef .tc main_v8_3) := carry m ρ c main_v8_3 2 14 (by decide)
theorem at_v8_4_16 (c : Dev nD) : W16 m ρ c (Proc.devRef .tc main_v8_4) = W2 m ρ c (Proc.devRef .tc main_v8_4) := carry m ρ c main_v8_4 2 14 (by decide)
theorem at_v8_4_21 (c : Dev nD) : W21 m ρ c (Proc.devRef .tc main_v8_4) = W2 m ρ c (Proc.devRef .tc main_v8_4) := carry m ρ c main_v8_4 2 19 (by decide)
theorem at_v12_6 (c : Dev nD) : W6 m ρ c (Proc.devRef .tc main_v12) = W3 m ρ c (Proc.devRef .tc main_v12) := carry m ρ c main_v12 3 3 (by decide)
theorem at_v13_6 (c : Dev nD) : W6 m ρ c (Proc.devRef .tc main_v13) = W3 m ρ c (Proc.devRef .tc main_v13) := carry m ρ c main_v13 3 3 (by decide)
theorem at_v17_11 (c : Dev nD) : W11 m ρ c (Proc.devRef .tc main_v17) = W3 m ρ c (Proc.devRef .tc main_v17) := carry m ρ c main_v17 3 8 (by decide)
theorem at_v18_11 (c : Dev nD) : W11 m ρ c (Proc.devRef .tc main_v18) = W3 m ρ c (Proc.devRef .tc main_v18) := carry m ρ c main_v18 3 8 (by decide)
theorem at_v22_16 (c : Dev nD) : W16 m ρ c (Proc.devRef .tc main_v22) = W3 m ρ c (Proc.devRef .tc main_v22) := carry m ρ c main_v22 3 13 (by decide)
theorem at_v23_16 (c : Dev nD) : W16 m ρ c (Proc.devRef .tc main_v23) = W3 m ρ c (Proc.devRef .tc main_v23) := carry m ρ c main_v23 3 13 (by decide)
theorem at_v27_21 (c : Dev nD) : W21 m ρ c (Proc.devRef .tc main_v27) = W3 m ρ c (Proc.devRef .tc main_v27) := carry m ρ c main_v27 3 18 (by decide)
theorem at_v28_21 (c : Dev nD) : W21 m ρ c (Proc.devRef .tc main_v28) = W3 m ρ c (Proc.devRef .tc main_v28) := carry m ρ c main_v28 3 18 (by decide)
theorem at_v29_6 (c : Dev nD) : W6 m ρ c (Proc.devRef .tc main_v29) = W3 m ρ c (Proc.devRef .tc main_v29) := carry m ρ c main_v29 3 3 (by decide)
theorem at_v30_11 (c : Dev nD) : W11 m ρ c (Proc.devRef .tc main_v30) = W3 m ρ c (Proc.devRef .tc main_v30) := carry m ρ c main_v30 3 8 (by decide)
theorem at_v31_16 (c : Dev nD) : W16 m ρ c (Proc.devRef .tc main_v31) = W3 m ρ c (Proc.devRef .tc main_v31) := carry m ρ c main_v31 3 13 (by decide)
theorem at_v32_21 (c : Dev nD) : W21 m ρ c (Proc.devRef .tc main_v32) = W3 m ρ c (Proc.devRef .tc main_v32) := carry m ρ c main_v32 3 18 (by decide)
theorem at_v33_4 (c : Dev nD) : W4 m ρ c (Proc.devRef .tc main_v33) = W3 m ρ c (Proc.devRef .tc main_v33) := carry m ρ c main_v33 3 1 (by decide)
theorem at_v34_4 (c : Dev nD) : W4 m ρ c (Proc.devRef .tc main_v34) = W3 m ρ c (Proc.devRef .tc main_v34) := carry m ρ c main_v34 3 1 (by decide)
theorem at_v35_0_5 (c : Dev nD) : W5 m ρ c (Proc.devRef .tc main_v35_0) = W4 m ρ c (Proc.devRef .tc main_v35_0) := carry m ρ c main_v35_0 4 1 (by decide)
theorem at_v35_0_10 (c : Dev nD) : W10 m ρ c (Proc.devRef .tc main_v35_0) = W4 m ρ c (Proc.devRef .tc main_v35_0) := carry m ρ c main_v35_0 4 6 (by decide)
theorem at_v35_1_5 (c : Dev nD) : W5 m ρ c (Proc.devRef .tc main_v35_1) = W4 m ρ c (Proc.devRef .tc main_v35_1) := carry m ρ c main_v35_1 4 1 (by decide)
theorem at_v36_0_10 (c : Dev nD) : W10 m ρ c (Proc.devRef .tc main_v36_0) = W5 m ρ c (Proc.devRef .tc main_v36_0) := carry m ρ c main_v36_0 5 5 (by decide)
theorem at_v41_0_11 (c : Dev nD) : W11 m ρ c (Proc.devRef .tc main_v41_0) = W7 m ρ c (Proc.devRef .tc main_v41_0) := carry m ρ c main_v41_0 7 4 (by decide)
theorem at_v41_1_11 (c : Dev nD) : W11 m ρ c (Proc.devRef .tc main_v41_1) = W7 m ρ c (Proc.devRef .tc main_v41_1) := carry m ρ c main_v41_1 7 4 (by decide)
theorem at_v42_9 (c : Dev nD) : W9 m ρ c (Proc.devRef .tc main_v42) = W8 m ρ c (Proc.devRef .tc main_v42) := carry m ρ c main_v42 8 1 (by decide)
theorem at_v43_10 (c : Dev nD) : W10 m ρ c (Proc.devRef .tc main_v43) = W9 m ρ c (Proc.devRef .tc main_v43) := carry m ρ c main_v43 9 1 (by decide)
theorem at_v49_0_22 (c : Dev nD) : W22 m ρ c (Proc.devRef .tc main_v49_0) = W12 m ρ c (Proc.devRef .tc main_v49_0) := carry m ρ c main_v49_0 12 10 (by decide)
theorem at_v49_1_16 (c : Dev nD) : W16 m ρ c (Proc.devRef .tc main_v49_1) = W12 m ρ c (Proc.devRef .tc main_v49_1) := carry m ρ c main_v49_1 12 4 (by decide)
theorem at_v49_1_21 (c : Dev nD) : W21 m ρ c (Proc.devRef .tc main_v49_1) = W12 m ρ c (Proc.devRef .tc main_v49_1) := carry m ρ c main_v49_1 12 9 (by decide)
theorem at_v50_14 (c : Dev nD) : W14 m ρ c (Proc.devRef .tc main_v50) = W13 m ρ c (Proc.devRef .tc main_v50) := carry m ρ c main_v50 13 1 (by decide)
theorem at_v51_14 (c : Dev nD) : W14 m ρ c (Proc.devRef .tc main_v51) = W13 m ρ c (Proc.devRef .tc main_v51) := carry m ρ c main_v51 13 1 (by decide)
theorem at_v52_0_15 (c : Dev nD) : W15 m ρ c (Proc.devRef .tc main_v52_0) = W14 m ρ c (Proc.devRef .tc main_v52_0) := carry m ρ c main_v52_0 14 1 (by decide)
theorem at_v52_0_20 (c : Dev nD) : W20 m ρ c (Proc.devRef .tc main_v52_0) = W14 m ρ c (Proc.devRef .tc main_v52_0) := carry m ρ c main_v52_0 14 6 (by decide)
theorem at_v52_1_15 (c : Dev nD) : W15 m ρ c (Proc.devRef .tc main_v52_1) = W14 m ρ c (Proc.devRef .tc main_v52_1) := carry m ρ c main_v52_1 14 1 (by decide)
theorem at_v53_0_20 (c : Dev nD) : W20 m ρ c (Proc.devRef .tc main_v53_0) = W15 m ρ c (Proc.devRef .tc main_v53_0) := carry m ρ c main_v53_0 15 5 (by decide)
theorem at_v58_0_21 (c : Dev nD) : W21 m ρ c (Proc.devRef .tc main_v58_0) = W17 m ρ c (Proc.devRef .tc main_v58_0) := carry m ρ c main_v58_0 17 4 (by decide)
theorem at_v58_1_21 (c : Dev nD) : W21 m ρ c (Proc.devRef .tc main_v58_1) = W17 m ρ c (Proc.devRef .tc main_v58_1) := carry m ρ c main_v58_1 17 4 (by decide)
theorem at_v59_19 (c : Dev nD) : W19 m ρ c (Proc.devRef .tc main_v59) = W18 m ρ c (Proc.devRef .tc main_v59) := carry m ρ c main_v59 18 1 (by decide)
theorem at_v60_20 (c : Dev nD) : W20 m ρ c (Proc.devRef .tc main_v60) = W19 m ρ c (Proc.devRef .tc main_v60) := carry m ρ c main_v60 19 1 (by decide)

end Cert.KernelIdeal.Carry

end
-- ==== Proof.RowBlocks.lean ====
import Idealize.ShloMosaic.Lib.StackMember
import Idealize.ShloMosaic.Lib.Pipeline.Value

noncomputable section

namespace Cert.RowBlocks

open Idealize.ShloMosaic Idealize.ShloMosaic.ValueIdx

variable {n : ℕ}

abbrev Sh (a b : ℕ) : Shape := ⟨2, ![a, b]⟩

/-- The map e sends y to y shifted by i blocks, axis by axis. -/
def At {m k M K : ℕ} (e : (Sh m k).Idx → (Sh M K).Idx) (i : Fin 2 → ℕ) : Prop :=
  ∀ y a, (e y a : ℕ) = i a * (Sh m k).size a + y a

/-- The block index at t is (t, 0): block row t. -/
def Rows {N : ℕ} (ix : Fin N → Fin 2 → ℕ) : Prop := ∀ t, ix t 0 = t ∧ ix t 1 = 0

/-- The block index is always (0, 0). -/
def Whole {N : ℕ} (ix : Fin N → Fin 2 → ℕ) : Prop := ∀ t, ix t 0 = 0 ∧ ix t 1 = 0

instance {N : ℕ} (ix : Fin N → Fin 2 → ℕ) : Decidable (Rows ix) := by unfold Rows; infer_instance
instance {N : ℕ} (ix : Fin N → Fin 2 → ℕ) : Decidable (Whole ix) := by unfold Whole; infer_instance

theorem hz : (![0, 0] : Fin 2 → ℕ) = fun _ => 0 := funext fun a => by fin_cases a <;> rfl

/-- A matrix product added to zero, entry by entry. -/
theorem mm_apply {m k : ℕ} (A : FVec Ideal (Sh m k) .bf16) (B : FVec Ideal (Sh k n) .bf16) (p : Fin m) (q : Fin n) :
    matmul (DotDims.plain m k n) none A B (constant (F := Ideal) (Sh m n) .f32 0x00000000#32) (ix2 p q)
      = ∑ c : Fin k, A (ix2 p c) * B (ix2 c q) := by
  rw [matmul_zero_eq_dotGeneral, StackMember.dotGeneral_plain_apply]

/-- The product A·X. -/
def prod (A : Vec Ideal (Sh 1024 1024) .bf16) (X : Vec Ideal (Sh 1024 n) .bf16) : Vec Ideal (Sh 1024 n) .bf16 :=
  fun i => ∑ k : Fin 1024, A (ix2 (i 0) k) * X (ix2 k (i 1))

/-- Entry (p, q) of A·X from the entries of A and of column q of X. -/
theorem prod_apply {A : Vec Ideal (Sh 1024 1024) .bf16} {X : Vec Ideal (Sh 1024 n) .bf16} {Z : Vec Ideal (Sh 1024 n) .bf16}
    (h : Z = prod A X) (a : Fin 1024 → Fin 1024 → EReal) (y : Fin 1024 → EReal) (p : Fin 1024) (q : Fin n)
    (eA : ∀ p k, A (ix2 p k) = a p k) (eX : ∀ k, X (ix2 k q) = y k) : Z (ix2 p q) = ∑ k : Fin 1024, a p k * y k := by
  subst h
  show (∑ k : Fin 1024, A (ix2 p k) * X (ix2 k q)) = _
  exact Finset.sum_congr rfl fun k _ => by rw [eA, eX]

/-- The Chebyshev step 2·A·X1 − X0. -/
def step (A : Vec Ideal (Sh 1024 1024) .bf16) (X0 X1 : Vec Ideal (Sh 1024 n) .bf16) : Vec Ideal (Sh 1024 n) .bf16 :=
  fun i => Scalar.ofBits (F := Ideal) .f32 0x40000000#32 * (∑ k : Fin 1024, A (ix2 (i 0) k) * X1 (ix2 k (i 1))) - X0 i

/-- Entry (p, q) of 2·A·X1 − X0 from the entries of A, of column q of X1 and of X0. -/
theorem step_apply {A : Vec Ideal (Sh 1024 1024) .bf16} {X0 X1 Z : Vec Ideal (Sh 1024 n) .bf16} (h : Z = step A X0 X1)
    (a : Fin 1024 → Fin 1024 → EReal) (y0 : EReal) (y1 : Fin 1024 → EReal) (p : Fin 1024) (q : Fin n)
    (eA : ∀ p k, A (ix2 p k) = a p k) (e0 : X0 (ix2 p q) = y0) (e1 : ∀ k, X1 (ix2 k q) = y1 k) :
    Z (ix2 p q) = Scalar.ofBits (F := Ideal) .f32 0x40000000#32 * (∑ k : Fin 1024, a p k * y1 k) - y0 := by
  subst h
  show Scalar.ofBits (F := Ideal) .f32 0x40000000#32 * (∑ k : Fin 1024, A (ix2 p k) * X1 (ix2 k q)) - X0 (ix2 p q) = _
  rw [e0]
  exact congrArg (Scalar.ofBits (F := Ideal) .f32 0x40000000#32 * · - y0) (Finset.sum_congr rfl fun k _ => by rw [eA, e1])

/-- Entry (p, k) of rows 256t … 256t + 255 of A is entry (256t + p, k) of A; X is whole. -/
theorem operands {ea : (Sh 256 1024).Idx → (Sh 1024 1024).Idx} {ex : (Sh 1024 n).Idx → (Sh 1024 n).Idx}
    {eo : (Sh 256 n).Idx → (Sh 1024 n).Idx} {ia ix io : Fin 2 → ℕ} {t : ℕ}
    (ha : At ea ia) (hx : At ex ix) (ho : At eo io)
    (a : ia 0 = t ∧ ia 1 = 0) (x : ix 0 = 0 ∧ ix 1 = 0) (o : io 0 = t ∧ io 1 = 0)
    (p : Fin 256) (q : Fin n) (k : Fin 1024) :
    ea (ix2 p k) = ix2 (eo (ix2 p q) 0) k ∧ ex (ix2 k q) = ix2 k (eo (ix2 p q) 1) := by
  have h00 : (ea (ix2 p k) 0).val = ia 0 * 256 + p.val := ha _ 0
  have h01 : (ea (ix2 p k) 1).val = ia 1 * 1024 + k.val := ha _ 1
  have h10 : (ex (ix2 k q) 0).val = ix 0 * 1024 + k.val := hx _ 0
  have h11 : (ex (ix2 k q) 1).val = ix 1 * n + q.val := hx _ 1
  have h20 : (eo (ix2 p q) 0).val = io 0 * 256 + p.val := ho _ 0
  have h21 : (eo (ix2 p q) 1).val = io 1 * n + q.val := ho _ 1
  rw [x.2] at h11; rw [o.2] at h21
  exact ⟨Shape.idx_ext₂ (show (ea (ix2 p k) 0).val = (eo (ix2 p q) 0).val by omega) (show (ea (ix2 p k) 1).val = k.val by omega),
    Shape.idx_ext₂ (show (ex (ix2 k q) 0).val = k.val by omega) (show (ex (ix2 k q) 1).val = (eo (ix2 p q) 1).val by omega)⟩

/-- Rows 256t … 256t + 255 of A times X are the same rows of A·X. -/
theorem block_prod (A : Vec Ideal (Sh 1024 1024) .bf16) (X : Vec Ideal (Sh 1024 n) .bf16)
    {ea : (Sh 256 1024).Idx → (Sh 1024 1024).Idx} {ex : (Sh 1024 n).Idx → (Sh 1024 n).Idx}
    {eo : (Sh 256 n).Idx → (Sh 1024 n).Idx} {ia ix io : Fin 2 → ℕ} {t : ℕ}
    (ha : At ea ia) (hx : At ex ix) (ho : At eo io)
    (a : ia 0 = t ∧ ia 1 = 0) (x : ix 0 = 0 ∧ ix 1 = 0) (o : io 0 = t ∧ io 1 = 0)
    {inb0 inb1 inb2 h0 h1 hb} :
    View.canon [(⟨Rect.unit ![0, 0] (Sh 256 n).size inb2,
        truncf .bf16 (matmul (DotDims.plain 256 1024 n) none
          (shapeCast (s := Sh 256 1024) (Sh 256 1024) (View.ld (fun y => A (ea y)) (Rect.unit ![0, 0] (Sh 256 1024).size inb0)) h0 : FVec Ideal (Sh 256 1024) .bf16)
          (shapeCast (s := Sh 1024 n) (Sh 1024 n) (View.ld (fun y => X (ex y)) (Rect.unit ![0, 0] (Sh 1024 n).size inb1)) h1 : FVec Ideal (Sh 1024 n) .bf16)
          (constant (F := Ideal) (Sh 256 n) .f32 0x00000000#32)) hb⟩ : View.Piece (Elt Ideal) (Sh 256 n) .bf16)]
      = fun j => prod A X (eo j) := by
  rw [View.canon_unit_zero hz, View.ld_unit_zero hz, View.ld_unit_zero hz, shapeCast_self, shapeCast_self]
  funext j
  obtain ⟨p, q, rfl⟩ : ∃ (p : Fin 256) (q : Fin n), j = ix2 p q := ⟨j 0, j 1, eq_ix2 j⟩
  rw [truncf_apply, mm_apply]
  refine Finset.sum_congr rfl fun k _ => ?_
  obtain ⟨e1, e2⟩ := operands ha hx ho a x o p q k
  rw [e1, e2]; rfl

/-- Twice rows 256t … 256t + 255 of A times X1, minus the same rows of X0, are the same rows of 2·A·X1 − X0. -/
theorem block_step (A : Vec Ideal (Sh 1024 1024) .bf16) (X0 X1 : Vec Ideal (Sh 1024 n) .bf16)
    {ea : (Sh 256 1024).Idx → (Sh 1024 1024).Idx} {ex : (Sh 1024 n).Idx → (Sh 1024 n).Idx}
    {e0 eo : (Sh 256 n).Idx → (Sh 1024 n).Idx} {ia ix i0 io : Fin 2 → ℕ} {t : ℕ}
    (ha : At ea ia) (h0 : At e0 i0) (hx : At ex ix) (ho : At eo io)
    (a : ia 0 = t ∧ ia 1 = 0) (z : i0 0 = t ∧ i0 1 = 0) (x : ix 0 = 0 ∧ ix 1 = 0) (o : io 0 = t ∧ io 1 = 0)
    {inb0 inb1 inb2 c0 c1 c2 hb hb'} :
    View.canon [(⟨Rect.unit ![0, 0] (Sh 256 n).size inb2,
        truncf .bf16 (subf (mulf (broadcast (Sh 256 n) (Scalar.ofBits (F := Ideal) .f32 0x40000000#32))
          (matmul (DotDims.plain 256 1024 n) none
            (shapeCast (s := Sh 256 1024) (Sh 256 1024) (View.ld (fun y => A (ea y)) (Rect.unit ![0, 0] (Sh 256 1024).size inb0)) c0 : FVec Ideal (Sh 256 1024) .bf16)
            (shapeCast (s := Sh 1024 n) (Sh 1024 n) (View.ld (fun y => X1 (ex y)) (Rect.unit ![0, 0] (Sh 1024 n).size inb1)) c1 : FVec Ideal (Sh 1024 n) .bf16)
            (constant (F := Ideal) (Sh 256 n) .f32 0x00000000#32)))
          (extf .f32 (shapeCast (s := Sh 256 n) (Sh 256 n) (View.ld (fun y => X0 (e0 y)) (Rect.unit ![0, 0] (Sh 256 n).size inb2)) c2 : FVec Ideal (Sh 256 n) .bf16) hb')) hb⟩
        : View.Piece (Elt Ideal) (Sh 256 n) .bf16)]
      = fun j => step A X0 X1 (eo j) := by
  rw [View.canon_unit_zero hz, View.ld_unit_zero hz, View.ld_unit_zero hz, View.ld_unit_zero hz, shapeCast_self, shapeCast_self,
    shapeCast_self]
  funext j
  obtain ⟨p, q, rfl⟩ : ∃ (p : Fin 256) (q : Fin n), j = ix2 p q := ⟨j 0, j 1, eq_ix2 j⟩
  rw [truncf_apply, subf_apply, mulf_apply, broadcast_apply, extf_apply, mm_apply]
  have e : e0 (ix2 p q) = eo (ix2 p q) :=
    Shape.idx_ext₂ ((h0 _ 0).trans (by rw [ho _ 0, z.1, o.1])) ((h0 _ 1).trans (by rw [ho _ 1, z.2, o.2]))
  rw [e]
  refine congrArg (Scalar.ofBits (F := Ideal) .f32 0x40000000#32 * · - X0 (eo (ix2 p q))) (Finset.sum_congr rfl fun k _ => ?_)
  obtain ⟨e1, e2⟩ := operands ha hx ho a x o p q k
  rw [e1, e2]; rfl

/-- An index within a block's bounds on every axis is in the block. -/
theorem mem_blk {sig : RefSig} {κ : Kind} (b : Ref sig κ) {off sz : Fin b.ty.shape.rank → ℕ} {inb} {i : b.ty.shape.Idx}
    (h : ∀ a, off a ≤ i a ∧ (i a : ℕ) < off a + sz a) : i ∈ ((View.whole b).slice (Rect.unit off sz inb)).set := by
  rw [View.set_slice_whole]; exact Rect.mem_set_unit.2 h

theorem row_lt (i : (Sh 1024 n).Idx) : (i 0).val / 256 < 4 := by have := idx2_lt0 i; omega

/-- Row r of a 1024-row array is within the bounds of the block of rows 256⌊r/256⌋ … 256⌊r/256⌋ + 255. -/
theorem rows (i : (Sh 1024 n).Idx) {io : Fin 2 → ℕ} (o : io 0 = (i 0).val / 256 ∧ io 1 = 0) (a : Fin 2) :
    io a * (Sh 256 n).size a ≤ i a ∧ (i a : ℕ) < io a * (Sh 256 n).size a + (Sh 256 n).size a := by
  have := idx2_lt1 i
  match a with
  | ⟨0, _⟩ => show io 0 * 256 ≤ (i 0).val ∧ (i 0).val < io 0 * 256 + 256; omega
  | ⟨1, _⟩ => show io 1 * n ≤ (i 1).val ∧ (i 1).val < io 1 * n + n; rw [o.2]; omega

end Cert.RowBlocks

end
-- ==== Proof.KPrep.lean ====
import proofs.«162824_g19885698580639_cont_8to1_2033_9_alg».proof.Proof.Gen.KernelIdeal.Frame
import proofs.«162824_g19885698580639_cont_8to1_2033_9_alg».proof.Proof.Spec
import proofs.«162824_g19885698580639_cont_8to1_2033_9_alg».proof.Proof.RowBlocks

noncomputable section

namespace Cert.KernelIdeal.KPrep

open Cert.KernelIdeal Cert.KernelIdeal.Gen Cert.Spec Cert.RowBlocks
open Idealize.ShloMosaic Idealize.ShloMosaic.TcCoe Idealize.ShloMosaic.ValueIdx Idealize.SL.Sem

variable (V : (c : Dev nD) → (b : Ref sig .tc) → Buf (Elt Ideal) ((c : Thread nD τ).loc b))

def brow (n : Fin 128) (b : Fin 32) : Fin 4096 := ⟨n.val * 32 + b.val, by omega⟩

theorem brow_surj (r : Fin 4096) : ∃ (n : Fin 128) (b : Fin 32), r = brow n b :=
  have hr := r.isLt
  ⟨⟨r.val / 32, by omega⟩, ⟨r.val % 32, Nat.mod_lt _ (by decide)⟩,
    Fin.ext (show r.val = r.val / 32 * 32 + r.val % 32 from (Nat.div_add_mod' r.val 32).symm)⟩

def relay {C : Nat} (a : (⟨3, ![32, 1024, C]⟩ : Shape).Idx → EReal) : (⟨2, ![32768, C]⟩ : Shape).Idx → EReal := fun i =>
  a (ix3 (⟨(i 0).val % 32, Nat.mod_lt _ (by decide)⟩ : Fin 32) (⟨(i 0).val / 32, by have := idx2_lt0 i; omega⟩ : Fin 1024) (i 1))

theorem relay_nb {C : Nat} (a : (⟨3, ![32, 1024, C]⟩ : Shape).Idx → EReal) (n : Fin 1024) (b : Fin 32) (c' : Fin C) :
    relay a (ix2 (nb n b) c') = a (ix3 b n c') := by
  unfold relay
  refine congrArg a (funext fun d => Fin.ext ?_)
  match d with
  | ⟨0, _⟩ => show (n.val * 32 + b.val) % 32 = b.val; omega
  | ⟨1, _⟩ => show (n.val * 32 + b.val) / 32 = n.val; omega
  | ⟨2, _⟩ => rfl

/-- The block index at t is (0, t, 0). -/
def Mid {N : ℕ} (ix : Fin N → Fin 3 → ℕ) : Prop := ∀ t, ix t 0 = 0 ∧ ix t 1 = t ∧ ix t 2 = 0

instance {N : ℕ} (ix : Fin N → Fin 3 → ℕ) : Decidable (Mid ix) := by unfold Mid; infer_instance

theorem hz3 : (![0, 0, 0] : Fin 3 → ℕ) = fun _ => 0 := funext fun a => by fin_cases a <;> rfl

/-- Nodes 128t … 128t + 127 of a, re-laid with the node in front of the batch, are rows 4096t … 4096t + 4095 of a re-laid. -/
theorem relay_blk {C : ℕ} (a : (⟨3, ![32, 1024, C]⟩ : Shape).Idx → EReal) {x : (⟨3, ![32, 128, C]⟩ : Shape).Idx → EReal}
    {p : (Sh 4096 C).Idx → EReal} (hp : ∀ n b c', p (ix2 (brow n b) c') = x (ix3 b n c'))
    {ea : (⟨3, ![32, 128, C]⟩ : Shape).Idx → (⟨3, ![32, 1024, C]⟩ : Shape).Idx} {eo : (Sh 4096 C).Idx → (Sh 32768 C).Idx}
    {ia : Fin 3 → ℕ} {io : Fin 2 → ℕ} {t : ℕ} (hx : ∀ y, x y = a (ea y))
    (ha : ∀ y d, (ea y d : ℕ) = ia d * (⟨3, ![32, 128, C]⟩ : Shape).size d + y d) (ho : At eo io)
    (hi : ia 0 = 0 ∧ ia 1 = t ∧ ia 2 = 0) (o : io 0 = t ∧ io 1 = 0) (j : (Sh 4096 C).Idx) :
    p j = relay a (eo j) := by
  obtain ⟨r, c', rfl⟩ : ∃ r c', j = ix2 r c' := ⟨j 0, j 1, eq_ix2 j⟩
  obtain ⟨n, b, rfl⟩ := brow_surj r
  rw [hp, hx]
  unfold relay
  refine congrArg a (funext fun d => Fin.ext ?_)
  have a0 : (ea (ix3 b n c') 0).val = ia 0 * 32 + b.val := ha _ 0
  have a1 : (ea (ix3 b n c') 1).val = ia 1 * 128 + n.val := ha _ 1
  have a2 : (ea (ix3 b n c') 2).val = ia 2 * C + c'.val := ha _ 2
  have h0 : (eo (ix2 (brow n b) c') 0).val = io 0 * 4096 + (n.val * 32 + b.val) := ho _ 0
  have h1 : (eo (ix2 (brow n b) c') 1).val = io 1 * C + c'.val := ho _ 1
  rw [hi.2.2] at a2; rw [o.2] at h1
  have := b.isLt; have := n.isLt
  match d with
  | ⟨0, _⟩ => show (ea (ix3 b n c') 0).val = (eo (ix2 (brow n b) c') 0).val % 32; omega
  | ⟨1, _⟩ => show (ea (ix3 b n c') 1).val = (eo (ix2 (brow n b) c') 0).val / 32; omega
  | ⟨2, _⟩ => show (ea (ix3 b n c') 2).val = (eo (ix2 (brow n b) c') 1).val; omega

/-- Row n·32 + b of a [32, 128, C] array with its first two axes exchanged and merged is its entry (b, n). -/
theorem pay_apply {C : ℕ} (x : FVec Ideal ⟨3, ![32, 128, C]⟩ .f32) {h0 h1 h2} (n : Fin 128) (b : Fin 32) (c' : Fin C) :
    shapeCast (s := ⟨3, ![128, 32, C]⟩) (Sh 4096 C) (transpose ⟨3, ![128, 32, C]⟩ [1, 0, 2]
      (shapeCast (s := ⟨3, ![32, 128, C]⟩) ⟨3, ![32, 128, C]⟩ x h0) h1) h2 (ix2 (brow n b) c') = x (ix3 b n c') := by
  rw [shapeCast_self]
  refine (shapeCast_apply _ _ _ (ix3 n b c') ?_).trans ?_
  · rw [Shape.rowMajor_val_three, Shape.rowMajor_val_two]; rfl
  · exact transpose_apply _ _ _ _ (ix3 b n c') (fun a => match a with | ⟨0, _⟩ => rfl | ⟨1, _⟩ => rfl | ⟨2, _⟩ => rfl)

theorem pay1_apply (x : Vec Ideal S32x128x2 .f32) (n : Fin 128) (b : Fin 32) (c' : Fin 2) :
    k0_pay1 (F := Ideal) x (ix2 (brow n b) c') = x (ix3 b n c') := by
  unfold k0_pay1; rw [truncf_apply]; exact pay_apply x n b c'

theorem row_lt8 {C : ℕ} (i : (Sh 32768 C).Idx) : (i 0).val / 4096 < 8 := by have := idx2_lt0 i; omega

/-- Row r of a 32768-row array is within the bounds of the block of rows 4096⌊r/4096⌋ … 4096⌊r/4096⌋ + 4095. -/
theorem rows8 {C : ℕ} (i : (Sh 32768 C).Idx) {io : Fin 2 → ℕ} (o : io 0 = (i 0).val / 4096 ∧ io 1 = 0) (a : Fin 2) :
    io a * (Sh 4096 C).size a ≤ i a ∧ (i a : ℕ) < io a * (Sh 4096 C).size a + (Sh 4096 C).size a := by
  have := idx2_lt1 i
  match a with
  | ⟨0, _⟩ => show io 0 * 4096 ≤ (i 0).val ∧ (i 0).val < io 0 * 4096 + 4096; omega
  | ⟨1, _⟩ => show io 1 * C ≤ (i 1).val ∧ (i 1).val < io 1 * C + C; rw [o.2]; omega

theorem idx0 : Mid win0_0.index ∧ Mid win0_1.index ∧ Mid win0_2.index ∧ Rows win0_3.index ∧ Rows win0_4.index
    ∧ Rows win0_5.index ∧ Rows win0_6.index ∧ Rows win0_7.index := by
  decide +kernel

theorem final3 (c : Dev nD) :
    (dat0 (F := Ideal) V c).arrAt 3 cfg0.N = relay (V c (Pipeline.arrRef spec0 0) : Vec Ideal S32x1024x2 .f32) := by
  refine (dat0 V c).arrAt_eq_of_cover 3 _ (fun t _ => ?_)
    fun i => ⟨⟨_, row_lt8 i⟩, flush0_3 _, mem_blk _ (rows8 i (idx0.2.2.2.1 _))⟩
  show (cfg0.win 3).cut _ ((dat0 V c).after 3 t) = _
  rw [after0_3]; unfold out0_3
  rw [View.canon_unit_zero hz, View.ld_unit_zero hz3]
  exact funext (relay_blk _ (pay1_apply _) (fun _ => rfl) (win0_0.rect_emb_val t) (win0_3.rect_emb_val t) (idx0.1 t) (idx0.2.2.2.1 t))

theorem final4 (c : Dev nD) :
    (dat0 (F := Ideal) V c).arrAt 4 cfg0.N = relay (V c (Pipeline.arrRef spec0 1) : Vec Ideal S32x1024x64 .f32) := by
  refine (dat0 V c).arrAt_eq_of_cover 4 _ (fun t _ => ?_)
    fun i => ⟨⟨_, row_lt8 i⟩, flush0_4 _, mem_blk _ (rows8 i (idx0.2.2.2.2.1 _))⟩
  show (cfg0.win 4).cut _ ((dat0 V c).after 4 t) = _
  rw [after0_4]; unfold out0_4
  rw [View.canon_unit_zero hz, View.ld_unit_zero hz3]
  exact funext (relay_blk _ (pay_apply _) (fun _ => rfl) (win0_1.rect_emb_val t) (win0_4.rect_emb_val t) (idx0.2.1 t) (idx0.2.2.2.2.1 t))

theorem final5 (c : Dev nD) :
    (dat0 (F := Ideal) V c).arrAt 5 cfg0.N = relay (V c (Pipeline.arrRef spec0 1) : Vec Ideal S32x1024x64 .f32) := by
  refine (dat0 V c).arrAt_eq_of_cover 5 _ (fun t _ => ?_)
    fun i => ⟨⟨_, row_lt8 i⟩, flush0_5 _, mem_blk _ (rows8 i (idx0.2.2.2.2.2.1 _))⟩
  show (cfg0.win 5).cut _ ((dat0 V c).after 5 t) = _
  rw [after0_5]; unfold out0_5
  rw [View.canon_unit_zero hz, View.ld_unit_zero hz3]
  exact funext (relay_blk _ (pay_apply _) (fun _ => rfl) (win0_1.rect_emb_val t) (win0_5.rect_emb_val t) (idx0.2.1 t) (idx0.2.2.2.2.2.1 t))

theorem final6 (c : Dev nD) :
    (dat0 (F := Ideal) V c).arrAt 6 cfg0.N = relay (V c (Pipeline.arrRef spec0 2) : Vec Ideal S32x1024x64 .f32) := by
  refine (dat0 V c).arrAt_eq_of_cover 6 _ (fun t _ => ?_)
    fun i => ⟨⟨_, row_lt8 i⟩, flush0_6 _, mem_blk _ (rows8 i (idx0.2.2.2.2.2.2.1 _))⟩
  show (cfg0.win 6).cut _ ((dat0 V c).after 6 t) = _
  rw [after0_6]; unfold out0_6
  rw [View.canon_unit_zero hz, View.ld_unit_zero hz3]
  exact funext (relay_blk _ (pay_apply _) (fun _ => rfl) (win0_2.rect_emb_val t) (win0_6.rect_emb_val t) (idx0.2.2.1 t) (idx0.2.2.2.2.2.2.1 t))

theorem final7 (c : Dev nD) :
    (dat0 (F := Ideal) V c).arrAt 7 cfg0.N = relay (V c (Pipeline.arrRef spec0 2) : Vec Ideal S32x1024x64 .f32) := by
  refine (dat0 V c).arrAt_eq_of_cover 7 _ (fun t _ => ?_)
    fun i => ⟨⟨_, row_lt8 i⟩, flush0_7 _, mem_blk _ (rows8 i (idx0.2.2.2.2.2.2.2 _))⟩
  show (cfg0.win 7).cut _ ((dat0 V c).after 7 t) = _
  rw [after0_7]; unfold out0_7
  rw [View.canon_unit_zero hz, View.ld_unit_zero hz3]
  exact funext (relay_blk _ (pay_apply _) (fun _ => rfl) (win0_2.rect_emb_val t) (win0_7.rect_emb_val t) (idx0.2.2.1 t) (idx0.2.2.2.2.2.2.2 t))

theorem region0 (c : Dev nD) (x : T 2) (h0 h1 : T 64)
    (e0 : ∀ b n c', (V c (Pipeline.arrRef spec0 0) : Vec Ideal S32x1024x2 .f32) (ix3 b n c') = x n b c')
    (e1 : ∀ b n j, (V c (Pipeline.arrRef spec0 1) : Vec Ideal S32x1024x64 .f32) (ix3 b n j) = h0 n b j)
    (e2 : ∀ b n j, (V c (Pipeline.arrRef spec0 2) : Vec Ideal S32x1024x64 .f32) (ix3 b n j) = h1 n b j) :
    (∀ n b c', ((dat0 (F := Ideal) V c).arrAt 3 cfg0.N : Vec Ideal S32768x2 .bf16) (ix2 (nb n b) c') = x n b c')
    ∧ (∀ n b j, ((dat0 (F := Ideal) V c).arrAt 4 cfg0.N : Vec Ideal S32768x64 .bf16) (ix2 (nb n b) j) = h0 n b j)
    ∧ (∀ n b j, ((dat0 (F := Ideal) V c).arrAt 5 cfg0.N : Vec Ideal S32768x64 .f32) (ix2 (nb n b) j) = h0 n b j)
    ∧ (∀ n b j, ((dat0 (F := Ideal) V c).arrAt 6 cfg0.N : Vec Ideal S32768x64 .bf16) (ix2 (nb n b) j) = h1 n b j)
    ∧ (∀ n b j, ((dat0 (F := Ideal) V c).arrAt 7 cfg0.N : Vec Ideal S32768x64 .f32) (ix2 (nb n b) j) = h1 n b j) := by
  refine ⟨fun n b c' => ?_, fun n b j => ?_, fun n b j => ?_, fun n b j => ?_, fun n b j => ?_⟩
  · exact (congrFun (final3 V c) _).trans ((relay_nb _ n b c').trans (e0 b n c'))
  · exact (congrFun (final4 V c) _).trans ((relay_nb _ n b j).trans (e1 b n j))
  · exact (congrFun (final5 V c) _).trans ((relay_nb _ n b j).trans (e1 b n j))
  · exact (congrFun (final6 V c) _).trans ((relay_nb _ n b j).trans (e2 b n j))
  · exact (congrFun (final7 V c) _).trans ((relay_nb _ n b j).trans (e2 b n j))

end Cert.KernelIdeal.KPrep

end
-- ==== Proof.KStage0.lean ====
import proofs.«162824_g19885698580639_cont_8to1_2033_9_alg».proof.Proof.Gen.KernelIdeal.Frame
import proofs.«162824_g19885698580639_cont_8to1_2033_9_alg».proof.Proof.Spec
import proofs.«162824_g19885698580639_cont_8to1_2033_9_alg».proof.Proof.KArgs
import proofs.«162824_g19885698580639_cont_8to1_2033_9_alg».proof.Proof.KCarry
import proofs.«162824_g19885698580639_cont_8to1_2033_9_alg».proof.Proof.KPrep
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.KStage0

open Cert.KernelIdeal Cert.KernelIdeal.Gen Cert.KernelIdeal.KA Cert.KernelIdeal.Carry Cert.Spec
open Idealize.ShloMosaic Idealize.ShloMosaic.TcCoe Idealize.ShloMosaic.ValueIdx Idealize.SL.Sem

variable (m : (ℓ : Loc nD τ sig) → Buf (Elt Ideal) ℓ) (ρ : Dev nD → PrngReg)

theorem slab {K3 K M O : Nat} (off : Nat) {Y : FVec Ideal ⟨3, ![3, M, O]⟩ .bf16} {X X' : FVec Ideal ⟨2, ![K3, O]⟩ .f32} {h1 h2 h3}
    (e : Y = extractStridedSlice ⟨3, ![3, M, O]⟩ ![0, off, 0]
      (truncf (F := Ideal) .bf16 (transpose ⟨3, ![3, K, O]⟩ [1, 0, 2] (shapeCast ⟨3, ![K, 3, O]⟩ X h1) h2) bitsLt_bf16_f32) h3)
    (eX : X = X') (k : Fin 3) (j : Fin M) (o : Fin O) (r : Fin K) (hr : r.val = off + j.val)
    (q : Fin K3) (hq : q.val = r.val * 3 + k.val) : Y (ix3 k j o) = X' (ix2 q o) := by
  rw [e, slice3_axis1_apply off _ h3 k j o r hr, truncf_apply,
    transpose_apply _ _ h2 (ix3 k r o) (ix3 r k o)
      (fun b => match b with | ⟨0, _⟩ => rfl | ⟨1, _⟩ => rfl | ⟨2, _⟩ => rfl),
    shapeCast_apply _ h1 (ix3 r k o) (ix2 q o) (by
      rw [Shape.rowMajor_val_two, Shape.rowMajor_val_three]
      show q.val * O + o.val = (r.val * 3 + k.val) * O + o.val
      rw [hq]), eX]

theorem bias {O : Nat} {Y : FVec Ideal ⟨2, ![1, O]⟩ .f32} {X X' : FVec Ideal ⟨1, ![O]⟩ .f32} {h}
    (e : Y = shapeCast ⟨2, ![1, O]⟩ X h) (eX : X = X') (o : Fin O) : Y (ix2 (0 : Fin 1) o) = X' (ix1 o) := by
  rw [e, shapeCast_a_1a_apply, eX]

theorem hid_read (off : Nat) (l : Fin 2) (hl : l.val = off) (X : FVec Ideal S2x32x65536 .f32) {Y : FVec Ideal S32x1024x64 .f32}
    {h3 : S2x32x65536.Slices ![off, 0, 0] S1x32x65536}
    (e : Y = shapeCast S32x1024x64 (shapeCast S32x65536 (extractStridedSlice S1x32x65536 ![off, 0, 0] X h3)
      shapeCasts_S1x32x65536_S32x65536) shapeCasts_S32x65536_S32x1024x64) (b : Fin 32) (n : Fin 1024) (j : Fin 64) :
    Y (ix3 b n j) = X (ix3 l b (nc n j)) := by
  rw [e, shapeCast_apply _ _ (ix3 b n j) (ix2 b (nc n j)) (by
      rw [Shape.rowMajor_val_two, Shape.rowMajor_val_three]
      show b.val * 65536 + (n.val * 64 + j.val) = (b.val * 1024 + n.val) * 64 + j.val
      omega),
    shapeCast_1ab_ab_apply,
    extractStridedSlice_apply _ _ _ (ix3 (0 : Fin 1) b (nc n j)) (ix3 l b (nc n j)) (fun a => by
      match a with
      | ⟨0, _⟩ => exact hl.trans (Nat.add_zero _).symm
      | ⟨1, _⟩ => exact (Nat.zero_add _).symm
      | ⟨2, _⟩ => exact (Nat.zero_add _).symm)]

theorem view_read {C W : Nat} (hW : W = 32 * C) (X : FVec Ideal ⟨2, ![32768, C]⟩ .bf16) {Y : FVec Ideal ⟨2, ![1024, W]⟩ .bf16}
    {h : (⟨2, ![32768, C]⟩ : Shape).ShapeCasts ⟨2, ![1024, W]⟩} (e : Y = shapeCast ⟨2, ![1024, W]⟩ X h)
    (n : Fin 1024) (b : Fin 32) (q : Fin C) (p : Fin W) (hp : p.val = b.val * C + q.val) :
    Y (ix2 n p) = X (ix2 (nb n b) q) := by
  rw [e]
  refine shapeCast_apply X h (ix2 n p) (ix2 (nb n b) q) ?_
  rw [Shape.rowMajor_val_two, Shape.rowMajor_val_two]
  show (n.val * 32 + b.val) * C + q.val = n.val * W + p.val
  rw [hp, hW, Nat.add_mul, Nat.mul_assoc, Nat.add_assoc]

theorem f_v0 (c : Dev nD) : ∀ (n k : Fin 1024), (W1 m ρ c (Proc.devRef .tc main_v0) : Vec Ideal S1024x1024 .bf16) (ix2 n k) = kA m c n k := by
  intro n k
  have e : (W1 m ρ c (Proc.devRef .tc main_v0) : FVec Ideal S1024x1024 .bf16)
      = truncf (F := Ideal) .bf16 (W0 m ρ c (Proc.devRef .tc main_arg1) : FVec Ideal S1024x1024 .f32) bitsLt_bf16_f32 := by
    show StableHlo.after hostOps0 (W0 m ρ c) (Proc.devRef .tc main_v0) = _
    after_results <;> rfl
  rw [e]
  rfl

theorem f_v1 (c : Dev nD) : ∀ (b : Fin 32) (n : Fin 1024) (q : Fin 2), (W1 m ρ c (Proc.devRef .tc main_v1) : Vec Ideal S32x1024x2 .f32) (ix3 b n q) = kx m c n b q := by
  intro b n q
  have e : (W1 m ρ c (Proc.devRef .tc main_v1) : FVec Ideal S32x1024x2 .f32)
      = shapeCast S32x1024x2 (W0 m ρ c (Proc.devRef .tc main_arg0) : FVec Ideal S32x2048 .f32) shapeCasts_S32x2048_S32x1024x2 := by
    show StableHlo.after hostOps0 (W0 m ρ c) (Proc.devRef .tc main_v1) = _
    after_results <;> rfl

  rw [e, shapeCast_apply _ _ (ix3 b n q) (ix2 b (nc n q)) (by
    rw [Shape.rowMajor_val_two, Shape.rowMajor_val_three]
    show b.val * 2048 + (n.val * 2 + q.val) = (b.val * 1024 + n.val) * 2 + q.val
    omega)]
  rfl

theorem f_v4 (c : Dev nD) : ∀ (b : Fin 32) (n : Fin 1024) (q : Fin 64), (W1 m ρ c (Proc.devRef .tc main_v4) : Vec Ideal S32x1024x64 .f32) (ix3 b n q) = kh0 m c n b q :=
  fun b n q => hid_read 0 0 rfl (W0 m ρ c (Proc.devRef .tc main_arg2)) (by show StableHlo.after hostOps0 (W0 m ρ c) (Proc.devRef .tc main_v4) = _; after_results <;> rfl) b n q

theorem f_v7 (c : Dev nD) : ∀ (b : Fin 32) (n : Fin 1024) (q : Fin 64), (W1 m ρ c (Proc.devRef .tc main_v7) : Vec Ideal S32x1024x64 .f32) (ix3 b n q) = kh1 m c n b q :=
  fun b n q => hid_read 1 1 rfl (W0 m ρ c (Proc.devRef .tc main_arg2)) (by show StableHlo.after hostOps0 (W0 m ρ c) (Proc.devRef .tc main_v7) = _; after_results <;> rfl) b n q

theorem region0_out (c : Dev nD) :
    (∀ n b c', ((dat0 (F := Ideal) (V1 m ρ) c).arrAt 3 cfg0.N : Vec Ideal S32768x2 .bf16) (ix2 (nb n b) c') = kx m c n b c')
    ∧ (∀ n b j, ((dat0 (F := Ideal) (V1 m ρ) c).arrAt 4 cfg0.N : Vec Ideal S32768x64 .bf16) (ix2 (nb n b) j) = kh0 m c n b j)
    ∧ (∀ n b j, ((dat0 (F := Ideal) (V1 m ρ) c).arrAt 5 cfg0.N : Vec Ideal S32768x64 .f32) (ix2 (nb n b) j) = kh0 m c n b j)
    ∧ (∀ n b j, ((dat0 (F := Ideal) (V1 m ρ) c).arrAt 6 cfg0.N : Vec Ideal S32768x64 .bf16) (ix2 (nb n b) j) = kh1 m c n b j)
    ∧ (∀ n b j, ((dat0 (F := Ideal) (V1 m ρ) c).arrAt 7 cfg0.N : Vec Ideal S32768x64 .f32) (ix2 (nb n b) j) = kh1 m c n b j) :=
  KPrep.region0 (V1 m ρ) c (kx m c) (kh0 m c) (kh1 m c)
    (fun b n c' => f_v1 m ρ c b n c') (fun b n j => f_v4 m ρ c b n j) (fun b n j => f_v7 m ρ c b n j)

theorem f_v8_0 (c : Dev nD) : ∀ (n : Fin 1024) (b : Fin 32) (q : Fin 2), (W2 m ρ c (Proc.devRef .tc main_v8_0) : Vec Ideal S32768x2 .bf16) (ix2 (nb n b) q) = kx m c n b q :=
  fun n b q => (congrFun (W2_arr m ρ c 3) _).trans ((region0_out m ρ c).1 n b q)

theorem f_v8_1 (c : Dev nD) : ∀ (n : Fin 1024) (b : Fin 32) (q : Fin 64), (W2 m ρ c (Proc.devRef .tc main_v8_1) : Vec Ideal S32768x64 .bf16) (ix2 (nb n b) q) = kh0 m c n b q :=
  fun n b q => (congrFun (W2_arr m ρ c 4) _).trans ((region0_out m ρ c).2.1 n b q)

theorem f_v8_2 (c : Dev nD) : ∀ (n : Fin 1024) (b : Fin 32) (q : Fin 64), (W2 m ρ c (Proc.devRef .tc main_v8_2) : Vec Ideal S32768x64 .f32) (ix2 (nb n b) q) = kh0 m c n b q :=
  fun n b q => (congrFun (W2_arr m ρ c 5) _).trans ((region0_out m ρ c).2.2.1 n b q)

theorem f_v8_3 (c : Dev nD) : ∀ (n : Fin 1024) (b : Fin 32) (q : Fin 64), (W2 m ρ c (Proc.devRef .tc main_v8_3) : Vec Ideal S32768x64 .bf16) (ix2 (nb n b) q) = kh1 m c n b q :=
  fun n b q => (congrFun (W2_arr m ρ c 6) _).trans ((region0_out m ρ c).2.2.2.1 n b q)

theorem f_v8_4 (c : Dev nD) : ∀ (n : Fin 1024) (b : Fin 32) (q : Fin 64), (W2 m ρ c (Proc.devRef .tc main_v8_4) : Vec Ideal S32768x64 .f32) (ix2 (nb n b) q) = kh1 m c n b q :=
  fun n b q => (congrFun (W2_arr m ρ c 7) _).trans ((region0_out m ρ c).2.2.2.2 n b q)

local macro "launch_contents" : tactic => `(tactic| (
  refine (W2_of_ne _ _ _ _ (by decide)).trans
    (StableHlo.after_of_forall_not_mem _ _ (List.forall_iff_forall_mem.mp ?_))
  simp only [hostOps0, List.Forall, StableHlo.unary_writes, StableHlo.reshape_writes, Finset.mem_singleton]
  repeat' apply And.intro
  all_goals exact StableHlo.devRef_ne_of_ne (by decide)))

theorem w2_arg3 (c : Dev nD) : W2 m ρ c (Proc.devRef .tc main_arg3) = m ((c : Thread nD τ).loc main_arg3) := by launch_contents
theorem w2_arg4 (c : Dev nD) : W2 m ρ c (Proc.devRef .tc main_arg4) = m ((c : Thread nD τ).loc main_arg4) := by launch_contents
theorem w2_arg5 (c : Dev nD) : W2 m ρ c (Proc.devRef .tc main_arg5) = m ((c : Thread nD τ).loc main_arg5) := by launch_contents
theorem w2_arg6 (c : Dev nD) : W2 m ρ c (Proc.devRef .tc main_arg6) = m ((c : Thread nD τ).loc main_arg6) := by launch_contents
theorem w2_arg7 (c : Dev nD) : W2 m ρ c (Proc.devRef .tc main_arg7) = m ((c : Thread nD τ).loc main_arg7) := by launch_contents
theorem w2_arg8 (c : Dev nD) : W2 m ρ c (Proc.devRef .tc main_arg8) = m ((c : Thread nD τ).loc main_arg8) := by launch_contents
theorem w2_arg9 (c : Dev nD) : W2 m ρ c (Proc.devRef .tc main_arg9) = m ((c : Thread nD τ).loc main_arg9) := by launch_contents
theorem w2_arg10 (c : Dev nD) : W2 m ρ c (Proc.devRef .tc main_arg10) = m ((c : Thread nD τ).loc main_arg10) := by launch_contents

theorem f_v12 (c : Dev nD) : ∀ (k : Fin 3) (c' : Fin 2) (o : Fin 128), (W3 m ρ c (Proc.devRef .tc main_v12) : Vec Ideal S3x2x128 .bf16) (ix3 k c' o) = (kargs m c).wg0 (wrow (Fin.castAdd 64 c') k) o :=
  fun k c' o => slab 0 (by show StableHlo.after hostOps1 (W2 m ρ c) (Proc.devRef .tc main_v12) = _; after_results <;> rfl)
    (w2_arg3 m ρ c) k c' o (Fin.castAdd 64 c') (Nat.zero_add _).symm (wrow (Fin.castAdd 64 c') k) rfl

theorem f_v13 (c : Dev nD) : ∀ (k : Fin 3) (j : Fin 64) (o : Fin 128), (W3 m ρ c (Proc.devRef .tc main_v13) : Vec Ideal S3x64x128 .bf16) (ix3 k j o) = (kargs m c).wg0 (wrow (Fin.natAdd 2 j) k) o :=
  fun k j o => slab 2 (by show StableHlo.after hostOps1 (W2 m ρ c) (Proc.devRef .tc main_v13) = _; after_results <;> rfl)
    (w2_arg3 m ρ c) k j o (Fin.natAdd 2 j) rfl (wrow (Fin.natAdd 2 j) k) rfl

theorem f_v29 (c : Dev nD) : ∀ (o : Fin 128), (W3 m ρ c (Proc.devRef .tc main_v29) : Vec Ideal S1x128 .f32) (ix2 (0 : Fin 1) o) = (kargs m c).bg0 o :=
  fun o => bias (by show StableHlo.after hostOps1 (W2 m ρ c) (Proc.devRef .tc main_v29) = _; after_results <;> rfl) (w2_arg4 m ρ c) o

theorem f_v17 (c : Dev nD) : ∀ (k : Fin 3) (c' : Fin 2) (o : Fin 64), (W3 m ρ c (Proc.devRef .tc main_v17) : Vec Ideal S3x2x64 .bf16) (ix3 k c' o) = (kargs m c).wc0 (wrow (Fin.castAdd 64 c') k) o :=
  fun k c' o => slab 0 (by show StableHlo.after hostOps1 (W2 m ρ c) (Proc.devRef .tc main_v17) = _; after_results <;> rfl)
    (w2_arg5 m ρ c) k c' o (Fin.castAdd 64 c') (Nat.zero_add _).symm (wrow (Fin.castAdd 64 c') k) rfl

theorem f_v18 (c : Dev nD) : ∀ (k : Fin 3) (j : Fin 64) (o : Fin 64), (W3 m ρ c (Proc.devRef .tc main_v18) : Vec Ideal S3x64x64 .bf16) (ix3 k j o) = (kargs m c).wc0 (wrow (Fin.natAdd 2 j) k) o :=
  fun k j o => slab 2 (by show StableHlo.after hostOps1 (W2 m ρ c) (Proc.devRef .tc main_v18) = _; after_results <;> rfl)
    (w2_arg5 m ρ c) k j o (Fin.natAdd 2 j) rfl (wrow (Fin.natAdd 2 j) k) rfl

theorem f_v30 (c : Dev nD) : ∀ (o : Fin 64), (W3 m ρ c (Proc.devRef .tc main_v30) : Vec Ideal S1x64 .f32) (ix2 (0 : Fin 1) o) = (kargs m c).bc0 o :=
  fun o => bias (by show StableHlo.after hostOps1 (W2 m ρ c) (Proc.devRef .tc main_v30) = _; after_results <;> rfl) (w2_arg6 m ρ c) o

theorem f_v22 (c : Dev nD) : ∀ (k : Fin 3) (c' : Fin 64) (o : Fin 128), (W3 m ρ c (Proc.devRef .tc main_v22) : Vec Ideal S3x64x128 .bf16) (ix3 k c' o) = (kargs m c).wg1 (wrow (Fin.castAdd 64 c') k) o :=
  fun k c' o => slab 0 (by show StableHlo.after hostOps1 (W2 m ρ c) (Proc.devRef .tc main_v22) = _; after_results <;> rfl)
    (w2_arg7 m ρ c) k c' o (Fin.castAdd 64 c') (Nat.zero_add _).symm (wrow (Fin.castAdd 64 c') k) rfl

theorem f_v23 (c : Dev nD) : ∀ (k : Fin 3) (j : Fin 64) (o : Fin 128), (W3 m ρ c (Proc.devRef .tc main_v23) : Vec Ideal S3x64x128 .bf16) (ix3 k j o) = (kargs m c).wg1 (wrow (Fin.natAdd 64 j) k) o :=
  fun k j o => slab 64 (by show StableHlo.after hostOps1 (W2 m ρ c) (Proc.devRef .tc main_v23) = _; after_results <;> rfl)
    (w2_arg7 m ρ c) k j o (Fin.natAdd 64 j) rfl (wrow (Fin.natAdd 64 j) k) rfl

theorem f_v31 (c : Dev nD) : ∀ (o : Fin 128), (W3 m ρ c (Proc.devRef .tc main_v31) : Vec Ideal S1x128 .f32) (ix2 (0 : Fin 1) o) = (kargs m c).bg1 o :=
  fun o => bias (by show StableHlo.after hostOps1 (W2 m ρ c) (Proc.devRef .tc main_v31) = _; after_results <;> rfl) (w2_arg8 m ρ c) o

theorem f_v27 (c : Dev nD) : ∀ (k : Fin 3) (c' : Fin 64) (o : Fin 64), (W3 m ρ c (Proc.devRef .tc main_v27) : Vec Ideal S3x64x64 .bf16) (ix3 k c' o) = (kargs m c).wc1 (wrow (Fin.castAdd 64 c') k) o :=
  fun k c' o => slab 0 (by show StableHlo.after hostOps1 (W2 m ρ c) (Proc.devRef .tc main_v27) = _; after_results <;> rfl)
    (w2_arg9 m ρ c) k c' o (Fin.castAdd 64 c') (Nat.zero_add _).symm (wrow (Fin.castAdd 64 c') k) rfl

theorem f_v28 (c : Dev nD) : ∀ (k : Fin 3) (j : Fin 64) (o : Fin 64), (W3 m ρ c (Proc.devRef .tc main_v28) : Vec Ideal S3x64x64 .bf16) (ix3 k j o) = (kargs m c).wc1 (wrow (Fin.natAdd 64 j) k) o :=
  fun k j o => slab 64 (by show StableHlo.after hostOps1 (W2 m ρ c) (Proc.devRef .tc main_v28) = _; after_results <;> rfl)
    (w2_arg9 m ρ c) k j o (Fin.natAdd 64 j) rfl (wrow (Fin.natAdd 64 j) k) rfl

theorem f_v32 (c : Dev nD) : ∀ (o : Fin 64), (W3 m ρ c (Proc.devRef .tc main_v32) : Vec Ideal S1x64 .f32) (ix2 (0 : Fin 1) o) = (kargs m c).bc1 o :=
  fun o => bias (by show StableHlo.after hostOps1 (W2 m ρ c) (Proc.devRef .tc main_v32) = _; after_results <;> rfl) (w2_arg10 m ρ c) o

theorem f_v33 (c : Dev nD) : ∀ (n : Fin 1024) (b : Fin 32) (q : Fin 2), (W3 m ρ c (Proc.devRef .tc main_v33) : Vec Ideal S1024x64 .bf16) (ix2 n (bc b q)) = kx m c n b q :=
  fun n b q => (view_read (C := 2) (W := 64) rfl (W2 m ρ c (Proc.devRef .tc main_v8_0)) (by show StableHlo.after hostOps1 (W2 m ρ c) (Proc.devRef .tc main_v33) = _; after_results <;> rfl) n b q (bc b q) rfl).trans
    (f_v8_0 m ρ c n b q)

theorem f_v34 (c : Dev nD) : ∀ (n : Fin 1024) (b : Fin 32) (q : Fin 64), (W3 m ρ c (Proc.devRef .tc main_v34) : Vec Ideal S1024x2048 .bf16) (ix2 n (bc b q)) = kh0 m c n b q :=
  fun n b q => (view_read (C := 64) (W := 2048) rfl (W2 m ρ c (Proc.devRef .tc main_v8_1)) (by show StableHlo.after hostOps1 (W2 m ρ c) (Proc.devRef .tc main_v34) = _; after_results <;> rfl) n b q (bc b q) rfl).trans
    (f_v8_1 m ρ c n b q)

end Cert.KernelIdeal.KStage0

end
-- ==== Proof.KDiff1.lean ====
import proofs.«162824_g19885698580639_cont_8to1_2033_9_alg».proof.Proof.Gen.KernelIdeal.Frame
import proofs.«162824_g19885698580639_cont_8to1_2033_9_alg».proof.Proof.Spec
import proofs.«162824_g19885698580639_cont_8to1_2033_9_alg».proof.Proof.RowBlocks

noncomputable section

namespace Cert.KernelIdeal.KDiff1

open Cert.KernelIdeal Cert.KernelIdeal.Gen Cert.Spec Cert.RowBlocks
open Idealize.ShloMosaic Idealize.ShloMosaic.TcCoe Idealize.ShloMosaic.ValueIdx Idealize.SL.Sem

variable (V : (c : Dev nD) → (b : Ref sig .tc) → Buf (Elt Ideal) ((c : Thread nD τ).loc b))

theorem idx1 : Rows win1_0.index ∧ Whole win1_1.index ∧ Whole win1_2.index ∧ Rows win1_3.index ∧ Rows win1_4.index := by
  decide +kernel

theorem final1_3 (c : Dev nD) : (dat1 (F := Ideal) V c).arrAt 3 cfg1.N
    = prod (V c (Pipeline.arrRef spec1 0)) (V c (Pipeline.arrRef spec1 1)) := by
  refine (dat1 V c).arrAt_eq_of_cover 3 _ (fun t _ => ?_)
    fun i => ⟨⟨_, row_lt i⟩, flush1_3 _, mem_blk _ (rows i (idx1.2.2.2.1 _))⟩
  show (cfg1.win 3).cut _ ((dat1 V c).after 3 t) = _
  rw [after1_3]
  exact block_prod _ _ (win1_0.rect_emb_val t) (win1_1.rect_emb_val t) (win1_3.rect_emb_val t)
    (idx1.1 t) (idx1.2.1 t) (idx1.2.2.2.1 t)

theorem final1_4 (c : Dev nD) : (dat1 (F := Ideal) V c).arrAt 4 cfg1.N
    = prod (V c (Pipeline.arrRef spec1 0)) (V c (Pipeline.arrRef spec1 2)) := by
  refine (dat1 V c).arrAt_eq_of_cover 4 _ (fun t _ => ?_)
    fun i => ⟨⟨_, row_lt i⟩, flush1_4 _, mem_blk _ (rows i (idx1.2.2.2.2 _))⟩
  show (cfg1.win 4).cut _ ((dat1 V c).after 4 t) = _
  rw [after1_4]
  exact block_prod _ _ (win1_0.rect_emb_val t) (win1_2.rect_emb_val t) (win1_4.rect_emb_val t)
    (idx1.1 t) (idx1.2.2.1 t) (idx1.2.2.2.2 t)

theorem region1 (c : Dev nD) (a : Fin 1024 → Fin 1024 → EReal) (x : T 2) (h : T 64)
    (eA : ∀ n k, (V c (Pipeline.arrRef spec1 0) : Vec Ideal S1024x1024 .bf16) (ix2 n k) = a n k)
    (eX : ∀ n b c', (V c (Pipeline.arrRef spec1 1) : Vec Ideal S1024x64 .bf16) (ix2 n (bc b c')) = x n b c')
    (eH : ∀ n b j, (V c (Pipeline.arrRef spec1 2) : Vec Ideal S1024x2048 .bf16) (ix2 n (bc b j)) = h n b j) :
    (∀ n b c', ((dat1 (F := Ideal) V c).arrAt 3 cfg1.N : Vec Ideal S1024x64 .bf16) (ix2 n (bc b c')) = D1 a x n b c')
    ∧ (∀ n b j, ((dat1 (F := Ideal) V c).arrAt 4 cfg1.N : Vec Ideal S1024x2048 .bf16) (ix2 n (bc b j)) = D1 a h n b j) :=
  ⟨fun n b c' => prod_apply (final1_3 V c) a _ n _ eA fun k => eX k b c',
   fun n b j => prod_apply (final1_4 V c) a _ n _ eA fun k => eH k b j⟩

theorem idx4 : Rows win4_0.index ∧ Whole win4_1.index ∧ Rows win4_2.index := by
  decide +kernel

theorem final4_2 (c : Dev nD) : (dat4 (F := Ideal) V c).arrAt 2 cfg4.N
    = prod (V c (Pipeline.arrRef spec4 0)) (V c (Pipeline.arrRef spec4 1)) := by
  refine (dat4 V c).arrAt_eq_of_cover 2 _ (fun t _ => ?_)
    fun i => ⟨⟨_, row_lt i⟩, flush4_2 _, mem_blk _ (rows i (idx4.2.2 _))⟩
  show (cfg4.win 2).cut _ ((dat4 V c).after 2 t) = _
  rw [after4_2]
  exact block_prod _ _ (win4_0.rect_emb_val t) (win4_1.rect_emb_val t) (win4_2.rect_emb_val t)
    (idx4.1 t) (idx4.2.1 t) (idx4.2.2 t)

theorem region4 (c : Dev nD) (a : Fin 1024 → Fin 1024 → EReal) (s : T 64)
    (eA : ∀ n k, (V c (Pipeline.arrRef spec4 0) : Vec Ideal S1024x1024 .bf16) (ix2 n k) = a n k)
    (eS : ∀ n b j, (V c (Pipeline.arrRef spec4 1) : Vec Ideal S1024x2048 .bf16) (ix2 n (bc b j)) = s n b j) :
    ∀ n b j, ((dat4 (F := Ideal) V c).arrAt 2 cfg4.N : Vec Ideal S1024x2048 .bf16) (ix2 n (bc b j)) = D1 a s n b j :=
  fun n b j => prod_apply (final4_2 V c) a _ n _ eA fun k => eS k b j

theorem idx7 : Rows win7_0.index ∧ Whole win7_1.index ∧ Whole win7_2.index ∧ Rows win7_3.index ∧ Rows win7_4.index := by
  decide +kernel

theorem final7_3 (c : Dev nD) : (dat7 (F := Ideal) V c).arrAt 3 cfg7.N
    = prod (V c (Pipeline.arrRef spec7 0)) (V c (Pipeline.arrRef spec7 1)) := by
  refine (dat7 V c).arrAt_eq_of_cover 3 _ (fun t _ => ?_)
    fun i => ⟨⟨_, row_lt i⟩, flush7_3 _, mem_blk _ (rows i (idx7.2.2.2.1 _))⟩
  show (cfg7.win 3).cut _ ((dat7 V c).after 3 t) = _
  rw [after7_3]
  exact block_prod _ _ (win7_0.rect_emb_val t) (win7_1.rect_emb_val t) (win7_3.rect_emb_val t)
    (idx7.1 t) (idx7.2.1 t) (idx7.2.2.2.1 t)

theorem final7_4 (c : Dev nD) : (dat7 (F := Ideal) V c).arrAt 4 cfg7.N
    = prod (V c (Pipeline.arrRef spec7 0)) (V c (Pipeline.arrRef spec7 2)) := by
  refine (dat7 V c).arrAt_eq_of_cover 4 _ (fun t _ => ?_)
    fun i => ⟨⟨_, row_lt i⟩, flush7_4 _, mem_blk _ (rows i (idx7.2.2.2.2 _))⟩
  show (cfg7.win 4).cut _ ((dat7 V c).after 4 t) = _
  rw [after7_4]
  exact block_prod _ _ (win7_0.rect_emb_val t) (win7_2.rect_emb_val t) (win7_4.rect_emb_val t)
    (idx7.1 t) (idx7.2.2.1 t) (idx7.2.2.2.2 t)

theorem region7 (c : Dev nD) (a : Fin 1024 → Fin 1024 → EReal) (x : T 64) (h : T 64)
    (eA : ∀ n k, (V c (Pipeline.arrRef spec7 0) : Vec Ideal S1024x1024 .bf16) (ix2 n k) = a n k)
    (eX : ∀ n b c', (V c (Pipeline.arrRef spec7 1) : Vec Ideal S1024x2048 .bf16) (ix2 n (bc b c')) = x n b c')
    (eH : ∀ n b j, (V c (Pipeline.arrRef spec7 2) : Vec Ideal S1024x2048 .bf16) (ix2 n (bc b j)) = h n b j) :
    (∀ n b c', ((dat7 (F := Ideal) V c).arrAt 3 cfg7.N : Vec Ideal S1024x2048 .bf16) (ix2 n (bc b c')) = D1 a x n b c')
    ∧ (∀ n b j, ((dat7 (F := Ideal) V c).arrAt 4 cfg7.N : Vec Ideal S1024x2048 .bf16) (ix2 n (bc b j)) = D1 a h n b j) :=
  ⟨fun n b c' => prod_apply (final7_3 V c) a _ n _ eA fun k => eX k b c',
   fun n b j => prod_apply (final7_4 V c) a _ n _ eA fun k => eH k b j⟩

theorem idx10 : Rows win10_0.index ∧ Whole win10_1.index ∧ Rows win10_2.index := by
  decide +kernel

theorem final10_2 (c : Dev nD) : (dat10 (F := Ideal) V c).arrAt 2 cfg10.N
    = prod (V c (Pipeline.arrRef spec10 0)) (V c (Pipeline.arrRef spec10 1)) := by
  refine (dat10 V c).arrAt_eq_of_cover 2 _ (fun t _ => ?_)
    fun i => ⟨⟨_, row_lt i⟩, flush10_2 _, mem_blk _ (rows i (idx10.2.2 _))⟩
  show (cfg10.win 2).cut _ ((dat10 V c).after 2 t) = _
  rw [after10_2]
  exact block_prod _ _ (win10_0.rect_emb_val t) (win10_1.rect_emb_val t) (win10_2.rect_emb_val t)
    (idx10.1 t) (idx10.2.1 t) (idx10.2.2 t)

theorem region10 (c : Dev nD) (a : Fin 1024 → Fin 1024 → EReal) (s : T 64)
    (eA : ∀ n k, (V c (Pipeline.arrRef spec10 0) : Vec Ideal S1024x1024 .bf16) (ix2 n k) = a n k)
    (eS : ∀ n b j, (V c (Pipeline.arrRef spec10 1) : Vec Ideal S1024x2048 .bf16) (ix2 n (bc b j)) = s n b j) :
    ∀ n b j, ((dat10 (F := Ideal) V c).arrAt 2 cfg10.N : Vec Ideal S1024x2048 .bf16) (ix2 n (bc b j)) = D1 a s n b j :=
  fun n b j => prod_apply (final10_2 V c) a _ n _ eA fun k => eS k b j

end Cert.KernelIdeal.KDiff1

end
-- ==== Proof.KDiff2.lean ====
import proofs.«162824_g19885698580639_cont_8to1_2033_9_alg».proof.Proof.Gen.KernelIdeal.Frame
import proofs.«162824_g19885698580639_cont_8to1_2033_9_alg».proof.Proof.Spec
import proofs.«162824_g19885698580639_cont_8to1_2033_9_alg».proof.Proof.RowBlocks

noncomputable section

namespace Cert.KernelIdeal.KDiff2

open Cert.KernelIdeal Cert.KernelIdeal.Gen Cert.Spec Cert.RowBlocks
open Idealize.ShloMosaic Idealize.ShloMosaic.TcCoe Idealize.ShloMosaic.ValueIdx Idealize.SL.Sem

variable (V : (c : Dev nD) → (b : Ref sig .tc) → Buf (Elt Ideal) ((c : Thread nD τ).loc b))

theorem idx2 : Rows win2_0.index ∧ Rows win2_1.index ∧ Whole win2_2.index ∧ Rows win2_3.index
    ∧ Whole win2_4.index ∧ Rows win2_5.index ∧ Rows win2_6.index := by
  decide +kernel

theorem final2_5 (c : Dev nD) : (dat2 (F := Ideal) V c).arrAt 5 cfg2.N
    = step (V c (Pipeline.arrRef spec2 0)) (V c (Pipeline.arrRef spec2 1)) (V c (Pipeline.arrRef spec2 2)) := by
  refine (dat2 V c).arrAt_eq_of_cover 5 _ (fun t _ => ?_)
    fun i => ⟨⟨_, row_lt i⟩, flush2_5 _, mem_blk _ (rows i (idx2.2.2.2.2.2.1 _))⟩
  show (cfg2.win 5).cut _ ((dat2 V c).after 5 t) = _
  rw [after2_5]
  exact block_step _ _ _ (win2_0.rect_emb_val t) (win2_1.rect_emb_val t) (win2_2.rect_emb_val t)
    (win2_5.rect_emb_val t) (idx2.1 t) (idx2.2.1 t) (idx2.2.2.1 t) (idx2.2.2.2.2.2.1 t)

theorem final2_6 (c : Dev nD) : (dat2 (F := Ideal) V c).arrAt 6 cfg2.N
    = step (V c (Pipeline.arrRef spec2 0)) (V c (Pipeline.arrRef spec2 3)) (V c (Pipeline.arrRef spec2 4)) := by
  refine (dat2 V c).arrAt_eq_of_cover 6 _ (fun t _ => ?_)
    fun i => ⟨⟨_, row_lt i⟩, flush2_6 _, mem_blk _ (rows i (idx2.2.2.2.2.2.2 _))⟩
  show (cfg2.win 6).cut _ ((dat2 V c).after 6 t) = _
  rw [after2_6]
  exact block_step _ _ _ (win2_0.rect_emb_val t) (win2_3.rect_emb_val t) (win2_4.rect_emb_val t)
    (win2_6.rect_emb_val t) (idx2.1 t) (idx2.2.2.2.1 t) (idx2.2.2.2.2.1 t) (idx2.2.2.2.2.2.2 t)

theorem region2 (c : Dev nD) (a : Fin 1024 → Fin 1024 → EReal) (x0 x1 : T 2) (h0 h1 : T 64)
    (eA : ∀ n k, (V c (Pipeline.arrRef spec2 0) : Vec Ideal S1024x1024 .bf16) (ix2 n k) = a n k)
    (eX0 : ∀ n b c', (V c (Pipeline.arrRef spec2 1) : Vec Ideal S1024x64 .bf16) (ix2 n (bc b c')) = x0 n b c')
    (eX1 : ∀ n b c', (V c (Pipeline.arrRef spec2 2) : Vec Ideal S1024x64 .bf16) (ix2 n (bc b c')) = x1 n b c')
    (eH0 : ∀ n b j, (V c (Pipeline.arrRef spec2 3) : Vec Ideal S1024x2048 .bf16) (ix2 n (bc b j)) = h0 n b j)
    (eH1 : ∀ n b j, (V c (Pipeline.arrRef spec2 4) : Vec Ideal S1024x2048 .bf16) (ix2 n (bc b j)) = h1 n b j) :
    (∀ n b c', ((dat2 (F := Ideal) V c).arrAt 5 cfg2.N : Vec Ideal S1024x64 .bf16) (ix2 n (bc b c')) = cheb2 a x0 x1 n b c')
    ∧ (∀ n b j, ((dat2 (F := Ideal) V c).arrAt 6 cfg2.N : Vec Ideal S1024x2048 .bf16) (ix2 n (bc b j)) = cheb2 a h0 h1 n b j) :=
  ⟨fun n b c' => step_apply (final2_5 V c) a _ _ n _ eA (eX0 n b c') fun k => eX1 k b c',
   fun n b j => step_apply (final2_6 V c) a _ _ n _ eA (eH0 n b j) fun k => eH1 k b j⟩

theorem idx5 : Rows win5_0.index ∧ Rows win5_1.index ∧ Whole win5_2.index ∧ Rows win5_3.index := by
  decide +kernel

theorem final5_3 (c : Dev nD) : (dat5 (F := Ideal) V c).arrAt 3 cfg5.N
    = step (V c (Pipeline.arrRef spec5 0)) (V c (Pipeline.arrRef spec5 1)) (V c (Pipeline.arrRef spec5 2)) := by
  refine (dat5 V c).arrAt_eq_of_cover 3 _ (fun t _ => ?_)
    fun i => ⟨⟨_, row_lt i⟩, flush5_3 _, mem_blk _ (rows i (idx5.2.2.2 _))⟩
  show (cfg5.win 3).cut _ ((dat5 V c).after 3 t) = _
  rw [after5_3]
  exact block_step _ _ _ (win5_0.rect_emb_val t) (win5_1.rect_emb_val t) (win5_2.rect_emb_val t)
    (win5_3.rect_emb_val t) (idx5.1 t) (idx5.2.1 t) (idx5.2.2.1 t) (idx5.2.2.2 t)

theorem region5 (c : Dev nD) (a : Fin 1024 → Fin 1024 → EReal) (s0 s1 : T 64)
    (eA : ∀ n k, (V c (Pipeline.arrRef spec5 0) : Vec Ideal S1024x1024 .bf16) (ix2 n k) = a n k)
    (eS0 : ∀ n b j, (V c (Pipeline.arrRef spec5 1) : Vec Ideal S1024x2048 .bf16) (ix2 n (bc b j)) = s0 n b j)
    (eS1 : ∀ n b j, (V c (Pipeline.arrRef spec5 2) : Vec Ideal S1024x2048 .bf16) (ix2 n (bc b j)) = s1 n b j) :
    ∀ n b j, ((dat5 (F := Ideal) V c).arrAt 3 cfg5.N : Vec Ideal S1024x2048 .bf16) (ix2 n (bc b j)) = cheb2 a s0 s1 n b j :=
  fun n b j => step_apply (final5_3 V c) a _ _ n _ eA (eS0 n b j) fun k => eS1 k b j

theorem idx8 : Rows win8_0.index ∧ Rows win8_1.index ∧ Whole win8_2.index ∧ Rows win8_3.index
    ∧ Whole win8_4.index ∧ Rows win8_5.index ∧ Rows win8_6.index := by
  decide +kernel

theorem final8_5 (c : Dev nD) : (dat8 (F := Ideal) V c).arrAt 5 cfg8.N
    = step (V c (Pipeline.arrRef spec8 0)) (V c (Pipeline.arrRef spec8 1)) (V c (Pipeline.arrRef spec8 2)) := by
  refine (dat8 V c).arrAt_eq_of_cover 5 _ (fun t _ => ?_)
    fun i => ⟨⟨_, row_lt i⟩, flush8_5 _, mem_blk _ (rows i (idx8.2.2.2.2.2.1 _))⟩
  show (cfg8.win 5).cut _ ((dat8 V c).after 5 t) = _
  rw [after8_5]
  exact block_step _ _ _ (win8_0.rect_emb_val t) (win8_1.rect_emb_val t) (win8_2.rect_emb_val t)
    (win8_5.rect_emb_val t) (idx8.1 t) (idx8.2.1 t) (idx8.2.2.1 t) (idx8.2.2.2.2.2.1 t)

theorem final8_6 (c : Dev nD) : (dat8 (F := Ideal) V c).arrAt 6 cfg8.N
    = step (V c (Pipeline.arrRef spec8 0)) (V c (Pipeline.arrRef spec8 3)) (V c (Pipeline.arrRef spec8 4)) := by
  refine (dat8 V c).arrAt_eq_of_cover 6 _ (fun t _ => ?_)
    fun i => ⟨⟨_, row_lt i⟩, flush8_6 _, mem_blk _ (rows i (idx8.2.2.2.2.2.2 _))⟩
  show (cfg8.win 6).cut _ ((dat8 V c).after 6 t) = _
  rw [after8_6]
  exact block_step _ _ _ (win8_0.rect_emb_val t) (win8_3.rect_emb_val t) (win8_4.rect_emb_val t)
    (win8_6.rect_emb_val t) (idx8.1 t) (idx8.2.2.2.1 t) (idx8.2.2.2.2.1 t) (idx8.2.2.2.2.2.2 t)

theorem region8 (c : Dev nD) (a : Fin 1024 → Fin 1024 → EReal) (x0 x1 : T 64) (h0 h1 : T 64)
    (eA : ∀ n k, (V c (Pipeline.arrRef spec8 0) : Vec Ideal S1024x1024 .bf16) (ix2 n k) = a n k)
    (eX0 : ∀ n b c', (V c (Pipeline.arrRef spec8 1) : Vec Ideal S1024x2048 .bf16) (ix2 n (bc b c')) = x0 n b c')
    (eX1 : ∀ n b c', (V c (Pipeline.arrRef spec8 2) : Vec Ideal S1024x2048 .bf16) (ix2 n (bc b c')) = x1 n b c')
    (eH0 : ∀ n b j, (V c (Pipeline.arrRef spec8 3) : Vec Ideal S1024x2048 .bf16) (ix2 n (bc b j)) = h0 n b j)
    (eH1 : ∀ n b j, (V c (Pipeline.arrRef spec8 4) : Vec Ideal S1024x2048 .bf16) (ix2 n (bc b j)) = h1 n b j) :
    (∀ n b c', ((dat8 (F := Ideal) V c).arrAt 5 cfg8.N : Vec Ideal S1024x2048 .bf16) (ix2 n (bc b c')) = cheb2 a x0 x1 n b c')
    ∧ (∀ n b j, ((dat8 (F := Ideal) V c).arrAt 6 cfg8.N : Vec Ideal S1024x2048 .bf16) (ix2 n (bc b j)) = cheb2 a h0 h1 n b j) :=
  ⟨fun n b c' => step_apply (final8_5 V c) a _ _ n _ eA (eX0 n b c') fun k => eX1 k b c',
   fun n b j => step_apply (final8_6 V c) a _ _ n _ eA (eH0 n b j) fun k => eH1 k b j⟩

theorem idx11 : Rows win11_0.index ∧ Rows win11_1.index ∧ Whole win11_2.index ∧ Rows win11_3.index := by
  decide +kernel

theorem final11_3 (c : Dev nD) : (dat11 (F := Ideal) V c).arrAt 3 cfg11.N
    = step (V c (Pipeline.arrRef spec11 0)) (V c (Pipeline.arrRef spec11 1)) (V c (Pipeline.arrRef spec11 2)) := by
  refine (dat11 V c).arrAt_eq_of_cover 3 _ (fun t _ => ?_)
    fun i => ⟨⟨_, row_lt i⟩, flush11_3 _, mem_blk _ (rows i (idx11.2.2.2 _))⟩
  show (cfg11.win 3).cut _ ((dat11 V c).after 3 t) = _
  rw [after11_3]
  exact block_step _ _ _ (win11_0.rect_emb_val t) (win11_1.rect_emb_val t) (win11_2.rect_emb_val t)
    (win11_3.rect_emb_val t) (idx11.1 t) (idx11.2.1 t) (idx11.2.2.1 t) (idx11.2.2.2 t)

theorem region11 (c : Dev nD) (a : Fin 1024 → Fin 1024 → EReal) (s0 s1 : T 64)
    (eA : ∀ n k, (V c (Pipeline.arrRef spec11 0) : Vec Ideal S1024x1024 .bf16) (ix2 n k) = a n k)
    (eS0 : ∀ n b j, (V c (Pipeline.arrRef spec11 1) : Vec Ideal S1024x2048 .bf16) (ix2 n (bc b j)) = s0 n b j)
    (eS1 : ∀ n b j, (V c (Pipeline.arrRef spec11 2) : Vec Ideal S1024x2048 .bf16) (ix2 n (bc b j)) = s1 n b j) :
    ∀ n b j, ((dat11 (F := Ideal) V c).arrAt 3 cfg11.N : Vec Ideal S1024x2048 .bf16) (ix2 n (bc b j)) = cheb2 a s0 s1 n b j :=
  fun n b j => step_apply (final11_3 V c) a _ _ n _ eA (eS0 n b j) fun k => eS1 k b j

end Cert.KernelIdeal.KDiff2

end
-- ==== Proof.KStage1.lean ====
import proofs.«162824_g19885698580639_cont_8to1_2033_9_alg».proof.Proof.Gen.KernelIdeal.Frame
import proofs.«162824_g19885698580639_cont_8to1_2033_9_alg».proof.Proof.Spec
import proofs.«162824_g19885698580639_cont_8to1_2033_9_alg».proof.Proof.KArgs
import proofs.«162824_g19885698580639_cont_8to1_2033_9_alg».proof.Proof.KCarry
import proofs.«162824_g19885698580639_cont_8to1_2033_9_alg».proof.Proof.KStage0
import proofs.«162824_g19885698580639_cont_8to1_2033_9_alg».proof.Proof.KDiff1
import proofs.«162824_g19885698580639_cont_8to1_2033_9_alg».proof.Proof.KDiff2
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.KStage1

open Cert.KernelIdeal Cert.KernelIdeal.Gen Cert.KernelIdeal.KA Cert.KernelIdeal.Carry Cert.Spec
open Idealize.ShloMosaic Idealize.ShloMosaic.TcCoe Idealize.ShloMosaic.ValueIdx Idealize.SL.Sem

variable (m : (ℓ : Loc nD τ sig) → Buf (Elt Ideal) ℓ) (ρ : Dev nD → PrngReg)

theorem relay2 {α : Type} (x : S1024x64.Idx → α) (h : S1024x64.ShapeCasts S32768x2) (n : Fin 1024) (b : Fin 32) (q : Fin 2) :
    shapeCast S32768x2 x h (ix2 (nb n b) q) = x (ix2 n (bc b q)) :=
  shapeCast_apply x h _ _ (by
    rw [Shape.rowMajor_val_two, Shape.rowMajor_val_two]
    show n.val * 64 + (b.val * 2 + q.val) = (n.val * 32 + b.val) * 2 + q.val
    omega)

theorem relay64 {α : Type} (x : S1024x2048.Idx → α) (h : S1024x2048.ShapeCasts S32768x64) (n : Fin 1024) (b : Fin 32) (q : Fin 64) :
    shapeCast S32768x64 x h (ix2 (nb n b) q) = x (ix2 n (bc b q)) :=
  shapeCast_apply x h _ _ (by
    rw [Shape.rowMajor_val_two, Shape.rowMajor_val_two]
    show n.val * 2048 + (b.val * 64 + q.val) = (n.val * 32 + b.val) * 64 + q.val
    omega)

theorem reg1 (c : Dev nD) :
    (∀ n b c', ((dat1 (F := Ideal) (V3 m ρ) c).arrAt 3 cfg1.N : Vec Ideal S1024x64 .bf16) (ix2 n (bc b c')) = D1 (kA m c) (kx m c) n b c')
    ∧ (∀ n b j, ((dat1 (F := Ideal) (V3 m ρ) c).arrAt 4 cfg1.N : Vec Ideal S1024x2048 .bf16) (ix2 n (bc b j)) = D1 (kA m c) (kh0 m c) n b j) :=
  KDiff1.region1 (V3 m ρ) c (kA m c) (kx m c) (kh0 m c)
    (fun n k => by
      show (W3 m ρ c (Proc.devRef .tc main_v0) : Vec Ideal S1024x1024 .bf16) (ix2 n k) = _
      rw [at_v0_3 m ρ c]; exact KStage0.f_v0 m ρ c n k)
    (fun n b c' => KStage0.f_v33 m ρ c n b c')
    (fun n b j => KStage0.f_v34 m ρ c n b j)

theorem f_v35_0 (c : Dev nD) : ∀ (n : Fin 1024) (b : Fin 32) (q : Fin 2), (W4 m ρ c (Proc.devRef .tc main_v35_0) : Vec Ideal S1024x64 .bf16) (ix2 n (bc b q)) = D1 (kA m c) (kx m c) n b q := by
  intro n b q
  exact (congrFun (W4_arr m ρ c 3) _).trans ((reg1 m ρ c).1 n b q)

theorem f_v35_1 (c : Dev nD) : ∀ (n : Fin 1024) (b : Fin 32) (q : Fin 64), (W4 m ρ c (Proc.devRef .tc main_v35_1) : Vec Ideal S1024x2048 .bf16) (ix2 n (bc b q)) = D1 (kA m c) (kh0 m c) n b q := by
  intro n b q
  exact (congrFun (W4_arr m ρ c 4) _).trans ((reg1 m ρ c).2 n b q)

theorem reg2 (c : Dev nD) :
    (∀ n b c', ((dat2 (F := Ideal) (V4 m ρ) c).arrAt 5 cfg2.N : Vec Ideal S1024x64 .bf16) (ix2 n (bc b c')) = D2 (kA m c) (kx m c) n b c')
    ∧ (∀ n b j, ((dat2 (F := Ideal) (V4 m ρ) c).arrAt 6 cfg2.N : Vec Ideal S1024x2048 .bf16) (ix2 n (bc b j)) = D2 (kA m c) (kh0 m c) n b j) :=
  KDiff2.region2 (V4 m ρ) c (kA m c) (kx m c) (D1 (kA m c) (kx m c)) (kh0 m c) (D1 (kA m c) (kh0 m c))
    (fun n k => by
      show (W4 m ρ c (Proc.devRef .tc main_v0) : Vec Ideal S1024x1024 .bf16) (ix2 n k) = _
      rw [at_v0_4 m ρ c]; exact KStage0.f_v0 m ρ c n k)
    (fun n b c' => by
      show (W4 m ρ c (Proc.devRef .tc main_v33) : Vec Ideal S1024x64 .bf16) (ix2 n (bc b c')) = _
      rw [at_v33_4 m ρ c]; exact KStage0.f_v33 m ρ c n b c')
    (fun n b c' => f_v35_0 m ρ c n b c')
    (fun n b j => by
      show (W4 m ρ c (Proc.devRef .tc main_v34) : Vec Ideal S1024x2048 .bf16) (ix2 n (bc b j)) = _
      rw [at_v34_4 m ρ c]; exact KStage0.f_v34 m ρ c n b j)
    (fun n b j => f_v35_1 m ρ c n b j)

theorem f_v36_0 (c : Dev nD) : ∀ (n : Fin 1024) (b : Fin 32) (q : Fin 2), (W5 m ρ c (Proc.devRef .tc main_v36_0) : Vec Ideal S1024x64 .bf16) (ix2 n (bc b q)) = D2 (kA m c) (kx m c) n b q := by
  intro n b q
  exact (congrFun (W5_arr m ρ c 5) _).trans ((reg2 m ρ c).1 n b q)

theorem f_v36_1 (c : Dev nD) : ∀ (n : Fin 1024) (b : Fin 32) (q : Fin 64), (W5 m ρ c (Proc.devRef .tc main_v36_1) : Vec Ideal S1024x2048 .bf16) (ix2 n (bc b q)) = D2 (kA m c) (kh0 m c) n b q := by
  intro n b q
  exact (congrFun (W5_arr m ρ c 6) _).trans ((reg2 m ρ c).2 n b q)

theorem f_v37 (c : Dev nD) : ∀ (n : Fin 1024) (b : Fin 32) (q : Fin 2), (W6 m ρ c (Proc.devRef .tc main_v37) : Vec Ideal S32768x2 .bf16) (ix2 (nb n b) q) = D1 (kA m c) (kx m c) n b q := by
  intro n b q
  show StableHlo.after hostOps3 (W5 m ρ c) (Proc.devRef .tc main_v37) (ix2 (nb n b) q) = _
  after_results
  show shapeCast S32768x2 (W5 m ρ c (Proc.devRef .tc main_v35_0) : Vec Ideal S1024x64 .bf16) shapeCasts_S1024x64_S32768x2 (ix2 (nb n b) q) = _
  rw [relay2, at_v35_0_5 m ρ c]
  exact f_v35_0 m ρ c n b q

theorem f_v38 (c : Dev nD) : ∀ (n : Fin 1024) (b : Fin 32) (q : Fin 2), (W6 m ρ c (Proc.devRef .tc main_v38) : Vec Ideal S32768x2 .bf16) (ix2 (nb n b) q) = D2 (kA m c) (kx m c) n b q := by
  intro n b q
  show StableHlo.after hostOps3 (W5 m ρ c) (Proc.devRef .tc main_v38) (ix2 (nb n b) q) = _
  after_results
  show shapeCast S32768x2 (W5 m ρ c (Proc.devRef .tc main_v36_0) : Vec Ideal S1024x64 .bf16) shapeCasts_S1024x64_S32768x2 (ix2 (nb n b) q) = _
  rw [relay2]
  exact f_v36_0 m ρ c n b q

theorem f_v39 (c : Dev nD) : ∀ (n : Fin 1024) (b : Fin 32) (q : Fin 64), (W6 m ρ c (Proc.devRef .tc main_v39) : Vec Ideal S32768x64 .bf16) (ix2 (nb n b) q) = D1 (kA m c) (kh0 m c) n b q := by
  intro n b q
  show StableHlo.after hostOps3 (W5 m ρ c) (Proc.devRef .tc main_v39) (ix2 (nb n b) q) = _
  after_results
  show shapeCast S32768x64 (W5 m ρ c (Proc.devRef .tc main_v35_1) : Vec Ideal S1024x2048 .bf16) shapeCasts_S1024x2048_S32768x64 (ix2 (nb n b) q) = _
  rw [relay64, at_v35_1_5 m ρ c]
  exact f_v35_1 m ρ c n b q

theorem f_v40 (c : Dev nD) : ∀ (n : Fin 1024) (b : Fin 32) (q : Fin 64), (W6 m ρ c (Proc.devRef .tc main_v40) : Vec Ideal S32768x64 .bf16) (ix2 (nb n b) q) = D2 (kA m c) (kh0 m c) n b q := by
  intro n b q
  show StableHlo.after hostOps3 (W5 m ρ c) (Proc.devRef .tc main_v40) (ix2 (nb n b) q) = _
  after_results
  show shapeCast S32768x64 (W5 m ρ c (Proc.devRef .tc main_v36_1) : Vec Ideal S1024x2048 .bf16) shapeCasts_S1024x2048_S32768x64 (ix2 (nb n b) q) = _
  rw [relay64]
  exact f_v36_1 m ρ c n b q

end Cert.KernelIdeal.KStage1

end
-- ==== Proof.LibWindow.lean ====
import Idealize.ShloMosaic.Lib.Pipeline.Value

namespace Idealize.ShloMosaic.Pipeline.Window

variable {sig : RefSig} {G : Grid} (w : Window sig G) (t : Fin G.N)

/-- An entry of the block at point `t` is the array entry at block index times block size plus its own coordinate. -/
theorem emb_eq (y : (w.xblock (G.coords t)).Idx) (i : w.shape.Idx)
    (h : ∀ a, w.index t a * w.size a + y a = i a) : (w.rect t).emb y = i :=
  funext fun a => Fin.ext ((w.rect_emb_val t y a).trans (h a))

/-- Where every block index is zero, an entry of the block keeps its coordinates. -/
theorem emb_eq_of_index_zero (y : (w.xblock (G.coords t)).Idx) (i : w.shape.Idx)
    (h0 : ∀ a, w.index t a = 0) (h : ∀ a, (y a : ℕ) = i a) : (w.rect t).emb y = i :=
  funext fun a => Fin.ext ((w.rect_emb_val_of_index_zero t a (h0 a) y).trans (h a))

/-- Two axes, block index `(k, 0)`: the first coordinate is shifted by `k` blocks, the second is kept. -/
theorem emb_eq_of_two (y : (w.xblock (G.coords t)).Idx) (i : w.shape.Idx) {a₀ a₁ : Fin w.shape.rank}
    (hall : ∀ a, a = a₀ ∨ a = a₁) {k : ℕ} (hk : w.index t a₀ = k ∧ w.index t a₁ = 0)
    (h₀ : k * w.size a₀ + y a₀ = i a₀) (h₁ : (y a₁ : ℕ) = i a₁) : (w.rect t).emb y = i :=
  w.emb_eq t y i fun a => by
    rcases hall a with rfl | rfl
    · rw [hk.1]; exact h₀
    · rw [hk.2, Nat.zero_mul, Nat.zero_add]; exact h₁

end Idealize.ShloMosaic.Pipeline.Window

/-- Row `i₀` lies in the `i₀ / r`-th run of `r` rows, and a column below `c` in the one run of `c` columns. -/
theorem Nat.mem_tile {k₀ k₁ i₀ i₁ r c : ℕ} (hr : 0 < r) (h₀ : k₀ = i₀ / r) (h₁ : k₁ = 0) (hi : i₁ < c) :
    (k₀ * r ≤ i₀ ∧ i₀ < k₀ * r + r) ∧ (k₁ * c ≤ i₁ ∧ i₁ < k₁ * c + c) := by
  subst h₀ h₁
  exact ⟨⟨Nat.div_mul_le_self _ _, Nat.lt_div_mul_add hr⟩, by omega⟩
-- ==== Proof.KGate.lean ====
import proofs.«162824_g19885698580639_cont_8to1_2033_9_alg».proof.Proof.Gen.KernelIdeal.Frame
import proofs.«162824_g19885698580639_cont_8to1_2033_9_alg».proof.Proof.Spec
import Idealize.ShloMosaic.Lib.ValueIdx
import Idealize.ShloMosaic.Lib.ValueLayout
import Idealize.ShloMosaic.Lib.Pipeline.Value
import Idealize.ShloMosaic.PureOps.Ideal.Laws
import proofs.«162824_g19885698580639_cont_8to1_2033_9_alg».proof.Proof.LibWindow
import Idealize.ShloMosaic.Lib.StackMember
import Idealize.ShloMosaic.Lib.KernelVsHost

set_option maxRecDepth 16384

noncomputable section

namespace Cert.KernelIdeal.KGate

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem mm2_apply (A : FVec Ideal S4096x2 .bf16) (B : FVec Ideal S2x128 .bf16) (p : Fin 4096) (o : Fin 128) :
    (matmul dot_S4096x2_S2x128_S4096x128_1_0_0_1_n_n none A B (constant (F := Ideal) S4096x128 .f32 0x00000000#32) : FVec Ideal S4096x128 .f32) (ix2 p o)
      = ∑ c : Fin 2, A (ix2 p c) * B (ix2 c o) := by
  rw [matmul_zero_eq_dotGeneral]; exact StackMember.dotGeneral_plain_apply none A B p o

theorem mm64_apply (A : FVec Ideal S4096x64 .bf16) (B : FVec Ideal S64x128 .bf16) (p : Fin 4096) (o : Fin 128) :
    (matmul dot_S4096x64_S64x128_S4096x128_1_0_0_1_n_n none A B (constant (F := Ideal) S4096x128 .f32 0x00000000#32) : FVec Ideal S4096x128 .f32) (ix2 p o)
      = ∑ c : Fin 64, A (ix2 p c) * B (ix2 c o) := by
  rw [matmul_zero_eq_dotGeneral]; exact StackMember.dotGeneral_plain_apply none A B p o

theorem logistic_apply {s : Shape} {φ : FTy} (x : FVec Ideal s φ) (i : s.Idx) : logistic x i = Ideal.logistic (x i) := rfl

theorem slab_apply {m n : ℕ} (x : Vec Ideal ⟨3, ![3, m, n]⟩ .bf16) (off : Fin 3 → ℕ)
    (inb : ∀ a, off a + (⟨3, ![1, m, n]⟩ : Shape).size a ≤ (⟨3, ![3, m, n]⟩ : Shape).size a)
    (kk : Fin 3) (h0 : off 0 = kk.val) (h1 : off 1 = 0) (h2 : off 2 = 0) (k : Fin m) (o : Fin n) :
    View.ld x (Rect.unit (s := ⟨3, ![3, m, n]⟩) off (⟨3, ![1, m, n]⟩ : Shape).size inb) (ix3 (0 : Fin 1) k o) = x (ix3 kk k o) := by
  show x _ = x _
  congr 1
  funext a; apply Fin.ext
  match a with
  | ⟨0, _⟩ => show off 0 + 1 * 0 = kk.val; omega
  | ⟨1, _⟩ => show off 1 + 1 * k.val = k.val; omega
  | ⟨2, _⟩ => show off 2 + 1 * o.val = o.val; omega

theorem lo_apply (v : FVec Ideal S4096x128 .f32) (p : Fin 4096) (q : Fin 64) :
    (extractStridedSlice S4096x64 ![0, 0] v slices_S4096x128_o0_0_S4096x64 : FVec Ideal S4096x64 .f32) (ix2 p q)
      = v (ix2 p (Fin.castAdd 64 q)) :=
  slice2_axis1_apply 0 v _ p q _ (Nat.zero_add _).symm

theorem hi_apply (v : FVec Ideal S4096x128 .f32) (p : Fin 4096) (q : Fin 64) :
    (extractStridedSlice S4096x64 ![0, 64] v slices_S4096x128_o0_64_S4096x64 : FVec Ideal S4096x64 .f32) (ix2 p q)
      = v (ix2 p (Fin.natAdd 64 q)) :=
  slice2_axis1_apply 64 v _ p q _ rfl

def rowPre {cin : Nat} (a0 a1 a2 : Fin cin → EReal) (b0 b1 b2 : Fin 64 → EReal)
    (w : Fin 3 → Fin cin → EReal) (u : Fin 3 → Fin 64 → EReal) (bias : EReal) : EReal :=
  ((((((∑ c : Fin cin, a0 c * w 0 c) + (∑ c : Fin cin, a1 c * w 1 c)) + (∑ c : Fin cin, a2 c * w 2 c))
      + (∑ j : Fin 64, b0 j * u 0 j)) + (∑ j : Fin 64, b1 j * u 1 j)) + (∑ j : Fin 64, b2 j * u 2 j)) + bias

def bpre {R cin : ℕ} (A0 A1 A2 : Vec Ideal ⟨2, ![R, cin]⟩ .bf16) (A3 A4 A5 : Vec Ideal ⟨2, ![R, 64]⟩ .bf16)
    (A7 : Vec Ideal ⟨3, ![3, cin, 128]⟩ .bf16) (A8 : Vec Ideal S3x64x128 .bf16) (A9 : Vec Ideal S1x128 .f32)
    (r : Fin R) (o : Fin 128) : EReal :=
  rowPre (fun c => A0 (ix2 r c)) (fun c => A1 (ix2 r c)) (fun c => A2 (ix2 r c))
    (fun j => A3 (ix2 r j)) (fun j => A4 (ix2 r j)) (fun j => A5 (ix2 r j))
    (fun k c => A7 (ix3 k c o)) (fun k j => A8 (ix3 k j o)) (A9 (ix2 (0 : Fin 1) o))

theorem hz2 : (![0, 0] : Fin 2 → Nat) = fun _ => 0 := funext fun a => by fin_cases a <;> rfl

theorem k3_pay4_apply (v0 : Vec Ideal S4096x2 .bf16) (v2 : Vec Ideal S1x2x128 .bf16) (v5 : Vec Ideal S4096x2 .bf16) (v7 : Vec Ideal S1x2x128 .bf16)
    (v11 : Vec Ideal S4096x2 .bf16) (v13 : Vec Ideal S1x2x128 .bf16) (v17 : Vec Ideal S4096x64 .bf16) (v19 : Vec Ideal S1x64x128 .bf16)
    (v23 : Vec Ideal S4096x64 .bf16) (v25 : Vec Ideal S1x64x128 .bf16) (p : Fin 4096) (o : Fin 128) :
    k3_pay4 v0 v2 v5 v7 v11 v13 v17 v19 v23 v25 (ix2 p o)
      = ((((∑ c : Fin 2, v0 (ix2 p c) * v2 (ix3 (0 : Fin 1) c o)) + (∑ c : Fin 2, v5 (ix2 p c) * v7 (ix3 (0 : Fin 1) c o)))
          + (∑ c : Fin 2, v11 (ix2 p c) * v13 (ix3 (0 : Fin 1) c o))) + (∑ j : Fin 64, v17 (ix2 p j) * v19 (ix3 (0 : Fin 1) j o)))
          + (∑ j : Fin 64, v23 (ix2 p j) * v25 (ix3 (0 : Fin 1) j o)) := by
  unfold k3_pay4
  simp only [addf_apply, shapeCast_self, mm2_apply, mm64_apply, shapeCast_1ab_ab_apply]

theorem k3_pay1_apply (v28 : FVec Ideal S4096x128 .f32) (v29 : Vec Ideal S4096x64 .bf16) (v31 : Vec Ideal S1x64x128 .bf16)
    (v35 : Vec Ideal S1x128 .f32) (p : Fin 4096) (o : Fin 128) :
    k3_pay1 v28 v29 v31 v35 (ix2 p o)
      = Ideal.logistic ((v28 (ix2 p o) + ∑ j : Fin 64, v29 (ix2 p j) * v31 (ix3 (0 : Fin 1) j o)) + v35 (ix2 (0 : Fin 1) o)) := by
  unfold k3_pay1
  simp only [logistic_apply, addf_apply, shapeCast_self, mm64_apply, shapeCast_1ab_ab_apply, broadcastTo_1b_ab_apply]

theorem k3_pay2_apply (v28 : FVec Ideal S4096x128 .f32) (v29 : Vec Ideal S4096x64 .bf16) (v31 : Vec Ideal S1x64x128 .bf16)
    (v35 : Vec Ideal S1x128 .f32) (p : Fin 4096) (q : Fin 64) :
    k3_pay2 v28 v29 v31 v35 (ix2 p q) = k3_pay1 v28 v29 v31 v35 (ix2 p (Fin.natAdd 64 q)) := by
  unfold k3_pay2
  exact hi_apply _ p q

theorem k3_pay3_apply (v28 : FVec Ideal S4096x128 .f32) (v29 : Vec Ideal S4096x64 .bf16) (v31 : Vec Ideal S1x64x128 .bf16)
    (v35 : Vec Ideal S1x128 .f32) (v42 : Vec Ideal S4096x64 .f32) (p : Fin 4096) (q : Fin 64) :
    k3_pay3 v28 v29 v31 v35 v42 (ix2 p q) = k3_pay1 v28 v29 v31 v35 (ix2 p (Fin.castAdd 64 q)) * v42 (ix2 p q) := by
  unfold k3_pay3
  simp only [truncf_apply, mulf_apply, shapeCast_self, lo_apply]

theorem ld3_1 (x : Vec Ideal S3x2x128 .bf16) (c : Fin 2) (o : Fin 128) : View.ld x r3_1 (ix3 (0 : Fin 1) c o) = x (ix3 (0 : Fin 3) c o) :=
  slab_apply x ![0, 0, 0] _ 0 rfl rfl rfl c o
theorem ld3_2 (x : Vec Ideal S3x2x128 .bf16) (c : Fin 2) (o : Fin 128) : View.ld x r3_2 (ix3 (0 : Fin 1) c o) = x (ix3 (1 : Fin 3) c o) :=
  slab_apply x ![1, 0, 0] _ 1 rfl rfl rfl c o
theorem ld3_3 (x : Vec Ideal S3x2x128 .bf16) (c : Fin 2) (o : Fin 128) : View.ld x r3_3 (ix3 (0 : Fin 1) c o) = x (ix3 (2 : Fin 3) c o) :=
  slab_apply x ![2, 0, 0] _ 2 rfl rfl rfl c o
theorem ld3_5 (x : Vec Ideal S3x64x128 .bf16) (c : Fin 64) (o : Fin 128) : View.ld x r3_5 (ix3 (0 : Fin 1) c o) = x (ix3 (0 : Fin 3) c o) :=
  slab_apply x ![0, 0, 0] _ 0 rfl rfl rfl c o
theorem ld3_6 (x : Vec Ideal S3x64x128 .bf16) (c : Fin 64) (o : Fin 128) : View.ld x r3_6 (ix3 (0 : Fin 1) c o) = x (ix3 (1 : Fin 3) c o) :=
  slab_apply x ![1, 0, 0] _ 1 rfl rfl rfl c o
theorem ld3_7 (x : Vec Ideal S3x64x128 .bf16) (c : Fin 64) (o : Fin 128) : View.ld x r3_7 (ix3 (0 : Fin 1) c o) = x (ix3 (2 : Fin 3) c o) :=
  slab_apply x ![2, 0, 0] _ 2 rfl rfl rfl c o

def brow3 (t : Fin cfg3.N) (p : Fin 4096) : Fin 32768 :=
  ⟨t.val * 4096 + p.val, by have h := t.isLt; have hN : cfg3.N = 8 := N_3; have := p.isLt; omega⟩

theorem idx3_0 : ∀ t : Fin cfg3.N, win3_0.index t (0 : Fin 2) = t.val ∧ win3_0.index t (1 : Fin 2) = 0 :=
  (by decide +kernel : ∀ t : Fin grid3.N, _)

theorem idx3_1 : ∀ t : Fin cfg3.N, win3_1.index t (0 : Fin 2) = t.val ∧ win3_1.index t (1 : Fin 2) = 0 :=
  (by decide +kernel : ∀ t : Fin grid3.N, _)

theorem idx3_2 : ∀ t : Fin cfg3.N, win3_2.index t (0 : Fin 2) = t.val ∧ win3_2.index t (1 : Fin 2) = 0 :=
  (by decide +kernel : ∀ t : Fin grid3.N, _)

theorem idx3_3 : ∀ t : Fin cfg3.N, win3_3.index t (0 : Fin 2) = t.val ∧ win3_3.index t (1 : Fin 2) = 0 :=
  (by decide +kernel : ∀ t : Fin grid3.N, _)

theorem idx3_4 : ∀ t : Fin cfg3.N, win3_4.index t (0 : Fin 2) = t.val ∧ win3_4.index t (1 : Fin 2) = 0 :=
  (by decide +kernel : ∀ t : Fin grid3.N, _)

theorem idx3_5 : ∀ t : Fin cfg3.N, win3_5.index t (0 : Fin 2) = t.val ∧ win3_5.index t (1 : Fin 2) = 0 :=
  (by decide +kernel : ∀ t : Fin grid3.N, _)

theorem idx3_6 : ∀ t : Fin cfg3.N, win3_6.index t (0 : Fin 2) = t.val ∧ win3_6.index t (1 : Fin 2) = 0 :=
  (by decide +kernel : ∀ t : Fin grid3.N, _)

theorem idx3_10 : ∀ t : Fin cfg3.N, win3_10.index t (0 : Fin 2) = t.val ∧ win3_10.index t (1 : Fin 2) = 0 :=
  (by decide +kernel : ∀ t : Fin grid3.N, _)

theorem idx3_11 : ∀ t : Fin cfg3.N, win3_11.index t (0 : Fin 2) = t.val ∧ win3_11.index t (1 : Fin 2) = 0 :=
  (by decide +kernel : ∀ t : Fin grid3.N, _)

theorem idx3_7 : ∀ (t : Fin cfg3.N) (a : Fin 3), win3_7.index t a = 0 :=
  (by decide +kernel : ∀ (t : Fin grid3.N) (a : Fin 3), _)
theorem idx3_8 : ∀ (t : Fin cfg3.N) (a : Fin 3), win3_8.index t a = 0 :=
  (by decide +kernel : ∀ (t : Fin grid3.N) (a : Fin 3), _)
theorem idx3_9 : ∀ (t : Fin cfg3.N) (a : Fin 2), win3_9.index t a = 0 :=
  (by decide +kernel : ∀ (t : Fin grid3.N) (a : Fin 2), _)

theorem iblk3_0_row (c : Dev nD) (t : Fin cfg3.N) (p : Fin 4096) (q : Fin 2) :
    (iblk3 V c 0 t : Vec Ideal S4096x2 .bf16) (ix2 p q) = (V c (Pipeline.arrRef spec3 0) : Vec Ideal S32768x2 .bf16) (ix2 (brow3 t p) q) :=
  congrArg (V c (Pipeline.arrRef spec3 0)) (win3_0.emb_eq_of_two t _ _ (by decide) (idx3_0 t) rfl rfl)

theorem iblk3_1_row (c : Dev nD) (t : Fin cfg3.N) (p : Fin 4096) (q : Fin 2) :
    (iblk3 V c 1 t : Vec Ideal S4096x2 .bf16) (ix2 p q) = (V c (Pipeline.arrRef spec3 1) : Vec Ideal S32768x2 .bf16) (ix2 (brow3 t p) q) :=
  congrArg (V c (Pipeline.arrRef spec3 1)) (win3_1.emb_eq_of_two t _ _ (by decide) (idx3_1 t) rfl rfl)

theorem iblk3_2_row (c : Dev nD) (t : Fin cfg3.N) (p : Fin 4096) (q : Fin 2) :
    (iblk3 V c 2 t : Vec Ideal S4096x2 .bf16) (ix2 p q) = (V c (Pipeline.arrRef spec3 2) : Vec Ideal S32768x2 .bf16) (ix2 (brow3 t p) q) :=
  congrArg (V c (Pipeline.arrRef spec3 2)) (win3_2.emb_eq_of_two t _ _ (by decide) (idx3_2 t) rfl rfl)

theorem iblk3_3_row (c : Dev nD) (t : Fin cfg3.N) (p : Fin 4096) (q : Fin 64) :
    (iblk3 V c 3 t : Vec Ideal S4096x64 .bf16) (ix2 p q) = (V c (Pipeline.arrRef spec3 3) : Vec Ideal S32768x64 .bf16) (ix2 (brow3 t p) q) :=
  congrArg (V c (Pipeline.arrRef spec3 3)) (win3_3.emb_eq_of_two t _ _ (by decide) (idx3_3 t) rfl rfl)

theorem iblk3_4_row (c : Dev nD) (t : Fin cfg3.N) (p : Fin 4096) (q : Fin 64) :
    (iblk3 V c 4 t : Vec Ideal S4096x64 .bf16) (ix2 p q) = (V c (Pipeline.arrRef spec3 4) : Vec Ideal S32768x64 .bf16) (ix2 (brow3 t p) q) :=
  congrArg (V c (Pipeline.arrRef spec3 4)) (win3_4.emb_eq_of_two t _ _ (by decide) (idx3_4 t) rfl rfl)

theorem iblk3_5_row (c : Dev nD) (t : Fin cfg3.N) (p : Fin 4096) (q : Fin 64) :
    (iblk3 V c 5 t : Vec Ideal S4096x64 .bf16) (ix2 p q) = (V c (Pipeline.arrRef spec3 5) : Vec Ideal S32768x64 .bf16) (ix2 (brow3 t p) q) :=
  congrArg (V c (Pipeline.arrRef spec3 5)) (win3_5.emb_eq_of_two t _ _ (by decide) (idx3_5 t) rfl rfl)

theorem iblk3_6_row (c : Dev nD) (t : Fin cfg3.N) (p : Fin 4096) (q : Fin 64) :
    (iblk3 V c 6 t : Vec Ideal S4096x64 .f32) (ix2 p q) = (V c (Pipeline.arrRef spec3 6) : Vec Ideal S32768x64 .f32) (ix2 (brow3 t p) q) :=
  congrArg (V c (Pipeline.arrRef spec3 6)) (win3_6.emb_eq_of_two t _ _ (by decide) (idx3_6 t) rfl rfl)

theorem iblk3_7_all (c : Dev nD) (t : Fin cfg3.N) (k : Fin 3) (cc : Fin 2) (o : Fin 128) :
    (iblk3 V c 7 t : Vec Ideal S3x2x128 .bf16) (ix3 k cc o) = (V c (Pipeline.arrRef spec3 7) : Vec Ideal S3x2x128 .bf16) (ix3 k cc o) :=
  congrArg (V c (Pipeline.arrRef spec3 7)) (win3_7.emb_eq_of_index_zero t _ _ (idx3_7 t) fun _ => rfl)

theorem iblk3_8_all (c : Dev nD) (t : Fin cfg3.N) (k : Fin 3) (cc : Fin 64) (o : Fin 128) :
    (iblk3 V c 8 t : Vec Ideal S3x64x128 .bf16) (ix3 k cc o) = (V c (Pipeline.arrRef spec3 8) : Vec Ideal S3x64x128 .bf16) (ix3 k cc o) :=
  congrArg (V c (Pipeline.arrRef spec3 8)) (win3_8.emb_eq_of_index_zero t _ _ (idx3_8 t) fun _ => rfl)

theorem iblk3_9_all (c : Dev nD) (t : Fin cfg3.N) (o : Fin 128) :
    (iblk3 V c 9 t : Vec Ideal S1x128 .f32) (ix2 (0 : Fin 1) o) = (V c (Pipeline.arrRef spec3 9) : Vec Ideal S1x128 .f32) (ix2 (0 : Fin 1) o) :=
  congrArg (V c (Pipeline.arrRef spec3 9)) (win3_9.emb_eq_of_index_zero t _ _ (idx3_9 t) fun _ => rfl)

theorem out3_11_apply (x0 x1 x2 : Vec Ideal S4096x2 .bf16) (x3 x4 x5 : Vec Ideal S4096x64 .bf16) (x6 : Vec Ideal S4096x64 .f32)
    (x7 : Vec Ideal S3x2x128 .bf16) (x8 : Vec Ideal S3x64x128 .bf16) (x9 : Vec Ideal S1x128 .f32) (p : Fin 4096) (q : Fin 64) :
    out3_11 x0 x1 x2 x3 x4 x5 x6 x7 x8 x9 (ix2 p q)
      = Ideal.logistic (bpre x0 x1 x2 x3 x4 x5 x7 x8 x9 p (Fin.natAdd 64 q)) := by
  unfold out3_11
  rw [View.canon_unit_zero hz2]
  simp only [View.ld_unit_zero (S := S4096x2) hz2, View.ld_unit_zero (S := S4096x64) hz2, View.ld_unit_zero (S := S1x128) hz2]
  rw [k3_pay2_apply, k3_pay1_apply, k3_pay4_apply]
  simp only [ld3_1 x7, ld3_2 x7, ld3_3 x7, ld3_5 x8, ld3_6 x8, ld3_7 x8]
  rfl

theorem out3_10_apply (x0 x1 x2 : Vec Ideal S4096x2 .bf16) (x3 x4 x5 : Vec Ideal S4096x64 .bf16) (x6 : Vec Ideal S4096x64 .f32)
    (x7 : Vec Ideal S3x2x128 .bf16) (x8 : Vec Ideal S3x64x128 .bf16) (x9 : Vec Ideal S1x128 .f32) (p : Fin 4096) (q : Fin 64) :
    out3_10 x0 x1 x2 x3 x4 x5 x6 x7 x8 x9 (ix2 p q)
      = Ideal.logistic (bpre x0 x1 x2 x3 x4 x5 x7 x8 x9 p (Fin.castAdd 64 q)) * x6 (ix2 p q) := by
  unfold out3_10
  rw [View.canon_unit_zero hz2]
  simp only [View.ld_unit_zero (S := S4096x2) hz2, View.ld_unit_zero (S := S4096x64) hz2, View.ld_unit_zero (S := S1x128) hz2]
  rw [k3_pay3_apply, k3_pay1_apply, k3_pay4_apply]
  simp only [ld3_1 x7, ld3_2 x7, ld3_3 x7, ld3_5 x8, ld3_6 x8, ld3_7 x8]
  rfl

def pre3 (c : Dev nD) (r : Fin 32768) (o : Fin 128) : EReal :=
  bpre (V c (Pipeline.arrRef spec3 0)) (V c (Pipeline.arrRef spec3 1)) (V c (Pipeline.arrRef spec3 2)) (V c (Pipeline.arrRef spec3 3)) (V c (Pipeline.arrRef spec3 4))
    (V c (Pipeline.arrRef spec3 5)) (V c (Pipeline.arrRef spec3 7)) (V c (Pipeline.arrRef spec3 8)) (V c (Pipeline.arrRef spec3 9)) r o

def G3_11 (c : Dev nD) : Vec Ideal S32768x64 .f32 := fun i => Ideal.logistic (pre3 V c (i 0) (Fin.natAdd 64 (i 1)))

def G3_10 (c : Dev nD) : Vec Ideal S32768x64 .bf16 := fun i =>
  Ideal.logistic (pre3 V c (i 0) (Fin.castAdd 64 (i 1))) * (V c (Pipeline.arrRef spec3 6) : Vec Ideal S32768x64 .f32) i

theorem G3_11_apply (c : Dev nD) (r : Fin 32768) (q : Fin 64) :
    G3_11 V c (ix2 r q) = Ideal.logistic (pre3 V c r (Fin.natAdd 64 q)) := rfl

theorem G3_10_apply (c : Dev nD) (r : Fin 32768) (q : Fin 64) :
    G3_10 V c (ix2 r q) = Ideal.logistic (pre3 V c r (Fin.castAdd 64 q)) * (V c (Pipeline.arrRef spec3 6) : Vec Ideal S32768x64 .f32) (ix2 r q) := rfl

theorem cut3_10_apply (t : Fin cfg3.N) (X : Vec Ideal S4096x64 .bf16) (p : Fin 4096) (q : Fin 64) :
    ((cfg3.win 10).cut (grid3.coords t) X : Vec Ideal S4096x64 .bf16) (ix2 p q) = X (ix2 p q) := rfl

theorem blk3_10_read (G : Vec Ideal S32768x64 .bf16) (t : Fin cfg3.N) (p : Fin 4096) (q : Fin 64) :
    (((cfg3.win 10).blk t).view.read (Elt Ideal) G : Vec Ideal S4096x64 .bf16) (ix2 p q) = G (ix2 (brow3 t p) q) :=
  congrArg G (win3_10.emb_eq_of_two t _ _ (by decide) (idx3_10 t) rfl rfl)

theorem flushed3_10_eq (c : Dev nD) (t : Fin cfg3.N) :
    (dat3 V c).flushed 10 t = ((cfg3.win 10).blk t).view.read (Elt Ideal) (G3_10 V c) := by
  show (cfg3.win 10).cut (grid3.coords t) ((dat3 V c).after 10 t) = _
  rw [after3_10]
  funext j
  obtain ⟨p, q, rfl⟩ : ∃ (p : Fin 4096) (q : Fin 64), j = ix2 p q := ⟨j 0, j 1, eq_ix2 j⟩
  refine (cut3_10_apply t _ p q).trans ?_
  refine (out3_10_apply (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) p q).trans ?_
  rw [blk3_10_read, G3_10_apply]
  unfold pre3 bpre
  simp only [iblk3_0_row V c t, iblk3_1_row V c t, iblk3_2_row V c t, iblk3_3_row V c t, iblk3_4_row V c t, iblk3_5_row V c t, iblk3_6_row V c t, iblk3_7_all V c t, iblk3_8_all V c t, iblk3_9_all V c t]

theorem tiles3_10 (i : S32768x64.Idx) :
    ∃ t : Fin cfg3.N, (cfg3.win 10).flush t = true ∧ i ∈ ((cfg3.win 10).blk t).view.set := by
  have hi0 : (i 0).val < 32768 := (i 0).isLt
  have hN : cfg3.N = 8 := N_3
  have ht : (i 0).val / 4096 < cfg3.N := by omega
  refine ⟨⟨_, ht⟩, flush3_10 _, ?_⟩
  show i ∈ ((View.whole main_v41_0).slice (win3_10.rect ⟨_, ht⟩)).set
  rw [View.set_slice_whole, Rect.mem_set_unit]
  exact Fin.forall_fin_two.2 (Nat.mem_tile (by decide) (idx3_10 ⟨_, ht⟩).1 (idx3_10 ⟨_, ht⟩).2 (i 1).isLt)

theorem final3_10 (c : Dev nD) :
    (dat3 V c).arrAt 10 cfg3.N = G3_10 V c :=
  (dat3 V c).arrAt_eq_of_cover 10 _ (fun t _ => flushed3_10_eq V c t) tiles3_10

theorem cut3_11_apply (t : Fin cfg3.N) (X : Vec Ideal S4096x64 .f32) (p : Fin 4096) (q : Fin 64) :
    ((cfg3.win 11).cut (grid3.coords t) X : Vec Ideal S4096x64 .f32) (ix2 p q) = X (ix2 p q) := rfl

theorem blk3_11_read (G : Vec Ideal S32768x64 .f32) (t : Fin cfg3.N) (p : Fin 4096) (q : Fin 64) :
    (((cfg3.win 11).blk t).view.read (Elt Ideal) G : Vec Ideal S4096x64 .f32) (ix2 p q) = G (ix2 (brow3 t p) q) :=
  congrArg G (win3_11.emb_eq_of_two t _ _ (by decide) (idx3_11 t) rfl rfl)

theorem flushed3_11_eq (c : Dev nD) (t : Fin cfg3.N) :
    (dat3 V c).flushed 11 t = ((cfg3.win 11).blk t).view.read (Elt Ideal) (G3_11 V c) := by
  show (cfg3.win 11).cut (grid3.coords t) ((dat3 V c).after 11 t) = _
  rw [after3_11]
  funext j
  obtain ⟨p, q, rfl⟩ : ∃ (p : Fin 4096) (q : Fin 64), j = ix2 p q := ⟨j 0, j 1, eq_ix2 j⟩
  refine (cut3_11_apply t _ p q).trans ?_
  refine (out3_11_apply (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) p q).trans ?_
  rw [blk3_11_read, G3_11_apply]
  unfold pre3 bpre
  simp only [iblk3_0_row V c t, iblk3_1_row V c t, iblk3_2_row V c t, iblk3_3_row V c t, iblk3_4_row V c t, iblk3_5_row V c t, iblk3_6_row V c t, iblk3_7_all V c t, iblk3_8_all V c t, iblk3_9_all V c t]

theorem tiles3_11 (i : S32768x64.Idx) :
    ∃ t : Fin cfg3.N, (cfg3.win 11).flush t = true ∧ i ∈ ((cfg3.win 11).blk t).view.set := by
  have hi0 : (i 0).val < 32768 := (i 0).isLt
  have hN : cfg3.N = 8 := N_3
  have ht : (i 0).val / 4096 < cfg3.N := by omega
  refine ⟨⟨_, ht⟩, flush3_11 _, ?_⟩
  show i ∈ ((View.whole main_v41_1).slice (win3_11.rect ⟨_, ht⟩)).set
  rw [View.set_slice_whole, Rect.mem_set_unit]
  exact Fin.forall_fin_two.2 (Nat.mem_tile (by decide) (idx3_11 ⟨_, ht⟩).1 (idx3_11 ⟨_, ht⟩).2 (i 1).isLt)

theorem final3_11 (c : Dev nD) :
    (dat3 V c).arrAt 11 cfg3.N = G3_11 V c :=
  (dat3 V c).arrAt_eq_of_cover 11 _ (fun t _ => flushed3_11_eq V c t) tiles3_11

set_option maxHeartbeats 1600000 in
theorem region3 (c : Dev nD) (x0 x1 x2 : T 2) (h0 h1 h2 hf : T 64)
    (W : Fin ((2 + 64) * 3) → Fin 128 → EReal) (bias : Fin 128 → EReal)
    (e0 : ∀ n b c', (V c (Pipeline.arrRef spec3 0) : Vec Ideal S32768x2 .bf16) (ix2 (nb n b) c') = x0 n b c')
    (e1 : ∀ n b c', (V c (Pipeline.arrRef spec3 1) : Vec Ideal S32768x2 .bf16) (ix2 (nb n b) c') = x1 n b c')
    (e2 : ∀ n b c', (V c (Pipeline.arrRef spec3 2) : Vec Ideal S32768x2 .bf16) (ix2 (nb n b) c') = x2 n b c')
    (e3 : ∀ n b j, (V c (Pipeline.arrRef spec3 3) : Vec Ideal S32768x64 .bf16) (ix2 (nb n b) j) = h0 n b j)
    (e4 : ∀ n b j, (V c (Pipeline.arrRef spec3 4) : Vec Ideal S32768x64 .bf16) (ix2 (nb n b) j) = h1 n b j)
    (e5 : ∀ n b j, (V c (Pipeline.arrRef spec3 5) : Vec Ideal S32768x64 .bf16) (ix2 (nb n b) j) = h2 n b j)
    (e6 : ∀ n b j, (V c (Pipeline.arrRef spec3 6) : Vec Ideal S32768x64 .f32) (ix2 (nb n b) j) = hf n b j)
    (e7 : ∀ (k : Fin 3) (c' : Fin 2) (o : Fin 128), (V c (Pipeline.arrRef spec3 7) : Vec Ideal S3x2x128 .bf16) (ix3 k c' o) = W (wrow (Fin.castAdd 64 c') k) o)
    (e8 : ∀ (k : Fin 3) (j : Fin 64) (o : Fin 128), (V c (Pipeline.arrRef spec3 8) : Vec Ideal S3x64x128 .bf16) (ix3 k j o) = W (wrow (Fin.natAdd 2 j) k) o)
    (e9 : ∀ o : Fin 128, (V c (Pipeline.arrRef spec3 9) : Vec Ideal S1x128 .f32) (ix2 (0 : Fin 1) o) = bias o) :
    (∀ n b (j : Fin 64), ((dat3 (F := Ideal) V c).arrAt 10 cfg3.N : Vec Ideal S32768x64 .bf16) (ix2 (nb n b) j)
        = Ideal.logistic (pre6 (cin := 2) (O := 128) x0 x1 x2 h0 h1 h2 W bias n b (Fin.castAdd 64 j)) * hf n b j)
    ∧ (∀ n b (j : Fin 64), ((dat3 (F := Ideal) V c).arrAt 11 cfg3.N : Vec Ideal S32768x64 .f32) (ix2 (nb n b) j)
        = Ideal.logistic (pre6 (cin := 2) (O := 128) x0 x1 x2 h0 h1 h2 W bias n b (Fin.natAdd 64 j))) := by
  refine ⟨fun n b j => ?_, fun n b j => ?_⟩
  · rw [final3_10 V c, G3_10_apply]
    unfold pre3 bpre
    simp only [e0, e1, e2, e3, e4, e5, e6, e7, e8, e9]
    rfl
  · rw [final3_11 V c, G3_11_apply]
    unfold pre3 bpre
    simp only [e0, e1, e2, e3, e4, e5, e7, e8, e9]
    rfl

theorem k9_pay4_apply (v0 : Vec Ideal S4096x64 .bf16) (v2 : Vec Ideal S1x64x128 .bf16) (v5 : Vec Ideal S4096x64 .bf16) (v7 : Vec Ideal S1x64x128 .bf16)
    (v11 : Vec Ideal S4096x64 .bf16) (v13 : Vec Ideal S1x64x128 .bf16) (v17 : Vec Ideal S4096x64 .bf16) (v19 : Vec Ideal S1x64x128 .bf16)
    (v23 : Vec Ideal S4096x64 .bf16) (v25 : Vec Ideal S1x64x128 .bf16) (p : Fin 4096) (o : Fin 128) :
    k9_pay4 v0 v2 v5 v7 v11 v13 v17 v19 v23 v25 (ix2 p o)
      = ((((∑ c : Fin 64, v0 (ix2 p c) * v2 (ix3 (0 : Fin 1) c o)) + (∑ c : Fin 64, v5 (ix2 p c) * v7 (ix3 (0 : Fin 1) c o)))
          + (∑ c : Fin 64, v11 (ix2 p c) * v13 (ix3 (0 : Fin 1) c o))) + (∑ j : Fin 64, v17 (ix2 p j) * v19 (ix3 (0 : Fin 1) j o)))
          + (∑ j : Fin 64, v23 (ix2 p j) * v25 (ix3 (0 : Fin 1) j o)) := by
  unfold k9_pay4
  simp only [addf_apply, shapeCast_self, mm64_apply, shapeCast_1ab_ab_apply]

theorem k9_pay1_apply (v28 : FVec Ideal S4096x128 .f32) (v29 : Vec Ideal S4096x64 .bf16) (v31 : Vec Ideal S1x64x128 .bf16)
    (v35 : Vec Ideal S1x128 .f32) (p : Fin 4096) (o : Fin 128) :
    k9_pay1 v28 v29 v31 v35 (ix2 p o)
      = Ideal.logistic ((v28 (ix2 p o) + ∑ j : Fin 64, v29 (ix2 p j) * v31 (ix3 (0 : Fin 1) j o)) + v35 (ix2 (0 : Fin 1) o)) := by
  unfold k9_pay1
  simp only [logistic_apply, addf_apply, shapeCast_self, mm64_apply, shapeCast_1ab_ab_apply, broadcastTo_1b_ab_apply]

theorem k9_pay2_apply (v28 : FVec Ideal S4096x128 .f32) (v29 : Vec Ideal S4096x64 .bf16) (v31 : Vec Ideal S1x64x128 .bf16)
    (v35 : Vec Ideal S1x128 .f32) (p : Fin 4096) (q : Fin 64) :
    k9_pay2 v28 v29 v31 v35 (ix2 p q) = k9_pay1 v28 v29 v31 v35 (ix2 p (Fin.natAdd 64 q)) := by
  unfold k9_pay2
  exact hi_apply _ p q

theorem k9_pay3_apply (v28 : FVec Ideal S4096x128 .f32) (v29 : Vec Ideal S4096x64 .bf16) (v31 : Vec Ideal S1x64x128 .bf16)
    (v35 : Vec Ideal S1x128 .f32) (v42 : Vec Ideal S4096x64 .f32) (p : Fin 4096) (q : Fin 64) :
    k9_pay3 v28 v29 v31 v35 v42 (ix2 p q) = k9_pay1 v28 v29 v31 v35 (ix2 p (Fin.castAdd 64 q)) * v42 (ix2 p q) := by
  unfold k9_pay3
  simp only [truncf_apply, mulf_apply, shapeCast_self, lo_apply]

theorem ld9_1 (x : Vec Ideal S3x64x128 .bf16) (c : Fin 64) (o : Fin 128) : View.ld x r9_1 (ix3 (0 : Fin 1) c o) = x (ix3 (0 : Fin 3) c o) :=
  slab_apply x ![0, 0, 0] _ 0 rfl rfl rfl c o
theorem ld9_2 (x : Vec Ideal S3x64x128 .bf16) (c : Fin 64) (o : Fin 128) : View.ld x r9_2 (ix3 (0 : Fin 1) c o) = x (ix3 (1 : Fin 3) c o) :=
  slab_apply x ![1, 0, 0] _ 1 rfl rfl rfl c o
theorem ld9_3 (x : Vec Ideal S3x64x128 .bf16) (c : Fin 64) (o : Fin 128) : View.ld x r9_3 (ix3 (0 : Fin 1) c o) = x (ix3 (2 : Fin 3) c o) :=
  slab_apply x ![2, 0, 0] _ 2 rfl rfl rfl c o

def brow9 (t : Fin cfg9.N) (p : Fin 4096) : Fin 32768 :=
  ⟨t.val * 4096 + p.val, by have h := t.isLt; have hN : cfg9.N = 8 := N_9; have := p.isLt; omega⟩

theorem idx9_0 : ∀ t : Fin cfg9.N, win9_0.index t (0 : Fin 2) = t.val ∧ win9_0.index t (1 : Fin 2) = 0 :=
  (by decide +kernel : ∀ t : Fin grid9.N, _)

theorem idx9_1 : ∀ t : Fin cfg9.N, win9_1.index t (0 : Fin 2) = t.val ∧ win9_1.index t (1 : Fin 2) = 0 :=
  (by decide +kernel : ∀ t : Fin grid9.N, _)

theorem idx9_2 : ∀ t : Fin cfg9.N, win9_2.index t (0 : Fin 2) = t.val ∧ win9_2.index t (1 : Fin 2) = 0 :=
  (by decide +kernel : ∀ t : Fin grid9.N, _)

theorem idx9_3 : ∀ t : Fin cfg9.N, win9_3.index t (0 : Fin 2) = t.val ∧ win9_3.index t (1 : Fin 2) = 0 :=
  (by decide +kernel : ∀ t : Fin grid9.N, _)

theorem idx9_4 : ∀ t : Fin cfg9.N, win9_4.index t (0 : Fin 2) = t.val ∧ win9_4.index t (1 : Fin 2) = 0 :=
  (by decide +kernel : ∀ t : Fin grid9.N, _)

theorem idx9_5 : ∀ t : Fin cfg9.N, win9_5.index t (0 : Fin 2) = t.val ∧ win9_5.index t (1 : Fin 2) = 0 :=
  (by decide +kernel : ∀ t : Fin grid9.N, _)

theorem idx9_6 : ∀ t : Fin cfg9.N, win9_6.index t (0 : Fin 2) = t.val ∧ win9_6.index t (1 : Fin 2) = 0 :=
  (by decide +kernel : ∀ t : Fin grid9.N, _)

theorem idx9_10 : ∀ t : Fin cfg9.N, win9_10.index t (0 : Fin 2) = t.val ∧ win9_10.index t (1 : Fin 2) = 0 :=
  (by decide +kernel : ∀ t : Fin grid9.N, _)

theorem idx9_11 : ∀ t : Fin cfg9.N, win9_11.index t (0 : Fin 2) = t.val ∧ win9_11.index t (1 : Fin 2) = 0 :=
  (by decide +kernel : ∀ t : Fin grid9.N, _)

theorem idx9_7 : ∀ (t : Fin cfg9.N) (a : Fin 3), win9_7.index t a = 0 :=
  (by decide +kernel : ∀ (t : Fin grid9.N) (a : Fin 3), _)
theorem idx9_8 : ∀ (t : Fin cfg9.N) (a : Fin 3), win9_8.index t a = 0 :=
  (by decide +kernel : ∀ (t : Fin grid9.N) (a : Fin 3), _)
theorem idx9_9 : ∀ (t : Fin cfg9.N) (a : Fin 2), win9_9.index t a = 0 :=
  (by decide +kernel : ∀ (t : Fin grid9.N) (a : Fin 2), _)

theorem iblk9_0_row (c : Dev nD) (t : Fin cfg9.N) (p : Fin 4096) (q : Fin 64) :
    (iblk9 V c 0 t : Vec Ideal S4096x64 .bf16) (ix2 p q) = (V c (Pipeline.arrRef spec9 0) : Vec Ideal S32768x64 .bf16) (ix2 (brow9 t p) q) :=
  congrArg (V c (Pipeline.arrRef spec9 0)) (win9_0.emb_eq_of_two t _ _ (by decide) (idx9_0 t) rfl rfl)

theorem iblk9_1_row (c : Dev nD) (t : Fin cfg9.N) (p : Fin 4096) (q : Fin 64) :
    (iblk9 V c 1 t : Vec Ideal S4096x64 .bf16) (ix2 p q) = (V c (Pipeline.arrRef spec9 1) : Vec Ideal S32768x64 .bf16) (ix2 (brow9 t p) q) :=
  congrArg (V c (Pipeline.arrRef spec9 1)) (win9_1.emb_eq_of_two t _ _ (by decide) (idx9_1 t) rfl rfl)

theorem iblk9_2_row (c : Dev nD) (t : Fin cfg9.N) (p : Fin 4096) (q : Fin 64) :
    (iblk9 V c 2 t : Vec Ideal S4096x64 .bf16) (ix2 p q) = (V c (Pipeline.arrRef spec9 2) : Vec Ideal S32768x64 .bf16) (ix2 (brow9 t p) q) :=
  congrArg (V c (Pipeline.arrRef spec9 2)) (win9_2.emb_eq_of_two t _ _ (by decide) (idx9_2 t) rfl rfl)

theorem iblk9_3_row (c : Dev nD) (t : Fin cfg9.N) (p : Fin 4096) (q : Fin 64) :
    (iblk9 V c 3 t : Vec Ideal S4096x64 .bf16) (ix2 p q) = (V c (Pipeline.arrRef spec9 3) : Vec Ideal S32768x64 .bf16) (ix2 (brow9 t p) q) :=
  congrArg (V c (Pipeline.arrRef spec9 3)) (win9_3.emb_eq_of_two t _ _ (by decide) (idx9_3 t) rfl rfl)

theorem iblk9_4_row (c : Dev nD) (t : Fin cfg9.N) (p : Fin 4096) (q : Fin 64) :
    (iblk9 V c 4 t : Vec Ideal S4096x64 .bf16) (ix2 p q) = (V c (Pipeline.arrRef spec9 4) : Vec Ideal S32768x64 .bf16) (ix2 (brow9 t p) q) :=
  congrArg (V c (Pipeline.arrRef spec9 4)) (win9_4.emb_eq_of_two t _ _ (by decide) (idx9_4 t) rfl rfl)

theorem iblk9_5_row (c : Dev nD) (t : Fin cfg9.N) (p : Fin 4096) (q : Fin 64) :
    (iblk9 V c 5 t : Vec Ideal S4096x64 .bf16) (ix2 p q) = (V c (Pipeline.arrRef spec9 5) : Vec Ideal S32768x64 .bf16) (ix2 (brow9 t p) q) :=
  congrArg (V c (Pipeline.arrRef spec9 5)) (win9_5.emb_eq_of_two t _ _ (by decide) (idx9_5 t) rfl rfl)

theorem iblk9_6_row (c : Dev nD) (t : Fin cfg9.N) (p : Fin 4096) (q : Fin 64) :
    (iblk9 V c 6 t : Vec Ideal S4096x64 .f32) (ix2 p q) = (V c (Pipeline.arrRef spec9 6) : Vec Ideal S32768x64 .f32) (ix2 (brow9 t p) q) :=
  congrArg (V c (Pipeline.arrRef spec9 6)) (win9_6.emb_eq_of_two t _ _ (by decide) (idx9_6 t) rfl rfl)

theorem iblk9_7_all (c : Dev nD) (t : Fin cfg9.N) (k : Fin 3) (cc : Fin 64) (o : Fin 128) :
    (iblk9 V c 7 t : Vec Ideal S3x64x128 .bf16) (ix3 k cc o) = (V c (Pipeline.arrRef spec9 7) : Vec Ideal S3x64x128 .bf16) (ix3 k cc o) :=
  congrArg (V c (Pipeline.arrRef spec9 7)) (win9_7.emb_eq_of_index_zero t _ _ (idx9_7 t) fun _ => rfl)

theorem iblk9_8_all (c : Dev nD) (t : Fin cfg9.N) (k : Fin 3) (cc : Fin 64) (o : Fin 128) :
    (iblk9 V c 8 t : Vec Ideal S3x64x128 .bf16) (ix3 k cc o) = (V c (Pipeline.arrRef spec9 8) : Vec Ideal S3x64x128 .bf16) (ix3 k cc o) :=
  congrArg (V c (Pipeline.arrRef spec9 8)) (win9_8.emb_eq_of_index_zero t _ _ (idx9_8 t) fun _ => rfl)

theorem iblk9_9_all (c : Dev nD) (t : Fin cfg9.N) (o : Fin 128) :
    (iblk9 V c 9 t : Vec Ideal S1x128 .f32) (ix2 (0 : Fin 1) o) = (V c (Pipeline.arrRef spec9 9) : Vec Ideal S1x128 .f32) (ix2 (0 : Fin 1) o) :=
  congrArg (V c (Pipeline.arrRef spec9 9)) (win9_9.emb_eq_of_index_zero t _ _ (idx9_9 t) fun _ => rfl)

theorem out9_11_apply (x0 x1 x2 : Vec Ideal S4096x64 .bf16) (x3 x4 x5 : Vec Ideal S4096x64 .bf16) (x6 : Vec Ideal S4096x64 .f32)
    (x7 : Vec Ideal S3x64x128 .bf16) (x8 : Vec Ideal S3x64x128 .bf16) (x9 : Vec Ideal S1x128 .f32) (p : Fin 4096) (q : Fin 64) :
    out9_11 x0 x1 x2 x3 x4 x5 x6 x7 x8 x9 (ix2 p q)
      = Ideal.logistic (bpre x0 x1 x2 x3 x4 x5 x7 x8 x9 p (Fin.natAdd 64 q)) := by
  unfold out9_11
  rw [View.canon_unit_zero hz2]
  simp only [View.ld_unit_zero (S := S4096x64) hz2, View.ld_unit_zero (S := S4096x64) hz2, View.ld_unit_zero (S := S1x128) hz2]
  rw [k9_pay2_apply, k9_pay1_apply, k9_pay4_apply]
  simp only [ld9_1 x7, ld9_2 x7, ld9_3 x7, ld9_1 x8, ld9_2 x8, ld9_3 x8]
  rfl

theorem out9_10_apply (x0 x1 x2 : Vec Ideal S4096x64 .bf16) (x3 x4 x5 : Vec Ideal S4096x64 .bf16) (x6 : Vec Ideal S4096x64 .f32)
    (x7 : Vec Ideal S3x64x128 .bf16) (x8 : Vec Ideal S3x64x128 .bf16) (x9 : Vec Ideal S1x128 .f32) (p : Fin 4096) (q : Fin 64) :
    out9_10 x0 x1 x2 x3 x4 x5 x6 x7 x8 x9 (ix2 p q)
      = Ideal.logistic (bpre x0 x1 x2 x3 x4 x5 x7 x8 x9 p (Fin.castAdd 64 q)) * x6 (ix2 p q) := by
  unfold out9_10
  rw [View.canon_unit_zero hz2]
  simp only [View.ld_unit_zero (S := S4096x64) hz2, View.ld_unit_zero (S := S4096x64) hz2, View.ld_unit_zero (S := S1x128) hz2]
  rw [k9_pay3_apply, k9_pay1_apply, k9_pay4_apply]
  simp only [ld9_1 x7, ld9_2 x7, ld9_3 x7, ld9_1 x8, ld9_2 x8, ld9_3 x8]
  rfl

def pre9 (c : Dev nD) (r : Fin 32768) (o : Fin 128) : EReal :=
  bpre (V c (Pipeline.arrRef spec9 0)) (V c (Pipeline.arrRef spec9 1)) (V c (Pipeline.arrRef spec9 2)) (V c (Pipeline.arrRef spec9 3)) (V c (Pipeline.arrRef spec9 4))
    (V c (Pipeline.arrRef spec9 5)) (V c (Pipeline.arrRef spec9 7)) (V c (Pipeline.arrRef spec9 8)) (V c (Pipeline.arrRef spec9 9)) r o

def G9_11 (c : Dev nD) : Vec Ideal S32768x64 .f32 := fun i => Ideal.logistic (pre9 V c (i 0) (Fin.natAdd 64 (i 1)))

def G9_10 (c : Dev nD) : Vec Ideal S32768x64 .bf16 := fun i =>
  Ideal.logistic (pre9 V c (i 0) (Fin.castAdd 64 (i 1))) * (V c (Pipeline.arrRef spec9 6) : Vec Ideal S32768x64 .f32) i

theorem G9_11_apply (c : Dev nD) (r : Fin 32768) (q : Fin 64) :
    G9_11 V c (ix2 r q) = Ideal.logistic (pre9 V c r (Fin.natAdd 64 q)) := rfl

theorem G9_10_apply (c : Dev nD) (r : Fin 32768) (q : Fin 64) :
    G9_10 V c (ix2 r q) = Ideal.logistic (pre9 V c r (Fin.castAdd 64 q)) * (V c (Pipeline.arrRef spec9 6) : Vec Ideal S32768x64 .f32) (ix2 r q) := rfl

theorem cut9_10_apply (t : Fin cfg9.N) (X : Vec Ideal S4096x64 .bf16) (p : Fin 4096) (q : Fin 64) :
    ((cfg9.win 10).cut (grid9.coords t) X : Vec Ideal S4096x64 .bf16) (ix2 p q) = X (ix2 p q) := rfl

theorem blk9_10_read (G : Vec Ideal S32768x64 .bf16) (t : Fin cfg9.N) (p : Fin 4096) (q : Fin 64) :
    (((cfg9.win 10).blk t).view.read (Elt Ideal) G : Vec Ideal S4096x64 .bf16) (ix2 p q) = G (ix2 (brow9 t p) q) :=
  congrArg G (win9_10.emb_eq_of_two t _ _ (by decide) (idx9_10 t) rfl rfl)

theorem flushed9_10_eq (c : Dev nD) (t : Fin cfg9.N) :
    (dat9 V c).flushed 10 t = ((cfg9.win 10).blk t).view.read (Elt Ideal) (G9_10 V c) := by
  show (cfg9.win 10).cut (grid9.coords t) ((dat9 V c).after 10 t) = _
  rw [after9_10]
  funext j
  obtain ⟨p, q, rfl⟩ : ∃ (p : Fin 4096) (q : Fin 64), j = ix2 p q := ⟨j 0, j 1, eq_ix2 j⟩
  refine (cut9_10_apply t _ p q).trans ?_
  refine (out9_10_apply (iblk9 V c 0 t) (iblk9 V c 1 t) (iblk9 V c 2 t) (iblk9 V c 3 t) (iblk9 V c 4 t) (iblk9 V c 5 t) (iblk9 V c 6 t) (iblk9 V c 7 t) (iblk9 V c 8 t) (iblk9 V c 9 t) p q).trans ?_
  rw [blk9_10_read, G9_10_apply]
  unfold pre9 bpre
  simp only [iblk9_0_row V c t, iblk9_1_row V c t, iblk9_2_row V c t, iblk9_3_row V c t, iblk9_4_row V c t, iblk9_5_row V c t, iblk9_6_row V c t, iblk9_7_all V c t, iblk9_8_all V c t, iblk9_9_all V c t]

theorem tiles9_10 (i : S32768x64.Idx) :
    ∃ t : Fin cfg9.N, (cfg9.win 10).flush t = true ∧ i ∈ ((cfg9.win 10).blk t).view.set := by
  have hi0 : (i 0).val < 32768 := (i 0).isLt
  have hN : cfg9.N = 8 := N_9
  have ht : (i 0).val / 4096 < cfg9.N := by omega
  refine ⟨⟨_, ht⟩, flush9_10 _, ?_⟩
  show i ∈ ((View.whole main_v58_0).slice (win9_10.rect ⟨_, ht⟩)).set
  rw [View.set_slice_whole, Rect.mem_set_unit]
  exact Fin.forall_fin_two.2 (Nat.mem_tile (by decide) (idx9_10 ⟨_, ht⟩).1 (idx9_10 ⟨_, ht⟩).2 (i 1).isLt)

theorem final9_10 (c : Dev nD) :
    (dat9 V c).arrAt 10 cfg9.N = G9_10 V c :=
  (dat9 V c).arrAt_eq_of_cover 10 _ (fun t _ => flushed9_10_eq V c t) tiles9_10

theorem cut9_11_apply (t : Fin cfg9.N) (X : Vec Ideal S4096x64 .f32) (p : Fin 4096) (q : Fin 64) :
    ((cfg9.win 11).cut (grid9.coords t) X : Vec Ideal S4096x64 .f32) (ix2 p q) = X (ix2 p q) := rfl

theorem blk9_11_read (G : Vec Ideal S32768x64 .f32) (t : Fin cfg9.N) (p : Fin 4096) (q : Fin 64) :
    (((cfg9.win 11).blk t).view.read (Elt Ideal) G : Vec Ideal S4096x64 .f32) (ix2 p q) = G (ix2 (brow9 t p) q) :=
  congrArg G (win9_11.emb_eq_of_two t _ _ (by decide) (idx9_11 t) rfl rfl)

theorem flushed9_11_eq (c : Dev nD) (t : Fin cfg9.N) :
    (dat9 V c).flushed 11 t = ((cfg9.win 11).blk t).view.read (Elt Ideal) (G9_11 V c) := by
  show (cfg9.win 11).cut (grid9.coords t) ((dat9 V c).after 11 t) = _
  rw [after9_11]
  funext j
  obtain ⟨p, q, rfl⟩ : ∃ (p : Fin 4096) (q : Fin 64), j = ix2 p q := ⟨j 0, j 1, eq_ix2 j⟩
  refine (cut9_11_apply t _ p q).trans ?_
  refine (out9_11_apply (iblk9 V c 0 t) (iblk9 V c 1 t) (iblk9 V c 2 t) (iblk9 V c 3 t) (iblk9 V c 4 t) (iblk9 V c 5 t) (iblk9 V c 6 t) (iblk9 V c 7 t) (iblk9 V c 8 t) (iblk9 V c 9 t) p q).trans ?_
  rw [blk9_11_read, G9_11_apply]
  unfold pre9 bpre
  simp only [iblk9_0_row V c t, iblk9_1_row V c t, iblk9_2_row V c t, iblk9_3_row V c t, iblk9_4_row V c t, iblk9_5_row V c t, iblk9_6_row V c t, iblk9_7_all V c t, iblk9_8_all V c t, iblk9_9_all V c t]

theorem tiles9_11 (i : S32768x64.Idx) :
    ∃ t : Fin cfg9.N, (cfg9.win 11).flush t = true ∧ i ∈ ((cfg9.win 11).blk t).view.set := by
  have hi0 : (i 0).val < 32768 := (i 0).isLt
  have hN : cfg9.N = 8 := N_9
  have ht : (i 0).val / 4096 < cfg9.N := by omega
  refine ⟨⟨_, ht⟩, flush9_11 _, ?_⟩
  show i ∈ ((View.whole main_v58_1).slice (win9_11.rect ⟨_, ht⟩)).set
  rw [View.set_slice_whole, Rect.mem_set_unit]
  exact Fin.forall_fin_two.2 (Nat.mem_tile (by decide) (idx9_11 ⟨_, ht⟩).1 (idx9_11 ⟨_, ht⟩).2 (i 1).isLt)

theorem final9_11 (c : Dev nD) :
    (dat9 V c).arrAt 11 cfg9.N = G9_11 V c :=
  (dat9 V c).arrAt_eq_of_cover 11 _ (fun t _ => flushed9_11_eq V c t) tiles9_11

set_option maxHeartbeats 1600000 in
theorem region9 (c : Dev nD) (x0 x1 x2 : T 64) (h0 h1 h2 hf : T 64)
    (W : Fin ((64 + 64) * 3) → Fin 128 → EReal) (bias : Fin 128 → EReal)
    (e0 : ∀ n b c', (V c (Pipeline.arrRef spec9 0) : Vec Ideal S32768x64 .bf16) (ix2 (nb n b) c') = x0 n b c')
    (e1 : ∀ n b c', (V c (Pipeline.arrRef spec9 1) : Vec Ideal S32768x64 .bf16) (ix2 (nb n b) c') = x1 n b c')
    (e2 : ∀ n b c', (V c (Pipeline.arrRef spec9 2) : Vec Ideal S32768x64 .bf16) (ix2 (nb n b) c') = x2 n b c')
    (e3 : ∀ n b j, (V c (Pipeline.arrRef spec9 3) : Vec Ideal S32768x64 .bf16) (ix2 (nb n b) j) = h0 n b j)
    (e4 : ∀ n b j, (V c (Pipeline.arrRef spec9 4) : Vec Ideal S32768x64 .bf16) (ix2 (nb n b) j) = h1 n b j)
    (e5 : ∀ n b j, (V c (Pipeline.arrRef spec9 5) : Vec Ideal S32768x64 .bf16) (ix2 (nb n b) j) = h2 n b j)
    (e6 : ∀ n b j, (V c (Pipeline.arrRef spec9 6) : Vec Ideal S32768x64 .f32) (ix2 (nb n b) j) = hf n b j)
    (e7 : ∀ (k : Fin 3) (c' : Fin 64) (o : Fin 128), (V c (Pipeline.arrRef spec9 7) : Vec Ideal S3x64x128 .bf16) (ix3 k c' o) = W (wrow (Fin.castAdd 64 c') k) o)
    (e8 : ∀ (k : Fin 3) (j : Fin 64) (o : Fin 128), (V c (Pipeline.arrRef spec9 8) : Vec Ideal S3x64x128 .bf16) (ix3 k j o) = W (wrow (Fin.natAdd 64 j) k) o)
    (e9 : ∀ o : Fin 128, (V c (Pipeline.arrRef spec9 9) : Vec Ideal S1x128 .f32) (ix2 (0 : Fin 1) o) = bias o) :
    (∀ n b (j : Fin 64), ((dat9 (F := Ideal) V c).arrAt 10 cfg9.N : Vec Ideal S32768x64 .bf16) (ix2 (nb n b) j)
        = Ideal.logistic (pre6 (cin := 64) (O := 128) x0 x1 x2 h0 h1 h2 W bias n b (Fin.castAdd 64 j)) * hf n b j)
    ∧ (∀ n b (j : Fin 64), ((dat9 (F := Ideal) V c).arrAt 11 cfg9.N : Vec Ideal S32768x64 .f32) (ix2 (nb n b) j)
        = Ideal.logistic (pre6 (cin := 64) (O := 128) x0 x1 x2 h0 h1 h2 W bias n b (Fin.natAdd 64 j))) := by
  refine ⟨fun n b j => ?_, fun n b j => ?_⟩
  · rw [final9_10 V c, G9_10_apply]
    unfold pre9 bpre
    simp only [e0, e1, e2, e3, e4, e5, e6, e7, e8, e9]
    rfl
  · rw [final9_11 V c, G9_11_apply]
    unfold pre9 bpre
    simp only [e0, e1, e2, e3, e4, e5, e7, e8, e9]
    rfl

end Cert.KernelIdeal.KGate

end
-- ==== Proof.KStage2.lean ====
import proofs.«162824_g19885698580639_cont_8to1_2033_9_alg».proof.Proof.Gen.KernelIdeal.Frame
import proofs.«162824_g19885698580639_cont_8to1_2033_9_alg».proof.Proof.Spec
import proofs.«162824_g19885698580639_cont_8to1_2033_9_alg».proof.Proof.KArgs
import proofs.«162824_g19885698580639_cont_8to1_2033_9_alg».proof.Proof.KCarry
import proofs.«162824_g19885698580639_cont_8to1_2033_9_alg».proof.Proof.KStage0
import proofs.«162824_g19885698580639_cont_8to1_2033_9_alg».proof.Proof.KStage1
import proofs.«162824_g19885698580639_cont_8to1_2033_9_alg».proof.Proof.KGate
import proofs.«162824_g19885698580639_cont_8to1_2033_9_alg».proof.Proof.KDiff1
import proofs.«162824_g19885698580639_cont_8to1_2033_9_alg».proof.Proof.KDiff2
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.KStage2

open Cert.KernelIdeal Cert.KernelIdeal.Gen Cert.KernelIdeal.KA Cert.KernelIdeal.Carry Cert.Spec
open Idealize.ShloMosaic Idealize.ShloMosaic.TcCoe Idealize.ShloMosaic.ValueIdx Idealize.SL.Sem

variable (m : (ℓ : Loc nD τ sig) → Buf (Elt Ideal) ℓ) (ρ : Dev nD → PrngReg)

section Layout
variable {α : Type}

theorem cast_rows64_apply (x : S32768x64.Idx → α) (h : S32768x64.ShapeCasts S1024x2048)
    (n : Fin 1024) (b : Fin 32) (q : Fin 64) :
    shapeCast S1024x2048 x h (ix2 n (bc b q)) = x (ix2 (nb n b) q) :=
  shapeCast_apply x h _ _ (by
    rw [Shape.rowMajor_val_two, Shape.rowMajor_val_two]
    show (n.val * 32 + b.val) * 64 + q.val = n.val * 2048 + (b.val * 64 + q.val)
    omega)

theorem cast_nodes64_apply (x : S1024x2048.Idx → α) (h : S1024x2048.ShapeCasts S32768x64)
    (n : Fin 1024) (b : Fin 32) (q : Fin 64) :
    shapeCast S32768x64 x h (ix2 (nb n b) q) = x (ix2 n (bc b q)) :=
  shapeCast_apply x h _ _ (by
    rw [Shape.rowMajor_val_two, Shape.rowMajor_val_two]
    show n.val * 2048 + (b.val * 64 + q.val) = (n.val * 32 + b.val) * 64 + q.val
    omega)

theorem cast_nodes2_apply (x : S1024x64.Idx → α) (h : S1024x64.ShapeCasts S32768x2)
    (n : Fin 1024) (b : Fin 32) (q : Fin 2) :
    shapeCast S32768x2 x h (ix2 (nb n b) q) = x (ix2 n (bc b q)) :=
  shapeCast_apply x h _ _ (by
    rw [Shape.rowMajor_val_two, Shape.rowMajor_val_two]
    show n.val * 64 + (b.val * 2 + q.val) = (n.val * 32 + b.val) * 2 + q.val
    omega)

end Layout

theorem gate0 (c : Dev nD) :
    (∀ n b (j : Fin 64), ((dat3 (F := Ideal) (V6 m ρ) c).arrAt 10 cfg3.N : Vec Ideal S32768x64 .bf16) (ix2 (nb n b) j)
        = ks0 m c n b j)
    ∧ (∀ n b (j : Fin 64), ((dat3 (F := Ideal) (V6 m ρ) c).arrAt 11 cfg3.N : Vec Ideal S32768x64 .f32) (ix2 (nb n b) j)
        = ku0 m c n b j) := by
  have e0 : ∀ n b c', (V6 m ρ c (Pipeline.arrRef spec3 0) : Vec Ideal S32768x2 .bf16) (ix2 (nb n b) c') = kx m c n b c' := by
    intro n b c'
    show (W6 m ρ c (Proc.devRef .tc main_v8_0) : Vec Ideal S32768x2 .bf16) (ix2 (nb n b) c') = _
    rw [at_v8_0_6 m ρ c]
    exact KStage0.f_v8_0 m ρ c n b c'
  have e1 : ∀ n b c', (V6 m ρ c (Pipeline.arrRef spec3 1) : Vec Ideal S32768x2 .bf16) (ix2 (nb n b) c') = D1 (kA m c) (kx m c) n b c' :=
    fun n b c' => KStage1.f_v37 m ρ c n b c'
  have e2 : ∀ n b c', (V6 m ρ c (Pipeline.arrRef spec3 2) : Vec Ideal S32768x2 .bf16) (ix2 (nb n b) c') = D2 (kA m c) (kx m c) n b c' :=
    fun n b c' => KStage1.f_v38 m ρ c n b c'
  have e3 : ∀ n b j, (V6 m ρ c (Pipeline.arrRef spec3 3) : Vec Ideal S32768x64 .bf16) (ix2 (nb n b) j) = kh0 m c n b j := by
    intro n b j
    show (W6 m ρ c (Proc.devRef .tc main_v8_1) : Vec Ideal S32768x64 .bf16) (ix2 (nb n b) j) = _
    rw [at_v8_1_6 m ρ c]
    exact KStage0.f_v8_1 m ρ c n b j
  have e4 : ∀ n b j, (V6 m ρ c (Pipeline.arrRef spec3 4) : Vec Ideal S32768x64 .bf16) (ix2 (nb n b) j) = D1 (kA m c) (kh0 m c) n b j :=
    fun n b j => KStage1.f_v39 m ρ c n b j
  have e5 : ∀ n b j, (V6 m ρ c (Pipeline.arrRef spec3 5) : Vec Ideal S32768x64 .bf16) (ix2 (nb n b) j) = D2 (kA m c) (kh0 m c) n b j :=
    fun n b j => KStage1.f_v40 m ρ c n b j
  have e6 : ∀ n b j, (V6 m ρ c (Pipeline.arrRef spec3 6) : Vec Ideal S32768x64 .f32) (ix2 (nb n b) j) = kh0 m c n b j := by
    intro n b j
    show (W6 m ρ c (Proc.devRef .tc main_v8_2) : Vec Ideal S32768x64 .f32) (ix2 (nb n b) j) = _
    rw [at_v8_2_6 m ρ c]
    exact KStage0.f_v8_2 m ρ c n b j
  have e7 : ∀ (k : Fin 3) (c' : Fin 2) (o : Fin 128), (V6 m ρ c (Pipeline.arrRef spec3 7) : Vec Ideal S3x2x128 .bf16) (ix3 k c' o)
      = (kargs m c).wg0 (wrow (Fin.castAdd 64 c') k) o := by
    intro k c' o
    show (W6 m ρ c (Proc.devRef .tc main_v12) : Vec Ideal S3x2x128 .bf16) (ix3 k c' o) = _
    rw [at_v12_6 m ρ c]
    exact KStage0.f_v12 m ρ c k c' o
  have e8 : ∀ (k : Fin 3) (j : Fin 64) (o : Fin 128), (V6 m ρ c (Pipeline.arrRef spec3 8) : Vec Ideal S3x64x128 .bf16) (ix3 k j o)
      = (kargs m c).wg0 (wrow (Fin.natAdd 2 j) k) o := by
    intro k j o
    show (W6 m ρ c (Proc.devRef .tc main_v13) : Vec Ideal S3x64x128 .bf16) (ix3 k j o) = _
    rw [at_v13_6 m ρ c]
    exact KStage0.f_v13 m ρ c k j o
  have e9 : ∀ o : Fin 128, (V6 m ρ c (Pipeline.arrRef spec3 9) : Vec Ideal S1x128 .f32) (ix2 (0 : Fin 1) o) = (kargs m c).bg0 o := by
    intro o
    show (W6 m ρ c (Proc.devRef .tc main_v29) : Vec Ideal S1x128 .f32) (ix2 (0 : Fin 1) o) = _
    rw [at_v29_6 m ρ c]
    exact KStage0.f_v29 m ρ c o
  exact KGate.region3 (V6 m ρ) c (kx m c) (D1 (kA m c) (kx m c)) (D2 (kA m c) (kx m c))
    (kh0 m c) (D1 (kA m c) (kh0 m c)) (D2 (kA m c) (kh0 m c)) (kh0 m c) (kargs m c).wg0 (kargs m c).bg0
    e0 e1 e2 e3 e4 e5 e6 e7 e8 e9

theorem f_v41_0 (c : Dev nD) : ∀ (n : Fin 1024) (b : Fin 32) (q : Fin 64), (W7 m ρ c (Proc.devRef .tc main_v41_0) : Vec Ideal S32768x64 .bf16) (ix2 (nb n b) q) = ks0 m c n b q := by
  intro n b q
  show (W7 m ρ c (Proc.devRef .tc (Pipeline.arrRef spec3 10)) : Vec Ideal S32768x64 .bf16) (ix2 (nb n b) q) = _
  rw [W7_arr m ρ c 10]
  exact (gate0 m ρ c).1 n b q

theorem f_v41_1 (c : Dev nD) : ∀ (n : Fin 1024) (b : Fin 32) (q : Fin 64), (W7 m ρ c (Proc.devRef .tc main_v41_1) : Vec Ideal S32768x64 .f32) (ix2 (nb n b) q) = ku0 m c n b q := by
  intro n b q
  show (W7 m ρ c (Proc.devRef .tc (Pipeline.arrRef spec3 11)) : Vec Ideal S32768x64 .f32) (ix2 (nb n b) q) = _
  rw [W7_arr m ρ c 11]
  exact (gate0 m ρ c).2 n b q

theorem f_v42 (c : Dev nD) : ∀ (n : Fin 1024) (b : Fin 32) (q : Fin 64), (W8 m ρ c (Proc.devRef .tc main_v42) : Vec Ideal S1024x2048 .bf16) (ix2 n (bc b q)) = ks0 m c n b q := by
  intro n b q
  show StableHlo.after hostOps4 (W7 m ρ c) (Proc.devRef .tc main_v42) _ = _
  after_results
  show shapeCast S1024x2048 (W7 m ρ c (Proc.devRef .tc main_v41_0) : Vec Ideal S32768x64 .bf16) shapeCasts_S32768x64_S1024x2048 (ix2 n (bc b q)) = _
  rw [cast_rows64_apply]
  exact f_v41_0 m ρ c n b q

theorem adj8 (c : Dev nD) : ∀ n k, (V8 m ρ c (Pipeline.arrRef spec4 0) : Vec Ideal S1024x1024 .bf16) (ix2 n k) = kA m c n k := by
  intro n k
  show (W8 m ρ c (Proc.devRef .tc main_v0) : Vec Ideal S1024x1024 .bf16) (ix2 n k) = _
  rw [at_v0_8 m ρ c]
  exact KStage0.f_v0 m ρ c n k

theorem adj9 (c : Dev nD) : ∀ n k, (V9 m ρ c (Pipeline.arrRef spec5 0) : Vec Ideal S1024x1024 .bf16) (ix2 n k) = kA m c n k := by
  intro n k
  show (W9 m ρ c (Proc.devRef .tc main_v0) : Vec Ideal S1024x1024 .bf16) (ix2 n k) = _
  rw [at_v0_9 m ρ c]
  exact KStage0.f_v0 m ρ c n k

theorem f_v43 (c : Dev nD) : ∀ (n : Fin 1024) (b : Fin 32) (q : Fin 64), (W9 m ρ c (Proc.devRef .tc main_v43) : Vec Ideal S1024x2048 .bf16) (ix2 n (bc b q)) = D1 (kA m c) (ks0 m c) n b q := by
  intro n b q
  show (W9 m ρ c (Proc.devRef .tc (Pipeline.arrRef spec4 2)) : Vec Ideal S1024x2048 .bf16) (ix2 n (bc b q)) = _
  rw [W9_arr m ρ c 2]
  exact KDiff1.region4 (V8 m ρ) c (kA m c) (ks0 m c) (adj8 m ρ c) (fun n b j => f_v42 m ρ c n b j) n b q

theorem f_v44 (c : Dev nD) : ∀ (n : Fin 1024) (b : Fin 32) (q : Fin 64), (W10 m ρ c (Proc.devRef .tc main_v44) : Vec Ideal S1024x2048 .bf16) (ix2 n (bc b q)) = D2 (kA m c) (ks0 m c) n b q := by
  intro n b q
  have eS0 : ∀ n b j, (V9 m ρ c (Pipeline.arrRef spec5 1) : Vec Ideal S1024x2048 .bf16) (ix2 n (bc b j)) = ks0 m c n b j := by
    intro n b j
    show (W9 m ρ c (Proc.devRef .tc main_v42) : Vec Ideal S1024x2048 .bf16) (ix2 n (bc b j)) = _
    rw [at_v42_9 m ρ c]
    exact f_v42 m ρ c n b j
  show (W10 m ρ c (Proc.devRef .tc (Pipeline.arrRef spec5 3)) : Vec Ideal S1024x2048 .bf16) (ix2 n (bc b q)) = _
  rw [W10_arr m ρ c 3]
  exact KDiff2.region5 (V9 m ρ) c (kA m c) (ks0 m c) (D1 (kA m c) (ks0 m c)) (adj9 m ρ c) eS0
    (fun n b j => f_v43 m ρ c n b j) n b q

theorem f_v45 (c : Dev nD) : ∀ (n : Fin 1024) (b : Fin 32) (q : Fin 2), (W11 m ρ c (Proc.devRef .tc main_v45) : Vec Ideal S32768x2 .bf16) (ix2 (nb n b) q) = D1 (kA m c) (kx m c) n b q := by
  intro n b q
  show StableHlo.after hostOps6 (W10 m ρ c) (Proc.devRef .tc main_v45) _ = _
  after_results
  show shapeCast S32768x2 (W10 m ρ c (Proc.devRef .tc main_v35_0) : Vec Ideal S1024x64 .bf16) shapeCasts_S1024x64_S32768x2 (ix2 (nb n b) q) = _
  rw [cast_nodes2_apply, at_v35_0_10 m ρ c]
  exact KStage1.f_v35_0 m ρ c n b q

theorem f_v46 (c : Dev nD) : ∀ (n : Fin 1024) (b : Fin 32) (q : Fin 2), (W11 m ρ c (Proc.devRef .tc main_v46) : Vec Ideal S32768x2 .bf16) (ix2 (nb n b) q) = D2 (kA m c) (kx m c) n b q := by
  intro n b q
  show StableHlo.after hostOps6 (W10 m ρ c) (Proc.devRef .tc main_v46) _ = _
  after_results
  show shapeCast S32768x2 (W10 m ρ c (Proc.devRef .tc main_v36_0) : Vec Ideal S1024x64 .bf16) shapeCasts_S1024x64_S32768x2 (ix2 (nb n b) q) = _
  rw [cast_nodes2_apply, at_v36_0_10 m ρ c]
  exact KStage1.f_v36_0 m ρ c n b q

theorem f_v47 (c : Dev nD) : ∀ (n : Fin 1024) (b : Fin 32) (q : Fin 64), (W11 m ρ c (Proc.devRef .tc main_v47) : Vec Ideal S32768x64 .bf16) (ix2 (nb n b) q) = D1 (kA m c) (ks0 m c) n b q := by
  intro n b q
  show StableHlo.after hostOps6 (W10 m ρ c) (Proc.devRef .tc main_v47) _ = _
  after_results
  show shapeCast S32768x64 (W10 m ρ c (Proc.devRef .tc main_v43) : Vec Ideal S1024x2048 .bf16) shapeCasts_S1024x2048_S32768x64 (ix2 (nb n b) q) = _
  rw [cast_nodes64_apply, at_v43_10 m ρ c]
  exact f_v43 m ρ c n b q

theorem f_v48 (c : Dev nD) : ∀ (n : Fin 1024) (b : Fin 32) (q : Fin 64), (W11 m ρ c (Proc.devRef .tc main_v48) : Vec Ideal S32768x64 .bf16) (ix2 (nb n b) q) = D2 (kA m c) (ks0 m c) n b q := by
  intro n b q
  show StableHlo.after hostOps6 (W10 m ρ c) (Proc.devRef .tc main_v48) _ = _
  after_results
  show shapeCast S32768x64 (W10 m ρ c (Proc.devRef .tc main_v44) : Vec Ideal S1024x2048 .bf16) shapeCasts_S1024x2048_S32768x64 (ix2 (nb n b) q) = _
  rw [cast_nodes64_apply]
  exact f_v44 m ρ c n b q

end Cert.KernelIdeal.KStage2

end
-- ==== Proof.KCand.lean ====
import proofs.«162824_g19885698580639_cont_8to1_2033_9_alg».proof.Proof.Gen.KernelIdeal.Frame
import proofs.«162824_g19885698580639_cont_8to1_2033_9_alg».proof.Proof.Spec
import Idealize.ShloMosaic.Lib.ValueIdx
import Idealize.ShloMosaic.Lib.ValueLayout
import Idealize.ShloMosaic.Lib.Pipeline.Value
import Idealize.ShloMosaic.PureOps.Ideal.Laws
import proofs.«162824_g19885698580639_cont_8to1_2033_9_alg».proof.Proof.LibWindow
import Idealize.ShloMosaic.Lib.StackMember
import Idealize.ShloMosaic.Lib.KernelVsHost

set_option maxRecDepth 16384

noncomputable section

namespace Cert.KernelIdeal.KCand

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem mm64_apply (lhs : FVec Ideal S4096x64 .bf16) (rhs : FVec Ideal S64x64 .bf16) (p : Fin 4096) (o : Fin 64) :
    matmul dot_S4096x64_S64x64_S4096x64_1_0_0_1_n_n none lhs rhs (constant (F := Ideal) S4096x64 .f32 0x00000000#32) (ix2 p o)
      = ∑ k : Fin 64, lhs (ix2 p k) * rhs (ix2 k o) := by
  rw [matmul_zero_eq_dotGeneral]; exact StackMember.dotGeneral_plain_apply none lhs rhs p o

theorem mm2_apply (lhs : FVec Ideal S4096x2 .bf16) (rhs : FVec Ideal S2x64 .bf16) (p : Fin 4096) (o : Fin 64) :
    matmul dot_S4096x2_S2x64_S4096x64_1_0_0_1_n_n none lhs rhs (constant (F := Ideal) S4096x64 .f32 0x00000000#32) (ix2 p o)
      = ∑ k : Fin 2, lhs (ix2 p k) * rhs (ix2 k o) := by
  rw [matmul_zero_eq_dotGeneral]; exact StackMember.dotGeneral_plain_apply none lhs rhs p o

theorem term64 (x : FVec Ideal S4096x64 .bf16) (w : FVec Ideal S1x64x64 .bf16) (p : Fin 4096) (o : Fin 64) :
    matmul dot_S4096x64_S64x64_S4096x64_1_0_0_1_n_n none (shapeCast S4096x64 x shapeCasts_S4096x64_S4096x64)
      (shapeCast S64x64 w shapeCasts_S1x64x64_S64x64) (constant (F := Ideal) S4096x64 .f32 0x00000000#32) (ix2 p o)
      = ∑ k : Fin 64, x (ix2 p k) * w (ix3 (0 : Fin 1) k o) := by
  rw [shapeCast_self]
  refine (mm64_apply _ _ p o).trans ?_
  exact Finset.sum_congr rfl fun k _ => by rw [shapeCast_1ab_ab_apply]

theorem term2 (x : FVec Ideal S4096x2 .bf16) (w : FVec Ideal S1x2x64 .bf16) (p : Fin 4096) (o : Fin 64) :
    matmul dot_S4096x2_S2x64_S4096x64_1_0_0_1_n_n none (shapeCast S4096x2 x shapeCasts_S4096x2_S4096x2)
      (shapeCast S2x64 w shapeCasts_S1x2x64_S2x64) (constant (F := Ideal) S4096x64 .f32 0x00000000#32) (ix2 p o)
      = ∑ k : Fin 2, x (ix2 p k) * w (ix3 (0 : Fin 1) k o) := by
  rw [shapeCast_self]
  refine (mm2_apply _ _ p o).trans ?_
  exact Finset.sum_congr rfl fun k _ => by rw [shapeCast_1ab_ab_apply]

theorem tanh_at {s : Shape} {φ : FTy} (a : FVec Ideal s φ) (i : s.Idx) : tanh a i = Ideal.tanh (a i) := rfl

theorem hz2 : (![0, 0] : Fin 2 → Nat) = fun _ => 0 := funext fun a => by fin_cases a <;> rfl
theorem hz3 : (![0, 0, 0] : Fin 3 → Nat) = fun _ => 0 := funext fun a => by fin_cases a <;> rfl

theorem pay4_apply6 (v0 : Vec Ideal S4096x2 .bf16) (v2 : Vec Ideal S1x2x64 .bf16) (v5 : Vec Ideal S4096x2 .bf16) (v7 : Vec Ideal S1x2x64 .bf16)
    (v11 : Vec Ideal S4096x2 .bf16) (v13 : Vec Ideal S1x2x64 .bf16) (v17 : Vec Ideal S4096x64 .bf16) (v19 : Vec Ideal S1x64x64 .bf16)
    (v23 : Vec Ideal S4096x64 .bf16) (v25 : Vec Ideal S1x64x64 .bf16) (p : Fin 4096) (o : Fin 64) :
    k6_pay4 v0 v2 v5 v7 v11 v13 v17 v19 v23 v25 (ix2 p o)
      = ((((∑ k : Fin 2, v0 (ix2 p k) * v2 (ix3 (0 : Fin 1) k o)) + (∑ k : Fin 2, v5 (ix2 p k) * v7 (ix3 (0 : Fin 1) k o)))
          + (∑ k : Fin 2, v11 (ix2 p k) * v13 (ix3 (0 : Fin 1) k o))) + (∑ k : Fin 64, v17 (ix2 p k) * v19 (ix3 (0 : Fin 1) k o)))
          + (∑ k : Fin 64, v23 (ix2 p k) * v25 (ix3 (0 : Fin 1) k o)) := by
  unfold k6_pay4
  simp only [addf_apply]
  rw [term2, term2, term2, term64, term64]

theorem pay1_apply6 (v28 : FVec Ideal S4096x64 .f32) (v29 : FVec Ideal S4096x64 .bf16) (v31 : FVec Ideal S1x64x64 .bf16)
    (v35 : FVec Ideal S1x64 .f32) (v40 v42 : FVec Ideal S4096x64 .f32) (p : Fin 4096) (o : Fin 64) :
    k6_pay1 v28 v29 v31 v35 v40 v42 (ix2 p o)
      = v40 (ix2 p o) * v42 (ix2 p o) + (one - v40 (ix2 p o))
          * Ideal.tanh ((v28 (ix2 p o) + ∑ k : Fin 64, v29 (ix2 p k) * v31 (ix3 (0 : Fin 1) k o)) + v35 (ix2 (0 : Fin 1) o)) := by
  unfold k6_pay1
  simp only [addf_apply, mulf_apply, subf_apply, broadcast_apply, shapeCast_self, tanh_at]
  rw [mm64_apply, broadcastTo_1b_ab_apply]
  simp only [shapeCast_1ab_ab_apply]
  rfl

theorem pay3_apply6 (v28 : FVec Ideal S4096x64 .f32) (v29 : FVec Ideal S4096x64 .bf16) (v31 : FVec Ideal S1x64x64 .bf16)
    (v35 : FVec Ideal S1x64 .f32) (v40 v42 : FVec Ideal S4096x64 .f32) (p : Fin 4096) (o : Fin 64) :
    k6_pay3 v28 v29 v31 v35 v40 v42 (ix2 p o) = k6_pay1 v28 v29 v31 v35 v40 v42 (ix2 p o) := rfl

theorem pay2_apply6 (v28 : FVec Ideal S4096x64 .f32) (v29 : FVec Ideal S4096x64 .bf16) (v31 : FVec Ideal S1x64x64 .bf16)
    (v35 : FVec Ideal S1x64 .f32) (v40 v42 : FVec Ideal S4096x64 .f32) (b : Fin 32) (q : Fin 128) (o : Fin 64)
    (r : Fin 4096) (hr : r.val = q.val * 32 + b.val) :
    k6_pay2 v28 v29 v31 v35 v40 v42 (ix3 b q o) = k6_pay1 v28 v29 v31 v35 v40 v42 (ix2 r o) := by
  unfold k6_pay2
  refine (transpose_apply _ _ _ (ix3 b q o) (ix3 q b o) (fun a => by
    match a with
    | ⟨0, _⟩ => rfl
    | ⟨1, _⟩ => rfl
    | ⟨2, _⟩ => rfl)).trans ?_
  refine shapeCast_apply _ _ (ix3 q b o) (ix2 r o) ?_
  rw [Shape.rowMajor_val_two, Shape.rowMajor_val_three]
  show r.val * 64 + o.val = (q.val * 32 + b.val) * 64 + o.val
  rw [hr]

def cand {cin : ℕ} (A0 A1 A2 : Vec Ideal ⟨2, ![32768, cin]⟩ .bf16) (A3 A4 A5 : Vec Ideal S32768x64 .bf16) (A6 A7 : Vec Ideal S32768x64 .f32)
    (A8 : Vec Ideal ⟨3, ![3, cin, 64]⟩ .bf16) (A9 : Vec Ideal S3x64x64 .bf16) (A10 : Vec Ideal S1x64 .f32)
    (r : Fin 32768) (o : Fin 64) : EReal :=
  A6 (ix2 r o) * A7 (ix2 r o) + (one - A6 (ix2 r o)) * Ideal.tanh
    (((((((∑ k : Fin cin, A0 (ix2 r k) * A8 (ix3 (0 : Fin 3) k o)) + (∑ k : Fin cin, A1 (ix2 r k) * A8 (ix3 (1 : Fin 3) k o)))
      + (∑ k : Fin cin, A2 (ix2 r k) * A8 (ix3 (2 : Fin 3) k o))) + (∑ k : Fin 64, A3 (ix2 r k) * A9 (ix3 (0 : Fin 3) k o)))
      + (∑ k : Fin 64, A4 (ix2 r k) * A9 (ix3 (1 : Fin 3) k o))) + (∑ k : Fin 64, A5 (ix2 r k) * A9 (ix3 (2 : Fin 3) k o)))
      + A10 (ix2 (0 : Fin 1) o))

theorem slab_idx {m n : ℕ} (off : Fin 3 → ℕ) (inb : ∀ a, off a + (⟨3, ![1, m, n]⟩ : Shape).size a ≤ (⟨3, ![3, m, n]⟩ : Shape).size a)
    (kk : Fin 3) (h0 : off 0 = kk.val) (h1 : off 1 = 0) (h2 : off 2 = 0) (k : Fin m) (o : Fin n) :
    (Rect.unit (s := ⟨3, ![3, m, n]⟩) off (⟨3, ![1, m, n]⟩ : Shape).size inb).idx (ix3 (0 : Fin 1) k o) = ix3 kk k o := by
  funext a; apply Fin.ext
  match a with
  | ⟨0, _⟩ => show off 0 + 1 * 0 = kk.val; omega
  | ⟨1, _⟩ => show off 1 + 1 * k.val = k.val; omega
  | ⟨2, _⟩ => show off 2 + 1 * o.val = o.val; omega

theorem r6_1_idx (k : Fin 2) (o : Fin 64) : r6_1.idx (ix3 (0 : Fin 1) k o) = ix3 (0 : Fin 3) k o :=
  slab_idx ![0, 0, 0] _ 0 rfl rfl rfl k o
theorem r6_2_idx (k : Fin 2) (o : Fin 64) : r6_2.idx (ix3 (0 : Fin 1) k o) = ix3 (1 : Fin 3) k o :=
  slab_idx ![1, 0, 0] _ 1 rfl rfl rfl k o
theorem r6_3_idx (k : Fin 2) (o : Fin 64) : r6_3.idx (ix3 (0 : Fin 1) k o) = ix3 (2 : Fin 3) k o :=
  slab_idx ![2, 0, 0] _ 2 rfl rfl rfl k o
theorem r6_5_idx (k : Fin 64) (o : Fin 64) : r6_5.idx (ix3 (0 : Fin 1) k o) = ix3 (0 : Fin 3) k o :=
  slab_idx ![0, 0, 0] _ 0 rfl rfl rfl k o
theorem r6_6_idx (k : Fin 64) (o : Fin 64) : r6_6.idx (ix3 (0 : Fin 1) k o) = ix3 (1 : Fin 3) k o :=
  slab_idx ![1, 0, 0] _ 1 rfl rfl rfl k o
theorem r6_7_idx (k : Fin 64) (o : Fin 64) : r6_7.idx (ix3 (0 : Fin 1) k o) = ix3 (2 : Fin 3) k o :=
  slab_idx ![2, 0, 0] _ 2 rfl rfl rfl k o

theorem body_row6 (b0 b1 b2 : Vec Ideal S4096x2 .bf16) (b3 b4 b5 : Vec Ideal S4096x64 .bf16) (b6 b7 : Vec Ideal S4096x64 .f32)
    (A0 A1 A2 : Vec Ideal S32768x2 .bf16) (A3 A4 A5 : Vec Ideal S32768x64 .bf16) (A6 A7 : Vec Ideal S32768x64 .f32)
    (A8 : Vec Ideal S3x2x64 .bf16) (A9 : Vec Ideal S3x64x64 .bf16) (A10 : Vec Ideal S1x64 .f32)
    (p : Fin 4096) (r : Fin 32768) (o : Fin 64)
    (h0 : ∀ k, b0 (ix2 p k) = A0 (ix2 r k)) (h1 : ∀ k, b1 (ix2 p k) = A1 (ix2 r k)) (h2 : ∀ k, b2 (ix2 p k) = A2 (ix2 r k))
    (h3 : ∀ k, b3 (ix2 p k) = A3 (ix2 r k)) (h4 : ∀ k, b4 (ix2 p k) = A4 (ix2 r k)) (h5 : ∀ k, b5 (ix2 p k) = A5 (ix2 r k))
    (h6 : ∀ k, b6 (ix2 p k) = A6 (ix2 r k)) (h7 : ∀ k, b7 (ix2 p k) = A7 (ix2 r k)) :
    k6_pay1 (F := Ideal) (k6_pay4 (F := Ideal) (View.ld b0 r6_0) (View.ld A8 r6_1) (View.ld b1 r6_0) (View.ld A8 r6_2) (View.ld b2 r6_0) (View.ld A8 r6_3)
        (View.ld b3 r6_4) (View.ld A9 r6_5) (View.ld b4 r6_4) (View.ld A9 r6_6))
      (View.ld b5 r6_4) (View.ld A9 r6_7) (View.ld A10 r6_8) (View.ld b6 r6_4) (View.ld b7 r6_4) (ix2 p o)
      = cand A0 A1 A2 A3 A4 A5 A6 A7 A8 A9 A10 r o := by
  simp only [View.ld_unit_zero (S := S4096x2) hz2, View.ld_unit_zero (S := S4096x64) hz2, View.ld_unit_zero (S := S1x64) hz2]
  rw [pay1_apply6, pay4_apply6]
  simp only [View.ld, r6_1_idx, r6_2_idx, r6_3_idx, r6_5_idx, r6_6_idx, r6_7_idx, h0, h1, h2, h3, h4, h5, h6, h7]
  rfl

theorem cand_rows {cin : ℕ} (A0 A1 A2 : Vec Ideal ⟨2, ![32768, cin]⟩ .bf16) (A3 A4 A5 : Vec Ideal S32768x64 .bf16) (A6 A7 : Vec Ideal S32768x64 .f32)
    (A8 : Vec Ideal ⟨3, ![3, cin, 64]⟩ .bf16) (A9 : Vec Ideal S3x64x64 .bf16) (A10 : Vec Ideal S1x64 .f32)
    (x0 x1 x2 : T cin) (s0 s1 s2 u hf : T 64)
    (W : Fin ((cin + 64) * 3) → Fin 64 → EReal) (bias : Fin 64 → EReal)
    (e0 : ∀ n b c', A0 (ix2 (nb n b) c') = x0 n b c')
    (e1 : ∀ n b c', A1 (ix2 (nb n b) c') = x1 n b c')
    (e2 : ∀ n b c', A2 (ix2 (nb n b) c') = x2 n b c')
    (e3 : ∀ n b j, A3 (ix2 (nb n b) j) = s0 n b j)
    (e4 : ∀ n b j, A4 (ix2 (nb n b) j) = s1 n b j)
    (e5 : ∀ n b j, A5 (ix2 (nb n b) j) = s2 n b j)
    (e6 : ∀ n b j, A6 (ix2 (nb n b) j) = u n b j)
    (e7 : ∀ n b j, A7 (ix2 (nb n b) j) = hf n b j)
    (e8 : ∀ (k : Fin 3) (c' : Fin cin) (o : Fin 64), A8 (ix3 k c' o) = W (wrow (Fin.castAdd 64 c') k) o)
    (e9 : ∀ (k : Fin 3) (j : Fin 64) (o : Fin 64), A9 (ix3 k j o) = W (wrow (Fin.natAdd cin j) k) o)
    (e10 : ∀ o : Fin 64, A10 (ix2 (0 : Fin 1) o) = bias o)
    (n : Fin 1024) (b : Fin 32) (j : Fin 64) :
    cand A0 A1 A2 A3 A4 A5 A6 A7 A8 A9 A10 (nb n b) j
      = u n b j * hf n b j + (one - u n b j) * Ideal.tanh (pre6 (cin := cin) (O := 64) x0 x1 x2 s0 s1 s2 W bias n b j) := by
  unfold cand pre6
  simp only [e0, e1, e2, e3, e4, e5, e6, e7, e8, e9, e10]

theorem emb_eq_mid {G : Pipeline.Grid} (w : Window sig G) (t : Fin G.N) (y : (w.xblock (G.coords t)).Idx) (i : w.shape.Idx)
    {a₀ a₁ a₂ : Fin w.shape.rank} (hall : ∀ a, a = a₀ ∨ a = a₁ ∨ a = a₂) {k : ℕ}
    (hk : w.index t a₀ = 0 ∧ w.index t a₁ = k ∧ w.index t a₂ = 0)
    (h₀ : (y a₀ : ℕ) = i a₀) (h₁ : k * w.size a₁ + y a₁ = i a₁) (h₂ : (y a₂ : ℕ) = i a₂) : (w.rect t).emb y = i :=
  w.emb_eq t y i fun a => by
    rcases hall a with rfl | rfl | rfl
    · rw [hk.1, Nat.zero_mul, Nat.zero_add]; exact h₀
    · rw [hk.2.1]; exact h₁
    · rw [hk.2.2, Nat.zero_mul, Nat.zero_add]; exact h₂

theorem mem_tile_mid {k₀ k₁ k₂ i₀ i₁ i₂ c₀ r c₂ : ℕ} (hr : 0 < r) (h₀ : k₀ = 0) (h₁ : k₁ = i₁ / r) (h₂ : k₂ = 0)
    (hi₀ : i₀ < c₀) (hi₂ : i₂ < c₂) :
    (k₀ * c₀ ≤ i₀ ∧ i₀ < k₀ * c₀ + c₀) ∧ (k₁ * r ≤ i₁ ∧ i₁ < k₁ * r + r) ∧ (k₂ * c₂ ≤ i₂ ∧ i₂ < k₂ * c₂ + c₂) := by
  subst h₀ h₁ h₂
  exact ⟨by omega, ⟨Nat.div_mul_le_self _ _, Nat.lt_div_mul_add hr⟩, by omega⟩

theorem hN6 : cfg6.N = 8 := N_6

theorem idx6_0 : ∀ t : Fin cfg6.N, win6_0.index t (0 : Fin 2) = t.val ∧ win6_0.index t (1 : Fin 2) = 0 :=
  (by decide +kernel : ∀ t : Fin grid6.N, _)
theorem idx6_1 : ∀ t : Fin cfg6.N, win6_1.index t (0 : Fin 2) = t.val ∧ win6_1.index t (1 : Fin 2) = 0 :=
  (by decide +kernel : ∀ t : Fin grid6.N, _)
theorem idx6_2 : ∀ t : Fin cfg6.N, win6_2.index t (0 : Fin 2) = t.val ∧ win6_2.index t (1 : Fin 2) = 0 :=
  (by decide +kernel : ∀ t : Fin grid6.N, _)
theorem idx6_3 : ∀ t : Fin cfg6.N, win6_3.index t (0 : Fin 2) = t.val ∧ win6_3.index t (1 : Fin 2) = 0 :=
  (by decide +kernel : ∀ t : Fin grid6.N, _)
theorem idx6_4 : ∀ t : Fin cfg6.N, win6_4.index t (0 : Fin 2) = t.val ∧ win6_4.index t (1 : Fin 2) = 0 :=
  (by decide +kernel : ∀ t : Fin grid6.N, _)
theorem idx6_5 : ∀ t : Fin cfg6.N, win6_5.index t (0 : Fin 2) = t.val ∧ win6_5.index t (1 : Fin 2) = 0 :=
  (by decide +kernel : ∀ t : Fin grid6.N, _)
theorem idx6_6 : ∀ t : Fin cfg6.N, win6_6.index t (0 : Fin 2) = t.val ∧ win6_6.index t (1 : Fin 2) = 0 :=
  (by decide +kernel : ∀ t : Fin grid6.N, _)
theorem idx6_7 : ∀ t : Fin cfg6.N, win6_7.index t (0 : Fin 2) = t.val ∧ win6_7.index t (1 : Fin 2) = 0 :=
  (by decide +kernel : ∀ t : Fin grid6.N, _)
theorem idx6_8 : ∀ (t : Fin cfg6.N) (a : Fin 3), win6_8.index t a = 0 :=
  (by decide +kernel : ∀ (t : Fin grid6.N) (a : Fin 3), _)
theorem idx6_9 : ∀ (t : Fin cfg6.N) (a : Fin 3), win6_9.index t a = 0 :=
  (by decide +kernel : ∀ (t : Fin grid6.N) (a : Fin 3), _)
theorem idx6_10 : ∀ (t : Fin cfg6.N) (a : Fin 2), win6_10.index t a = 0 :=
  (by decide +kernel : ∀ (t : Fin grid6.N) (a : Fin 2), _)
theorem idx6_11 : ∀ t : Fin cfg6.N, win6_11.index t (0 : Fin 3) = 0 ∧ win6_11.index t (1 : Fin 3) = t.val ∧ win6_11.index t (2 : Fin 3) = 0 :=
  (by decide +kernel : ∀ t : Fin grid6.N, _)
theorem idx6_12 : ∀ t : Fin cfg6.N, win6_12.index t (0 : Fin 2) = t.val ∧ win6_12.index t (1 : Fin 2) = 0 :=
  (by decide +kernel : ∀ t : Fin grid6.N, _)

theorem blk6_0 (c : Dev nD) (t : Fin cfg6.N) (p : Fin 4096) (r : Fin 32768) (hr : r.val = t.val * 4096 + p.val) (k : Fin 2) :
    (iblk6 V c 0 t : Vec Ideal S4096x2 .bf16) (ix2 p k) = (V c (Pipeline.arrRef spec6 0) : Vec Ideal S32768x2 .bf16) (ix2 r k) :=
  congrArg (V c (Pipeline.arrRef spec6 0)) (win6_0.emb_eq_of_two t _ _ (by decide) (idx6_0 t) hr.symm rfl)
theorem blk6_1 (c : Dev nD) (t : Fin cfg6.N) (p : Fin 4096) (r : Fin 32768) (hr : r.val = t.val * 4096 + p.val) (k : Fin 2) :
    (iblk6 V c 1 t : Vec Ideal S4096x2 .bf16) (ix2 p k) = (V c (Pipeline.arrRef spec6 1) : Vec Ideal S32768x2 .bf16) (ix2 r k) :=
  congrArg (V c (Pipeline.arrRef spec6 1)) (win6_1.emb_eq_of_two t _ _ (by decide) (idx6_1 t) hr.symm rfl)
theorem blk6_2 (c : Dev nD) (t : Fin cfg6.N) (p : Fin 4096) (r : Fin 32768) (hr : r.val = t.val * 4096 + p.val) (k : Fin 2) :
    (iblk6 V c 2 t : Vec Ideal S4096x2 .bf16) (ix2 p k) = (V c (Pipeline.arrRef spec6 2) : Vec Ideal S32768x2 .bf16) (ix2 r k) :=
  congrArg (V c (Pipeline.arrRef spec6 2)) (win6_2.emb_eq_of_two t _ _ (by decide) (idx6_2 t) hr.symm rfl)
theorem blk6_3 (c : Dev nD) (t : Fin cfg6.N) (p : Fin 4096) (r : Fin 32768) (hr : r.val = t.val * 4096 + p.val) (k : Fin 64) :
    (iblk6 V c 3 t : Vec Ideal S4096x64 .bf16) (ix2 p k) = (V c (Pipeline.arrRef spec6 3) : Vec Ideal S32768x64 .bf16) (ix2 r k) :=
  congrArg (V c (Pipeline.arrRef spec6 3)) (win6_3.emb_eq_of_two t _ _ (by decide) (idx6_3 t) hr.symm rfl)
theorem blk6_4 (c : Dev nD) (t : Fin cfg6.N) (p : Fin 4096) (r : Fin 32768) (hr : r.val = t.val * 4096 + p.val) (k : Fin 64) :
    (iblk6 V c 4 t : Vec Ideal S4096x64 .bf16) (ix2 p k) = (V c (Pipeline.arrRef spec6 4) : Vec Ideal S32768x64 .bf16) (ix2 r k) :=
  congrArg (V c (Pipeline.arrRef spec6 4)) (win6_4.emb_eq_of_two t _ _ (by decide) (idx6_4 t) hr.symm rfl)
theorem blk6_5 (c : Dev nD) (t : Fin cfg6.N) (p : Fin 4096) (r : Fin 32768) (hr : r.val = t.val * 4096 + p.val) (k : Fin 64) :
    (iblk6 V c 5 t : Vec Ideal S4096x64 .bf16) (ix2 p k) = (V c (Pipeline.arrRef spec6 5) : Vec Ideal S32768x64 .bf16) (ix2 r k) :=
  congrArg (V c (Pipeline.arrRef spec6 5)) (win6_5.emb_eq_of_two t _ _ (by decide) (idx6_5 t) hr.symm rfl)
theorem blk6_6 (c : Dev nD) (t : Fin cfg6.N) (p : Fin 4096) (r : Fin 32768) (hr : r.val = t.val * 4096 + p.val) (k : Fin 64) :
    (iblk6 V c 6 t : Vec Ideal S4096x64 .f32) (ix2 p k) = (V c (Pipeline.arrRef spec6 6) : Vec Ideal S32768x64 .f32) (ix2 r k) :=
  congrArg (V c (Pipeline.arrRef spec6 6)) (win6_6.emb_eq_of_two t _ _ (by decide) (idx6_6 t) hr.symm rfl)
theorem blk6_7 (c : Dev nD) (t : Fin cfg6.N) (p : Fin 4096) (r : Fin 32768) (hr : r.val = t.val * 4096 + p.val) (k : Fin 64) :
    (iblk6 V c 7 t : Vec Ideal S4096x64 .f32) (ix2 p k) = (V c (Pipeline.arrRef spec6 7) : Vec Ideal S32768x64 .f32) (ix2 r k) :=
  congrArg (V c (Pipeline.arrRef spec6 7)) (win6_7.emb_eq_of_two t _ _ (by decide) (idx6_7 t) hr.symm rfl)

theorem blk6_8 (c : Dev nD) (t : Fin cfg6.N) :
    (iblk6 V c 8 t : Vec Ideal S3x2x64 .bf16) = (V c (Pipeline.arrRef spec6 8) : Vec Ideal S3x2x64 .bf16) :=
  funext fun j => congrArg (V c (Pipeline.arrRef spec6 8)) (win6_8.emb_eq_of_index_zero t j j (idx6_8 t) fun _ => rfl)
theorem blk6_9 (c : Dev nD) (t : Fin cfg6.N) :
    (iblk6 V c 9 t : Vec Ideal S3x64x64 .bf16) = (V c (Pipeline.arrRef spec6 9) : Vec Ideal S3x64x64 .bf16) :=
  funext fun j => congrArg (V c (Pipeline.arrRef spec6 9)) (win6_9.emb_eq_of_index_zero t j j (idx6_9 t) fun _ => rfl)
theorem blk6_10 (c : Dev nD) (t : Fin cfg6.N) :
    (iblk6 V c 10 t : Vec Ideal S1x64 .f32) = (V c (Pipeline.arrRef spec6 10) : Vec Ideal S1x64 .f32) :=
  funext fun j => congrArg (V c (Pipeline.arrRef spec6 10)) (win6_10.emb_eq_of_index_zero t j j (idx6_10 t) fun _ => rfl)

theorem out6_12_row (b0 b1 b2 : Vec Ideal S4096x2 .bf16) (b3 b4 b5 : Vec Ideal S4096x64 .bf16) (b6 b7 : Vec Ideal S4096x64 .f32)
    (A0 A1 A2 : Vec Ideal S32768x2 .bf16) (A3 A4 A5 : Vec Ideal S32768x64 .bf16) (A6 A7 : Vec Ideal S32768x64 .f32)
    (A8 : Vec Ideal S3x2x64 .bf16) (A9 : Vec Ideal S3x64x64 .bf16) (A10 : Vec Ideal S1x64 .f32)
    (p : Fin 4096) (r : Fin 32768) (o : Fin 64)
    (h0 : ∀ k, b0 (ix2 p k) = A0 (ix2 r k)) (h1 : ∀ k, b1 (ix2 p k) = A1 (ix2 r k)) (h2 : ∀ k, b2 (ix2 p k) = A2 (ix2 r k))
    (h3 : ∀ k, b3 (ix2 p k) = A3 (ix2 r k)) (h4 : ∀ k, b4 (ix2 p k) = A4 (ix2 r k)) (h5 : ∀ k, b5 (ix2 p k) = A5 (ix2 r k))
    (h6 : ∀ k, b6 (ix2 p k) = A6 (ix2 r k)) (h7 : ∀ k, b7 (ix2 p k) = A7 (ix2 r k)) :
    out6_12 (F := Ideal) b0 b1 b2 b3 b4 b5 b6 b7 A8 A9 A10 (ix2 p o) = cand A0 A1 A2 A3 A4 A5 A6 A7 A8 A9 A10 r o := by
  unfold out6_12
  rw [View.canon_unit_zero hz2]
  refine (pay3_apply6 _ _ _ _ _ _ p o).trans ?_
  exact body_row6 b0 b1 b2 b3 b4 b5 b6 b7 A0 A1 A2 A3 A4 A5 A6 A7 A8 A9 A10 p r o h0 h1 h2 h3 h4 h5 h6 h7

theorem out6_11_eq (b0 b1 b2 : Vec Ideal S4096x2 .bf16) (b3 b4 b5 : Vec Ideal S4096x64 .bf16) (b6 b7 : Vec Ideal S4096x64 .f32)
    (A8 : Vec Ideal S3x2x64 .bf16) (A9 : Vec Ideal S3x64x64 .bf16) (A10 : Vec Ideal S1x64 .f32)
    (b : Fin 32) (q : Fin 128) (p : Fin 4096) (hp : p.val = q.val * 32 + b.val) (o : Fin 64) :
    out6_11 (F := Ideal) b0 b1 b2 b3 b4 b5 b6 b7 A8 A9 A10 (ix3 b q o)
      = out6_12 (F := Ideal) b0 b1 b2 b3 b4 b5 b6 b7 A8 A9 A10 (ix2 p o) := by
  unfold out6_11 out6_12
  rw [View.canon_unit_zero hz3, View.canon_unit_zero hz2]
  exact (pay2_apply6 _ _ _ _ _ _ b q o p hp).trans (pay3_apply6 _ _ _ _ _ _ p o).symm

def G6_12 (c : Dev nD) : Vec Ideal S32768x64 .bf16 := fun i =>
  cand (V c (Pipeline.arrRef spec6 0)) (V c (Pipeline.arrRef spec6 1)) (V c (Pipeline.arrRef spec6 2))
    (V c (Pipeline.arrRef spec6 3)) (V c (Pipeline.arrRef spec6 4)) (V c (Pipeline.arrRef spec6 5))
    (V c (Pipeline.arrRef spec6 6)) (V c (Pipeline.arrRef spec6 7)) (V c (Pipeline.arrRef spec6 8))
    (V c (Pipeline.arrRef spec6 9)) (V c (Pipeline.arrRef spec6 10)) (i 0) (i 1)

def G6_11 (c : Dev nD) : Vec Ideal S32x1024x64 .f32 := fun i =>
  cand (V c (Pipeline.arrRef spec6 0)) (V c (Pipeline.arrRef spec6 1)) (V c (Pipeline.arrRef spec6 2))
    (V c (Pipeline.arrRef spec6 3)) (V c (Pipeline.arrRef spec6 4)) (V c (Pipeline.arrRef spec6 5))
    (V c (Pipeline.arrRef spec6 6)) (V c (Pipeline.arrRef spec6 7)) (V c (Pipeline.arrRef spec6 8))
    (V c (Pipeline.arrRef spec6 9)) (V c (Pipeline.arrRef spec6 10)) (nb (i 1) (i 0)) (i 2)

theorem flushed6_12_eq (c : Dev nD) (t : Fin cfg6.N) :
    (dat6 (F := Ideal) V c).flushed 12 t = ((cfg6.win 12).blk t).view.read (Elt Ideal) (G6_12 V c) := by
  show (cfg6.win 12).cut (grid6.coords t) ((dat6 V c).after 12 t) = _
  rw [after6_12, blk6_8 V c t, blk6_9 V c t, blk6_10 V c t]
  have ht : t.val < 8 := lt_of_lt_of_eq t.isLt hN6
  funext j
  obtain ⟨p, o, rfl⟩ : ∃ (p : Fin 4096) (o : Fin 64), j = ix2 p o := ⟨j 0, j 1, eq_ix2 j⟩
  have hp : p.val < 4096 := p.isLt
  have hemb : ((cfg6.win 12).blk t).view.emb (ix2 p o) = (ix2 (⟨t.val * 4096 + p.val, by omega⟩ : Fin 32768) o : S32768x64.Idx) :=
    win6_12.emb_eq_of_two t _ _ (by decide) (idx6_12 t) rfl rfl
  show out6_12 (F := Ideal) (iblk6 V c 0 t) (iblk6 V c 1 t) (iblk6 V c 2 t) (iblk6 V c 3 t) (iblk6 V c 4 t) (iblk6 V c 5 t)
      (iblk6 V c 6 t) (iblk6 V c 7 t) (V c (Pipeline.arrRef spec6 8)) (V c (Pipeline.arrRef spec6 9)) (V c (Pipeline.arrRef spec6 10)) (ix2 p o)
    = G6_12 V c (((cfg6.win 12).blk t).view.emb (ix2 p o))
  rw [hemb]
  exact out6_12_row (iblk6 V c 0 t) (iblk6 V c 1 t) (iblk6 V c 2 t) (iblk6 V c 3 t) (iblk6 V c 4 t) (iblk6 V c 5 t)
    (iblk6 V c 6 t) (iblk6 V c 7 t) _ _ _ _ _ _ _ _ _ _ _ p ⟨t.val * 4096 + p.val, by omega⟩ o
    (blk6_0 V c t p _ rfl) (blk6_1 V c t p _ rfl) (blk6_2 V c t p _ rfl) (blk6_3 V c t p _ rfl)
    (blk6_4 V c t p _ rfl) (blk6_5 V c t p _ rfl) (blk6_6 V c t p _ rfl) (blk6_7 V c t p _ rfl)

theorem tiled6_12 (i : S32768x64.Idx) : ∃ t : Fin cfg6.N, (cfg6.win 12).flush t = true ∧ i ∈ ((cfg6.win 12).blk t).view.set := by
  have hi0 : (i 0).val < 32768 := (i 0).isLt
  have ht : (i 0).val / 4096 < cfg6.N := by rw [hN6]; omega
  refine ⟨⟨_, ht⟩, flush6_12 _, ?_⟩
  show i ∈ ((View.whole main_v49_1).slice (win6_12.rect ⟨_, ht⟩)).set
  rw [View.set_slice_whole, Rect.mem_set_unit]
  exact Fin.forall_fin_two.2 (Nat.mem_tile (by decide) (idx6_12 ⟨_, ht⟩).1 (idx6_12 ⟨_, ht⟩).2 (i 1).isLt)

theorem final6_12 (c : Dev nD) : (dat6 (F := Ideal) V c).arrAt 12 cfg6.N = G6_12 V c :=
  (dat6 V c).arrAt_eq_of_cover 12 (G6_12 V c) (fun t _ => flushed6_12_eq V c t) tiled6_12

theorem flushed6_11_eq (c : Dev nD) (t : Fin cfg6.N) :
    (dat6 (F := Ideal) V c).flushed 11 t = ((cfg6.win 11).blk t).view.read (Elt Ideal) (G6_11 V c) := by
  show (cfg6.win 11).cut (grid6.coords t) ((dat6 V c).after 11 t) = _
  rw [after6_11, blk6_8 V c t, blk6_9 V c t, blk6_10 V c t]
  have ht : t.val < 8 := lt_of_lt_of_eq t.isLt hN6
  funext j
  obtain ⟨b, q, o, rfl⟩ : ∃ (b : Fin 32) (q : Fin 128) (o : Fin 64), j = ix3 b q o := ⟨j 0, j 1, j 2, eq_ix3 j⟩
  have hb : b.val < 32 := b.isLt
  have hq : q.val < 128 := q.isLt
  have hemb : ((cfg6.win 11).blk t).view.emb (ix3 b q o) = (ix3 b (⟨t.val * 128 + q.val, by omega⟩ : Fin 1024) o : S32x1024x64.Idx) :=
    emb_eq_mid win6_11 t _ _ (by decide) (idx6_11 t) rfl rfl rfl
  show out6_11 (F := Ideal) (iblk6 V c 0 t) (iblk6 V c 1 t) (iblk6 V c 2 t) (iblk6 V c 3 t) (iblk6 V c 4 t) (iblk6 V c 5 t)
      (iblk6 V c 6 t) (iblk6 V c 7 t) (V c (Pipeline.arrRef spec6 8)) (V c (Pipeline.arrRef spec6 9)) (V c (Pipeline.arrRef spec6 10)) (ix3 b q o)
    = G6_11 V c (((cfg6.win 11).blk t).view.emb (ix3 b q o))
  rw [hemb]
  have hr : (nb (⟨t.val * 128 + q.val, by omega⟩ : Fin 1024) b).val = t.val * 4096 + (q.val * 32 + b.val) := by
    show (t.val * 128 + q.val) * 32 + b.val = _; omega
  refine (out6_11_eq _ _ _ _ _ _ _ _ _ _ _ b q ⟨q.val * 32 + b.val, by omega⟩ rfl o).trans ?_
  exact out6_12_row (iblk6 V c 0 t) (iblk6 V c 1 t) (iblk6 V c 2 t) (iblk6 V c 3 t) (iblk6 V c 4 t) (iblk6 V c 5 t) (iblk6 V c 6 t) (iblk6 V c 7 t)
    _ _ _ _ _ _ _ _ _ _ _ ⟨q.val * 32 + b.val, by omega⟩ (nb (⟨t.val * 128 + q.val, by omega⟩ : Fin 1024) b) o
    (blk6_0 V c t _ _ hr) (blk6_1 V c t _ _ hr) (blk6_2 V c t _ _ hr) (blk6_3 V c t _ _ hr)
    (blk6_4 V c t _ _ hr) (blk6_5 V c t _ _ hr) (blk6_6 V c t _ _ hr) (blk6_7 V c t _ _ hr)

theorem tiled6_11 (i : S32x1024x64.Idx) : ∃ t : Fin cfg6.N, (cfg6.win 11).flush t = true ∧ i ∈ ((cfg6.win 11).blk t).view.set := by
  have hi1 : (i 1).val < 1024 := (i 1).isLt
  have ht : (i 1).val / 128 < cfg6.N := by rw [hN6]; omega
  refine ⟨⟨_, ht⟩, flush6_11 _, ?_⟩
  show i ∈ ((View.whole main_v49_0).slice (win6_11.rect ⟨_, ht⟩)).set
  rw [View.set_slice_whole, Rect.mem_set_unit]
  have h := mem_tile_mid (by decide) (idx6_11 ⟨_, ht⟩).1 (idx6_11 ⟨_, ht⟩).2.1 (idx6_11 ⟨_, ht⟩).2.2 (i 0).isLt (i 2).isLt
  intro a
  match a with
  | ⟨0, _⟩ => exact h.1
  | ⟨1, _⟩ => exact h.2.1
  | ⟨2, _⟩ => exact h.2.2

theorem final6_11 (c : Dev nD) : (dat6 (F := Ideal) V c).arrAt 11 cfg6.N = G6_11 V c :=
  (dat6 V c).arrAt_eq_of_cover 11 (G6_11 V c) (fun t _ => flushed6_11_eq V c t) tiled6_11

set_option maxHeartbeats 1600000 in
theorem region6 (c : Dev nD) (x0 x1 x2 : T 2) (s0 s1 s2 u hf : T 64)
    (W : Fin ((2 + 64) * 3) → Fin 64 → EReal) (bias : Fin 64 → EReal)
    (e0 : ∀ n b c', (V c (Pipeline.arrRef spec6 0) : Vec Ideal S32768x2 .bf16) (ix2 (nb n b) c') = x0 n b c')
    (e1 : ∀ n b c', (V c (Pipeline.arrRef spec6 1) : Vec Ideal S32768x2 .bf16) (ix2 (nb n b) c') = x1 n b c')
    (e2 : ∀ n b c', (V c (Pipeline.arrRef spec6 2) : Vec Ideal S32768x2 .bf16) (ix2 (nb n b) c') = x2 n b c')
    (e3 : ∀ n b j, (V c (Pipeline.arrRef spec6 3) : Vec Ideal S32768x64 .bf16) (ix2 (nb n b) j) = s0 n b j)
    (e4 : ∀ n b j, (V c (Pipeline.arrRef spec6 4) : Vec Ideal S32768x64 .bf16) (ix2 (nb n b) j) = s1 n b j)
    (e5 : ∀ n b j, (V c (Pipeline.arrRef spec6 5) : Vec Ideal S32768x64 .bf16) (ix2 (nb n b) j) = s2 n b j)
    (e6 : ∀ n b j, (V c (Pipeline.arrRef spec6 6) : Vec Ideal S32768x64 .f32) (ix2 (nb n b) j) = u n b j)
    (e7 : ∀ n b j, (V c (Pipeline.arrRef spec6 7) : Vec Ideal S32768x64 .f32) (ix2 (nb n b) j) = hf n b j)
    (e8 : ∀ (k : Fin 3) (c' : Fin 2) (o : Fin 64), (V c (Pipeline.arrRef spec6 8) : Vec Ideal S3x2x64 .bf16) (ix3 k c' o) = W (wrow (Fin.castAdd 64 c') k) o)
    (e9 : ∀ (k : Fin 3) (j : Fin 64) (o : Fin 64), (V c (Pipeline.arrRef spec6 9) : Vec Ideal S3x64x64 .bf16) (ix3 k j o) = W (wrow (Fin.natAdd 2 j) k) o)
    (e10 : ∀ o : Fin 64, (V c (Pipeline.arrRef spec6 10) : Vec Ideal S1x64 .f32) (ix2 (0 : Fin 1) o) = bias o) :
    (∀ n b (j : Fin 64), ((dat6 (F := Ideal) V c).arrAt 11 cfg6.N : Vec Ideal S32x1024x64 .f32) (ix3 b n j)
        = u n b j * hf n b j + (one - u n b j) * Ideal.tanh (pre6 (cin := 2) (O := 64) x0 x1 x2 s0 s1 s2 W bias n b j))
    ∧ (∀ n b (j : Fin 64), ((dat6 (F := Ideal) V c).arrAt 12 cfg6.N : Vec Ideal S32768x64 .bf16) (ix2 (nb n b) j)
        = u n b j * hf n b j + (one - u n b j) * Ideal.tanh (pre6 (cin := 2) (O := 64) x0 x1 x2 s0 s1 s2 W bias n b j)) := by
  refine ⟨fun n b j => ?_, fun n b j => ?_⟩
  · rw [final6_11 V c]
    exact cand_rows _ _ _ _ _ _ _ _ _ _ _ x0 x1 x2 s0 s1 s2 u hf W bias e0 e1 e2 e3 e4 e5 e6 e7 e8 e9 e10 n b j
  · rw [final6_12 V c]
    exact cand_rows _ _ _ _ _ _ _ _ _ _ _ x0 x1 x2 s0 s1 s2 u hf W bias e0 e1 e2 e3 e4 e5 e6 e7 e8 e9 e10 n b j

theorem pay4_apply12 (v0 : Vec Ideal S4096x64 .bf16) (v2 : Vec Ideal S1x64x64 .bf16) (v5 : Vec Ideal S4096x64 .bf16) (v7 : Vec Ideal S1x64x64 .bf16)
    (v11 : Vec Ideal S4096x64 .bf16) (v13 : Vec Ideal S1x64x64 .bf16) (v17 : Vec Ideal S4096x64 .bf16) (v19 : Vec Ideal S1x64x64 .bf16)
    (v23 : Vec Ideal S4096x64 .bf16) (v25 : Vec Ideal S1x64x64 .bf16) (p : Fin 4096) (o : Fin 64) :
    k12_pay4 v0 v2 v5 v7 v11 v13 v17 v19 v23 v25 (ix2 p o)
      = ((((∑ k : Fin 64, v0 (ix2 p k) * v2 (ix3 (0 : Fin 1) k o)) + (∑ k : Fin 64, v5 (ix2 p k) * v7 (ix3 (0 : Fin 1) k o)))
          + (∑ k : Fin 64, v11 (ix2 p k) * v13 (ix3 (0 : Fin 1) k o))) + (∑ k : Fin 64, v17 (ix2 p k) * v19 (ix3 (0 : Fin 1) k o)))
          + (∑ k : Fin 64, v23 (ix2 p k) * v25 (ix3 (0 : Fin 1) k o)) := by
  unfold k12_pay4
  simp only [addf_apply]
  rw [term64, term64, term64, term64, term64]

theorem pay1_apply12 (v28 : FVec Ideal S4096x64 .f32) (v29 : FVec Ideal S4096x64 .bf16) (v31 : FVec Ideal S1x64x64 .bf16)
    (v35 : FVec Ideal S1x64 .f32) (v40 v42 : FVec Ideal S4096x64 .f32) (p : Fin 4096) (o : Fin 64) :
    k12_pay1 v28 v29 v31 v35 v40 v42 (ix2 p o)
      = v40 (ix2 p o) * v42 (ix2 p o) + (one - v40 (ix2 p o))
          * Ideal.tanh ((v28 (ix2 p o) + ∑ k : Fin 64, v29 (ix2 p k) * v31 (ix3 (0 : Fin 1) k o)) + v35 (ix2 (0 : Fin 1) o)) := by
  unfold k12_pay1
  simp only [addf_apply, mulf_apply, subf_apply, broadcast_apply, shapeCast_self, tanh_at]
  rw [mm64_apply, broadcastTo_1b_ab_apply]
  simp only [shapeCast_1ab_ab_apply]
  rfl

theorem pay3_apply12 (v28 : FVec Ideal S4096x64 .f32) (v29 : FVec Ideal S4096x64 .bf16) (v31 : FVec Ideal S1x64x64 .bf16)
    (v35 : FVec Ideal S1x64 .f32) (v40 v42 : FVec Ideal S4096x64 .f32) (p : Fin 4096) (o : Fin 64) :
    k12_pay3 v28 v29 v31 v35 v40 v42 (ix2 p o) = k12_pay1 v28 v29 v31 v35 v40 v42 (ix2 p o) := rfl

theorem pay2_apply12 (v28 : FVec Ideal S4096x64 .f32) (v29 : FVec Ideal S4096x64 .bf16) (v31 : FVec Ideal S1x64x64 .bf16)
    (v35 : FVec Ideal S1x64 .f32) (v40 v42 : FVec Ideal S4096x64 .f32) (b : Fin 32) (q : Fin 128) (o : Fin 64)
    (r : Fin 4096) (hr : r.val = q.val * 32 + b.val) :
    k12_pay2 v28 v29 v31 v35 v40 v42 (ix3 b q o) = k12_pay1 v28 v29 v31 v35 v40 v42 (ix2 r o) := by
  unfold k12_pay2
  refine (transpose_apply _ _ _ (ix3 b q o) (ix3 q b o) (fun a => by
    match a with
    | ⟨0, _⟩ => rfl
    | ⟨1, _⟩ => rfl
    | ⟨2, _⟩ => rfl)).trans ?_
  refine shapeCast_apply _ _ (ix3 q b o) (ix2 r o) ?_
  rw [Shape.rowMajor_val_two, Shape.rowMajor_val_three]
  show r.val * 64 + o.val = (q.val * 32 + b.val) * 64 + o.val
  rw [hr]

theorem r12_1_idx (k : Fin 64) (o : Fin 64) : r12_1.idx (ix3 (0 : Fin 1) k o) = ix3 (0 : Fin 3) k o :=
  slab_idx ![0, 0, 0] _ 0 rfl rfl rfl k o
theorem r12_2_idx (k : Fin 64) (o : Fin 64) : r12_2.idx (ix3 (0 : Fin 1) k o) = ix3 (1 : Fin 3) k o :=
  slab_idx ![1, 0, 0] _ 1 rfl rfl rfl k o
theorem r12_3_idx (k : Fin 64) (o : Fin 64) : r12_3.idx (ix3 (0 : Fin 1) k o) = ix3 (2 : Fin 3) k o :=
  slab_idx ![2, 0, 0] _ 2 rfl rfl rfl k o

theorem body_row12 (b0 b1 b2 b3 b4 b5 : Vec Ideal S4096x64 .bf16) (b6 b7 : Vec Ideal S4096x64 .f32)
    (A0 A1 A2 A3 A4 A5 : Vec Ideal S32768x64 .bf16) (A6 A7 : Vec Ideal S32768x64 .f32)
    (A8 A9 : Vec Ideal S3x64x64 .bf16) (A10 : Vec Ideal S1x64 .f32)
    (p : Fin 4096) (r : Fin 32768) (o : Fin 64)
    (h0 : ∀ k, b0 (ix2 p k) = A0 (ix2 r k)) (h1 : ∀ k, b1 (ix2 p k) = A1 (ix2 r k)) (h2 : ∀ k, b2 (ix2 p k) = A2 (ix2 r k))
    (h3 : ∀ k, b3 (ix2 p k) = A3 (ix2 r k)) (h4 : ∀ k, b4 (ix2 p k) = A4 (ix2 r k)) (h5 : ∀ k, b5 (ix2 p k) = A5 (ix2 r k))
    (h6 : ∀ k, b6 (ix2 p k) = A6 (ix2 r k)) (h7 : ∀ k, b7 (ix2 p k) = A7 (ix2 r k)) :
    k12_pay1 (F := Ideal) (k12_pay4 (F := Ideal) (View.ld b0 r12_0) (View.ld A8 r12_1) (View.ld b1 r12_0) (View.ld A8 r12_2) (View.ld b2 r12_0) (View.ld A8 r12_3)
        (View.ld b3 r12_0) (View.ld A9 r12_1) (View.ld b4 r12_0) (View.ld A9 r12_2))
      (View.ld b5 r12_0) (View.ld A9 r12_3) (View.ld A10 r12_4) (View.ld b6 r12_0) (View.ld b7 r12_0) (ix2 p o)
      = cand A0 A1 A2 A3 A4 A5 A6 A7 A8 A9 A10 r o := by
  simp only [View.ld_unit_zero (S := S4096x64) hz2, View.ld_unit_zero (S := S1x64) hz2]
  rw [pay1_apply12, pay4_apply12]
  simp only [View.ld, r12_1_idx, r12_2_idx, r12_3_idx, h0, h1, h2, h3, h4, h5, h6, h7]
  rfl

theorem hN12 : cfg12.N = 8 := N_12

theorem idx12_0 : ∀ t : Fin cfg12.N, win12_0.index t (0 : Fin 2) = t.val ∧ win12_0.index t (1 : Fin 2) = 0 :=
  (by decide +kernel : ∀ t : Fin grid12.N, _)
theorem idx12_1 : ∀ t : Fin cfg12.N, win12_1.index t (0 : Fin 2) = t.val ∧ win12_1.index t (1 : Fin 2) = 0 :=
  (by decide +kernel : ∀ t : Fin grid12.N, _)
theorem idx12_2 : ∀ t : Fin cfg12.N, win12_2.index t (0 : Fin 2) = t.val ∧ win12_2.index t (1 : Fin 2) = 0 :=
  (by decide +kernel : ∀ t : Fin grid12.N, _)
theorem idx12_3 : ∀ t : Fin cfg12.N, win12_3.index t (0 : Fin 2) = t.val ∧ win12_3.index t (1 : Fin 2) = 0 :=
  (by decide +kernel : ∀ t : Fin grid12.N, _)
theorem idx12_4 : ∀ t : Fin cfg12.N, win12_4.index t (0 : Fin 2) = t.val ∧ win12_4.index t (1 : Fin 2) = 0 :=
  (by decide +kernel : ∀ t : Fin grid12.N, _)
theorem idx12_5 : ∀ t : Fin cfg12.N, win12_5.index t (0 : Fin 2) = t.val ∧ win12_5.index t (1 : Fin 2) = 0 :=
  (by decide +kernel : ∀ t : Fin grid12.N, _)
theorem idx12_6 : ∀ t : Fin cfg12.N, win12_6.index t (0 : Fin 2) = t.val ∧ win12_6.index t (1 : Fin 2) = 0 :=
  (by decide +kernel : ∀ t : Fin grid12.N, _)
theorem idx12_7 : ∀ t : Fin cfg12.N, win12_7.index t (0 : Fin 2) = t.val ∧ win12_7.index t (1 : Fin 2) = 0 :=
  (by decide +kernel : ∀ t : Fin grid12.N, _)
theorem idx12_8 : ∀ (t : Fin cfg12.N) (a : Fin 3), win12_8.index t a = 0 :=
  (by decide +kernel : ∀ (t : Fin grid12.N) (a : Fin 3), _)
theorem idx12_9 : ∀ (t : Fin cfg12.N) (a : Fin 3), win12_9.index t a = 0 :=
  (by decide +kernel : ∀ (t : Fin grid12.N) (a : Fin 3), _)
theorem idx12_10 : ∀ (t : Fin cfg12.N) (a : Fin 2), win12_10.index t a = 0 :=
  (by decide +kernel : ∀ (t : Fin grid12.N) (a : Fin 2), _)
theorem idx12_11 : ∀ t : Fin cfg12.N, win12_11.index t (0 : Fin 3) = 0 ∧ win12_11.index t (1 : Fin 3) = t.val ∧ win12_11.index t (2 : Fin 3) = 0 :=
  (by decide +kernel : ∀ t : Fin grid12.N, _)
theorem idx12_12 : ∀ t : Fin cfg12.N, win12_12.index t (0 : Fin 2) = t.val ∧ win12_12.index t (1 : Fin 2) = 0 :=
  (by decide +kernel : ∀ t : Fin grid12.N, _)

theorem blk12_0 (c : Dev nD) (t : Fin cfg12.N) (p : Fin 4096) (r : Fin 32768) (hr : r.val = t.val * 4096 + p.val) (k : Fin 64) :
    (iblk12 V c 0 t : Vec Ideal S4096x64 .bf16) (ix2 p k) = (V c (Pipeline.arrRef spec12 0) : Vec Ideal S32768x64 .bf16) (ix2 r k) :=
  congrArg (V c (Pipeline.arrRef spec12 0)) (win12_0.emb_eq_of_two t _ _ (by decide) (idx12_0 t) hr.symm rfl)
theorem blk12_1 (c : Dev nD) (t : Fin cfg12.N) (p : Fin 4096) (r : Fin 32768) (hr : r.val = t.val * 4096 + p.val) (k : Fin 64) :
    (iblk12 V c 1 t : Vec Ideal S4096x64 .bf16) (ix2 p k) = (V c (Pipeline.arrRef spec12 1) : Vec Ideal S32768x64 .bf16) (ix2 r k) :=
  congrArg (V c (Pipeline.arrRef spec12 1)) (win12_1.emb_eq_of_two t _ _ (by decide) (idx12_1 t) hr.symm rfl)
theorem blk12_2 (c : Dev nD) (t : Fin cfg12.N) (p : Fin 4096) (r : Fin 32768) (hr : r.val = t.val * 4096 + p.val) (k : Fin 64) :
    (iblk12 V c 2 t : Vec Ideal S4096x64 .bf16) (ix2 p k) = (V c (Pipeline.arrRef spec12 2) : Vec Ideal S32768x64 .bf16) (ix2 r k) :=
  congrArg (V c (Pipeline.arrRef spec12 2)) (win12_2.emb_eq_of_two t _ _ (by decide) (idx12_2 t) hr.symm rfl)
theorem blk12_3 (c : Dev nD) (t : Fin cfg12.N) (p : Fin 4096) (r : Fin 32768) (hr : r.val = t.val * 4096 + p.val) (k : Fin 64) :
    (iblk12 V c 3 t : Vec Ideal S4096x64 .bf16) (ix2 p k) = (V c (Pipeline.arrRef spec12 3) : Vec Ideal S32768x64 .bf16) (ix2 r k) :=
  congrArg (V c (Pipeline.arrRef spec12 3)) (win12_3.emb_eq_of_two t _ _ (by decide) (idx12_3 t) hr.symm rfl)
theorem blk12_4 (c : Dev nD) (t : Fin cfg12.N) (p : Fin 4096) (r : Fin 32768) (hr : r.val = t.val * 4096 + p.val) (k : Fin 64) :
    (iblk12 V c 4 t : Vec Ideal S4096x64 .bf16) (ix2 p k) = (V c (Pipeline.arrRef spec12 4) : Vec Ideal S32768x64 .bf16) (ix2 r k) :=
  congrArg (V c (Pipeline.arrRef spec12 4)) (win12_4.emb_eq_of_two t _ _ (by decide) (idx12_4 t) hr.symm rfl)
theorem blk12_5 (c : Dev nD) (t : Fin cfg12.N) (p : Fin 4096) (r : Fin 32768) (hr : r.val = t.val * 4096 + p.val) (k : Fin 64) :
    (iblk12 V c 5 t : Vec Ideal S4096x64 .bf16) (ix2 p k) = (V c (Pipeline.arrRef spec12 5) : Vec Ideal S32768x64 .bf16) (ix2 r k) :=
  congrArg (V c (Pipeline.arrRef spec12 5)) (win12_5.emb_eq_of_two t _ _ (by decide) (idx12_5 t) hr.symm rfl)
theorem blk12_6 (c : Dev nD) (t : Fin cfg12.N) (p : Fin 4096) (r : Fin 32768) (hr : r.val = t.val * 4096 + p.val) (k : Fin 64) :
    (iblk12 V c 6 t : Vec Ideal S4096x64 .f32) (ix2 p k) = (V c (Pipeline.arrRef spec12 6) : Vec Ideal S32768x64 .f32) (ix2 r k) :=
  congrArg (V c (Pipeline.arrRef spec12 6)) (win12_6.emb_eq_of_two t _ _ (by decide) (idx12_6 t) hr.symm rfl)
theorem blk12_7 (c : Dev nD) (t : Fin cfg12.N) (p : Fin 4096) (r : Fin 32768) (hr : r.val = t.val * 4096 + p.val) (k : Fin 64) :
    (iblk12 V c 7 t : Vec Ideal S4096x64 .f32) (ix2 p k) = (V c (Pipeline.arrRef spec12 7) : Vec Ideal S32768x64 .f32) (ix2 r k) :=
  congrArg (V c (Pipeline.arrRef spec12 7)) (win12_7.emb_eq_of_two t _ _ (by decide) (idx12_7 t) hr.symm rfl)

theorem blk12_8 (c : Dev nD) (t : Fin cfg12.N) :
    (iblk12 V c 8 t : Vec Ideal S3x64x64 .bf16) = (V c (Pipeline.arrRef spec12 8) : Vec Ideal S3x64x64 .bf16) :=
  funext fun j => congrArg (V c (Pipeline.arrRef spec12 8)) (win12_8.emb_eq_of_index_zero t j j (idx12_8 t) fun _ => rfl)
theorem blk12_9 (c : Dev nD) (t : Fin cfg12.N) :
    (iblk12 V c 9 t : Vec Ideal S3x64x64 .bf16) = (V c (Pipeline.arrRef spec12 9) : Vec Ideal S3x64x64 .bf16) :=
  funext fun j => congrArg (V c (Pipeline.arrRef spec12 9)) (win12_9.emb_eq_of_index_zero t j j (idx12_9 t) fun _ => rfl)
theorem blk12_10 (c : Dev nD) (t : Fin cfg12.N) :
    (iblk12 V c 10 t : Vec Ideal S1x64 .f32) = (V c (Pipeline.arrRef spec12 10) : Vec Ideal S1x64 .f32) :=
  funext fun j => congrArg (V c (Pipeline.arrRef spec12 10)) (win12_10.emb_eq_of_index_zero t j j (idx12_10 t) fun _ => rfl)

theorem out12_12_row (b0 b1 b2 b3 b4 b5 : Vec Ideal S4096x64 .bf16) (b6 b7 : Vec Ideal S4096x64 .f32)
    (A0 A1 A2 A3 A4 A5 : Vec Ideal S32768x64 .bf16) (A6 A7 : Vec Ideal S32768x64 .f32)
    (A8 A9 : Vec Ideal S3x64x64 .bf16) (A10 : Vec Ideal S1x64 .f32)
    (p : Fin 4096) (r : Fin 32768) (o : Fin 64)
    (h0 : ∀ k, b0 (ix2 p k) = A0 (ix2 r k)) (h1 : ∀ k, b1 (ix2 p k) = A1 (ix2 r k)) (h2 : ∀ k, b2 (ix2 p k) = A2 (ix2 r k))
    (h3 : ∀ k, b3 (ix2 p k) = A3 (ix2 r k)) (h4 : ∀ k, b4 (ix2 p k) = A4 (ix2 r k)) (h5 : ∀ k, b5 (ix2 p k) = A5 (ix2 r k))
    (h6 : ∀ k, b6 (ix2 p k) = A6 (ix2 r k)) (h7 : ∀ k, b7 (ix2 p k) = A7 (ix2 r k)) :
    out12_12 (F := Ideal) b0 b1 b2 b3 b4 b5 b6 b7 A8 A9 A10 (ix2 p o) = cand A0 A1 A2 A3 A4 A5 A6 A7 A8 A9 A10 r o := by
  unfold out12_12
  rw [View.canon_unit_zero hz2]
  refine (pay3_apply12 _ _ _ _ _ _ p o).trans ?_
  exact body_row12 b0 b1 b2 b3 b4 b5 b6 b7 A0 A1 A2 A3 A4 A5 A6 A7 A8 A9 A10 p r o h0 h1 h2 h3 h4 h5 h6 h7

theorem out12_11_eq (b0 b1 b2 b3 b4 b5 : Vec Ideal S4096x64 .bf16) (b6 b7 : Vec Ideal S4096x64 .f32)
    (A8 A9 : Vec Ideal S3x64x64 .bf16) (A10 : Vec Ideal S1x64 .f32)
    (b : Fin 32) (q : Fin 128) (p : Fin 4096) (hp : p.val = q.val * 32 + b.val) (o : Fin 64) :
    out12_11 (F := Ideal) b0 b1 b2 b3 b4 b5 b6 b7 A8 A9 A10 (ix3 b q o)
      = out12_12 (F := Ideal) b0 b1 b2 b3 b4 b5 b6 b7 A8 A9 A10 (ix2 p o) := by
  unfold out12_11 out12_12
  rw [View.canon_unit_zero hz3, View.canon_unit_zero hz2]
  exact (pay2_apply12 _ _ _ _ _ _ b q o p hp).trans (pay3_apply12 _ _ _ _ _ _ p o).symm

def G12_12 (c : Dev nD) : Vec Ideal S32768x64 .bf16 := fun i =>
  cand (V c (Pipeline.arrRef spec12 0)) (V c (Pipeline.arrRef spec12 1)) (V c (Pipeline.arrRef spec12 2))
    (V c (Pipeline.arrRef spec12 3)) (V c (Pipeline.arrRef spec12 4)) (V c (Pipeline.arrRef spec12 5))
    (V c (Pipeline.arrRef spec12 6)) (V c (Pipeline.arrRef spec12 7)) (V c (Pipeline.arrRef spec12 8))
    (V c (Pipeline.arrRef spec12 9)) (V c (Pipeline.arrRef spec12 10)) (i 0) (i 1)

def G12_11 (c : Dev nD) : Vec Ideal S32x1024x64 .f32 := fun i =>
  cand (V c (Pipeline.arrRef spec12 0)) (V c (Pipeline.arrRef spec12 1)) (V c (Pipeline.arrRef spec12 2))
    (V c (Pipeline.arrRef spec12 3)) (V c (Pipeline.arrRef spec12 4)) (V c (Pipeline.arrRef spec12 5))
    (V c (Pipeline.arrRef spec12 6)) (V c (Pipeline.arrRef spec12 7)) (V c (Pipeline.arrRef spec12 8))
    (V c (Pipeline.arrRef spec12 9)) (V c (Pipeline.arrRef spec12 10)) (nb (i 1) (i 0)) (i 2)

theorem flushed12_12_eq (c : Dev nD) (t : Fin cfg12.N) :
    (dat12 (F := Ideal) V c).flushed 12 t = ((cfg12.win 12).blk t).view.read (Elt Ideal) (G12_12 V c) := by
  show (cfg12.win 12).cut (grid12.coords t) ((dat12 V c).after 12 t) = _
  rw [after12_12, blk12_8 V c t, blk12_9 V c t, blk12_10 V c t]
  have ht : t.val < 8 := lt_of_lt_of_eq t.isLt hN12
  funext j
  obtain ⟨p, o, rfl⟩ : ∃ (p : Fin 4096) (o : Fin 64), j = ix2 p o := ⟨j 0, j 1, eq_ix2 j⟩
  have hp : p.val < 4096 := p.isLt
  have hemb : ((cfg12.win 12).blk t).view.emb (ix2 p o) = (ix2 (⟨t.val * 4096 + p.val, by omega⟩ : Fin 32768) o : S32768x64.Idx) :=
    win12_12.emb_eq_of_two t _ _ (by decide) (idx12_12 t) rfl rfl
  show out12_12 (F := Ideal) (iblk12 V c 0 t) (iblk12 V c 1 t) (iblk12 V c 2 t) (iblk12 V c 3 t) (iblk12 V c 4 t) (iblk12 V c 5 t)
      (iblk12 V c 6 t) (iblk12 V c 7 t) (V c (Pipeline.arrRef spec12 8)) (V c (Pipeline.arrRef spec12 9)) (V c (Pipeline.arrRef spec12 10)) (ix2 p o)
    = G12_12 V c (((cfg12.win 12).blk t).view.emb (ix2 p o))
  rw [hemb]
  exact out12_12_row (iblk12 V c 0 t) (iblk12 V c 1 t) (iblk12 V c 2 t) (iblk12 V c 3 t) (iblk12 V c 4 t) (iblk12 V c 5 t)
    (iblk12 V c 6 t) (iblk12 V c 7 t) _ _ _ _ _ _ _ _ _ _ _ p ⟨t.val * 4096 + p.val, by omega⟩ o
    (blk12_0 V c t p _ rfl) (blk12_1 V c t p _ rfl) (blk12_2 V c t p _ rfl) (blk12_3 V c t p _ rfl)
    (blk12_4 V c t p _ rfl) (blk12_5 V c t p _ rfl) (blk12_6 V c t p _ rfl) (blk12_7 V c t p _ rfl)

theorem tiled12_12 (i : S32768x64.Idx) : ∃ t : Fin cfg12.N, (cfg12.win 12).flush t = true ∧ i ∈ ((cfg12.win 12).blk t).view.set := by
  have hi0 : (i 0).val < 32768 := (i 0).isLt
  have ht : (i 0).val / 4096 < cfg12.N := by rw [hN12]; omega
  refine ⟨⟨_, ht⟩, flush12_12 _, ?_⟩
  show i ∈ ((View.whole main_v66_1).slice (win12_12.rect ⟨_, ht⟩)).set
  rw [View.set_slice_whole, Rect.mem_set_unit]
  exact Fin.forall_fin_two.2 (Nat.mem_tile (by decide) (idx12_12 ⟨_, ht⟩).1 (idx12_12 ⟨_, ht⟩).2 (i 1).isLt)

theorem final12_12 (c : Dev nD) : (dat12 (F := Ideal) V c).arrAt 12 cfg12.N = G12_12 V c :=
  (dat12 V c).arrAt_eq_of_cover 12 (G12_12 V c) (fun t _ => flushed12_12_eq V c t) tiled12_12

theorem flushed12_11_eq (c : Dev nD) (t : Fin cfg12.N) :
    (dat12 (F := Ideal) V c).flushed 11 t = ((cfg12.win 11).blk t).view.read (Elt Ideal) (G12_11 V c) := by
  show (cfg12.win 11).cut (grid12.coords t) ((dat12 V c).after 11 t) = _
  rw [after12_11, blk12_8 V c t, blk12_9 V c t, blk12_10 V c t]
  have ht : t.val < 8 := lt_of_lt_of_eq t.isLt hN12
  funext j
  obtain ⟨b, q, o, rfl⟩ : ∃ (b : Fin 32) (q : Fin 128) (o : Fin 64), j = ix3 b q o := ⟨j 0, j 1, j 2, eq_ix3 j⟩
  have hb : b.val < 32 := b.isLt
  have hq : q.val < 128 := q.isLt
  have hemb : ((cfg12.win 11).blk t).view.emb (ix3 b q o) = (ix3 b (⟨t.val * 128 + q.val, by omega⟩ : Fin 1024) o : S32x1024x64.Idx) :=
    emb_eq_mid win12_11 t _ _ (by decide) (idx12_11 t) rfl rfl rfl
  show out12_11 (F := Ideal) (iblk12 V c 0 t) (iblk12 V c 1 t) (iblk12 V c 2 t) (iblk12 V c 3 t) (iblk12 V c 4 t) (iblk12 V c 5 t)
      (iblk12 V c 6 t) (iblk12 V c 7 t) (V c (Pipeline.arrRef spec12 8)) (V c (Pipeline.arrRef spec12 9)) (V c (Pipeline.arrRef spec12 10)) (ix3 b q o)
    = G12_11 V c (((cfg12.win 11).blk t).view.emb (ix3 b q o))
  rw [hemb]
  have hr : (nb (⟨t.val * 128 + q.val, by omega⟩ : Fin 1024) b).val = t.val * 4096 + (q.val * 32 + b.val) := by
    show (t.val * 128 + q.val) * 32 + b.val = _; omega
  refine (out12_11_eq _ _ _ _ _ _ _ _ _ _ _ b q ⟨q.val * 32 + b.val, by omega⟩ rfl o).trans ?_
  exact out12_12_row (iblk12 V c 0 t) (iblk12 V c 1 t) (iblk12 V c 2 t) (iblk12 V c 3 t) (iblk12 V c 4 t) (iblk12 V c 5 t) (iblk12 V c 6 t) (iblk12 V c 7 t)
    _ _ _ _ _ _ _ _ _ _ _ ⟨q.val * 32 + b.val, by omega⟩ (nb (⟨t.val * 128 + q.val, by omega⟩ : Fin 1024) b) o
    (blk12_0 V c t _ _ hr) (blk12_1 V c t _ _ hr) (blk12_2 V c t _ _ hr) (blk12_3 V c t _ _ hr)
    (blk12_4 V c t _ _ hr) (blk12_5 V c t _ _ hr) (blk12_6 V c t _ _ hr) (blk12_7 V c t _ _ hr)

theorem tiled12_11 (i : S32x1024x64.Idx) : ∃ t : Fin cfg12.N, (cfg12.win 11).flush t = true ∧ i ∈ ((cfg12.win 11).blk t).view.set := by
  have hi1 : (i 1).val < 1024 := (i 1).isLt
  have ht : (i 1).val / 128 < cfg12.N := by rw [hN12]; omega
  refine ⟨⟨_, ht⟩, flush12_11 _, ?_⟩
  show i ∈ ((View.whole main_v66_0).slice (win12_11.rect ⟨_, ht⟩)).set
  rw [View.set_slice_whole, Rect.mem_set_unit]
  have h := mem_tile_mid (by decide) (idx12_11 ⟨_, ht⟩).1 (idx12_11 ⟨_, ht⟩).2.1 (idx12_11 ⟨_, ht⟩).2.2 (i 0).isLt (i 2).isLt
  intro a
  match a with
  | ⟨0, _⟩ => exact h.1
  | ⟨1, _⟩ => exact h.2.1
  | ⟨2, _⟩ => exact h.2.2

theorem final12_11 (c : Dev nD) : (dat12 (F := Ideal) V c).arrAt 11 cfg12.N = G12_11 V c :=
  (dat12 V c).arrAt_eq_of_cover 11 (G12_11 V c) (fun t _ => flushed12_11_eq V c t) tiled12_11

set_option maxHeartbeats 1600000 in
theorem region12 (c : Dev nD) (x0 x1 x2 : T 64) (s0 s1 s2 u hf : T 64)
    (W : Fin ((64 + 64) * 3) → Fin 64 → EReal) (bias : Fin 64 → EReal)
    (e0 : ∀ n b c', (V c (Pipeline.arrRef spec12 0) : Vec Ideal S32768x64 .bf16) (ix2 (nb n b) c') = x0 n b c')
    (e1 : ∀ n b c', (V c (Pipeline.arrRef spec12 1) : Vec Ideal S32768x64 .bf16) (ix2 (nb n b) c') = x1 n b c')
    (e2 : ∀ n b c', (V c (Pipeline.arrRef spec12 2) : Vec Ideal S32768x64 .bf16) (ix2 (nb n b) c') = x2 n b c')
    (e3 : ∀ n b j, (V c (Pipeline.arrRef spec12 3) : Vec Ideal S32768x64 .bf16) (ix2 (nb n b) j) = s0 n b j)
    (e4 : ∀ n b j, (V c (Pipeline.arrRef spec12 4) : Vec Ideal S32768x64 .bf16) (ix2 (nb n b) j) = s1 n b j)
    (e5 : ∀ n b j, (V c (Pipeline.arrRef spec12 5) : Vec Ideal S32768x64 .bf16) (ix2 (nb n b) j) = s2 n b j)
    (e6 : ∀ n b j, (V c (Pipeline.arrRef spec12 6) : Vec Ideal S32768x64 .f32) (ix2 (nb n b) j) = u n b j)
    (e7 : ∀ n b j, (V c (Pipeline.arrRef spec12 7) : Vec Ideal S32768x64 .f32) (ix2 (nb n b) j) = hf n b j)
    (e8 : ∀ (k : Fin 3) (c' : Fin 64) (o : Fin 64), (V c (Pipeline.arrRef spec12 8) : Vec Ideal S3x64x64 .bf16) (ix3 k c' o) = W (wrow (Fin.castAdd 64 c') k) o)
    (e9 : ∀ (k : Fin 3) (j : Fin 64) (o : Fin 64), (V c (Pipeline.arrRef spec12 9) : Vec Ideal S3x64x64 .bf16) (ix3 k j o) = W (wrow (Fin.natAdd 64 j) k) o)
    (e10 : ∀ o : Fin 64, (V c (Pipeline.arrRef spec12 10) : Vec Ideal S1x64 .f32) (ix2 (0 : Fin 1) o) = bias o) :
    (∀ n b (j : Fin 64), ((dat12 (F := Ideal) V c).arrAt 11 cfg12.N : Vec Ideal S32x1024x64 .f32) (ix3 b n j)
        = u n b j * hf n b j + (one - u n b j) * Ideal.tanh (pre6 (cin := 64) (O := 64) x0 x1 x2 s0 s1 s2 W bias n b j))
    ∧ (∀ n b (j : Fin 64), ((dat12 (F := Ideal) V c).arrAt 12 cfg12.N : Vec Ideal S32768x64 .bf16) (ix2 (nb n b) j)
        = u n b j * hf n b j + (one - u n b j) * Ideal.tanh (pre6 (cin := 64) (O := 64) x0 x1 x2 s0 s1 s2 W bias n b j)) := by
  refine ⟨fun n b j => ?_, fun n b j => ?_⟩
  · rw [final12_11 V c]
    exact cand_rows _ _ _ _ _ _ _ _ _ _ _ x0 x1 x2 s0 s1 s2 u hf W bias e0 e1 e2 e3 e4 e5 e6 e7 e8 e9 e10 n b j
  · rw [final12_12 V c]
    exact cand_rows _ _ _ _ _ _ _ _ _ _ _ x0 x1 x2 s0 s1 s2 u hf W bias e0 e1 e2 e3 e4 e5 e6 e7 e8 e9 e10 n b j

end Cert.KernelIdeal.KCand

end
-- ==== Proof.KStage3.lean ====
import proofs.«162824_g19885698580639_cont_8to1_2033_9_alg».proof.Proof.Gen.KernelIdeal.Frame
import proofs.«162824_g19885698580639_cont_8to1_2033_9_alg».proof.Proof.Spec
import proofs.«162824_g19885698580639_cont_8to1_2033_9_alg».proof.Proof.KArgs
import proofs.«162824_g19885698580639_cont_8to1_2033_9_alg».proof.Proof.KCarry
import proofs.«162824_g19885698580639_cont_8to1_2033_9_alg».proof.Proof.KStage0
import proofs.«162824_g19885698580639_cont_8to1_2033_9_alg».proof.Proof.KStage2
import proofs.«162824_g19885698580639_cont_8to1_2033_9_alg».proof.Proof.KCand
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.KStage3

open Cert.KernelIdeal Cert.KernelIdeal.Gen Cert.KernelIdeal.KA Cert.KernelIdeal.Carry Cert.Spec
open Idealize.ShloMosaic Idealize.ShloMosaic.TcCoe Idealize.ShloMosaic.ValueIdx Idealize.SL.Sem

variable (m : (ℓ : Loc nD τ sig) → Buf (Elt Ideal) ℓ) (ρ : Dev nD → PrngReg)

theorem r6 (c : Dev nD) :
    (∀ n b (j : Fin 64), ((dat6 (F := Ideal) (V11 m ρ) c).arrAt 11 cfg6.N : Vec Ideal S32x1024x64 .f32) (ix3 b n j) = ky m c n b j)
    ∧ (∀ n b (j : Fin 64), ((dat6 (F := Ideal) (V11 m ρ) c).arrAt 12 cfg6.N : Vec Ideal S32768x64 .bf16) (ix2 (nb n b) j) = ky m c n b j) :=
  KCand.region6 (V11 m ρ) c (kx m c) (D1 (kA m c) (kx m c)) (D2 (kA m c) (kx m c))
    (ks0 m c) (D1 (kA m c) (ks0 m c)) (D2 (kA m c) (ks0 m c)) (ku0 m c) (kh0 m c) (kargs m c).wc0 (kargs m c).bc0
    (fun n b q => by
      show (W11 m ρ c (Proc.devRef .tc main_v8_0) : Vec Ideal S32768x2 .bf16) (ix2 (nb n b) q) = _
      rw [at_v8_0_11]; exact KStage0.f_v8_0 m ρ c n b q)
    (fun n b q => KStage2.f_v45 m ρ c n b q)
    (fun n b q => KStage2.f_v46 m ρ c n b q)
    (fun n b q => by
      show (W11 m ρ c (Proc.devRef .tc main_v41_0) : Vec Ideal S32768x64 .bf16) (ix2 (nb n b) q) = _
      rw [at_v41_0_11]; exact KStage2.f_v41_0 m ρ c n b q)
    (fun n b q => KStage2.f_v47 m ρ c n b q)
    (fun n b q => KStage2.f_v48 m ρ c n b q)
    (fun n b q => by
      show (W11 m ρ c (Proc.devRef .tc main_v41_1) : Vec Ideal S32768x64 .f32) (ix2 (nb n b) q) = _
      rw [at_v41_1_11]; exact KStage2.f_v41_1 m ρ c n b q)
    (fun n b q => by
      show (W11 m ρ c (Proc.devRef .tc main_v8_2) : Vec Ideal S32768x64 .f32) (ix2 (nb n b) q) = _
      rw [at_v8_2_11]; exact KStage0.f_v8_2 m ρ c n b q)
    (fun k c' o => by
      show (W11 m ρ c (Proc.devRef .tc main_v17) : Vec Ideal S3x2x64 .bf16) (ix3 k c' o) = _
      rw [at_v17_11]; exact KStage0.f_v17 m ρ c k c' o)
    (fun k j o => by
      show (W11 m ρ c (Proc.devRef .tc main_v18) : Vec Ideal S3x64x64 .bf16) (ix3 k j o) = _
      rw [at_v18_11]; exact KStage0.f_v18 m ρ c k j o)
    (fun o => by
      show (W11 m ρ c (Proc.devRef .tc main_v30) : Vec Ideal S1x64 .f32) (ix2 (0 : Fin 1) o) = _
      rw [at_v30_11]; exact KStage0.f_v30 m ρ c o)

theorem f_v49_0 (c : Dev nD) : ∀ (b : Fin 32) (n : Fin 1024) (q : Fin 64), (W12 m ρ c (Proc.devRef .tc main_v49_0) : Vec Ideal S32x1024x64 .f32) (ix3 b n q) = ky m c n b q := by
  intro b n q
  show (W12 m ρ c (Proc.devRef .tc (Pipeline.arrRef spec6 11)) : Vec Ideal S32x1024x64 .f32) (ix3 b n q) = _
  rw [W12_arr]
  exact (r6 m ρ c).1 n b q

theorem f_v49_1 (c : Dev nD) : ∀ (n : Fin 1024) (b : Fin 32) (q : Fin 64), (W12 m ρ c (Proc.devRef .tc main_v49_1) : Vec Ideal S32768x64 .bf16) (ix2 (nb n b) q) = ky m c n b q := by
  intro n b q
  show (W12 m ρ c (Proc.devRef .tc (Pipeline.arrRef spec6 12)) : Vec Ideal S32768x64 .bf16) (ix2 (nb n b) q) = _
  rw [W12_arr]
  exact (r6 m ρ c).2 n b q

theorem view_nb_bc (x : Vec Ideal S32768x64 .bf16) (n : Fin 1024) (b : Fin 32) (q : Fin 64) :
    shapeCast S1024x2048 x shapeCasts_S32768x64_S1024x2048 (ix2 n (bc b q)) = x (ix2 (nb n b) q) :=
  shapeCast_apply _ _ (ix2 n (bc b q)) (ix2 (nb n b) q) (by
    rw [Shape.rowMajor_val_two, Shape.rowMajor_val_two]
    show (n.val * 32 + b.val) * 64 + q.val = n.val * 2048 + (b.val * 64 + q.val)
    omega)

theorem f_v50 (c : Dev nD) : ∀ (n : Fin 1024) (b : Fin 32) (q : Fin 64), (W13 m ρ c (Proc.devRef .tc main_v50) : Vec Ideal S1024x2048 .bf16) (ix2 n (bc b q)) = ky m c n b q := by
  intro n b q
  have e : (W13 m ρ c (Proc.devRef .tc main_v50) : Vec Ideal S1024x2048 .bf16)
      = shapeCast S1024x2048 (W12 m ρ c (Proc.devRef .tc main_v49_1) : Vec Ideal S32768x64 .bf16) shapeCasts_S32768x64_S1024x2048 := by
    show StableHlo.after hostOps7 (W12 m ρ c) (Proc.devRef .tc main_v50) = _
    after_results
    rfl
  rw [e, view_nb_bc]
  exact f_v49_1 m ρ c n b q

theorem f_v51 (c : Dev nD) : ∀ (n : Fin 1024) (b : Fin 32) (q : Fin 64), (W13 m ρ c (Proc.devRef .tc main_v51) : Vec Ideal S1024x2048 .bf16) (ix2 n (bc b q)) = kh1 m c n b q := by
  intro n b q
  have e : (W13 m ρ c (Proc.devRef .tc main_v51) : Vec Ideal S1024x2048 .bf16)
      = shapeCast S1024x2048 (W12 m ρ c (Proc.devRef .tc main_v8_3) : Vec Ideal S32768x64 .bf16) shapeCasts_S32768x64_S1024x2048 := by
    show StableHlo.after hostOps7 (W12 m ρ c) (Proc.devRef .tc main_v51) = _
    after_results
    rfl
  rw [e, view_nb_bc, at_v8_3_12]
  exact KStage0.f_v8_3 m ρ c n b q

end Cert.KernelIdeal.KStage3

end
-- ==== Proof.KStage4.lean ====
import proofs.«162824_g19885698580639_cont_8to1_2033_9_alg».proof.Proof.Gen.KernelIdeal.Frame
import proofs.«162824_g19885698580639_cont_8to1_2033_9_alg».proof.Proof.Spec
import proofs.«162824_g19885698580639_cont_8to1_2033_9_alg».proof.Proof.KArgs
import proofs.«162824_g19885698580639_cont_8to1_2033_9_alg».proof.Proof.KCarry
import proofs.«162824_g19885698580639_cont_8to1_2033_9_alg».proof.Proof.KStage0
import proofs.«162824_g19885698580639_cont_8to1_2033_9_alg».proof.Proof.KStage3
import proofs.«162824_g19885698580639_cont_8to1_2033_9_alg».proof.Proof.KDiff1
import proofs.«162824_g19885698580639_cont_8to1_2033_9_alg».proof.Proof.KDiff2
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.KStage4

open Cert.KernelIdeal Cert.KernelIdeal.Gen Cert.KernelIdeal.KA Cert.KernelIdeal.Carry Cert.Spec
open Idealize.ShloMosaic Idealize.ShloMosaic.TcCoe Idealize.ShloMosaic.ValueIdx Idealize.SL.Sem

variable (m : (ℓ : Loc nD τ sig) → Buf (Elt Ideal) ℓ) (ρ : Dev nD → PrngReg)

theorem relay64 {α : Type} (x : S1024x2048.Idx → α) (h : S1024x2048.ShapeCasts S32768x64) (n : Fin 1024) (b : Fin 32) (q : Fin 64) :
    shapeCast S32768x64 x h (ix2 (nb n b) q) = x (ix2 n (bc b q)) :=
  shapeCast_apply x h _ _ (by
    rw [Shape.rowMajor_val_two, Shape.rowMajor_val_two]
    show n.val * 2048 + (b.val * 64 + q.val) = (n.val * 32 + b.val) * 64 + q.val
    omega)

theorem reg7 (c : Dev nD) :
    (∀ n b c', ((dat7 (F := Ideal) (V13 m ρ) c).arrAt 3 cfg7.N : Vec Ideal S1024x2048 .bf16) (ix2 n (bc b c')) = D1 (kA m c) (ky m c) n b c')
    ∧ (∀ n b j, ((dat7 (F := Ideal) (V13 m ρ) c).arrAt 4 cfg7.N : Vec Ideal S1024x2048 .bf16) (ix2 n (bc b j)) = D1 (kA m c) (kh1 m c) n b j) :=
  KDiff1.region7 (V13 m ρ) c (kA m c) (ky m c) (kh1 m c)
    (fun n k => by
      show (W13 m ρ c (Proc.devRef .tc main_v0) : Vec Ideal S1024x1024 .bf16) (ix2 n k) = _
      rw [at_v0_13 m ρ c]; exact KStage0.f_v0 m ρ c n k)
    (fun n b c' => KStage3.f_v50 m ρ c n b c')
    (fun n b j => KStage3.f_v51 m ρ c n b j)

theorem f_v52_0 (c : Dev nD) : ∀ (n : Fin 1024) (b : Fin 32) (q : Fin 64), (W14 m ρ c (Proc.devRef .tc main_v52_0) : Vec Ideal S1024x2048 .bf16) (ix2 n (bc b q)) = D1 (kA m c) (ky m c) n b q := by
  intro n b q
  exact (congrFun (W14_arr m ρ c 3) _).trans ((reg7 m ρ c).1 n b q)

theorem f_v52_1 (c : Dev nD) : ∀ (n : Fin 1024) (b : Fin 32) (q : Fin 64), (W14 m ρ c (Proc.devRef .tc main_v52_1) : Vec Ideal S1024x2048 .bf16) (ix2 n (bc b q)) = D1 (kA m c) (kh1 m c) n b q := by
  intro n b q
  exact (congrFun (W14_arr m ρ c 4) _).trans ((reg7 m ρ c).2 n b q)

theorem reg8 (c : Dev nD) :
    (∀ n b c', ((dat8 (F := Ideal) (V14 m ρ) c).arrAt 5 cfg8.N : Vec Ideal S1024x2048 .bf16) (ix2 n (bc b c')) = D2 (kA m c) (ky m c) n b c')
    ∧ (∀ n b j, ((dat8 (F := Ideal) (V14 m ρ) c).arrAt 6 cfg8.N : Vec Ideal S1024x2048 .bf16) (ix2 n (bc b j)) = D2 (kA m c) (kh1 m c) n b j) :=
  KDiff2.region8 (V14 m ρ) c (kA m c) (ky m c) (D1 (kA m c) (ky m c)) (kh1 m c) (D1 (kA m c) (kh1 m c))
    (fun n k => by
      show (W14 m ρ c (Proc.devRef .tc main_v0) : Vec Ideal S1024x1024 .bf16) (ix2 n k) = _
      rw [at_v0_14 m ρ c]; exact KStage0.f_v0 m ρ c n k)
    (fun n b c' => by
      show (W14 m ρ c (Proc.devRef .tc main_v50) : Vec Ideal S1024x2048 .bf16) (ix2 n (bc b c')) = _
      rw [at_v50_14 m ρ c]; exact KStage3.f_v50 m ρ c n b c')
    (fun n b c' => f_v52_0 m ρ c n b c')
    (fun n b j => by
      show (W14 m ρ c (Proc.devRef .tc main_v51) : Vec Ideal S1024x2048 .bf16) (ix2 n (bc b j)) = _
      rw [at_v51_14 m ρ c]; exact KStage3.f_v51 m ρ c n b j)
    (fun n b j => f_v52_1 m ρ c n b j)

theorem f_v53_0 (c : Dev nD) : ∀ (n : Fin 1024) (b : Fin 32) (q : Fin 64), (W15 m ρ c (Proc.devRef .tc main_v53_0) : Vec Ideal S1024x2048 .bf16) (ix2 n (bc b q)) = D2 (kA m c) (ky m c) n b q := by
  intro n b q
  exact (congrFun (W15_arr m ρ c 5) _).trans ((reg8 m ρ c).1 n b q)

theorem f_v53_1 (c : Dev nD) : ∀ (n : Fin 1024) (b : Fin 32) (q : Fin 64), (W15 m ρ c (Proc.devRef .tc main_v53_1) : Vec Ideal S1024x2048 .bf16) (ix2 n (bc b q)) = D2 (kA m c) (kh1 m c) n b q := by
  intro n b q
  exact (congrFun (W15_arr m ρ c 6) _).trans ((reg8 m ρ c).2 n b q)

theorem f_v54 (c : Dev nD) : ∀ (n : Fin 1024) (b : Fin 32) (q : Fin 64), (W16 m ρ c (Proc.devRef .tc main_v54) : Vec Ideal S32768x64 .bf16) (ix2 (nb n b) q) = D1 (kA m c) (ky m c) n b q := by
  intro n b q
  show StableHlo.after hostOps9 (W15 m ρ c) (Proc.devRef .tc main_v54) (ix2 (nb n b) q) = _
  after_results
  show shapeCast S32768x64 (W15 m ρ c (Proc.devRef .tc main_v52_0) : Vec Ideal S1024x2048 .bf16) shapeCasts_S1024x2048_S32768x64 (ix2 (nb n b) q) = _
  rw [relay64, at_v52_0_15 m ρ c]
  exact f_v52_0 m ρ c n b q

theorem f_v55 (c : Dev nD) : ∀ (n : Fin 1024) (b : Fin 32) (q : Fin 64), (W16 m ρ c (Proc.devRef .tc main_v55) : Vec Ideal S32768x64 .bf16) (ix2 (nb n b) q) = D2 (kA m c) (ky m c) n b q := by
  intro n b q
  show StableHlo.after hostOps9 (W15 m ρ c) (Proc.devRef .tc main_v55) (ix2 (nb n b) q) = _
  after_results
  show shapeCast S32768x64 (W15 m ρ c (Proc.devRef .tc main_v53_0) : Vec Ideal S1024x2048 .bf16) shapeCasts_S1024x2048_S32768x64 (ix2 (nb n b) q) = _
  rw [relay64]
  exact f_v53_0 m ρ c n b q

theorem f_v56 (c : Dev nD) : ∀ (n : Fin 1024) (b : Fin 32) (q : Fin 64), (W16 m ρ c (Proc.devRef .tc main_v56) : Vec Ideal S32768x64 .bf16) (ix2 (nb n b) q) = D1 (kA m c) (kh1 m c) n b q := by
  intro n b q
  show StableHlo.after hostOps9 (W15 m ρ c) (Proc.devRef .tc main_v56) (ix2 (nb n b) q) = _
  after_results
  show shapeCast S32768x64 (W15 m ρ c (Proc.devRef .tc main_v52_1) : Vec Ideal S1024x2048 .bf16) shapeCasts_S1024x2048_S32768x64 (ix2 (nb n b) q) = _
  rw [relay64, at_v52_1_15 m ρ c]
  exact f_v52_1 m ρ c n b q

theorem f_v57 (c : Dev nD) : ∀ (n : Fin 1024) (b : Fin 32) (q : Fin 64), (W16 m ρ c (Proc.devRef .tc main_v57) : Vec Ideal S32768x64 .bf16) (ix2 (nb n b) q) = D2 (kA m c) (kh1 m c) n b q := by
  intro n b q
  show StableHlo.after hostOps9 (W15 m ρ c) (Proc.devRef .tc main_v57) (ix2 (nb n b) q) = _
  after_results
  show shapeCast S32768x64 (W15 m ρ c (Proc.devRef .tc main_v53_1) : Vec Ideal S1024x2048 .bf16) shapeCasts_S1024x2048_S32768x64 (ix2 (nb n b) q) = _
  rw [relay64]
  exact f_v53_1 m ρ c n b q

end Cert.KernelIdeal.KStage4

end
-- ==== Proof.KStage5.lean ====
import proofs.«162824_g19885698580639_cont_8to1_2033_9_alg».proof.Proof.Gen.KernelIdeal.Frame
import proofs.«162824_g19885698580639_cont_8to1_2033_9_alg».proof.Proof.Spec
import proofs.«162824_g19885698580639_cont_8to1_2033_9_alg».proof.Proof.KArgs
import proofs.«162824_g19885698580639_cont_8to1_2033_9_alg».proof.Proof.KCarry
import proofs.«162824_g19885698580639_cont_8to1_2033_9_alg».proof.Proof.KStage0
import proofs.«162824_g19885698580639_cont_8to1_2033_9_alg».proof.Proof.KStage3
import proofs.«162824_g19885698580639_cont_8to1_2033_9_alg».proof.Proof.KStage4
import proofs.«162824_g19885698580639_cont_8to1_2033_9_alg».proof.Proof.KGate
import proofs.«162824_g19885698580639_cont_8to1_2033_9_alg».proof.Proof.KDiff1
import proofs.«162824_g19885698580639_cont_8to1_2033_9_alg».proof.Proof.KDiff2
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.KStage5

open Cert.KernelIdeal Cert.KernelIdeal.Gen Cert.KernelIdeal.KA Cert.KernelIdeal.Carry Cert.Spec
open Idealize.ShloMosaic Idealize.ShloMosaic.TcCoe Idealize.ShloMosaic.ValueIdx Idealize.SL.Sem

variable (m : (ℓ : Loc nD τ sig) → Buf (Elt Ideal) ℓ) (ρ : Dev nD → PrngReg)

section Layout
variable {α : Type}

theorem cast_rows64_apply (x : S32768x64.Idx → α) (h : S32768x64.ShapeCasts S1024x2048)
    (n : Fin 1024) (b : Fin 32) (q : Fin 64) :
    shapeCast S1024x2048 x h (ix2 n (bc b q)) = x (ix2 (nb n b) q) :=
  shapeCast_apply x h _ _ (by
    rw [Shape.rowMajor_val_two, Shape.rowMajor_val_two]
    show (n.val * 32 + b.val) * 64 + q.val = n.val * 2048 + (b.val * 64 + q.val)
    omega)

theorem cast_nodes64_apply (x : S1024x2048.Idx → α) (h : S1024x2048.ShapeCasts S32768x64)
    (n : Fin 1024) (b : Fin 32) (q : Fin 64) :
    shapeCast S32768x64 x h (ix2 (nb n b) q) = x (ix2 n (bc b q)) :=
  shapeCast_apply x h _ _ (by
    rw [Shape.rowMajor_val_two, Shape.rowMajor_val_two]
    show n.val * 2048 + (b.val * 64 + q.val) = (n.val * 32 + b.val) * 64 + q.val
    omega)

end Layout

theorem gate1 (c : Dev nD) :
    (∀ n b (j : Fin 64), ((dat9 (F := Ideal) (V16 m ρ) c).arrAt 10 cfg9.N : Vec Ideal S32768x64 .bf16) (ix2 (nb n b) j)
        = ks1 m c n b j)
    ∧ (∀ n b (j : Fin 64), ((dat9 (F := Ideal) (V16 m ρ) c).arrAt 11 cfg9.N : Vec Ideal S32768x64 .f32) (ix2 (nb n b) j)
        = ku1 m c n b j) := by
  have e0 : ∀ n b c', (V16 m ρ c (Pipeline.arrRef spec9 0) : Vec Ideal S32768x64 .bf16) (ix2 (nb n b) c') = ky m c n b c' := by
    intro n b c'
    show (W16 m ρ c (Proc.devRef .tc main_v49_1) : Vec Ideal S32768x64 .bf16) (ix2 (nb n b) c') = _
    rw [at_v49_1_16 m ρ c]
    exact KStage3.f_v49_1 m ρ c n b c'
  have e1 : ∀ n b c', (V16 m ρ c (Pipeline.arrRef spec9 1) : Vec Ideal S32768x64 .bf16) (ix2 (nb n b) c') = D1 (kA m c) (ky m c) n b c' :=
    fun n b c' => KStage4.f_v54 m ρ c n b c'
  have e2 : ∀ n b c', (V16 m ρ c (Pipeline.arrRef spec9 2) : Vec Ideal S32768x64 .bf16) (ix2 (nb n b) c') = D2 (kA m c) (ky m c) n b c' :=
    fun n b c' => KStage4.f_v55 m ρ c n b c'
  have e3 : ∀ n b j, (V16 m ρ c (Pipeline.arrRef spec9 3) : Vec Ideal S32768x64 .bf16) (ix2 (nb n b) j) = kh1 m c n b j := by
    intro n b j
    show (W16 m ρ c (Proc.devRef .tc main_v8_3) : Vec Ideal S32768x64 .bf16) (ix2 (nb n b) j) = _
    rw [at_v8_3_16 m ρ c]
    exact KStage0.f_v8_3 m ρ c n b j
  have e4 : ∀ n b j, (V16 m ρ c (Pipeline.arrRef spec9 4) : Vec Ideal S32768x64 .bf16) (ix2 (nb n b) j) = D1 (kA m c) (kh1 m c) n b j :=
    fun n b j => KStage4.f_v56 m ρ c n b j
  have e5 : ∀ n b j, (V16 m ρ c (Pipeline.arrRef spec9 5) : Vec Ideal S32768x64 .bf16) (ix2 (nb n b) j) = D2 (kA m c) (kh1 m c) n b j :=
    fun n b j => KStage4.f_v57 m ρ c n b j
  have e6 : ∀ n b j, (V16 m ρ c (Pipeline.arrRef spec9 6) : Vec Ideal S32768x64 .f32) (ix2 (nb n b) j) = kh1 m c n b j := by
    intro n b j
    show (W16 m ρ c (Proc.devRef .tc main_v8_4) : Vec Ideal S32768x64 .f32) (ix2 (nb n b) j) = _
    rw [at_v8_4_16 m ρ c]
    exact KStage0.f_v8_4 m ρ c n b j
  have e7 : ∀ (k : Fin 3) (c' : Fin 64) (o : Fin 128), (V16 m ρ c (Pipeline.arrRef spec9 7) : Vec Ideal S3x64x128 .bf16) (ix3 k c' o)
      = (kargs m c).wg1 (wrow (Fin.castAdd 64 c') k) o := by
    intro k c' o
    show (W16 m ρ c (Proc.devRef .tc main_v22) : Vec Ideal S3x64x128 .bf16) (ix3 k c' o) = _
    rw [at_v22_16 m ρ c]
    exact KStage0.f_v22 m ρ c k c' o
  have e8 : ∀ (k : Fin 3) (j : Fin 64) (o : Fin 128), (V16 m ρ c (Pipeline.arrRef spec9 8) : Vec Ideal S3x64x128 .bf16) (ix3 k j o)
      = (kargs m c).wg1 (wrow (Fin.natAdd 64 j) k) o := by
    intro k j o
    show (W16 m ρ c (Proc.devRef .tc main_v23) : Vec Ideal S3x64x128 .bf16) (ix3 k j o) = _
    rw [at_v23_16 m ρ c]
    exact KStage0.f_v23 m ρ c k j o
  have e9 : ∀ o : Fin 128, (V16 m ρ c (Pipeline.arrRef spec9 9) : Vec Ideal S1x128 .f32) (ix2 (0 : Fin 1) o) = (kargs m c).bg1 o := by
    intro o
    show (W16 m ρ c (Proc.devRef .tc main_v31) : Vec Ideal S1x128 .f32) (ix2 (0 : Fin 1) o) = _
    rw [at_v31_16 m ρ c]
    exact KStage0.f_v31 m ρ c o
  exact KGate.region9 (V16 m ρ) c (ky m c) (D1 (kA m c) (ky m c)) (D2 (kA m c) (ky m c))
    (kh1 m c) (D1 (kA m c) (kh1 m c)) (D2 (kA m c) (kh1 m c)) (kh1 m c) (kargs m c).wg1 (kargs m c).bg1
    e0 e1 e2 e3 e4 e5 e6 e7 e8 e9

theorem f_v58_0 (c : Dev nD) : ∀ (n : Fin 1024) (b : Fin 32) (q : Fin 64), (W17 m ρ c (Proc.devRef .tc main_v58_0) : Vec Ideal S32768x64 .bf16) (ix2 (nb n b) q) = ks1 m c n b q := by
  intro n b q
  show (W17 m ρ c (Proc.devRef .tc (Pipeline.arrRef spec9 10)) : Vec Ideal S32768x64 .bf16) (ix2 (nb n b) q) = _
  rw [W17_arr m ρ c 10]
  exact (gate1 m ρ c).1 n b q

theorem f_v58_1 (c : Dev nD) : ∀ (n : Fin 1024) (b : Fin 32) (q : Fin 64), (W17 m ρ c (Proc.devRef .tc main_v58_1) : Vec Ideal S32768x64 .f32) (ix2 (nb n b) q) = ku1 m c n b q := by
  intro n b q
  show (W17 m ρ c (Proc.devRef .tc (Pipeline.arrRef spec9 11)) : Vec Ideal S32768x64 .f32) (ix2 (nb n b) q) = _
  rw [W17_arr m ρ c 11]
  exact (gate1 m ρ c).2 n b q

theorem f_v59 (c : Dev nD) : ∀ (n : Fin 1024) (b : Fin 32) (q : Fin 64), (W18 m ρ c (Proc.devRef .tc main_v59) : Vec Ideal S1024x2048 .bf16) (ix2 n (bc b q)) = ks1 m c n b q := by
  intro n b q
  show StableHlo.after hostOps10 (W17 m ρ c) (Proc.devRef .tc main_v59) _ = _
  after_results
  show shapeCast S1024x2048 (W17 m ρ c (Proc.devRef .tc main_v58_0) : Vec Ideal S32768x64 .bf16) shapeCasts_S32768x64_S1024x2048 (ix2 n (bc b q)) = _
  rw [cast_rows64_apply]
  exact f_v58_0 m ρ c n b q

theorem adj18 (c : Dev nD) : ∀ n k, (V18 m ρ c (Pipeline.arrRef spec10 0) : Vec Ideal S1024x1024 .bf16) (ix2 n k) = kA m c n k := by
  intro n k
  show (W18 m ρ c (Proc.devRef .tc main_v0) : Vec Ideal S1024x1024 .bf16) (ix2 n k) = _
  rw [at_v0_18 m ρ c]
  exact KStage0.f_v0 m ρ c n k

theorem adj19 (c : Dev nD) : ∀ n k, (V19 m ρ c (Pipeline.arrRef spec11 0) : Vec Ideal S1024x1024 .bf16) (ix2 n k) = kA m c n k := by
  intro n k
  show (W19 m ρ c (Proc.devRef .tc main_v0) : Vec Ideal S1024x1024 .bf16) (ix2 n k) = _
  rw [at_v0_19 m ρ c]
  exact KStage0.f_v0 m ρ c n k

theorem f_v60 (c : Dev nD) : ∀ (n : Fin 1024) (b : Fin 32) (q : Fin 64), (W19 m ρ c (Proc.devRef .tc main_v60) : Vec Ideal S1024x2048 .bf16) (ix2 n (bc b q)) = D1 (kA m c) (ks1 m c) n b q := by
  intro n b q
  show (W19 m ρ c (Proc.devRef .tc (Pipeline.arrRef spec10 2)) : Vec Ideal S1024x2048 .bf16) (ix2 n (bc b q)) = _
  rw [W19_arr m ρ c 2]
  exact KDiff1.region10 (V18 m ρ) c (kA m c) (ks1 m c) (adj18 m ρ c) (fun n b j => f_v59 m ρ c n b j) n b q

theorem f_v61 (c : Dev nD) : ∀ (n : Fin 1024) (b : Fin 32) (q : Fin 64), (W20 m ρ c (Proc.devRef .tc main_v61) : Vec Ideal S1024x2048 .bf16) (ix2 n (bc b q)) = D2 (kA m c) (ks1 m c) n b q := by
  intro n b q
  have eS0 : ∀ n b j, (V19 m ρ c (Pipeline.arrRef spec11 1) : Vec Ideal S1024x2048 .bf16) (ix2 n (bc b j)) = ks1 m c n b j := by
    intro n b j
    show (W19 m ρ c (Proc.devRef .tc main_v59) : Vec Ideal S1024x2048 .bf16) (ix2 n (bc b j)) = _
    rw [at_v59_19 m ρ c]
    exact f_v59 m ρ c n b j
  show (W20 m ρ c (Proc.devRef .tc (Pipeline.arrRef spec11 3)) : Vec Ideal S1024x2048 .bf16) (ix2 n (bc b q)) = _
  rw [W20_arr m ρ c 3]
  exact KDiff2.region11 (V19 m ρ) c (kA m c) (ks1 m c) (D1 (kA m c) (ks1 m c)) (adj19 m ρ c) eS0
    (fun n b j => f_v60 m ρ c n b j) n b q

theorem f_v62 (c : Dev nD) : ∀ (n : Fin 1024) (b : Fin 32) (q : Fin 64), (W21 m ρ c (Proc.devRef .tc main_v62) : Vec Ideal S32768x64 .bf16) (ix2 (nb n b) q) = D1 (kA m c) (ky m c) n b q := by
  intro n b q
  show StableHlo.after hostOps12 (W20 m ρ c) (Proc.devRef .tc main_v62) _ = _
  after_results
  show shapeCast S32768x64 (W20 m ρ c (Proc.devRef .tc main_v52_0) : Vec Ideal S1024x2048 .bf16) shapeCasts_S1024x2048_S32768x64 (ix2 (nb n b) q) = _
  rw [cast_nodes64_apply, at_v52_0_20 m ρ c]
  exact KStage4.f_v52_0 m ρ c n b q

theorem f_v63 (c : Dev nD) : ∀ (n : Fin 1024) (b : Fin 32) (q : Fin 64), (W21 m ρ c (Proc.devRef .tc main_v63) : Vec Ideal S32768x64 .bf16) (ix2 (nb n b) q) = D2 (kA m c) (ky m c) n b q := by
  intro n b q
  show StableHlo.after hostOps12 (W20 m ρ c) (Proc.devRef .tc main_v63) _ = _
  after_results
  show shapeCast S32768x64 (W20 m ρ c (Proc.devRef .tc main_v53_0) : Vec Ideal S1024x2048 .bf16) shapeCasts_S1024x2048_S32768x64 (ix2 (nb n b) q) = _
  rw [cast_nodes64_apply, at_v53_0_20 m ρ c]
  exact KStage4.f_v53_0 m ρ c n b q

theorem f_v64 (c : Dev nD) : ∀ (n : Fin 1024) (b : Fin 32) (q : Fin 64), (W21 m ρ c (Proc.devRef .tc main_v64) : Vec Ideal S32768x64 .bf16) (ix2 (nb n b) q) = D1 (kA m c) (ks1 m c) n b q := by
  intro n b q
  show StableHlo.after hostOps12 (W20 m ρ c) (Proc.devRef .tc main_v64) _ = _
  after_results
  show shapeCast S32768x64 (W20 m ρ c (Proc.devRef .tc main_v60) : Vec Ideal S1024x2048 .bf16) shapeCasts_S1024x2048_S32768x64 (ix2 (nb n b) q) = _
  rw [cast_nodes64_apply, at_v60_20 m ρ c]
  exact f_v60 m ρ c n b q

theorem f_v65 (c : Dev nD) : ∀ (n : Fin 1024) (b : Fin 32) (q : Fin 64), (W21 m ρ c (Proc.devRef .tc main_v65) : Vec Ideal S32768x64 .bf16) (ix2 (nb n b) q) = D2 (kA m c) (ks1 m c) n b q := by
  intro n b q
  show StableHlo.after hostOps12 (W20 m ρ c) (Proc.devRef .tc main_v65) _ = _
  after_results
  show shapeCast S32768x64 (W20 m ρ c (Proc.devRef .tc main_v61) : Vec Ideal S1024x2048 .bf16) shapeCasts_S1024x2048_S32768x64 (ix2 (nb n b) q) = _
  rw [cast_nodes64_apply]
  exact f_v61 m ρ c n b q

end Cert.KernelIdeal.KStage5

end
-- ==== Proof.KStage6.lean ====
import proofs.«162824_g19885698580639_cont_8to1_2033_9_alg».proof.Proof.Gen.KernelIdeal.Frame
import proofs.«162824_g19885698580639_cont_8to1_2033_9_alg».proof.Proof.Spec
import proofs.«162824_g19885698580639_cont_8to1_2033_9_alg».proof.Proof.KArgs
import proofs.«162824_g19885698580639_cont_8to1_2033_9_alg».proof.Proof.KCarry
import proofs.«162824_g19885698580639_cont_8to1_2033_9_alg».proof.Proof.KStage0
import proofs.«162824_g19885698580639_cont_8to1_2033_9_alg».proof.Proof.KStage3
import proofs.«162824_g19885698580639_cont_8to1_2033_9_alg».proof.Proof.KStage5
import proofs.«162824_g19885698580639_cont_8to1_2033_9_alg».proof.Proof.KCand
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.KStage6

open Cert.KernelIdeal Cert.KernelIdeal.Gen Cert.KernelIdeal.KA Cert.KernelIdeal.Carry Cert.Spec
open Idealize.ShloMosaic Idealize.ShloMosaic.TcCoe Idealize.ShloMosaic.ValueIdx Idealize.SL.Sem

variable (m : (ℓ : Loc nD τ sig) → Buf (Elt Ideal) ℓ) (ρ : Dev nD → PrngReg)

theorem r12 (c : Dev nD) :
    (∀ n b (j : Fin 64), ((dat12 (F := Ideal) (V21 m ρ) c).arrAt 11 cfg12.N : Vec Ideal S32x1024x64 .f32) (ix3 b n j) = kz m c n b j)
    ∧ (∀ n b (j : Fin 64), ((dat12 (F := Ideal) (V21 m ρ) c).arrAt 12 cfg12.N : Vec Ideal S32768x64 .bf16) (ix2 (nb n b) j) = kz m c n b j) :=
  KCand.region12 (V21 m ρ) c (ky m c) (D1 (kA m c) (ky m c)) (D2 (kA m c) (ky m c))
    (ks1 m c) (D1 (kA m c) (ks1 m c)) (D2 (kA m c) (ks1 m c)) (ku1 m c) (kh1 m c) (kargs m c).wc1 (kargs m c).bc1
    (fun n b q => by
      show (W21 m ρ c (Proc.devRef .tc main_v49_1) : Vec Ideal S32768x64 .bf16) (ix2 (nb n b) q) = _
      rw [at_v49_1_21]; exact KStage3.f_v49_1 m ρ c n b q)
    (fun n b q => KStage5.f_v62 m ρ c n b q)
    (fun n b q => KStage5.f_v63 m ρ c n b q)
    (fun n b q => by
      show (W21 m ρ c (Proc.devRef .tc main_v58_0) : Vec Ideal S32768x64 .bf16) (ix2 (nb n b) q) = _
      rw [at_v58_0_21]; exact KStage5.f_v58_0 m ρ c n b q)
    (fun n b q => KStage5.f_v64 m ρ c n b q)
    (fun n b q => KStage5.f_v65 m ρ c n b q)
    (fun n b q => by
      show (W21 m ρ c (Proc.devRef .tc main_v58_1) : Vec Ideal S32768x64 .f32) (ix2 (nb n b) q) = _
      rw [at_v58_1_21]; exact KStage5.f_v58_1 m ρ c n b q)
    (fun n b q => by
      show (W21 m ρ c (Proc.devRef .tc main_v8_4) : Vec Ideal S32768x64 .f32) (ix2 (nb n b) q) = _
      rw [at_v8_4_21]; exact KStage0.f_v8_4 m ρ c n b q)
    (fun k c' o => by
      show (W21 m ρ c (Proc.devRef .tc main_v27) : Vec Ideal S3x64x64 .bf16) (ix3 k c' o) = _
      rw [at_v27_21]; exact KStage0.f_v27 m ρ c k c' o)
    (fun k j o => by
      show (W21 m ρ c (Proc.devRef .tc main_v28) : Vec Ideal S3x64x64 .bf16) (ix3 k j o) = _
      rw [at_v28_21]; exact KStage0.f_v28 m ρ c k j o)
    (fun o => by
      show (W21 m ρ c (Proc.devRef .tc main_v32) : Vec Ideal S1x64 .f32) (ix2 (0 : Fin 1) o) = _
      rw [at_v32_21]; exact KStage0.f_v32 m ρ c o)

theorem f_v66_0 (c : Dev nD) : ∀ (b : Fin 32) (n : Fin 1024) (q : Fin 64), (W22 m ρ c (Proc.devRef .tc main_v66_0) : Vec Ideal S32x1024x64 .f32) (ix3 b n q) = kz m c n b q := by
  intro b n q
  show (W22 m ρ c (Proc.devRef .tc (Pipeline.arrRef spec12 11)) : Vec Ideal S32x1024x64 .f32) (ix3 b n q) = _
  rw [W22_arr]
  exact (r12 m ρ c).1 n b q

theorem flat_nc (x : Vec Ideal S32x1024x64 .f32) (b : Fin 32) (n : Fin 1024) (j : Fin 64) :
    shapeCast S32x65536 x shapeCasts_S32x1024x64_S32x65536 (ix2 b (nc n j)) = x (ix3 b n j) :=
  shapeCast_apply _ _ (ix2 b (nc n j)) (ix3 b n j) (by
    rw [Shape.rowMajor_val_three, Shape.rowMajor_val_two]
    show (b.val * 1024 + n.val) * 64 + j.val = b.val * 65536 + (n.val * 64 + j.val)
    omega)

theorem stack_fst (x y : Vec Ideal S32x65536 .f32) (b : Fin 32) (q : Fin 65536) :
    concatenate S2x32x65536 0
        [⟨S1x32x65536, broadcastInDim S1x32x65536 ![1, 2] bcast_S32x65536_S1x32x65536_1_2 x⟩,
         ⟨S1x32x65536, broadcastInDim S1x32x65536 ![1, 2] bcast_S32x65536_S1x32x65536_1_2 y⟩]
        concatenates_S1x32x65536_S1x32x65536_S2x32x65536_d0 (ix3 (0 : Fin 2) b q) = x (ix2 b q) := by
  refine (concatenate_pair_apply_left (s₁ := S1x32x65536) (s₂ := S1x32x65536) (0 : Fin 3) _ _ _ (ix3 (0 : Fin 2) b q) rfl (ix3 (0 : Fin 1) b q)
    (fun a => match a with | ⟨0, _⟩ => rfl | ⟨1, _⟩ => rfl | ⟨2, _⟩ => rfl)).trans ?_
  exact broadcastInDim_apply _ _ _ (ix3 (0 : Fin 1) b q) (ix2 b q)
    (fun a => match a with | ⟨0, _⟩ => rfl | ⟨1, _⟩ => rfl)

theorem stack_snd (x y : Vec Ideal S32x65536 .f32) (b : Fin 32) (q : Fin 65536) :
    concatenate S2x32x65536 0
        [⟨S1x32x65536, broadcastInDim S1x32x65536 ![1, 2] bcast_S32x65536_S1x32x65536_1_2 x⟩,
         ⟨S1x32x65536, broadcastInDim S1x32x65536 ![1, 2] bcast_S32x65536_S1x32x65536_1_2 y⟩]
        concatenates_S1x32x65536_S1x32x65536_S2x32x65536_d0 (ix3 (1 : Fin 2) b q) = y (ix2 b q) := by
  refine (concatenate_pair_apply_right (s₁ := S1x32x65536) (s₂ := S1x32x65536) (0 : Fin 3) _ _ _ (ix3 (1 : Fin 2) b q) rfl rfl (ix3 (0 : Fin 1) b q)
    (fun a ha => match a, ha with
      | ⟨0, _⟩, ha => absurd rfl ha
      | ⟨1, _⟩, _ => rfl
      | ⟨2, _⟩, _ => rfl) rfl).trans ?_
  exact broadcastInDim_apply _ _ _ (ix3 (0 : Fin 1) b q) (ix2 b q)
    (fun a => match a with | ⟨0, _⟩ => rfl | ⟨1, _⟩ => rfl)

theorem e_v68 (c : Dev nD) : (W23 m ρ c (Proc.devRef .tc main_v68) : Vec Ideal S32x65536 .f32)
    = shapeCast S32x65536 (W22 m ρ c (Proc.devRef .tc main_v66_0) : Vec Ideal S32x1024x64 .f32) shapeCasts_S32x1024x64_S32x65536 := by
  show StableHlo.after hostOps13 (W22 m ρ c) (Proc.devRef .tc main_v68) = _
  after_results
  rfl

theorem e_v71 (c : Dev nD) : (W23 m ρ c (Proc.devRef .tc main_v71) : Vec Ideal S2x32x65536 .f32)
    = concatenate S2x32x65536 0
        [⟨S1x32x65536, broadcastInDim S1x32x65536 ![1, 2] bcast_S32x65536_S1x32x65536_1_2
            (shapeCast S32x65536 (W22 m ρ c (Proc.devRef .tc main_v49_0) : Vec Ideal S32x1024x64 .f32) shapeCasts_S32x1024x64_S32x65536)⟩,
         ⟨S1x32x65536, broadcastInDim S1x32x65536 ![1, 2] bcast_S32x65536_S1x32x65536_1_2
            (shapeCast S32x65536 (W22 m ρ c (Proc.devRef .tc main_v66_0) : Vec Ideal S32x1024x64 .f32) shapeCasts_S32x1024x64_S32x65536)⟩]
        concatenates_S1x32x65536_S1x32x65536_S2x32x65536_d0 := by
  show StableHlo.after hostOps13 (W22 m ρ c) (Proc.devRef .tc main_v71) = _
  after_results
  rfl

theorem f_v68 (c : Dev nD) : ∀ (b : Fin 32) (n : Fin 1024) (j : Fin 64), (W23 m ρ c (Proc.devRef .tc main_v68) : Vec Ideal S32x65536 .f32) (ix2 b (nc n j)) = kz m c n b j := by
  intro b n j
  rw [e_v68, flat_nc]
  exact f_v66_0 m ρ c b n j

theorem f_v71_0 (c : Dev nD) : ∀ (b : Fin 32) (n : Fin 1024) (j : Fin 64), (W23 m ρ c (Proc.devRef .tc main_v71) : Vec Ideal S2x32x65536 .f32) (ix3 (0 : Fin 2) b (nc n j)) = ky m c n b j := by
  intro b n j
  rw [e_v71, stack_fst, flat_nc, at_v49_0_22]
  exact KStage3.f_v49_0 m ρ c b n j

theorem f_v71_1 (c : Dev nD) : ∀ (b : Fin 32) (n : Fin 1024) (j : Fin 64), (W23 m ρ c (Proc.devRef .tc main_v71) : Vec Ideal S2x32x65536 .f32) (ix3 (1 : Fin 2) b (nc n j)) = kz m c n b j := by
  intro b n j
  rw [e_v71, stack_snd, flat_nc]
  exact f_v66_0 m ρ c b n j

end Cert.KernelIdeal.KStage6

end
-- ==== Proof.RArgs.lean ====
import proofs.«162824_g19885698580639_cont_8to1_2033_9_alg».proof.ReferenceIdeal
import proofs.«162824_g19885698580639_cont_8to1_2033_9_alg».proof.Proof.Spec
import Idealize.ShloMosaic.Lib.ValueIdx
import Idealize.ShloMosaic.Lib.StableHlo.Run

noncomputable section

namespace Cert.ReferenceIdeal.RA

open Cert.ReferenceIdeal Cert.Spec
open Idealize.ShloMosaic Idealize.ShloMosaic.TcCoe Idealize.ShloMosaic.ValueIdx Idealize.SL.Sem Idealize.ShloMosaic.StableHlo

variable (V0 : Valuation τ sig (Elt Ideal))

def rargs : Spec.Args where
  inp := fun b q => (V0 (Proc.devRef .tc main_arg0) : Vec Ideal S32x2048 .f32) (ix2 b q)
  adj := fun n k => (V0 (Proc.devRef .tc main_arg1) : Vec Ideal S1024x1024 .f32) (ix2 n k)
  hid := fun l b q => (V0 (Proc.devRef .tc main_arg2) : Vec Ideal S2x32x65536 .f32) (ix3 l b q)
  wg0 := fun q o => (V0 (Proc.devRef .tc main_arg3) : Vec Ideal S198x128 .f32) (ix2 q o)
  bg0 := fun o => (V0 (Proc.devRef .tc main_arg4) : Vec Ideal S128 .f32) (ix1 o)
  wc0 := fun q o => (V0 (Proc.devRef .tc main_arg5) : Vec Ideal S198x64 .f32) (ix2 q o)
  bc0 := fun o => (V0 (Proc.devRef .tc main_arg6) : Vec Ideal S64 .f32) (ix1 o)
  wg1 := fun q o => (V0 (Proc.devRef .tc main_arg7) : Vec Ideal S384x128 .f32) (ix2 q o)
  bg1 := fun o => (V0 (Proc.devRef .tc main_arg8) : Vec Ideal S128 .f32) (ix1 o)
  wc1 := fun q o => (V0 (Proc.devRef .tc main_arg9) : Vec Ideal S384x64 .f32) (ix2 q o)
  bc1 := fun o => (V0 (Proc.devRef .tc main_arg10) : Vec Ideal S64 .f32) (ix1 o)

abbrev rA : Fin 1024 → Fin 1024 → EReal := (rargs V0).adj
abbrev rx : T 2 := xIn (rargs V0).inp
abbrev rh0 : T 64 := hIn (rargs V0).hid 0
abbrev rh1 : T 64 := hIn (rargs V0).hid 1
abbrev rs0 : T 64 := sState (rA V0) (rx V0) (rh0 V0) (rargs V0).wg0 (rargs V0).bg0
abbrev ru0 : T 64 := uGate (rA V0) (rx V0) (rh0 V0) (rargs V0).wg0 (rargs V0).bg0
abbrev ry : T 64 := hL0 (rargs V0)
abbrev rs1 : T 64 := sState (rA V0) (ry V0) (rh1 V0) (rargs V0).wg1 (rargs V0).bg1
abbrev ru1 : T 64 := uGate (rA V0) (ry V0) (rh1 V0) (rargs V0).wg1 (rargs V0).bg1
abbrev rz : T 64 := hL1 (rargs V0)

end Cert.ReferenceIdeal.RA

end
-- ==== Proof.SpecAlg.lean ====
import proofs.«162824_g19885698580639_cont_8to1_2033_9_alg».proof.Proof.Spec
import Mathlib.Algebra.BigOperators.Fin

noncomputable section

namespace Cert.Spec

open Idealize.ShloMosaic

variable (A : Fin 1024 → Fin 1024 → EReal)

theorem D1_catT {cin : Nat} (x : T cin) (h : T 64) : D1 A (catT x h) = catT (D1 A x) (D1 A h) := by
  funext n b c'
  refine Fin.addCases (fun c => ?_) (fun j => ?_) c'
  · simp only [catT, D1, Fin.addCases_left]
  · simp only [catT, D1, Fin.addCases_right]

theorem cheb2_catT {cin : Nat} (x0 x1 : T cin) (h0 h1 : T 64) :
    cheb2 A (catT x0 h0) (catT x1 h1) = catT (cheb2 A x0 x1) (cheb2 A h0 h1) := by
  funext n b c'
  refine Fin.addCases (fun c => ?_) (fun j => ?_) c'
  · simp only [catT, cheb2, Fin.addCases_left]
  · simp only [catT, cheb2, Fin.addCases_right]

theorem D2_catT {cin : Nat} (x : T cin) (h : T 64) : D2 A (catT x h) = catT (D2 A x) (D2 A h) := by
  simp only [D2, D1_catT, cheb2_catT]

theorem cheb_catT {cin : Nat} (x : T cin) (h : T 64) (k : Fin 3) : cheb A (catT x h) k = catT (cheb A x k) (cheb A h k) := by
  match k with
  | 0 => rfl
  | 1 => exact D1_catT A x h
  | 2 => exact D2_catT A x h

theorem sum_wrow {K : Nat} (f : Fin (K * 3) → EReal) :
    ∑ q : Fin (K * 3), f q = ∑ c' : Fin K, ∑ k : Fin 3, f (wrow c' k) := by
  have e : ∀ p : Fin K × Fin 3, finProdFinEquiv p = wrow p.1 p.2 := by
    rintro ⟨c', k⟩
    apply Fin.ext
    show k.val + 3 * c'.val = c'.val * 3 + k.val
    omega
  calc ∑ q : Fin (K * 3), f q = ∑ p : Fin K × Fin 3, f (finProdFinEquiv p) :=
        (Equiv.sum_comp finProdFinEquiv f).symm
    _ = ∑ p : Fin K × Fin 3, f (wrow p.1 p.2) := by simp only [e]
    _ = ∑ c' : Fin K, ∑ k : Fin 3, f (wrow c' k) := Fintype.sum_prod_type _

theorem xcat_wrow {cin : Nat} (x : T cin) (h : T 64) (n : Fin 1024) (b : Fin 32) (c' : Fin (cin + 64)) (k : Fin 3) :
    xcat A x h n b (wrow c' k) = cheb A (catT x h) k n b c' := by
  have hk := k.isLt
  have e1 : ∀ p : (wrow c' k).val % 3 < 3, (⟨(wrow c' k).val % 3, p⟩ : Fin 3) = k :=
    fun p => Fin.ext (by show (c'.val * 3 + k.val) % 3 = k.val; omega)
  have e2 : ∀ p : (wrow c' k).val / 3 < cin + 64, (⟨(wrow c' k).val / 3, p⟩ : Fin (cin + 64)) = c' :=
    fun p => Fin.ext (by show (c'.val * 3 + k.val) / 3 = c'.val; omega)
  unfold xcat
  rw [e1, e2]

theorem sum_xcat {cin O : Nat} (x : T cin) (h : T 64) (W : Fin ((cin + 64) * 3) → Fin O → EReal) (bias : Fin O → EReal)
    (n : Fin 1024) (b : Fin 32) (o : Fin O) :
    (∑ q : Fin ((cin + 64) * 3), xcat A x h n b q * W q o) + bias o = pre A x h W bias n b o := by
  have hx : ∀ (k : Fin 3) (c : Fin cin), cheb A (catT x h) k n b (Fin.castAdd 64 c) = cheb A x k n b c := by
    intro k c; rw [cheb_catT]; simp only [catT, Fin.addCases_left]
  have hh : ∀ (k : Fin 3) (j : Fin 64), cheb A (catT x h) k n b (Fin.natAdd cin j) = cheb A h k n b j := by
    intro k j; rw [cheb_catT]; simp only [catT, Fin.addCases_right]
  have c0 : ∀ {C : Nat} (y : T C), cheb A y 0 = y := fun _ => rfl
  have c1 : ∀ {C : Nat} (y : T C), cheb A y 1 = D1 A y := fun _ => rfl
  have c2 : ∀ {C : Nat} (y : T C), cheb A y 2 = D2 A y := fun _ => rfl
  rw [sum_wrow]
  simp only [xcat_wrow, Fin.sum_univ_add, hx, hh]
  simp only [Fin.sum_univ_three, c0, c1, c2, Finset.sum_add_distrib]
  simp only [pre, pre6]
  abel

theorem one_eq : one = 1 := by
  simp [one, Ideal.ofBits, Ideal.ieee, -EReal.coe_mul]; norm_num

theorem logistic_expanded (t : EReal) : Ideal.div one (one + Ideal.exp (-t)) = Ideal.logistic t := by
  rw [one_eq]; rfl

end Cert.Spec

end
-- ==== Proof.RStage0.lean ====
import proofs.«162824_g19885698580639_cont_8to1_2033_9_alg».proof.Proof.RefRunDefs
import proofs.«162824_g19885698580639_cont_8to1_2033_9_alg».proof.Proof.Spec
import proofs.«162824_g19885698580639_cont_8to1_2033_9_alg».proof.Proof.SpecAlg
import proofs.«162824_g19885698580639_cont_8to1_2033_9_alg».proof.Proof.RArgs
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import Idealize.ShloMosaic.Lib.StackMember

noncomputable section

namespace Cert.ReferenceIdeal.RStage0

open Cert.ReferenceIdeal Cert.ReferenceIdeal.Gen Cert.ReferenceIdeal.Value Cert.ReferenceIdeal.RA Cert.Spec
open Idealize.ShloMosaic Idealize.ShloMosaic.TcCoe Idealize.ShloMosaic.ValueIdx Idealize.SL.Sem Idealize.ShloMosaic.StableHlo

abbrev s2 (a b : Nat) : Shape := ⟨2, ![a, b]⟩
abbrev s3 (a b c : Nat) : Shape := ⟨3, ![a, b, c]⟩
abbrev s4 (a b c d : Nat) : Shape := ⟨4, ![a, b, c, d]⟩

section Layout
variable {α : Type} {a b c d : Nat}

theorem cast_split (x : (s2 a (b * c)).Idx → α) (h : (s2 a (b * c)).ShapeCasts (s3 a b c)) (i : Fin a) (j : Fin b) (k : Fin c)
    (p : Fin (b * c)) (hp : p.val = j.val * c + k.val) : shapeCast (s3 a b c) x h (ix3 i j k) = x (ix2 i p) :=
  shapeCast_apply x h _ _ (by
    rw [Shape.rowMajor_val_two, Shape.rowMajor_val_three]
    show i.val * (b * c) + p.val = (i.val * b + j.val) * c + k.val
    rw [hp]; ring)

theorem cast_merge (x : (s3 a b c).Idx → α) (h : (s3 a b c).ShapeCasts (s2 a (b * c))) (i : Fin a) (j : Fin b) (k : Fin c)
    (p : Fin (b * c)) (hp : p.val = j.val * c + k.val) : shapeCast (s2 a (b * c)) x h (ix2 i p) = x (ix3 i j k) :=
  shapeCast_apply x h _ _ (by
    rw [Shape.rowMajor_val_two, Shape.rowMajor_val_three]
    show (i.val * b + j.val) * c + k.val = i.val * (b * c) + p.val
    rw [hp]; ring)

theorem cast_rows (x : (s2 (a * b) c).Idx → α) (h : (s2 (a * b) c).ShapeCasts (s3 a b c)) (i : Fin a) (j : Fin b) (k : Fin c)
    (p : Fin (a * b)) (hp : p.val = i.val * b + j.val) : shapeCast (s3 a b c) x h (ix3 i j k) = x (ix2 p k) :=
  shapeCast_apply x h _ _ (by
    rw [Shape.rowMajor_val_two, Shape.rowMajor_val_three]
    show p.val * c + k.val = (i.val * b + j.val) * c + k.val
    rw [hp])

theorem cast_split4 (x : (s3 a b (c * d)).Idx → α) (h : (s3 a b (c * d)).ShapeCasts (s4 a b c d)) (i : Fin a) (j : Fin b) (k : Fin c)
    (l : Fin d) (p : Fin (c * d)) (hp : p.val = k.val * d + l.val) : shapeCast (s4 a b c d) x h (ix4 i j k l) = x (ix3 i j p) :=
  shapeCast_apply x h _ _ (by
    rw [Shape.rowMajor_val_three, Shape.rowMajor_val_four]
    show (i.val * b + j.val) * (c * d) + p.val = ((i.val * b + j.val) * c + k.val) * d + l.val
    rw [hp]; ring)

theorem cast_merge4 (x : (s4 a b c d).Idx → α) (h : (s4 a b c d).ShapeCasts (s2 (a * b) (c * d))) (i : Fin a) (j : Fin b) (k : Fin c)
    (l : Fin d) (p : Fin (a * b)) (q : Fin (c * d)) (hp : p.val = i.val * b + j.val) (hq : q.val = k.val * d + l.val) :
    shapeCast (s2 (a * b) (c * d)) x h (ix2 p q) = x (ix4 i j k l) :=
  shapeCast_apply x h _ _ (by
    rw [Shape.rowMajor_val_four, Shape.rowMajor_val_two]
    show ((i.val * b + j.val) * c + k.val) * d + l.val = p.val * (c * d) + q.val
    rw [hp, hq]; ring)

theorem transpose3 (x : (s3 a b c).Idx → α) (h : (s3 a b c).Transposes [1, 2, 0] (s3 b c a)) (i : Fin a) (j : Fin b) (k : Fin c) :
    transpose (s3 b c a) [1, 2, 0] x h (ix3 j k i) = x (ix3 i j k) :=
  transpose_apply _ x h _ _ fun e => match e with
    | ⟨0, _⟩ => rfl
    | ⟨1, _⟩ => rfl
    | ⟨2, _⟩ => rfl

theorem transpose4 (x : (s4 a b c d).Idx → α) (h : (s4 a b c d).Transposes [3, 1, 2, 0] (s4 d b c a)) (i : Fin a) (j : Fin b)
    (k : Fin c) (l : Fin d) : transpose (s4 d b c a) [3, 1, 2, 0] x h (ix4 l j k i) = x (ix4 i j k l) :=
  transpose_apply _ x h _ _ fun e => match e with
    | ⟨0, _⟩ => rfl
    | ⟨1, _⟩ => rfl
    | ⟨2, _⟩ => rfl
    | ⟨3, _⟩ => rfl

theorem concat_cat (x₁ : (s3 a b c).Idx → α) (x₂ : (s3 a b d).Idx → α) (h : Shape.Concatenates [s3 a b c, s3 a b d] (s3 a b (c + d)) 2)
    (i : Fin a) (j : Fin b) (k : Fin (c + d)) :
    concatenate (s3 a b (c + d)) 2 [⟨s3 a b c, x₁⟩, ⟨s3 a b d, x₂⟩] h (ix3 i j k)
      = Fin.addCases (fun k => x₁ (ix3 i j k)) (fun k => x₂ (ix3 i j k)) k := by
  induction k using Fin.addCases with
  | left k =>
    rw [Fin.addCases_left]
    exact concatenate_pair_apply_left 2 x₁ x₂ h _ rfl _ fun e => match e with
      | ⟨0, _⟩ => rfl
      | ⟨1, _⟩ => rfl
      | ⟨2, _⟩ => rfl
  | right k =>
    rw [Fin.addCases_right]
    exact concatenate_pair_apply_right 2 x₁ x₂ h _ rfl rfl _
      (fun e he => match e, he with
        | ⟨0, _⟩, _ => rfl
        | ⟨1, _⟩, _ => rfl
        | ⟨2, _⟩, he => absurd rfl he)
      (Nat.add_comm _ _)

theorem slice_last (o : Nat) (x : (s3 a b c).Idx → α) (h : (s3 a b c).Slices ![0, 0, o] (s3 a b d)) (i : Fin a) (j : Fin b) (k : Fin d)
    (p : Fin c) (hp : p.val = o + k.val) : extractStridedSlice (s3 a b d) ![0, 0, o] x h (ix3 i j k) = x (ix3 i j p) :=
  extractStridedSlice_apply _ x h _ _ fun e => match e with
    | ⟨0, _⟩ => (Nat.zero_add _).symm
    | ⟨1, _⟩ => (Nat.zero_add _).symm
    | ⟨2, _⟩ => hp

theorem slice_first (o : Fin a) (x : (s3 a b c).Idx → α) (h : (s3 a b c).Slices ![o.val, 0, 0] (s3 1 b c)) (u : Fin 1) (j : Fin b)
    (k : Fin c) : extractStridedSlice (s3 1 b c) ![o.val, 0, 0] x h (ix3 u j k) = x (ix3 o j k) :=
  extractStridedSlice_apply _ x h _ _ fun e => match e with
    | ⟨0, _⟩ => by show o.val = o.val + u.val; omega
    | ⟨1, _⟩ => (Nat.zero_add _).symm
    | ⟨2, _⟩ => (Nat.zero_add _).symm

theorem lead_unit (x : (s2 a b).Idx → α) (h : (s2 a b).BroadcastsInDim (s3 1 a b) ![1, 2]) (u : Fin 1) (i : Fin a) (j : Fin b) :
    broadcastInDim (s3 1 a b) ![1, 2] h x (ix3 u i j) = x (ix2 i j) :=
  broadcastInDim_apply _ h x _ _ fun e => match e with
    | ⟨0, _⟩ => by show i.val = if a = 1 then 0 else i.val; split <;> omega
    | ⟨1, _⟩ => by show j.val = if b = 1 then 0 else j.val; split <;> omega

theorem stack3 (y0 y1 y2 : (s3 1 a b).Idx → α) (h : Shape.Concatenates [s3 1 a b, s3 1 a b, s3 1 a b] (s3 3 a b) 0) (k : Fin 3)
    (i : Fin a) (j : Fin b) :
    concatenate (s3 3 a b) 0 [⟨s3 1 a b, y0⟩, ⟨s3 1 a b, y1⟩, ⟨s3 1 a b, y2⟩] h (ix3 k i j)
      = (match k with | 0 => y0 | 1 => y1 | 2 => y2) (ix3 (0 : Fin 1) i j) := by
  have hi : ∀ e : Fin (s3 1 a b).rank, e.cast rfl ≠ (0 : Fin (s3 3 a b).rank) →
      ((ix3 (0 : Fin 1) i j : (s3 1 a b).Idx) e).val = ((ix3 k i j : (s3 3 a b).Idx) (e.cast rfl)).val := fun e he =>
    match e, he with
    | ⟨0, _⟩, he => absurd rfl he
    | ⟨1, _⟩, _ => rfl
    | ⟨2, _⟩, _ => rfl
  match k with
  | ⟨0, hk⟩ => exact concatenate_apply_piece 0 [⟨_, y0⟩, ⟨_, y1⟩, ⟨_, y2⟩] h _ 0 hk _ y0 rfl rfl 0 rfl _ hi rfl
  | ⟨1, hk⟩ => exact concatenate_apply_piece 0 [⟨_, y0⟩, ⟨_, y1⟩, ⟨_, y2⟩] h _ 1 hk _ y1 rfl rfl 1 rfl _ hi rfl
  | ⟨2, hk⟩ => exact concatenate_apply_piece 0 [⟨_, y0⟩, ⟨_, y1⟩, ⟨_, y2⟩] h _ 2 hk _ y2 rfl rfl 2 rfl _ hi rfl

theorem bias_apply (x : (⟨1, ![b]⟩ : Shape).Idx → α) (h0 : (⟨1, ![b]⟩ : Shape).BroadcastsInDim (s2 1 b) ![1])
    (h1 : (s2 1 b).BroadcastsInDim (s2 a b) ![0, 1]) (i : Fin a) (j : Fin b) :
    broadcastInDim (s2 a b) ![0, 1] h1 (broadcastInDim (s2 1 b) ![1] h0 x) (ix2 i j) = x (ix1 j) :=
  (broadcastInDim_apply _ h1 _ _ (ix2 (0 : Fin 1) j) fun e => match e with
    | ⟨0, _⟩ => rfl
    | ⟨1, _⟩ => by show j.val = if b = 1 then 0 else j.val; split <;> omega).trans
  (broadcastInDim_apply _ h0 x _ _ fun e => match e with
    | ⟨0, _⟩ => by show j.val = if b = 1 then 0 else j.val; split <;> omega)

end Layout

section Values
variable {cin O C : Nat}

-- u at the flat position (b, n * C + c) is U n b c
def Flat (u : (s2 32 (1024 * C)).Idx → EReal) (U : T C) : Prop :=
  ∀ (b : Fin 32) (n : Fin 1024) (c : Fin C), u (ix2 b (nc n c)) = U n b c

-- u at row n, column c * 32 + b, is y n b c
def Cols (u : (s2 1024 (C * 32)).Idx → EReal) (y : T C) : Prop :=
  ∀ (n : Fin 1024) (c : Fin C) (b : Fin 32), u (ix2 n (cb c b)) = y n b c

-- z at row b * 1024 + n is P n b
def Rows (z : (s2 (32 * 1024) C).Idx → EReal) (P : T C) : Prop :=
  ∀ (b : Fin 32) (n : Fin 1024) (o : Fin C), z (ix2 (bn b n) o) = P n b o

def Cube (g : (s3 32 1024 C).Idx → EReal) (G : T C) : Prop :=
  ∀ (b : Fin 32) (n : Fin 1024) (o : Fin C), g (ix3 b n o) = G n b o

theorem splat_apply {s : Shape} (h : S_.BroadcastsInDim s ![]) (w : BitVec 32) (i : s.Idx) :
    broadcastInDim s ![] h (constant (F := Ideal) S_ .f32 w) i = Ideal.ofBits .f32 w :=
  broadcastInDim_scalar_apply h _ i

theorem tanh_apply {s : Shape} (x : FVec Ideal s .f32) (i : s.Idx) : Host.tanh x i = Ideal.tanh (x i) := rfl

theorem logistic_shell {s : Shape} (c t : FVec Ideal s .f32) (i : s.Idx) (hc : c i = one) :
    Host.divf c (addf c (Host.exp (Host.negf t))) i = Ideal.logistic (t i) := by
  rw [← logistic_expanded, ← hc]
  rfl

theorem diffuse_apply (A : Fin 1024 → Fin 1024 → EReal) (adj : FVec Ideal (s2 1024 1024) .f32) (u : FVec Ideal (s2 1024 (C * 32)) .f32)
    (y : T C) (hA : ∀ n k, adj (ix2 n k) = A n k) (hu : Cols u y) :
    Cols (Host.dotGeneral (F := Ideal) (DotDims.plain 1024 1024 (C * 32)) none adj u) (D1 A y) := fun n c b =>
  (StackMember.dotGeneral_plain_apply none adj u n (cb c b)).trans (Finset.sum_congr rfl fun k _ => by rw [hA, hu])

theorem wrow_surj {K : Nat} (q : Fin (K * 3)) : ∃ (c' : Fin K) (k : Fin 3), q = wrow c' k :=
  have hq := q.isLt
  ⟨⟨q.val / 3, by omega⟩, ⟨q.val % 3, Nat.mod_lt _ (by decide)⟩, Fin.ext (show q.val = q.val / 3 * 3 + q.val % 3 by omega)⟩

-- the two flat operands, read as [32, 1024, c], joined along c and laid out as [1024, (cin + 64) * 32]
theorem catop_apply (X : (s2 32 (1024 * cin)).Idx → EReal) (Hs : (s2 32 (1024 * 64)).Idx → EReal) (x : T cin) (s : T 64)
    (h1 : (s2 32 (1024 * cin)).ShapeCasts (s3 32 1024 cin)) (h2 : (s2 32 (1024 * 64)).ShapeCasts (s3 32 1024 64))
    (hc : Shape.Concatenates [s3 32 1024 cin, s3 32 1024 64] (s3 32 1024 (cin + 64)) 2)
    (ht : (s3 32 1024 (cin + 64)).Transposes [1, 2, 0] (s3 1024 (cin + 64) 32))
    (hs : (s3 1024 (cin + 64) 32).ShapeCasts (s2 1024 ((cin + 64) * 32))) (hX : Flat X x) (hH : Flat Hs s) :
    Cols (shapeCast (s2 1024 ((cin + 64) * 32)) (transpose (s3 1024 (cin + 64) 32) [1, 2, 0] (concatenate (s3 32 1024 (cin + 64)) 2
      [⟨s3 32 1024 cin, shapeCast (s3 32 1024 cin) X h1⟩, ⟨s3 32 1024 64, shapeCast (s3 32 1024 64) Hs h2⟩] hc) ht) hs) (catT x s) := by
  intro n c' b
  refine (cast_merge _ hs n c' b _ rfl).trans ((transpose3 _ ht b n c').trans ((concat_cat _ _ hc b n c').trans ?_))
  unfold catT
  induction c' using Fin.addCases with
  | left c => rw [Fin.addCases_left, Fin.addCases_left]; exact (cast_split _ h1 b n c _ rfl).trans (hX b n c)
  | right j => rw [Fin.addCases_right, Fin.addCases_right]; exact (cast_split _ h2 b n j _ rfl).trans (hH b n j)

section Operand
variable {α : Type} (hb : (s2 1024 (C * 32)).BroadcastsInDim (s3 1 1024 (C * 32)) ![1, 2])
  (hc : Shape.Concatenates [s3 1 1024 (C * 32), s3 1 1024 (C * 32), s3 1 1024 (C * 32)] (s3 3 1024 (C * 32)) 0)
  (hs : (s3 3 1024 (C * 32)).ShapeCasts (s4 3 1024 C 32)) (ht : (s4 3 1024 C 32).Transposes [3, 1, 2, 0] (s4 32 1024 C 3))
  (hr : (s4 32 1024 C 3).ShapeCasts (s2 (32 * 1024) (C * 3))) (y0 y1 y2 : (s2 1024 (C * 32)).Idx → α)

-- three [1024, C * 32] arrays stacked, then laid out as the [32 * 1024, C * 3] operand of the weight product
def operand : (s2 (32 * 1024) (C * 3)).Idx → α :=
  shapeCast (s2 (32 * 1024) (C * 3)) (transpose (s4 32 1024 C 3) [3, 1, 2, 0] (shapeCast (s4 3 1024 C 32) (concatenate (s3 3 1024 (C * 32)) 0
    [⟨s3 1 1024 (C * 32), broadcastInDim (s3 1 1024 (C * 32)) ![1, 2] hb y0⟩, ⟨s3 1 1024 (C * 32), broadcastInDim (s3 1 1024 (C * 32)) ![1, 2] hb y1⟩,
      ⟨s3 1 1024 (C * 32), broadcastInDim (s3 1 1024 (C * 32)) ![1, 2] hb y2⟩] hc) hs) ht) hr

theorem operand_apply (b : Fin 32) (n : Fin 1024) (c' : Fin C) (k : Fin 3) :
    operand hb hc hs ht hr y0 y1 y2 (ix2 (bn b n) (wrow c' k)) = (match k with | 0 => y0 | 1 => y1 | 2 => y2) (ix2 n (cb c' b)) := by
  refine (cast_merge4 _ hr b n c' k _ _ rfl rfl).trans ((transpose4 _ ht k n c' b).trans ((cast_split4 _ hs k n c' b (cb c' b) rfl).trans
    ((stack3 _ _ _ hc k n _).trans ?_)))
  match k with
  | ⟨0, _⟩ => exact lead_unit _ hb 0 n _
  | ⟨1, _⟩ => exact lead_unit _ hb 0 n _
  | ⟨2, _⟩ => exact lead_unit _ hb 0 n _

end Operand

-- the graph convolution's pre-activation: the stacked operand against the weights, plus the bias
theorem gconv_apply (A : Fin 1024 → Fin 1024 → EReal) (x : T cin) (s : T 64) (adj : FVec Ideal (s2 1024 1024) .f32)
    (u0 u1 : FVec Ideal (s2 1024 ((cin + 64) * 32)) .f32) (w : FVec Ideal (s2 ((cin + 64) * 3) O) .f32) (bias : FVec Ideal ⟨1, ![O]⟩ .f32)
    (hb : (s2 1024 ((cin + 64) * 32)).BroadcastsInDim (s3 1 1024 ((cin + 64) * 32)) ![1, 2])
    (hc : Shape.Concatenates [s3 1 1024 ((cin + 64) * 32), s3 1 1024 ((cin + 64) * 32), s3 1 1024 ((cin + 64) * 32)] (s3 3 1024 ((cin + 64) * 32)) 0)
    (hs : (s3 3 1024 ((cin + 64) * 32)).ShapeCasts (s4 3 1024 (cin + 64) 32))
    (ht : (s4 3 1024 (cin + 64) 32).Transposes [3, 1, 2, 0] (s4 32 1024 (cin + 64) 3))
    (hr : (s4 32 1024 (cin + 64) 3).ShapeCasts (s2 (32 * 1024) ((cin + 64) * 3))) (h2 : S_.BroadcastsInDim (s2 1024 ((cin + 64) * 32)) ![])
    (hb0 : (⟨1, ![O]⟩ : Shape).BroadcastsInDim (s2 1 O) ![1]) (hb1 : (s2 1 O).BroadcastsInDim (s2 (32 * 1024) O) ![0, 1])
    (hA : ∀ n k, adj (ix2 n k) = A n k) (h0 : Cols u0 (catT x s)) (h1 : Cols u1 (D1 A (catT x s))) :
    Rows (addf (Host.dotGeneral (F := Ideal) (DotDims.plain (32 * 1024) ((cin + 64) * 3) O) none
        (operand hb hc hs ht hr u0 u1 (subf (mulf (broadcastInDim (s2 1024 ((cin + 64) * 32)) ![] h2 (constant (F := Ideal) S_ .f32 0x40000000#32))
          (Host.dotGeneral (F := Ideal) (DotDims.plain 1024 1024 ((cin + 64) * 32)) none adj u1)) u0)) w)
      (broadcastInDim (s2 (32 * 1024) O) ![0, 1] hb1 (broadcastInDim (s2 1 O) ![1] hb0 bias)))
      (pre A x s (fun q o => w (ix2 q o)) (fun o => bias (ix1 o))) := by
  intro b n o
  rw [addf_apply, StackMember.dotGeneral_plain_apply, bias_apply]
  refine Eq.trans ?_ (sum_xcat A x s _ _ n b o)
  refine congrArg (· + bias (ix1 o)) (Finset.sum_congr rfl fun q _ => ?_)
  obtain ⟨c', k, rfl⟩ := wrow_surj q
  rw [xcat_wrow]
  refine congrArg (· * w (ix2 (wrow c' k) o)) ((operand_apply hb hc hs ht hr _ _ _ b n c' k).trans ?_)
  match k with
  | ⟨0, _⟩ => exact h0 n c' b
  | ⟨1, _⟩ => exact h1 n c' b
  | ⟨2, _⟩ =>
    show subf (mulf _ _) u0 (ix2 n (cb c' b)) = two * D1 A (D1 A (catT x s)) n b c' - catT x s n b c'
    rw [subf_apply, mulf_apply, splat_apply, diffuse_apply A adj u1 _ hA h1, h0]

theorem gate_apply (Z : FVec Ideal S32768x128 .f32) (P : T 128) (hZ : Rows Z P) :
    Cube (Host.divf (broadcastInDim S32x1024x128 ![] bcast_S_S32x1024x128 (constant (F := Ideal) S_ .f32 0x3F800000#32))
      (addf (broadcastInDim S32x1024x128 ![] bcast_S_S32x1024x128 (constant (F := Ideal) S_ .f32 0x3F800000#32))
        (Host.exp (Host.negf (shapeCast S32x1024x128 Z shapeCasts_S32768x128_S32x1024x128))))) fun n b o => Ideal.logistic (P n b o) := fun b n o =>
  (logistic_shell _ _ _ (splat_apply _ _ _)).trans (congrArg Ideal.logistic ((cast_rows Z _ b n o (bn b n) rfl).trans (hZ b n o)))

theorem newstate_apply (u h' : FVec Ideal S32x65536 .f32) (Z : FVec Ideal S32768x64 .f32) (U H P : T 64) (hu : Flat u U) (hh : Flat h' H)
    (hZ : Rows Z P) :
    Flat (addf (mulf u h') (mulf (subf (broadcastInDim S32x65536 ![] bcast_S_S32x65536 (constant (F := Ideal) S_ .f32 0x3F800000#32)) u)
      (Host.tanh (shapeCast S32x65536 (shapeCast S32x1024x64 Z shapeCasts_S32768x64_S32x1024x64) shapeCasts_S32x1024x64_S32x65536))))
      fun n b j => U n b j * H n b j + (one - U n b j) * Ideal.tanh (P n b j) := by
  intro b n j
  rw [addf_apply, mulf_apply, mulf_apply, subf_apply, splat_apply, tanh_apply, cast_merge _ _ b n j _ rfl, cast_rows Z _ b n j (bn b n) rfl,
    hu, hh, hZ]

theorem reset_apply (g : FVec Ideal S32x1024x128 .f32) (h' : FVec Ideal S32x65536 .f32) (G : T 128) (H : T 64) (hg : Cube g G) (hh : Flat h' H) :
    Flat (mulf (shapeCast S32x65536 (extractStridedSlice S32x1024x64 ![0, 0, 0] g slices_S32x1024x128_S32x1024x64_0_0_0)
      shapeCasts_S32x1024x64_S32x65536) h') fun n b j => G n b (Fin.castAdd 64 j) * H n b j := by
  intro b n j
  rw [mulf_apply, cast_merge _ _ b n j _ rfl, slice_last 0 g _ b n j (Fin.castAdd 64 j) (Nat.zero_add _).symm, hg, hh]

theorem update_apply (g : FVec Ideal S32x1024x128 .f32) (G : T 128) (hg : Cube g G) :
    Flat (shapeCast S32x65536 (extractStridedSlice S32x1024x64 ![0, 0, 64] g slices_S32x1024x128_S32x1024x64_0_0_64)
      shapeCasts_S32x1024x64_S32x65536) fun n b (j : Fin 64) => G n b (Fin.natAdd 64 j) := fun b n j =>
  (cast_merge _ _ b n j _ rfl).trans ((slice_last 64 g _ b n j (Fin.natAdd 64 j) rfl).trans (hg b n _))

end Values

variable (V0 : Valuation τ sig (Elt Ideal))

theorem r_v1 : Flat (res_main_v1 V0) (rh0 V0) := by
  intro b n j
  unfold res_main_v1
  exact (shapeCast_1ab_ab_apply _ _ b (nc n j)).trans (slice_first 0 _ _ 0 b (nc n j))

theorem r_v6 : Cols (res_main_v6 V0) (catT (rx V0) (rh0 V0)) := by
  unfold res_main_v6
  exact catop_apply _ _ (rx V0) (rh0 V0) _ _ _ _ _ (fun _ _ _ => rfl) (r_v1 V0)

theorem r_v7 : Cols (res_main_v7 V0) (D1 (rA V0) (catT (rx V0) (rh0 V0))) := by
  unfold res_main_v7
  exact diffuse_apply (rA V0) _ _ _ (fun _ _ => rfl) (r_v6 V0)

theorem r_v29 : Cube (res_main_v29 V0) fun n b o => Ideal.logistic (pre (rA V0) (rx V0) (rh0 V0) (rargs V0).wg0 (rargs V0).bg0 n b o) := by
  unfold res_main_v29
  exact gate_apply _ _ (gconv_apply (cin := 2) (rA V0) (rx V0) (rh0 V0) _ _ _ _ _ _ _ _ _ _ _ _ _ (fun _ _ => rfl) (r_v6 V0) (r_v7 V0))

end Cert.ReferenceIdeal.RStage0

end
-- ==== Proof.RStage1.lean ====
import proofs.«162824_g19885698580639_cont_8to1_2033_9_alg».proof.Proof.RStage0

noncomputable section

namespace Cert.ReferenceIdeal.RStage1

open Cert.ReferenceIdeal Cert.ReferenceIdeal.Gen Cert.ReferenceIdeal.Value Cert.ReferenceIdeal.RA Cert.Spec
open Idealize.ShloMosaic Idealize.ShloMosaic.TcCoe Idealize.ShloMosaic.ValueIdx Idealize.SL.Sem Idealize.ShloMosaic.StableHlo

variable (V0 : Valuation τ sig (Elt Ideal))

theorem r_v33 : RStage0.Flat (res_main_v33 V0) (ru0 V0) := by
  unfold res_main_v33
  exact RStage0.update_apply _ _ (RStage0.r_v29 V0)

theorem r_v39 : RStage0.Cols (res_main_v39 V0) (catT (rx V0) (rs0 V0)) := by
  unfold res_main_v39
  exact RStage0.catop_apply _ _ (rx V0) (rs0 V0) _ _ _ _ _ (fun _ _ _ => rfl) (RStage0.reset_apply _ _ _ (rh0 V0) (RStage0.r_v29 V0) (RStage0.r_v1 V0))

theorem r_v40 : RStage0.Cols (res_main_v40 V0) (D1 (rA V0) (catT (rx V0) (rs0 V0))) := by
  unfold res_main_v40
  exact RStage0.diffuse_apply (rA V0) _ _ _ (fun _ _ => rfl) (r_v39 V0)

theorem r_v63 : RStage0.Flat (res_main_v63 V0) (ry V0) := by
  unfold res_main_v63
  exact RStage0.newstate_apply _ _ _ (ru0 V0) (rh0 V0) _ (r_v33 V0) (RStage0.r_v1 V0)
    (RStage0.gconv_apply (cin := 2) (rA V0) (rx V0) (rs0 V0) _ _ _ _ _ _ _ _ _ _ _ _ _ (fun _ _ => rfl) (r_v39 V0) (r_v40 V0))

end Cert.ReferenceIdeal.RStage1

end
-- ==== Proof.RStage2.lean ====
import proofs.«162824_g19885698580639_cont_8to1_2033_9_alg».proof.Proof.RStage1

noncomputable section

namespace Cert.ReferenceIdeal.RStage2

open Cert.ReferenceIdeal Cert.ReferenceIdeal.Gen Cert.ReferenceIdeal.Value Cert.ReferenceIdeal.RA Cert.Spec
open Idealize.ShloMosaic Idealize.ShloMosaic.TcCoe Idealize.ShloMosaic.ValueIdx Idealize.SL.Sem Idealize.ShloMosaic.StableHlo

variable (V0 : Valuation τ sig (Elt Ideal))

theorem r_v65 : RStage0.Flat (res_main_v65 V0) (rh1 V0) := by
  intro b n j
  unfold res_main_v65
  exact (shapeCast_1ab_ab_apply _ _ b (nc n j)).trans (RStage0.slice_first 1 _ _ 0 b (nc n j))

theorem r_v70 : RStage0.Cols (res_main_v70 V0) (catT (ry V0) (rh1 V0)) := by
  unfold res_main_v70
  exact RStage0.catop_apply _ _ (ry V0) (rh1 V0) _ _ _ _ _ (RStage1.r_v63 V0) (r_v65 V0)

theorem r_v71 : RStage0.Cols (res_main_v71 V0) (D1 (rA V0) (catT (ry V0) (rh1 V0))) := by
  unfold res_main_v71
  exact RStage0.diffuse_apply (rA V0) _ _ _ (fun _ _ => rfl) (r_v70 V0)

theorem r_v93 : RStage0.Cube (res_main_v93 V0) fun n b o => Ideal.logistic (pre (rA V0) (ry V0) (rh1 V0) (rargs V0).wg1 (rargs V0).bg1 n b o) := by
  unfold res_main_v93
  exact RStage0.gate_apply _ _ (RStage0.gconv_apply (cin := 64) (rA V0) (ry V0) (rh1 V0) _ _ _ _ _ _ _ _ _ _ _ _ _ (fun _ _ => rfl) (r_v70 V0) (r_v71 V0))

end Cert.ReferenceIdeal.RStage2

end
-- ==== Proof.RStage3.lean ====
import proofs.«162824_g19885698580639_cont_8to1_2033_9_alg».proof.Proof.RStage2
import proofs.«162824_g19885698580639_cont_8to1_2033_9_alg».proof.Proof.RefRunHand

noncomputable section

namespace Cert.ReferenceIdeal.RStage3

open Cert.ReferenceIdeal Cert.ReferenceIdeal.Gen Cert.ReferenceIdeal.Value Cert.ReferenceIdeal.RA Cert.Spec
open Idealize.ShloMosaic Idealize.ShloMosaic.TcCoe Idealize.ShloMosaic.ValueIdx Idealize.SL.Sem Idealize.ShloMosaic.StableHlo

variable (V0 : Valuation τ sig (Elt Ideal))

theorem stack2 {α : Type} {a b : Nat} (y0 y1 : (RStage0.s3 1 a b).Idx → α)
    (h : Shape.Concatenates [RStage0.s3 1 a b, RStage0.s3 1 a b] (RStage0.s3 2 a b) 0) (k : Fin 2) (i : Fin a) (j : Fin b) :
    concatenate (RStage0.s3 2 a b) 0 [⟨RStage0.s3 1 a b, y0⟩, ⟨RStage0.s3 1 a b, y1⟩] h (ix3 k i j)
      = (match k with | 0 => y0 | 1 => y1) (ix3 (0 : Fin 1) i j) := by
  have hi : ∀ e : Fin (RStage0.s3 1 a b).rank, e.cast rfl ≠ (0 : Fin (RStage0.s3 2 a b).rank) →
      ((ix3 (0 : Fin 1) i j : (RStage0.s3 1 a b).Idx) e).val = ((ix3 k i j : (RStage0.s3 2 a b).Idx) (e.cast rfl)).val := fun e he =>
    match e, he with
    | ⟨0, _⟩, he => absurd rfl he
    | ⟨1, _⟩, _ => rfl
    | ⟨2, _⟩, _ => rfl
  match k with
  | ⟨0, hk⟩ => exact concatenate_apply_piece 0 [⟨_, y0⟩, ⟨_, y1⟩] h _ 0 hk _ y0 rfl rfl 0 rfl _ hi rfl
  | ⟨1, hk⟩ => exact concatenate_apply_piece 0 [⟨_, y0⟩, ⟨_, y1⟩] h _ 1 hk _ y1 rfl rfl 1 rfl _ hi rfl

theorem r_v97 : RStage0.Flat (res_main_v97 V0) (ru1 V0) := by
  unfold res_main_v97
  exact RStage0.update_apply _ _ (RStage2.r_v93 V0)

theorem r_v103 : RStage0.Cols (res_main_v103 V0) (catT (ry V0) (rs1 V0)) := by
  unfold res_main_v103
  exact RStage0.catop_apply _ _ (ry V0) (rs1 V0) _ _ _ _ _ (RStage1.r_v63 V0) (RStage0.reset_apply _ _ _ (rh1 V0) (RStage2.r_v93 V0) (RStage2.r_v65 V0))

theorem r_v104 : RStage0.Cols (res_main_v104 V0) (D1 (rA V0) (catT (ry V0) (rs1 V0))) := by
  unfold res_main_v104
  exact RStage0.diffuse_apply (rA V0) _ _ _ (fun _ _ => rfl) (r_v103 V0)

theorem out127_apply : RStage0.Flat (RunHand.out127 V0) (rz V0) := by
  unfold RunHand.out127
  exact RStage0.newstate_apply _ _ _ (ru1 V0) (rh1 V0) _ (r_v97 V0) (RStage2.r_v65 V0)
    (RStage0.gconv_apply (cin := 64) (rA V0) (ry V0) (rs1 V0) _ _ _ _ _ _ _ _ _ _ _ _ _ (fun _ _ => rfl) (r_v103 V0) (r_v104 V0))

theorem out130_apply (k : Fin 2) (b : Fin 32) (n : Fin 1024) (j : Fin 64) :
    (RunHand.out130 V0 : Vec Ideal S2x32x65536 .f32) (ix3 k b (nc n j)) = (match k with | 0 => ry V0 | 1 => rz V0) n b j := by
  unfold RunHand.out130
  refine (stack2 _ _ _ k b _).trans ?_
  match k with
  | ⟨0, _⟩ => exact (RStage0.lead_unit _ _ 0 b _).trans (RStage1.r_v63 V0 b n j)
  | ⟨1, _⟩ => exact (RStage0.lead_unit _ _ 0 b _).trans (out127_apply V0 b n j)

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (∀ (b : Fin 32) (n : Fin 1024) (j : Fin 64), (r.2.mem ((c.tc : Thread nD τ).loc main_v127) : Vec Ideal S32x65536 .f32) (ix2 b (nc n j)) = rz (launchContents m c) n b j)
      ∧ (∀ (b : Fin 32) (n : Fin 1024) (j : Fin 64), (r.2.mem ((c.tc : Thread nD τ).loc main_v130) : Vec Ideal S2x32x65536 .f32) (ix3 (0 : Fin 2) b (nc n j)) = ry (launchContents m c) n b j)
      ∧ (∀ (b : Fin 32) (n : Fin 1024) (j : Fin 64), (r.2.mem ((c.tc : Thread nD τ).loc main_v130) : Vec Ideal S2x32x65536 .f32) (ix3 (1 : Fin 2) b (nc n j)) = rz (launchContents m c) n b j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine (θ_run defs _ _).mono (fun r h c => ?_) (RunHand.run_results m ρ)
  obtain ⟨h127, h130, hargs⟩ := h c
  refine ⟨fun b n j => ?_, fun b n j => ?_, fun b n j => ?_, hargs⟩
  · rw [h127]
    exact out127_apply (launchContents m c) b n j
  · rw [h130]
    exact out130_apply (launchContents m c) 0 b n j
  · rw [h130]
    exact out130_apply (launchContents m c) 1 b n j

end Cert.ReferenceIdeal.RStage3

end
-- ==== Proof.Bridge.lean ====
import proofs.«162824_g19885698580639_cont_8to1_2033_9_alg».proof.Defs
import proofs.«162824_g19885698580639_cont_8to1_2033_9_alg».proof.Proof.Gen.KernelIdeal.Frame
import proofs.«162824_g19885698580639_cont_8to1_2033_9_alg».proof.Proof.Gen.Pre_finite_inputs
import proofs.«162824_g19885698580639_cont_8to1_2033_9_alg».proof.Proof.Gen.ReferenceIdeal
import proofs.«162824_g19885698580639_cont_8to1_2033_9_alg».proof.Proof.RefRunDefs
import proofs.«162824_g19885698580639_cont_8to1_2033_9_alg».proof.Proof.Spec
import proofs.«162824_g19885698580639_cont_8to1_2033_9_alg».proof.Proof.KArgs
import proofs.«162824_g19885698580639_cont_8to1_2033_9_alg».proof.Proof.KRun
import proofs.«162824_g19885698580639_cont_8to1_2033_9_alg».proof.Proof.KStage6
import proofs.«162824_g19885698580639_cont_8to1_2033_9_alg».proof.Proof.RArgs
import proofs.«162824_g19885698580639_cont_8to1_2033_9_alg».proof.Proof.RStage3
import Idealize.ShloMosaic.Lib.ValueIdx

set_option maxRecDepth 16384

noncomputable section

namespace Cert.Proof.Bridge

open Idealize.ShloMosaic Idealize.ShloMosaic.TcCoe Idealize.ShloMosaic.ValueIdx Idealize.SL.Sem Cert.Spec

theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.RA.rargs (StableHlo.launchContents m' c) = Cert.KernelIdeal.KA.kargs m c := by
  obtain ⟨h0, h1, h2, h3, h4, h5, h6, h7, h8, h9, h10⟩ := h
  unfold Cert.ReferenceIdeal.RA.rargs Cert.KernelIdeal.KA.kargs
  congr 1
  · funext b q; exact congrFun h0 (ix2 b q)
  · funext n k; exact congrFun h1 (ix2 n k)
  · funext l b q; exact congrFun h2 (ix3 l b q)
  · funext q o; exact congrFun h3 (ix2 q o)
  · funext o; exact congrFun h4 (ix1 o)
  · funext q o; exact congrFun h5 (ix2 q o)
  · funext o; exact congrFun h6 (ix1 o)
  · funext q o; exact congrFun h7 (ix2 q o)
  · funext o; exact congrFun h8 (ix1 o)
  · funext q o; exact congrFun h9 (ix2 q o)
  · funext o; exact congrFun h10 (ix1 o)

theorem algebraic : Cert.algebraic_KernelIdeal_ReferenceIdeal := by
  intro m ρ m' ρ' _ hagree
  refine ⟨fun c => Cert.KernelIdeal.Gen.W23 m ρ c (Proc.devRef .tc Cert.KernelIdeal.main_v68),
    fun c => Cert.KernelIdeal.Gen.W23 m ρ c (Proc.devRef .tc Cert.KernelIdeal.main_v71),
    Cert.KernelIdeal.RunValue.run_results (F := Ideal) m ρ, ?_⟩
  refine (θ_run Cert.ReferenceIdeal.defs _ _).mono (fun r h c => ?_) (Cert.ReferenceIdeal.RStage3.ref_run m' ρ')
  obtain ⟨h127, h130a, h130b, hargs⟩ := h c
  have hA := args_eq m m' c (hagree c)
  have hz : Cert.ReferenceIdeal.RA.rz (StableHlo.launchContents m' c) = Cert.KernelIdeal.KA.kz m c :=
    congrArg Cert.Spec.hL1 hA
  have hy : Cert.ReferenceIdeal.RA.ry (StableHlo.launchContents m' c) = Cert.KernelIdeal.KA.ky m c :=
    congrArg Cert.Spec.hL0 hA
  refine ⟨?_, ?_, hargs⟩
  · show (r.2.mem ((c.tc : Thread Cert.ReferenceIdeal.nD Cert.ReferenceIdeal.τ).loc Cert.ReferenceIdeal.main_v127) : Vec Ideal Cert.KernelIdeal.S32x65536 .f32)
      = (Cert.KernelIdeal.Gen.W23 m ρ c (Proc.devRef .tc Cert.KernelIdeal.main_v68) : Vec Ideal Cert.KernelIdeal.S32x65536 .f32)
    funext i
    obtain ⟨b, q, rfl⟩ : ∃ (b : Fin 32) (q : Fin 65536), i = ix2 b q := ⟨i 0, i 1, eq_ix2 i⟩
    obtain ⟨n, j, rfl⟩ := nc_surj (C := 64) (by decide) q
    exact ((h127 b n j).trans (congrFun (congrFun (congrFun hz n) b) j)).trans (Cert.KernelIdeal.KStage6.f_v68 m ρ c b n j).symm
  · show (r.2.mem ((c.tc : Thread Cert.ReferenceIdeal.nD Cert.ReferenceIdeal.τ).loc Cert.ReferenceIdeal.main_v130) : Vec Ideal Cert.KernelIdeal.S2x32x65536 .f32)
      = (Cert.KernelIdeal.Gen.W23 m ρ c (Proc.devRef .tc Cert.KernelIdeal.main_v71) : Vec Ideal Cert.KernelIdeal.S2x32x65536 .f32)
    funext i
    obtain ⟨l, b, q, rfl⟩ : ∃ (l : Fin 2) (b : Fin 32) (q : Fin 65536), i = ix3 l b q := ⟨i 0, i 1, i 2, eq_ix3 i⟩
    obtain ⟨n, j, rfl⟩ := nc_surj (C := 64) (by decide) q
    have hl : l = 0 ∨ l = 1 := by
      rcases l with ⟨lv, hlv⟩
      have : lv = 0 ∨ lv = 1 := by omega
      rcases this with rfl | rfl
      · exact Or.inl rfl
      · exact Or.inr rfl
    rcases hl with rfl | rfl
    · exact ((h130a b n j).trans (congrFun (congrFun (congrFun hy n) b) j)).trans (Cert.KernelIdeal.KStage6.f_v71_0 m ρ c b n j).symm
    · exact ((h130b b n j).trans (congrFun (congrFun (congrFun hz n) b) j)).trans (Cert.KernelIdeal.KStage6.f_v71_1 m ρ c b n j).symm

end Cert.Proof.Bridge

end
-- ==== Proof.lean ====
import proofs.«162824_g19885698580639_cont_8to1_2033_9_alg».proof.Defs
import proofs.«162824_g19885698580639_cont_8to1_2033_9_alg».proof.Proof.Gen.Kernel
import proofs.«162824_g19885698580639_cont_8to1_2033_9_alg».proof.Proof.Gen.Kernel.Frame
import proofs.«162824_g19885698580639_cont_8to1_2033_9_alg».proof.Proof.Gen.KernelIdeal
import proofs.«162824_g19885698580639_cont_8to1_2033_9_alg».proof.Proof.Gen.KernelIdeal.Frame
import proofs.«162824_g19885698580639_cont_8to1_2033_9_alg».proof.Proof.Gen.ReferenceIdeal
import proofs.«162824_g19885698580639_cont_8to1_2033_9_alg».proof.Proof.Gen.Pre_finite_inputs
import proofs.«162824_g19885698580639_cont_8to1_2033_9_alg».proof.Proof.RefFrame
import proofs.«162824_g19885698580639_cont_8to1_2033_9_alg».proof.Proof.Bridge
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  Cert.Proof.RefFrame.frame_ref,
  trivial,
  Cert.Proof.Bridge.algebraic⟩

end Cert.Proof

end
